-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 2, 128]⟩ ⟨4, ![4, 8192, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 2, 128]⟩ ⟨4, ![4, 8192, 2, 128]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v198) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x2x128 : S_.BroadcastsInDim S4x1024x2x128 (![] : Fin 0 → Fin S4x1024x2x128.rank)
  reducesTo_S4x1024x2x128_S_d0_1_2_3 : S4x1024x2x128.ReducesTo [0, 1, 2, 3] S_

variable [Facts]

def fn_part1 {F : FTy → Type} [FloatOps F] (main_arg4 : FVec F S4x1024x2x128 .f32) (main_v13 : IVec S_ 1) (main_v16 : IVec S4x1024x2x128 1) : IVec S_ 1 :=
  let main_c_5 : IVec S_ 1 := constantI S_ 1 1#1
  let main_v17 : IVec S_ 1 := (fun x v => Host.reduce IntOp.andi x v reducesTo_S4x1024x2x128_S_d0_1_2_3 h_S_) main_v16 main_c_5
  let main_v18 : IVec S_ 1 := andi main_v13 main_v17
  let main_v19 : FVec F S4x1024x2x128 .f32 := Host.absf main_arg4
  let main_cst_6 : FVec F S_ .f32 := constant S_ .f32 0x7F800000#32
  let main_v20 : FVec F S4x1024x2x128 .f32 := broadcastInDim S4x1024x2x128 ![] bcast_S_S4x1024x2x128 main_cst_6
  let main_v21 : IVec S4x1024x2x128 1 := cmpf .olt main_v19 main_v20
  let main_c_7 : IVec S_ 1 := constantI S_ 1 1#1
  let main_v22 : IVec S_ 1 := (fun x v => Host.reduce IntOp.andi x v reducesTo_S4x1024x2x128_S_d0_1_2_3 h_S_) main_v21 main_c_7
  let main_v23 : IVec S_ 1 := andi main_v18 main_v22
  main_v23

def fn {F : FTy → Type} [FloatOps F] (main_arg0 : FVec F S4x256x1024 .f32) (main_arg1 : FVec F S1024x1024 .f32) (main_arg2 : FVec F S1024x1024 .f32) (main_arg3 : FVec F S4x1024x2x128 .f32) (main_arg4 : FVec F S4x1024x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x1024x2x128 .f32 := Host.absf main_arg3
  let main_cst_4 : FVec F S_ .f32 := constant S_ .f32 0x7F800000#32
  let main_v15 : FVec F S4x1024x2x128 .f32 := broadcastInDim S4x1024x2x128 ![] bcast_S_S4x1024x2x128 main_cst_4
  let main_v16 : IVec S4x1024x2x128 1 := cmpf .olt main_v14 main_v15
  fn_part1 (F := F) main_arg4 main_v13 main_v16
-- ==== Pre_finite_inputs_ReferenceIdeal.lean ====
abbrev S4x256x1024 : Shape := ⟨3, ![4, 256, 1024]⟩
abbrev S1024x1024 : Shape := ⟨2, ![1024, 1024]⟩
abbrev S4x8192x2x128 : Shape := ⟨4, ![4, 8192, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x8192x2x128 : S_.BroadcastsInDim S4x8192x2x128 (![] : Fin 0 → Fin S4x8192x2x128.rank)
  reducesTo_S4x8192x2x128_S_d0_1_2_3 : S4x8192x2x128.ReducesTo [0, 1, 2, 3] S_

variable [Facts]

def fn_part1 {F : FTy → Type} [FloatOps F] (main_arg4 : FVec F S4x8192x2x128 .f32) (main_v13 : IVec S_ 1) (main_v16 : IVec S4x8192x2x128 1) : IVec S_ 1 :=
  let main_c_5 : IVec S_ 1 := constantI S_ 1 1#1
  let main_v17 : IVec S_ 1 := (fun x v => Host.reduce IntOp.andi x v reducesTo_S4x8192x2x128_S_d0_1_2_3 h_S_) main_v16 main_c_5
  let main_v18 : IVec S_ 1 := andi main_v13 main_v17
  let main_v19 : FVec F S4x8192x2x128 .f32 := Host.absf main_arg4
  let main_cst_6 : FVec F S_ .f32 := constant S_ .f32 0x7F800000#32
  let main_v20 : FVec F S4x8192x2x128 .f32 := broadcastInDim S4x8192x2x128 ![] bcast_S_S4x8192x2x128 main_cst_6
  let main_v21 : IVec S4x8192x2x128 1 := cmpf .olt main_v19 main_v20
  let main_c_7 : IVec S_ 1 := constantI S_ 1 1#1
  let main_v22 : IVec S_ 1 := (fun x v => Host.reduce IntOp.andi x v reducesTo_S4x8192x2x128_S_d0_1_2_3 h_S_) main_v21 main_c_7
  let main_v23 : IVec S_ 1 := andi main_v18 main_v22
  main_v23

def fn {F : FTy → Type} [FloatOps F] (main_arg0 : FVec F S4x256x1024 .f32) (main_arg1 : FVec F S1024x1024 .f32) (main_arg2 : FVec F S1024x1024 .f32) (main_arg3 : FVec F S4x8192x2x128 .f32) (main_arg4 : FVec F S4x8192x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x8192x2x128 .f32 := Host.absf main_arg3
  let main_cst_4 : FVec F S_ .f32 := constant S_ .f32 0x7F800000#32
  let main_v15 : FVec F S4x8192x2x128 .f32 := broadcastInDim S4x8192x2x128 ![] bcast_S_S4x8192x2x128 main_cst_4
  let main_v16 : IVec S4x8192x2x128 1 := cmpf .olt main_v14 main_v15
  fn_part1 (F := F) main_arg4 main_v13 main_v16
-- ==== Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S4x256x8x128 : Shape := ⟨4, ![4, 256, 8, 128]⟩
abbrev S4x4x2x128x128 : Shape := ⟨5, ![4, 4, 2, 128, 128]⟩
abbrev S4x2x8x128 : Shape := ⟨4, ![4, 2, 8, 128]⟩
abbrev S2x4x2x128x128 : Shape := ⟨5, ![2, 4, 2, 128, 128]⟩
abbrev S1x4x2x128x128 : Shape := ⟨5, ![1, 4, 2, 128, 128]⟩
abbrev S2x2x8x128 : Shape := ⟨4, ![2, 2, 8, 128]⟩
abbrev S1x2x8x128 : Shape := ⟨4, ![1, 2, 8, 128]⟩
abbrev S8x128x1024 : Shape := ⟨3, ![8, 128, 1024]⟩
abbrev S3 : Shape := ⟨1, ![3]⟩
abbrev S7 : Shape := ⟨1, ![7]⟩
abbrev S_ : Shape := ⟨0, ![]⟩
abbrev S1x128x8x128 : Shape := ⟨4, ![1, 128, 8, 128]⟩
abbrev S128x8x128 : Shape := ⟨3, ![128, 8, 128]⟩
abbrev S128x4x128 : Shape := ⟨3, ![128, 4, 128]⟩
abbrev S512x128 : Shape := ⟨2, ![512, 128]⟩
abbrev S1x1024x1x128 : Shape := ⟨4, ![1, 1024, 1, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S4x128x128 : Shape := ⟨3, ![4, 128, 128]⟩
abbrev S4x1x1x128x128 : Shape := ⟨5, ![4, 1, 1, 128, 128]⟩
abbrev S4x128 : Shape := ⟨2, ![4, 128]⟩
abbrev S4x1x1x128 : Shape := ⟨4, ![4, 1, 1, 128]⟩
abbrev S1 : Shape := ⟨1, ![1]⟩
abbrev S4x1x8x128 : Shape := ⟨4, ![4, 1, 8, 128]⟩
abbrev S4x8x128 : Shape := ⟨3, ![4, 8, 128]⟩
abbrev S4x4x2x128x1 : Shape := ⟨5, ![4, 4, 2, 128, 1]⟩
abbrev S2x1x8x128 : Shape := ⟨4, ![2, 1, 8, 128]⟩
abbrev S2x8x128 : Shape := ⟨3, ![2, 8, 128]⟩
abbrev S2x4x2x128x1 : Shape := ⟨5, ![2, 4, 2, 128, 1]⟩
abbrev S1x1x8x128 : Shape := ⟨4, ![1, 1, 8, 128]⟩
abbrev S1x8x128 : Shape := ⟨3, ![1, 8, 128]⟩
abbrev S1x4x2x128x1 : Shape := ⟨5, ![1, 4, 2, 128, 1]⟩
abbrev S4x2x128x128 : Shape := ⟨4, ![4, 2, 128, 128]⟩
abbrev S1x1x128x128 : Shape := ⟨4, ![1, 1, 128, 128]⟩
abbrev S128x128 : Shape := ⟨2, ![128, 128]⟩
abbrev S32x512 : Shape := ⟨2, ![32, 512]⟩
abbrev S32x1024 : Shape := ⟨2, ![32, 1024]⟩
abbrev S1x32x1024 : Shape := ⟨3, ![1, 32, 1024]⟩
abbrev S4x32x1024 : Shape := ⟨3, ![4, 32, 1024]⟩
abbrev S128x1024 : Shape := ⟨2, ![128, 1024]⟩
abbrev S1x128x1024 : Shape := ⟨3, ![1, 128, 1024]⟩

abbrev nBuf : Space → Nat
  | .hbm => 6
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x1024x2x128, .f32⟩
  | .hbm, ⟨4, _⟩ => ⟨S4x1024x2x128, .f32⟩
  | .hbm, ⟨5, _⟩ => ⟨S4x256x1024, .bf16⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x1024x2x128, .f32⟩
  | .local _ .vmem, ⟨4, _⟩ => ⟨S4x1024x2x128, .f32⟩
  | .local _ .vmem, ⟨5, _⟩ => ⟨S4x256x1024, .bf16⟩
  | .local _ .vmem, ⟨6, _⟩ => ⟨S4x256x8x128, .bf16⟩
  | .local _ .vmem, ⟨7, _⟩ => ⟨S4x4x2x128x128, .bf16⟩
  | .local _ .vmem, ⟨8, _⟩ => ⟨S4x2x8x128, .f32⟩
  | .local _ .vmem, ⟨9, _⟩ => ⟨S4x4x2x128x128, .bf16⟩
  | .local _ .vmem, ⟨10, _⟩ => ⟨S4x2x8x128, .f32⟩
  | .local _ .vmem, ⟨11, _⟩ => ⟨S4x4x2x128x128, .bf16⟩
  | .local _ .vmem, ⟨12, _⟩ => ⟨S2x4x2x128x128, .bf16⟩
  | .local _ .vmem, ⟨13, _⟩ => ⟨S1x4x2x128x128, .bf16⟩
  | .local _ .vmem, ⟨14, _⟩ => ⟨S4x2x8x128, .f32⟩
  | .local _ .vmem, ⟨15, _⟩ => ⟨S2x2x8x128, .f32⟩
  | .local _ .vmem, ⟨16, _⟩ => ⟨S1x2x8x128, .f32⟩
  | .local _ .vmem, ⟨17, _⟩ => ⟨S4x4x2x128x128, .bf16⟩
  | .local _ .vmem, ⟨18, _⟩ => ⟨S4x2x8x128, .f32⟩
  | .local _ .vmem, ⟨19, _⟩ => ⟨S2x4x2x128x128, .bf16⟩
  | .local _ .vmem, ⟨20, _⟩ => ⟨S2x2x8x128, .f32⟩
  | .local _ .vmem, ⟨21, _⟩ => ⟨S8x128x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 2 → Bool
  | ⟨0, _⟩ => false
  | ⟨1, _⟩ => true
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 2 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_7 : BitVec 32 := 1#32
  let v11 : BitVec 32 := Scalar.muli v5 c1_i32_7
  let v12 : BitVec 32 := Scalar.addi c0_i32_8 v11
  v12.toNat
def k0_off1 (d0 : Dev nD) : Fin 4 → Nat :=
  let c0_20 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c4_i32_19 : BitVec 32 := 4#32
  let v29 : BitVec 32 := Scalar.xori v28 c4_i32_19
  let c32_i32 : BitVec 32 := 32#32
  let v30 : BitVec 32 := Scalar.muli v29 c32_i32
  let v31 : Index := Scalar.indexCast v30
  let c0_21 : Index := 0#32
  let c0_22 : Index := 0#32
  ![0, v31.toNat, 0, 0]
def k0_off2 (d0 : Dev nD) : Fin 4 → Nat :=
  let c1_73 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c4_i32_19 : BitVec 32 := 4#32
  let v29 : BitVec 32 := Scalar.xori v28 c4_i32_19
  let c32_i32_72 : BitVec 32 := 32#32
  let v94 : BitVec 32 := Scalar.muli v29 c32_i32_72
  let v95 : Index := Scalar.indexCast v94
  let c0_74 : Index := 0#32
  let c0_75 : Index := 0#32
  ![1, v95.toNat, 0, 0]
def k0_off3 (d0 : Dev nD) : Fin 4 → Nat :=
  let c2_125 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c4_i32_19 : BitVec 32 := 4#32
  let v29 : BitVec 32 := Scalar.xori v28 c4_i32_19
  let c32_i32_124 : BitVec 32 := 32#32
  let v158 : BitVec 32 := Scalar.muli v29 c32_i32_124
  let v159 : Index := Scalar.indexCast v158
  let c0_126 : Index := 0#32
  let c0_127 : Index := 0#32
  ![2, v159.toNat, 0, 0]
def k0_off4 (d0 : Dev nD) : Fin 4 → Nat :=
  let c3_177 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c4_i32_19 : BitVec 32 := 4#32
  let v29 : BitVec 32 := Scalar.xori v28 c4_i32_19
  let c32_i32_176 : BitVec 32 := 32#32
  let v222 : BitVec 32 := Scalar.muli v29 c32_i32_176
  let v223 : Index := Scalar.indexCast v222
  let c0_178 : Index := 0#32
  let c0_179 : Index := 0#32
  ![3, v223.toNat, 0, 0]
def k0_dev4 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_230 : BitVec 32 := 1#32
  let v286 : BitVec 32 := Scalar.muli v3 c1_i32_230
  let v287 : BitVec 32 := Scalar.addi c0_i32_231 v286
  v287.toNat
def k0_dev5 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_234 : BitVec 32 := 1#32
  let v292 : BitVec 32 := Scalar.muli v3 c1_i32_234
  let v293 : BitVec 32 := Scalar.addi c0_i32_235 v292
  v293.toNat
def k0_off5 (d0 : Dev nD) : Fin 4 → Nat :=
  let c0_237 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c32_i32_236 : BitVec 32 := 32#32
  let v298 : BitVec 32 := Scalar.muli v28 c32_i32_236
  let v299 : Index := Scalar.indexCast v298
  let c0_238 : Index := 0#32
  let c0_239 : Index := 0#32
  ![0, v299.toNat, 0, 0]
def k0_off6 (d0 : Dev nD) : Fin 4 → Nat :=
  let c1_291 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c32_i32_290 : BitVec 32 := 32#32
  let v362 : BitVec 32 := Scalar.muli v28 c32_i32_290
  let v363 : Index := Scalar.indexCast v362
  let c0_292 : Index := 0#32
  let c0_293 : Index := 0#32
  ![1, v363.toNat, 0, 0]
def k0_off7 (d0 : Dev nD) : Fin 4 → Nat :=
  let c2_345 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c32_i32_344 : BitVec 32 := 32#32
  let v426 : BitVec 32 := Scalar.muli v28 c32_i32_344
  let v427 : Index := Scalar.indexCast v426
  let c0_346 : Index := 0#32
  let c0_347 : Index := 0#32
  ![2, v427.toNat, 0, 0]
def k0_off8 (d0 : Dev nD) : Fin 4 → Nat :=
  let c3_399 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v28 : BitVec 32 := Scalar.andi v2 c4_i32_18
  let c32_i32_398 : BitVec 32 := 32#32
  let v490 : BitVec 32 := Scalar.muli v28 c32_i32_398
  let v491 : Index := Scalar.indexCast v490
  let c0_400 : Index := 0#32
  let c0_401 : Index := 0#32
  ![3, v491.toNat, 0, 0]
def k0_off9 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v603 : BitVec 32 := Scalar.andi v2 c2_i32_501
  let c2_i32_502 : BitVec 32 := 2#32
  let v604 : BitVec 32 := Scalar.xori v603 c2_i32_502
  let c0_i32_507 : BitVec 32 := 0#32
  let c0_i32_508 : BitVec 32 := 0#32
  let c0_i32_509 : BitVec 32 := 0#32
  let c0_i32_510 : BitVec 32 := 0#32
  ![v604.toNat, 0, 0, 0, 0]
def k0_dev6 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_505 : BitVec 32 := 1#32
  let v605 : BitVec 32 := Scalar.muli v4 c1_i32_505
  let v606 : BitVec 32 := Scalar.addi c0_i32_506 v605
  v606.toNat
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v603 : BitVec 32 := Scalar.andi v2 c2_i32_501
  let c2_i32_502 : BitVec 32 := 2#32
  let v604 : BitVec 32 := Scalar.xori v603 c2_i32_502
  let c0_i32_515 : BitVec 32 := 0#32
  let c0_i32_516 : BitVec 32 := 0#32
  let c0_i32_517 : BitVec 32 := 0#32
  ![v604.toNat, 0, 0, 0]
def k0_dev7 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_513 : BitVec 32 := 1#32
  let v612 : BitVec 32 := Scalar.muli v4 c1_i32_513
  let v613 : BitVec 32 := Scalar.addi c0_i32_514 v612
  v613.toNat
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v603 : BitVec 32 := Scalar.andi v2 c2_i32_501
  let v635 : Index := Scalar.indexCast v603
  let c0_546 : Index := 0#32
  let c0_547 : Index := 0#32
  let c0_548 : Index := 0#32
  ![v635.toNat, 0, 0, 0]
def k0_off12 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_501 : BitVec 32 := 2#32
  let v603 : BitVec 32 := Scalar.andi v2 c2_i32_501
  let v637 : Index := Scalar.indexCast v603
  let c0_549 : Index := 0#32
  let c0_550 : Index := 0#32
  let c0_551 : Index := 0#32
  let c0_552 : Index := 0#32
  ![v637.toNat, 0, 0, 0, 0]
def k0_off13 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_575 : BitVec 32 := 1#32
  let v675 : BitVec 32 := Scalar.andi v2 c1_i32_575
  let c1_i32_576 : BitVec 32 := 1#32
  let v676 : BitVec 32 := Scalar.xori v675 c1_i32_576
  let c0_i32_581 : BitVec 32 := 0#32
  let c0_i32_582 : BitVec 32 := 0#32
  let c0_i32_583 : BitVec 32 := 0#32
  let c0_i32_584 : BitVec 32 := 0#32
  ![v676.toNat, 0, 0, 0, 0]
def k0_dev8 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_579 : BitVec 32 := 1#32
  let v677 : BitVec 32 := Scalar.muli v5 c1_i32_579
  let v678 : BitVec 32 := Scalar.addi c0_i32_580 v677
  v678.toNat
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_575 : BitVec 32 := 1#32
  let v675 : BitVec 32 := Scalar.andi v2 c1_i32_575
  let c1_i32_576 : BitVec 32 := 1#32
  let v676 : BitVec 32 := Scalar.xori v675 c1_i32_576
  let c0_i32_589 : BitVec 32 := 0#32
  let c0_i32_590 : BitVec 32 := 0#32
  let c0_i32_591 : BitVec 32 := 0#32
  ![v676.toNat, 0, 0, 0]
def k0_dev9 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_587 : BitVec 32 := 1#32
  let v684 : BitVec 32 := Scalar.muli v5 c1_i32_587
  let v685 : BitVec 32 := Scalar.addi c0_i32_588 v684
  v685.toNat
def k0_off15 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_575 : BitVec 32 := 1#32
  let v675 : BitVec 32 := Scalar.andi v2 c1_i32_575
  let v707 : Index := Scalar.indexCast v675
  let c0_620 : Index := 0#32
  let c0_621 : Index := 0#32
  let c0_622 : Index := 0#32
  ![v707.toNat, 0, 0, 0]
def k0_off16 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_575 : BitVec 32 := 1#32
  let v675 : BitVec 32 := Scalar.andi v2 c1_i32_575
  let v709 : Index := Scalar.indexCast v675
  let c0_623 : Index := 0#32
  let c0_624 : Index := 0#32
  let c0_625 : Index := 0#32
  let c0_626 : Index := 0#32
  ![v709.toNat, 0, 0, 0, 0]
def k0_dev10 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_650 : BitVec 32 := 1#32
  let v784 : BitVec 32 := Scalar.muli v5 c1_i32_650
  let v785 : BitVec 32 := Scalar.addi c0_i32_651 v784
  v785.toNat
def k0_dev11 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_660 : BitVec 32 := 1#32
  let v794 : BitVec 32 := Scalar.muli v4 c1_i32_660
  let v795 : BitVec 32 := Scalar.addi c0_i32_661 v794
  v795.toNat
def k0_dev12 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_670 : BitVec 32 := 1#32
  let v804 : BitVec 32 := Scalar.muli v3 c1_i32_670
  let v805 : BitVec 32 := Scalar.addi c0_i32_671 v804
  v805.toNat
def k0_off17 (d0 : Dev nD) : Fin 3 → Nat :=
  let c0_677 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_676 : BitVec 32 := 32#32
  let v816 : BitVec 32 := Scalar.muli v2 c32_i32_676
  let v817 : Index := Scalar.indexCast v816
  let c0_678 : Index := 0#32
  ![0, v817.toNat, 0]
def k0_dev13 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_740 : BitVec 32 := 1#32
  let v861 : BitVec 32 := Scalar.muli v5 c1_i32_740
  let v862 : BitVec 32 := Scalar.addi c0_i32_741 v861
  v862.toNat
def k0_dev14 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_749 : BitVec 32 := 1#32
  let v871 : BitVec 32 := Scalar.muli v4 c1_i32_749
  let v872 : BitVec 32 := Scalar.addi c0_i32_750 v871
  v872.toNat
def k0_dev15 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_758 : BitVec 32 := 1#32
  let v881 : BitVec 32 := Scalar.muli v3 c1_i32_758
  let v882 : BitVec 32 := Scalar.addi c0_i32_759 v881
  v882.toNat
def k0_off18 (d0 : Dev nD) (c1_i32_764 : BitVec 32) : Fin 3 → Nat :=
  let c0_769 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v891 : BitVec 32 := Scalar.xori v2 c1_i32_764
  let c32_i32_768 : BitVec 32 := 32#32
  let v895 : BitVec 32 := Scalar.muli v891 c32_i32_768
  let v896 : Index := Scalar.indexCast v895
  let c0_770 : Index := 0#32
  ![0, v896.toNat, 0]
def k0_dev16 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_845 : BitVec 32 := 1#32
  let v954 : BitVec 32 := Scalar.muli v5 c1_i32_845
  let v955 : BitVec 32 := Scalar.addi c0_i32_846 v954
  v955.toNat
def k0_dev17 (d0 : Dev nD) : Nat :=
  let c0_i32_900_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.xori v2 c4_i32
  let c1_i32_899_r0 : BitVec 32 := 1#32
  let v1007_r0 : BitVec 32 := Scalar.muli v3 c1_i32_899_r0
  let v1008_r0 : BitVec 32 := Scalar.addi c0_i32_900_r0 v1007_r0
  v1008_r0.toNat
def k0_dev18 (d0 : Dev nD) : Nat :=
  let c0_i32_903_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_902_r0 : BitVec 32 := 1#32
  let v1009_r0 : BitVec 32 := Scalar.muli v4 c1_i32_902_r0
  let v1010_r0 : BitVec 32 := Scalar.addi c0_i32_903_r0 v1009_r0
  v1010_r0.toNat
def k0_dev19 (d0 : Dev nD) : Nat :=
  let c0_i32_906_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.xori v2 c1_i32_0
  let c1_i32_905_r0 : BitVec 32 := 1#32
  let v1011_r0 : BitVec 32 := Scalar.muli v5 c1_i32_905_r0
  let v1012_r0 : BitVec 32 := Scalar.addi c0_i32_906_r0 v1011_r0
  v1012_r0.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_3 : (3#32 : BitVec 32).msb = false
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  shapeCasts_S4x256x1024_S1024x1024 : S4x256x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S4x256x8x128 : S1024x1024.ShapeCasts S4x256x8x128
  inb_S4x256x8x128_S4x256x8x128_0_0_0_0 : ∀ a, (![0, 0, 0, 0] : Fin 4 → Nat) a + S4x256x8x128.size a ≤ S4x256x8x128.size a
  h_S4x256x8x128 : 0 < S4x256x8x128.numel
  shapeCasts_S4x256x8x128_S4x256x8x128 : S4x256x8x128.ShapeCasts S4x256x8x128
  packedbf16_S4x256x8x128_S4x256x8x128_0_0_0_0 : (Rect.unit (s := S4x256x8x128) ![0, 0, 0, 0] S4x256x8x128.size inb_S4x256x8x128_S4x256x8x128_0_0_0_0).PackedRows (EltTy.packing .bf16)
  h_S1x128x8x128 : 0 < S1x128x8x128.numel
  shapeCasts_S1x128x8x128_S128x8x128 : S1x128x8x128.ShapeCasts S128x8x128
  slices_S128x8x128_o0_0_0_S128x4x128 : S128x8x128.Slices ![0, 0, 0] S128x4x128
  shapeCasts_S128x4x128_S512x128 : S128x4x128.ShapeCasts S512x128
  inb_S4x1024x2x128_S1x1024x1x128_0_0_0_0 : ∀ a, (![0, 0, 0, 0] : Fin 4 → Nat) a + S1x1024x1x128.size a ≤ S4x1024x2x128.size a
  h_S1x1024x1x128 : 0 < S1x1024x1x128.numel
  shapeCasts_S1x1024x1x128_S1024x128 : S1x1024x1x128.ShapeCasts S1024x128
  reduces_S512x1024_S512 : S512x1024.Reduces [1] S512
  shapeCasts_S512_S512x1 : S512.ShapeCasts S512x1
  broadcasts_S512x1_S512x1024 : S512x1.Broadcasts S512x1024
  shapeCasts_S512x128_S4x128x128 : S512x128.ShapeCasts S4x128x128
  inb_S4x4x2x128x128_S4x1x1x128x128_0_0_0_0_0 : ∀ a, (![0, 0, 0, 0, 0] : Fin 5 → Nat) a + S4x1x1x128x128.size a ≤ S4x4x2x128x128.size a
  h_S4x1x1x128x128 : 0 < S4x1x1x128x128.numel
  shapeCasts_S4x1x1x128x128_S4x128x128 : S4x1x1x128x128.ShapeCasts S4x128x128
  shapeCasts_S4x128x128_S4x1x1x128x128 : S4x128x128.ShapeCasts S4x1x1x128x128
  packedbf16_S4x4x2x128x128_S4x1x1x128x128_0_0_0_0_0 : (Rect.unit (s := S4x4x2x128x128) ![0, 0, 0, 0, 0] S4x1x1x128x128.size inb_S4x4x2x128x128_S4x1x1x128x128_0_0_0_0_0).PackedRows (EltTy.packing .bf16)
  shapeCasts_S512_S4x128 : S512.ShapeCasts S4x128
  inb_S4x2x8x128_S4x1x1x128_0_0_0_0 : ∀ a, (![0, 0, 0, 0] : Fin 4 → Nat) a + S4x1x1x128.size a ≤ S4x2x8x128.size a
  h_S4x1x1x128 : 0 < S4x1x1x128.numel
  shapeCasts_S4x1x1x128_S4x128 : S4x1x1x128.ShapeCasts S4x128
  shapeCasts_S4x128_S4x1x1x128 : S4x128.ShapeCasts S4x1x1x128
  inb_S4x2x8x128_S4x1x1x128_0_1_0_0 : ∀ a, (![0, 1, 0, 0] : Fin 4 → Nat) a + S4x1x1x128.size a ≤ S4x2x8x128.size a
  slices_S128x8x128_o0_4_0_S128x4x128 : S128x8x128.Slices ![0, 4, 0] S128x4x128
  inb_S4x1024x2x128_S1x1024x1x128_0_0_1_0 : ∀ a, (![0, 0, 1, 0] : Fin 4 → Nat) a + S1x1024x1x128.size a ≤ S4x1024x2x128.size a
  inb_S4x4x2x128x128_S4x1x1x128x128_0_0_1_0_0 : ∀ a, (![0, 0, 1, 0, 0] : Fin 5 → Nat) a + S4x1x1x128x128.size a ≤ S4x4x2x128x128.size a
  packedbf16_S4x4x2x128x128_S4x1x1x128x128_0_0_1_0_0 : (Rect.unit (s := S4x4x2x128x128) ![0, 0, 1, 0, 0] S4x1x1x128x128.size inb_S4x4x2x128x128_S4x1x1x128x128_0_0_1_0_0).PackedRows (EltTy.packing .bf16)
  inb_S4x2x8x128_S4x1x1x128_0_0_1_0 : ∀ a, (![0, 0, 1, 0] : Fin 4 → Nat) a + S4x1x1x128.size a ≤ S4x2x8x128.size a
  inb_S4x2x8x128_S4x1x1x128_0_1_1_0 : ∀ a, (![0, 1, 1, 0] : Fin 4 → Nat) a + S4x1x1x128.size a ≤ S4x2x8x128.size a
  inb_S4x1024x2x128_S1x1024x1x128_1_0_0_0 : ∀ a, (![1, 0, 0, 0] : Fin 4 → Nat) a + S1x1024x1x128.size a ≤ S4x1024x2x128.size a
  inb_S4x4x2x128x128_S4x1x1x128x128_0_1_0_0_0 : ∀ a, (![0, 1, 0, 0, 0] : Fin 5 → Nat) a + S4x1x1x128x128.size a ≤ S4x4x2x128x128.size a
  packedbf16_S4x4x2x128x128_S4x1x1x128x128_0_1_0_0_0 : (Rect.unit (s := S4x4x2x128x128) ![0, 1, 0, 0, 0] S4x1x1x128x128.size inb_S4x4x2x128x128_S4x1x1x128x128_0_1_0_0_0).PackedRows (EltTy.packing .bf16)
  inb_S4x2x8x128_S4x1x1x128_0_0_2_0 : ∀ a, (![0, 0, 2, 0] : Fin 4 → Nat) a + S4x1x1x128.size a ≤ S4x2x8x128.size a
  inb_S4x2x8x128_S4x1x1x128_0_1_2_0 : ∀ a, (![0, 1, 2, 0] : Fin 4 → Nat) a + S4x1x1x128.size a ≤ S4x2x8x128.size a
  inb_S4x1024x2x128_S1x1024x1x128_1_0_1_0 : ∀ a, (![1, 0, 1, 0] : Fin 4 → Nat) a + S1x1024x1x128.size a ≤ S4x1024x2x128.size a
  inb_S4x4x2x128x128_S4x1x1x128x128_0_1_1_0_0 : ∀ a, (![0, 1, 1, 0, 0] : Fin 5 → Nat) a + S4x1x1x128x128.size a ≤ S4x4x2x128x128.size a
  packedbf16_S4x4x2x128x128_S4x1x1x128x128_0_1_1_0_0 : (Rect.unit (s := S4x4x2x128x128) ![0, 1, 1, 0, 0] S4x1x1x128x128.size inb_S4x4x2x128x128_S4x1x1x128x128_0_1_1_0_0).PackedRows (EltTy.packing .bf16)
  inb_S4x2x8x128_S4x1x1x128_0_0_3_0 : ∀ a, (![0, 0, 3, 0] : Fin 4 → Nat) a + S4x1x1x128.size a ≤ S4x2x8x128.size a
  inb_S4x2x8x128_S4x1x1x128_0_1_3_0 : ∀ a, (![0, 1, 3, 0] : Fin 4 → Nat) a + S4x1x1x128.size a ≤ S4x2x8x128.size a
  inb_S4x1024x2x128_S1x1024x1x128_2_0_0_0 : ∀ a, (![2, 0, 0, 0] : Fin 4 → Nat) a + S1x1024x1x128.size a ≤ S4x1024x2x128.size a
  inb_S4x4x2x128x128_S4x1x1x128x128_0_2_0_0_0 : ∀ a, (![0, 2, 0, 0, 0] : Fin 5 → Nat) a + S4x1x1x128x128.size a ≤ S4x4x2x128x128.size a
  packedbf16_S4x4x2x128x128_S4x1x1x128x128_0_2_0_0_0 : (Rect.unit (s := S4x4x2x128x128) ![0, 2, 0, 0, 0] S4x1x1x128x128.size inb_S4x4x2x128x128_S4x1x1x128x128_0_2_0_0_0).PackedRows (EltTy.packing .bf16)
  inb_S4x2x8x128_S4x1x1x128_0_0_4_0 : ∀ a, (![0, 0, 4, 0] : Fin 4 → Nat) a + S4x1x1x128.size a ≤ S4x2x8x128.size a
  inb_S4x2x8x128_S4x1x1x128_0_1_4_0 : ∀ a, (![0, 1, 4, 0] : Fin 4 → Nat) a + S4x1x1x128.size a ≤ S4x2x8x128.size a
  inb_S4x1024x2x128_S1x1024x1x128_2_0_1_0 : ∀ a, (![2, 0, 1, 0] : Fin 4 → Nat) a + S1x1024x1x128.size a ≤ S4x1024x2x128.size a
  inb_S4x4x2x128x128_S4x1x1x128x128_0_2_1_0_0 : ∀ a, (![0, 2, 1, 0, 0] : Fin 5 → Nat) a + S4x1x1x128x128.size a ≤ S4x4x2x128x128.size a
  packedbf16_S4x4x2x128x128_S4x1x1x128x128_0_2_1_0_0 : (Rect.unit (s := S4x4x2x128x128) ![0, 2, 1, 0, 0] S4x1x1x128x128.size inb_S4x4x2x128x128_S4x1x1x128x128_0_2_1_0_0).PackedRows (EltTy.packing .bf16)
  inb_S4x2x8x128_S4x1x1x128_0_0_5_0 : ∀ a, (![0, 0, 5, 0] : Fin 4 → Nat) a + S4x1x1x128.size a ≤ S4x2x8x128.size a
  inb_S4x2x8x128_S4x1x1x128_0_1_5_0 : ∀ a, (![0, 1, 5, 0] : Fin 4 → Nat) a + S4x1x1x128.size a ≤ S4x2x8x128.size a
  inb_S4x1024x2x128_S1x1024x1x128_3_0_0_0 : ∀ a, (![3, 0, 0, 0] : Fin 4 → Nat) a + S1x1024x1x128.size a ≤ S4x1024x2x128.size a
  inb_S4x4x2x128x128_S4x1x1x128x128_0_3_0_0_0 : ∀ a, (![0, 3, 0, 0, 0] : Fin 5 → Nat) a + S4x1x1x128x128.size a ≤ S4x4x2x128x128.size a
  packedbf16_S4x4x2x128x128_S4x1x1x128x128_0_3_0_0_0 : (Rect.unit (s := S4x4x2x128x128) ![0, 3, 0, 0, 0] S4x1x1x128x128.size inb_S4x4x2x128x128_S4x1x1x128x128_0_3_0_0_0).PackedRows (EltTy.packing .bf16)
  inb_S4x2x8x128_S4x1x1x128_0_0_6_0 : ∀ a, (![0, 0, 6, 0] : Fin 4 → Nat) a + S4x1x1x128.size a ≤ S4x2x8x128.size a
  inb_S4x2x8x128_S4x1x1x128_0_1_6_0 : ∀ a, (![0, 1, 6, 0] : Fin 4 → Nat) a + S4x1x1x128.size a ≤ S4x2x8x128.size a
  inb_S4x1024x2x128_S1x1024x1x128_3_0_1_0 : ∀ a, (![3, 0, 1, 0] : Fin 4 → Nat) a + S1x1024x1x128.size a ≤ S4x1024x2x128.size a
  inb_S4x4x2x128x128_S4x1x1x128x128_0_3_1_0_0 : ∀ a, (![0, 3, 1, 0, 0] : Fin 5 → Nat) a + S4x1x1x128x128.size a ≤ S4x4x2x128x128.size a
  packedbf16_S4x4x2x128x128_S4x1x1x128x128_0_3_1_0_0 : (Rect.unit (s := S4x4x2x128x128) ![0, 3, 1, 0, 0] S4x1x1x128x128.size inb_S4x4x2x128x128_S4x1x1x128x128_0_3_1_0_0).PackedRows (EltTy.packing .bf16)
  inb_S4x2x8x128_S4x1x1x128_0_0_7_0 : ∀ a, (![0, 0, 7, 0] : Fin 4 → Nat) a + S4x1x1x128.size a ≤ S4x2x8x128.size a
  inb_S4x2x8x128_S4x1x1x128_0_1_7_0 : ∀ a, (![0, 1, 7, 0] : Fin 4 → Nat) a + S4x1x1x128.size a ≤ S4x2x8x128.size a
  inb_S3_S1_0 : ∀ a, (![0] : Fin 1 → Nat) a + S1.size a ≤ S3.size a
  squeezes_S1_S_ : S1.Squeezes S_
  inb_S4x4x2x128x128_S4x4x2x128x128_0_0_0_0_0 : ∀ a, (![0, 0, 0, 0, 0] : Fin 5 → Nat) a + S4x4x2x128x128.size a ≤ S4x4x2x128x128.size a
  h_S4x4x2x128x128 : 0 < S4x4x2x128x128.numel
  inb_S4x2x8x128_S4x1x8x128_0_0_0_0 : ∀ a, (![0, 0, 0, 0] : Fin 4 → Nat) a + S4x1x8x128.size a ≤ S4x2x8x128.size a
  h_S4x1x8x128 : 0 < S4x1x8x128.numel
  shapeCasts_S4x1x8x128_S4x8x128 : S4x1x8x128.ShapeCasts S4x8x128
  inb_S4x2x8x128_S4x1x8x128_0_1_0_0 : ∀ a, (![0, 1, 0, 0] : Fin 4 → Nat) a + S4x1x8x128.size a ≤ S4x2x8x128.size a
  shapeCasts_S4x8x128_S4x4x2x128x1 : S4x8x128.ShapeCasts S4x4x2x128x1
  broadcasts_S4x4x2x128x1_S4x4x2x128x128 : S4x4x2x128x1.Broadcasts S4x4x2x128x128
  shapeCasts_S4x4x2x128x128_S4x4x2x128x128 : S4x4x2x128x128.ShapeCasts S4x4x2x128x128
  packedbf16_S4x4x2x128x128_S4x4x2x128x128_0_0_0_0_0 : (Rect.unit (s := S4x4x2x128x128) ![0, 0, 0, 0, 0] S4x4x2x128x128.size inb_S4x4x2x128x128_S4x4x2x128x128_0_0_0_0_0).PackedRows (EltTy.packing .bf16)
  shapeCasts_S4x8x128_S4x1x8x128 : S4x8x128.ShapeCasts S4x1x8x128
  concatenates_S4x1x8x128_S4x1x8x128_S4x2x8x128_d1 : Shape.Concatenates [S4x1x8x128, S4x1x8x128] S4x2x8x128 1
  inb_S4x2x8x128_S4x2x8x128_0_0_0_0 : ∀ a, (![0, 0, 0, 0] : Fin 4 → Nat) a + S4x2x8x128.size a ≤ S4x2x8x128.size a
  h_S4x2x8x128 : 0 < S4x2x8x128.numel
  shapeCasts_S4x2x8x128_S4x2x8x128 : S4x2x8x128.ShapeCasts S4x2x8x128
  inb_S3_S1_1 : ∀ a, (![1] : Fin 1 → Nat) a + S1.size a ≤ S3.size a
  h_S2x2x8x128 : 0 < S2x2x8x128.numel
  h_S2x4x2x128x128 : 0 < S2x4x2x128x128.numel
  slices_S2x2x8x128_o0_0_0_0_S2x1x8x128 : S2x2x8x128.Slices ![0, 0, 0, 0] S2x1x8x128
  shapeCasts_S2x1x8x128_S2x8x128 : S2x1x8x128.ShapeCasts S2x8x128
  slices_S2x2x8x128_o0_1_0_0_S2x1x8x128 : S2x2x8x128.Slices ![0, 1, 0, 0] S2x1x8x128
  inb_S2x4x2x128x128_S2x4x2x128x128_0_0_0_0_0 : ∀ a, (![0, 0, 0, 0, 0] : Fin 5 → Nat) a + S2x4x2x128x128.size a ≤ S2x4x2x128x128.size a
  inb_S2x2x8x128_S2x1x8x128_0_0_0_0 : ∀ a, (![0, 0, 0, 0] : Fin 4 → Nat) a + S2x1x8x128.size a ≤ S2x2x8x128.size a
  h_S2x1x8x128 : 0 < S2x1x8x128.numel
  inb_S2x2x8x128_S2x1x8x128_0_1_0_0 : ∀ a, (![0, 1, 0, 0] : Fin 4 → Nat) a + S2x1x8x128.size a ≤ S2x2x8x128.size a
  shapeCasts_S2x8x128_S2x4x2x128x1 : S2x8x128.ShapeCasts S2x4x2x128x1
  broadcasts_S2x4x2x128x1_S2x4x2x128x128 : S2x4x2x128x1.Broadcasts S2x4x2x128x128
  shapeCasts_S2x4x2x128x128_S2x4x2x128x128 : S2x4x2x128x128.ShapeCasts S2x4x2x128x128
  packedbf16_S2x4x2x128x128_S2x4x2x128x128_0_0_0_0_0 : (Rect.unit (s := S2x4x2x128x128) ![0, 0, 0, 0, 0] S2x4x2x128x128.size inb_S2x4x2x128x128_S2x4x2x128x128_0_0_0_0_0).PackedRows (EltTy.packing .bf16)
  shapeCasts_S2x8x128_S2x1x8x128 : S2x8x128.ShapeCasts S2x1x8x128
  concatenates_S2x1x8x128_S2x1x8x128_S2x2x8x128_d1 : Shape.Concatenates [S2x1x8x128, S2x1x8x128] S2x2x8x128 1
  inb_S2x2x8x128_S2x2x8x128_0_0_0_0 : ∀ a, (![0, 0, 0, 0] : Fin 4 → Nat) a + S2x2x8x128.size a ≤ S2x2x8x128.size a
  shapeCasts_S2x2x8x128_S2x2x8x128 : S2x2x8x128.ShapeCasts S2x2x8x128
  inb_S3_S1_2 : ∀ a, (![2] : Fin 1 → Nat) a + S1.size a ≤ S3.size a
  h_S1x2x8x128 : 0 < S1x2x8x128.numel
  h_S1x4x2x128x128 : 0 < S1x4x2x128x128.numel
  slices_S1x2x8x128_o0_0_0_0_S1x1x8x128 : S1x2x8x128.Slices ![0, 0, 0, 0] S1x1x8x128
  shapeCasts_S1x1x8x128_S1x8x128 : S1x1x8x128.ShapeCasts S1x8x128
  slices_S1x2x8x128_o0_1_0_0_S1x1x8x128 : S1x2x8x128.Slices ![0, 1, 0, 0] S1x1x8x128
  inb_S1x4x2x128x128_S1x4x2x128x128_0_0_0_0_0 : ∀ a, (![0, 0, 0, 0, 0] : Fin 5 → Nat) a + S1x4x2x128x128.size a ≤ S1x4x2x128x128.size a
  inb_S1x2x8x128_S1x1x8x128_0_0_0_0 : ∀ a, (![0, 0, 0, 0] : Fin 4 → Nat) a + S1x1x8x128.size a ≤ S1x2x8x128.size a
  h_S1x1x8x128 : 0 < S1x1x8x128.numel
  inb_S1x2x8x128_S1x1x8x128_0_1_0_0 : ∀ a, (![0, 1, 0, 0] : Fin 4 → Nat) a + S1x1x8x128.size a ≤ S1x2x8x128.size a
  shapeCasts_S1x8x128_S1x4x2x128x1 : S1x8x128.ShapeCasts S1x4x2x128x1
  broadcasts_S1x4x2x128x1_S1x4x2x128x128 : S1x4x2x128x1.Broadcasts S1x4x2x128x128
  shapeCasts_S1x4x2x128x128_S4x2x128x128 : S1x4x2x128x128.ShapeCasts S4x2x128x128
  slices_S4x2x128x128_o0_0_0_0_S1x1x128x128 : S4x2x128x128.Slices ![0, 0, 0, 0] S1x1x128x128
  shapeCasts_S1x1x128x128_S128x128 : S1x1x128x128.ShapeCasts S128x128
  shapeCasts_S128x128_S32x512 : S128x128.ShapeCasts S32x512
  slices_S4x2x128x128_o0_1_0_0_S1x1x128x128 : S4x2x128x128.Slices ![0, 1, 0, 0] S1x1x128x128
  concatenates_S32x512_S32x512_S32x1024_d1 : Shape.Concatenates [S32x512, S32x512] S32x1024 1
  slices_S4x2x128x128_o1_0_0_0_S1x1x128x128 : S4x2x128x128.Slices ![1, 0, 0, 0] S1x1x128x128
  slices_S4x2x128x128_o1_1_0_0_S1x1x128x128 : S4x2x128x128.Slices ![1, 1, 0, 0] S1x1x128x128
  slices_S4x2x128x128_o2_0_0_0_S1x1x128x128 : S4x2x128x128.Slices ![2, 0, 0, 0] S1x1x128x128
  slices_S4x2x128x128_o2_1_0_0_S1x1x128x128 : S4x2x128x128.Slices ![2, 1, 0, 0] S1x1x128x128
  slices_S4x2x128x128_o3_0_0_0_S1x1x128x128 : S4x2x128x128.Slices ![3, 0, 0, 0] S1x1x128x128
  slices_S4x2x128x128_o3_1_0_0_S1x1x128x128 : S4x2x128x128.Slices ![3, 1, 0, 0] S1x1x128x128
  shapeCasts_S32x1024_S1x32x1024 : S32x1024.ShapeCasts S1x32x1024
  concatenates_S1x32x1024_S1x32x1024_S1x32x1024_S1x32x1024_S4x32x1024_d0 : Shape.Concatenates [S1x32x1024, S1x32x1024, S1x32x1024, S1x32x1024] S4x32x1024 0
  shapeCasts_S4x32x1024_S128x1024 : S4x32x1024.ShapeCasts S128x1024
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S8x128x1024_S1x128x1024_0_0_0 : (Rect.unit (s := S8x128x1024) ![0, 0, 0] S1x128x1024.size inb_S8x128x1024_S1x128x1024_0_0_0).PackedRows (EltTy.packing .bf16)
  inb_S7_S1_0 : ∀ a, (![0] : Fin 1 → Nat) a + S1.size a ≤ S7.size a
  inb_S8x128x1024_S1x128x1024_1_0_0 : ∀ a, (![1, 0, 0] : Fin 3 → Nat) a + S1x128x1024.size a ≤ S8x128x1024.size a
  squeezes_S1x128x1024_S128x1024 : S1x128x1024.Squeezes S128x1024
  wordsbf16_S8x128x1024_S1x128x1024_0_0_0 : (Rect.unit (s := S8x128x1024) ![0, 0, 0] S1x128x1024.size inb_S8x128x1024_S1x128x1024_0_0_0).WholeWords (EltTy.packing .bf16)
  wordsbf16_S8x128x1024_S1x128x1024_1_0_0 : (Rect.unit (s := S8x128x1024) ![1, 0, 0] S1x128x1024.size inb_S8x128x1024_S1x128x1024_1_0_0).WholeWords (EltTy.packing .bf16)
  inb_S7_S1_1 : ∀ a, (![1] : Fin 1 → Nat) a + S1.size a ≤ S7.size a
  inb_S8x128x1024_S1x128x1024_2_0_0 : ∀ a, (![2, 0, 0] : Fin 3 → Nat) a + S1x128x1024.size a ≤ S8x128x1024.size a
  wordsbf16_S8x128x1024_S1x128x1024_2_0_0 : (Rect.unit (s := S8x128x1024) ![2, 0, 0] S1x128x1024.size inb_S8x128x1024_S1x128x1024_2_0_0).WholeWords (EltTy.packing .bf16)
  inb_S7_S1_2 : ∀ a, (![2] : Fin 1 → Nat) a + S1.size a ≤ S7.size a
  inb_S8x128x1024_S1x128x1024_4_0_0 : ∀ a, (![4, 0, 0] : Fin 3 → Nat) a + S1x128x1024.size a ≤ S8x128x1024.size a
  wordsbf16_S8x128x1024_S1x128x1024_4_0_0 : (Rect.unit (s := S8x128x1024) ![4, 0, 0] S1x128x1024.size inb_S8x128x1024_S1x128x1024_4_0_0).WholeWords (EltTy.packing .bf16)
  shapeCasts_S128x1024_S4x32x1024 : S128x1024.ShapeCasts S4x32x1024
  h_S4x32x1024 : 0 < S4x32x1024.numel
  inb_S7_S1_3 : ∀ a, (![3] : Fin 1 → Nat) a + S1.size a ≤ S7.size a
  inb_S8x128x1024_S1x128x1024_3_0_0 : ∀ a, (![3, 0, 0] : Fin 3 → Nat) a + S1x128x1024.size a ≤ S8x128x1024.size a
  wordsbf16_S8x128x1024_S1x128x1024_3_0_0 : (Rect.unit (s := S8x128x1024) ![3, 0, 0] S1x128x1024.size inb_S8x128x1024_S1x128x1024_3_0_0).WholeWords (EltTy.packing .bf16)
  inb_S7_S1_4 : ∀ a, (![4] : Fin 1 → Nat) a + S1.size a ≤ S7.size a
  inb_S8x128x1024_S1x128x1024_6_0_0 : ∀ a, (![6, 0, 0] : Fin 3 → Nat) a + S1x128x1024.size a ≤ S8x128x1024.size a
  wordsbf16_S8x128x1024_S1x128x1024_6_0_0 : (Rect.unit (s := S8x128x1024) ![6, 0, 0] S1x128x1024.size inb_S8x128x1024_S1x128x1024_6_0_0).WholeWords (EltTy.packing .bf16)
  inb_S7_S1_5 : ∀ a, (![5] : Fin 1 → Nat) a + S1.size a ≤ S7.size a
  inb_S8x128x1024_S1x128x1024_5_0_0 : ∀ a, (![5, 0, 0] : Fin 3 → Nat) a + S1x128x1024.size a ≤ S8x128x1024.size a
  wordsbf16_S8x128x1024_S1x128x1024_5_0_0 : (Rect.unit (s := S8x128x1024) ![5, 0, 0] S1x128x1024.size inb_S8x128x1024_S1x128x1024_5_0_0).WholeWords (EltTy.packing .bf16)
  inb_S7_S1_6 : ∀ a, (![6] : Fin 1 → Nat) a + S1.size a ≤ S7.size a
  inb_S8x128x1024_S1x128x1024_7_0_0 : ∀ a, (![7, 0, 0] : Fin 3 → Nat) a + S1x128x1024.size a ≤ S8x128x1024.size a
  wordsbf16_S8x128x1024_S1x128x1024_7_0_0 : (Rect.unit (s := S8x128x1024) ![7, 0, 0] S1x128x1024.size inb_S8x128x1024_S1x128x1024_7_0_0).WholeWords (EltTy.packing .bf16)
  dot_S1024x1024_S1024x1024_S1024x1024_1_0_0_1_n_n_wf : DotDims.WF S1024x1024 S1024x1024 S1024x1024 [1] [0] [0] [1] [] []
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  dot_S128x1024_S1024x1024_S128x1024_1_0_0_1_n_n_wf : DotDims.WF S128x1024 S1024x1024 S128x1024 [1] [0] [0] [1] [] []
  hcc0_scoped0 : 1 + S_.numel ≤ 2
  hcc0_scratch16 : 6 + S3.numel ≤ 32
  hcc0_scratch17 : 9 + S3.numel ≤ 32
  hcc0_scratch18 : 12 + S3.numel ≤ 32
  hcc0_scratch19 : 15 + S3.numel ≤ 32
  hcc0_scratch20 : 18 + S7.numel ≤ 32
  hcc0_scratch21 : 25 + S7.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x128x8x128.size a ≤ S4x256x8x128.size a
  k0_off2_inb : ∀ d0 : Dev nD, ∀ a, (k0_off2 d0) a + S1x128x8x128.size a ≤ S4x256x8x128.size a
  k0_off3_inb : ∀ d0 : Dev nD, ∀ a, (k0_off3 d0) a + S1x128x8x128.size a ≤ S4x256x8x128.size a
  k0_off4_inb : ∀ d0 : Dev nD, ∀ a, (k0_off4 d0) a + S1x128x8x128.size a ≤ S4x256x8x128.size a
  k0_dev4_lt : ∀ d0 : Dev nD, (k0_dev4 d0) < nD
  k0_dev5_lt : ∀ d0 : Dev nD, (k0_dev5 d0) < nD
  k0_off5_inb : ∀ d0 : Dev nD, ∀ a, (k0_off5 d0) a + S1x128x8x128.size a ≤ S4x256x8x128.size a
  k0_off6_inb : ∀ d0 : Dev nD, ∀ a, (k0_off6 d0) a + S1x128x8x128.size a ≤ S4x256x8x128.size a
  k0_off7_inb : ∀ d0 : Dev nD, ∀ a, (k0_off7 d0) a + S1x128x8x128.size a ≤ S4x256x8x128.size a
  k0_off8_inb : ∀ d0 : Dev nD, ∀ a, (k0_off8 d0) a + S1x128x8x128.size a ≤ S4x256x8x128.size a
  k0_off9_inb : ∀ d0 : Dev nD, ∀ a, (k0_off9 d0) a + S2x4x2x128x128.size a ≤ S4x4x2x128x128.size a
  k0_off9_wordsbf16 : ∀ d0 : Dev nD, (Rect.unit (s := S4x4x2x128x128) (k0_off9 d0) S2x4x2x128x128.size (k0_off9_inb d0)).WholeWords (EltTy.packing .bf16)
  k0_dev6_lt : ∀ d0 : Dev nD, (k0_dev6 d0) < nD
  k0_off10_inb : ∀ d0 : Dev nD, ∀ a, (k0_off10 d0) a + S2x2x8x128.size a ≤ S4x2x8x128.size a
  k0_dev7_lt : ∀ d0 : Dev nD, (k0_dev7 d0) < nD
  k0_off11_inb : ∀ d0 : Dev nD, ∀ a, (k0_off11 d0) a + S2x2x8x128.size a ≤ S4x2x8x128.size a
  k0_off12_inb : ∀ d0 : Dev nD, ∀ a, (k0_off12 d0) a + S2x4x2x128x128.size a ≤ S4x4x2x128x128.size a
  k0_off13_inb : ∀ d0 : Dev nD, ∀ a, (k0_off13 d0) a + S1x4x2x128x128.size a ≤ S2x4x2x128x128.size a
  k0_off13_wordsbf16 : ∀ d0 : Dev nD, (Rect.unit (s := S2x4x2x128x128) (k0_off13 d0) S1x4x2x128x128.size (k0_off13_inb d0)).WholeWords (EltTy.packing .bf16)
  k0_dev8_lt : ∀ d0 : Dev nD, (k0_dev8 d0) < nD
  k0_off14_inb : ∀ d0 : Dev nD, ∀ a, (k0_off14 d0) a + S1x2x8x128.size a ≤ S2x2x8x128.size a
  k0_dev9_lt : ∀ d0 : Dev nD, (k0_dev9 d0) < nD
  k0_off15_inb : ∀ d0 : Dev nD, ∀ a, (k0_off15 d0) a + S1x2x8x128.size a ≤ S2x2x8x128.size a
  k0_off16_inb : ∀ d0 : Dev nD, ∀ a, (k0_off16 d0) a + S1x4x2x128x128.size a ≤ S2x4x2x128x128.size a
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off17_inb : ∀ d0 : Dev nD, ∀ a, (k0_off17 d0) a + S4x32x1024.size a ≤ S4x256x1024.size a
  k0_off17_packedbf16 : ∀ d0 : Dev nD, (Rect.unit (s := S4x256x1024) (k0_off17 d0) S4x32x1024.size (k0_off17_inb d0)).PackedRows (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off18_inb : ∀ d0 : Dev nD, ∀ (r : Fin 7), ∀ a, (k0_off18 d0 (BitVec.ofNat 32 (1 + r.val))) a + S4x32x1024.size a ≤ S4x256x1024.size a
  k0_off18_packedbf16 : ∀ d0 : Dev nD, ∀ (r : Fin 7), (Rect.unit (s := S4x256x1024) (k0_off18 d0 (BitVec.ofNat 32 (1 + r.val))) S4x32x1024.size (k0_off18_inb d0 r)).PackedRows (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scoped0 : Sems sig S_ := SemArray.consecutive 1 S_ hcc0_scoped0
abbrev cc0_scratch16 : DmaSems sig S3 := SemArray.consecutive 6 S3 hcc0_scratch16
abbrev cc0_scratch17 : DmaSems sig S3 := SemArray.consecutive 9 S3 hcc0_scratch17
abbrev cc0_scratch18 : DmaSems sig S3 := SemArray.consecutive 12 S3 hcc0_scratch18
abbrev cc0_scratch19 : DmaSems sig S3 := SemArray.consecutive 15 S3 hcc0_scratch19
abbrev cc0_scratch20 : DmaSems sig S7 := SemArray.consecutive 18 S7 hcc0_scratch20
abbrev cc0_scratch21 : DmaSems sig S7 := SemArray.consecutive 25 S7 hcc0_scratch21
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S1024x1024 : Shape := ⟨2, ![1024, 1024]⟩
abbrev S4x8192x2x128 : Shape := ⟨4, ![4, 8192, 2, 128]⟩
abbrev S4x256x8x128 : Shape := ⟨4, ![4, 256, 8, 128]⟩
abbrev S4x8192x2x4x128 : Shape := ⟨5, ![4, 8192, 2, 4, 128]⟩
abbrev S4x8192x8x128 : Shape := ⟨4, ![4, 8192, 8, 128]⟩
abbrev S_ : Shape := ⟨0, ![]⟩
abbrev S4x8x256x1 : Shape := ⟨4, ![4, 8, 256, 1]⟩
abbrev S4x1024x8x128 : Shape := ⟨4, ![4, 1024, 8, 128]⟩
abbrev S4x8x256x1024 : Shape := ⟨4, ![4, 8, 256, 1024]⟩
abbrev S4x8x256 : Shape := ⟨3, ![4, 8, 256]⟩
abbrev S4x256x8x1 : Shape := ⟨4, ![4, 256, 8, 1]⟩
abbrev S4x8x128x256 : Shape := ⟨4, ![4, 8, 128, 256]⟩

abbrev nBuf : Space → Nat
  | .hbm => 231
  | .vmem => 0
  | .smem => 0
  | _ => 0

abbrev hbmTy0_0 (i : Nat) : BufTy := match i % 128 with
  | 0 => ⟨S4x256x1024, .f32⟩
  | 1 => ⟨S1024x1024, .f32⟩
  | 2 => ⟨S1024x1024, .f32⟩
  | 3 => ⟨S4x8192x2x128, .f32⟩
  | 4 => ⟨S4x8192x2x128, .f32⟩
  | 5 => ⟨S4x256x1024, .f32⟩
  | 6 => ⟨S4x256x8x128, .f32⟩
  | 7 => ⟨S4x8192x2x4x128, .f32⟩
  | 8 => ⟨S4x8192x8x128, .f32⟩
  | 9 => ⟨S4x8192x2x4x128, .f32⟩
  | 10 => ⟨S4x8192x8x128, .f32⟩
  | 11 => ⟨S_, .f32⟩
  | 12 => ⟨S4x256x8x128, .f32⟩
  | 13 => ⟨S_, .f32⟩
  | 14 => ⟨S4x8x256x1, .f32⟩
  | 15 => ⟨S_, .f32⟩
  | 16 => ⟨S4x8x256x1, .f32⟩
  | 17 => ⟨S4x1024x8x128, .f32⟩
  | 18 => ⟨S4x1024x8x128, .f32⟩
  | 19 => ⟨S4x8x256x1024, .f32⟩
  | 20 => ⟨S_, .f32⟩
  | 21 => ⟨S4x8x256x1024, .f32⟩
  | 22 => ⟨S4x8x256x1024, .f32⟩
  | 23 => ⟨S_, .f32⟩
  | 24 => ⟨S4x8x256, .f32⟩
  | 25 => ⟨S4x8x256x1, .f32⟩
  | 26 => ⟨S4x8x256x1, .f32⟩
  | 27 => ⟨S4x8x256x1, .f32⟩
  | 28 => ⟨S4x8x256x1, .f32⟩
  | 29 => ⟨S4x8x256x1024, .f32⟩
  | 30 => ⟨S4x8x256x1024, .f32⟩
  | 31 => ⟨S4x8x256x1024, .f32⟩
  | 32 => ⟨S4x8x256x1, .f32⟩
  | 33 => ⟨S_, .f32⟩
  | 34 => ⟨S4x8x256, .f32⟩
  | 35 => ⟨S4x8x256x1, .f32⟩
  | 36 => ⟨S4x8x256x1, .f32⟩
  | 37 => ⟨S4x256x8x1, .f32⟩
  | 38 => ⟨S4x256x8x128, .f32⟩
  | 39 => ⟨S4x256x8x128, .f32⟩
  | 40 => ⟨S4x8x128x256, .f32⟩
  | 41 => ⟨S4x256x8x128, .f32⟩
  | 42 => ⟨S4x256x8x128, .f32⟩
  | 43 => ⟨S4x1024x8x128, .f32⟩
  | 44 => ⟨S4x1024x8x128, .f32⟩
  | 45 => ⟨S4x8x256x1024, .f32⟩
  | 46 => ⟨S_, .f32⟩
  | 47 => ⟨S4x8x256x1024, .f32⟩
  | 48 => ⟨S4x8x256x1024, .f32⟩
  | 49 => ⟨S_, .f32⟩
  | 50 => ⟨S4x8x256, .f32⟩
  | 51 => ⟨S4x8x256x1, .f32⟩
  | 52 => ⟨S4x8x256x1, .f32⟩
  | 53 => ⟨S4x8x256x1, .f32⟩
  | 54 => ⟨S4x8x256x1, .f32⟩
  | 55 => ⟨S4x8x256x1024, .f32⟩
  | 56 => ⟨S4x8x256x1024, .f32⟩
  | 57 => ⟨S4x8x256x1024, .f32⟩
  | 58 => ⟨S4x8x256x1, .f32⟩
  | 59 => ⟨S_, .f32⟩
  | 60 => ⟨S4x8x256, .f32⟩
  | 61 => ⟨S4x8x256x1, .f32⟩
  | 62 => ⟨S4x8x256x1, .f32⟩
  | 63 => ⟨S4x256x8x1, .f32⟩
  | 64 => ⟨S4x256x8x128, .f32⟩
  | 65 => ⟨S4x256x8x128, .f32⟩
  | 66 => ⟨S4x8x128x256, .f32⟩
  | 67 => ⟨S4x256x8x128, .f32⟩
  | 68 => ⟨S4x256x8x128, .f32⟩
  | 69 => ⟨S4x1024x8x128, .f32⟩
  | 70 => ⟨S4x1024x8x128, .f32⟩
  | 71 => ⟨S4x8x256x1024, .f32⟩
  | 72 => ⟨S_, .f32⟩
  | 73 => ⟨S4x8x256x1024, .f32⟩
  | 74 => ⟨S4x8x256x1024, .f32⟩
  | 75 => ⟨S_, .f32⟩
  | 76 => ⟨S4x8x256, .f32⟩
  | 77 => ⟨S4x8x256x1, .f32⟩
  | 78 => ⟨S4x8x256x1, .f32⟩
  | 79 => ⟨S4x8x256x1, .f32⟩
  | 80 => ⟨S4x8x256x1, .f32⟩
  | 81 => ⟨S4x8x256x1024, .f32⟩
  | 82 => ⟨S4x8x256x1024, .f32⟩
  | 83 => ⟨S4x8x256x1024, .f32⟩
  | 84 => ⟨S4x8x256x1, .f32⟩
  | 85 => ⟨S_, .f32⟩
  | 86 => ⟨S4x8x256, .f32⟩
  | 87 => ⟨S4x8x256x1, .f32⟩
  | 88 => ⟨S4x8x256x1, .f32⟩
  | 89 => ⟨S4x256x8x1, .f32⟩
  | 90 => ⟨S4x256x8x128, .f32⟩
  | 91 => ⟨S4x256x8x128, .f32⟩
  | 92 => ⟨S4x8x128x256, .f32⟩
  | 93 => ⟨S4x256x8x128, .f32⟩
  | 94 => ⟨S4x256x8x128, .f32⟩
  | 95 => ⟨S4x1024x8x128, .f32⟩
  | 96 => ⟨S4x1024x8x128, .f32⟩
  | 97 => ⟨S4x8x256x1024, .f32⟩
  | 98 => ⟨S_, .f32⟩
  | 99 => ⟨S4x8x256x1024, .f32⟩
  | 100 => ⟨S4x8x256x1024, .f32⟩
  | 101 => ⟨S_, .f32⟩
  | 102 => ⟨S4x8x256, .f32⟩
  | 103 => ⟨S4x8x256x1, .f32⟩
  | 104 => ⟨S4x8x256x1, .f32⟩
  | 105 => ⟨S4x8x256x1, .f32⟩
  | 106 => ⟨S4x8x256x1, .f32⟩
  | 107 => ⟨S4x8x256x1024, .f32⟩
  | 108 => ⟨S4x8x256x1024, .f32⟩
  | 109 => ⟨S4x8x256x1024, .f32⟩
  | 110 => ⟨S4x8x256x1, .f32⟩
  | 111 => ⟨S_, .f32⟩
  | 112 => ⟨S4x8x256, .f32⟩
  | 113 => ⟨S4x8x256x1, .f32⟩
  | 114 => ⟨S4x8x256x1, .f32⟩
  | 115 => ⟨S4x256x8x1, .f32⟩
  | 116 => ⟨S4x256x8x128, .f32⟩
  | 117 => ⟨S4x256x8x128, .f32⟩
  | 118 => ⟨S4x8x128x256, .f32⟩
  | 119 => ⟨S4x256x8x128, .f32⟩
  | 120 => ⟨S4x256x8x128, .f32⟩
  | 121 => ⟨S4x1024x8x128, .f32⟩
  | 122 => ⟨S4x1024x8x128, .f32⟩
  | 123 => ⟨S4x8x256x1024, .f32⟩
  | 124 => ⟨S_, .f32⟩
  | 125 => ⟨S4x8x256x1024, .f32⟩
  | 126 => ⟨S4x8x256x1024, .f32⟩
  | 127 => ⟨S_, .f32⟩
  | _ => ⟨S4x256x1024, .f32⟩

abbrev hbmTy0_1 (i : Nat) : BufTy := match i % 128 with
  | 0 => ⟨S4x8x256, .f32⟩
  | 1 => ⟨S4x8x256x1, .f32⟩
  | 2 => ⟨S4x8x256x1, .f32⟩
  | 3 => ⟨S4x8x256x1, .f32⟩
  | 4 => ⟨S4x8x256x1, .f32⟩
  | 5 => ⟨S4x8x256x1024, .f32⟩
  | 6 => ⟨S4x8x256x1024, .f32⟩
  | 7 => ⟨S4x8x256x1024, .f32⟩
  | 8 => ⟨S4x8x256x1, .f32⟩
  | 9 => ⟨S_, .f32⟩
  | 10 => ⟨S4x8x256, .f32⟩
  | 11 => ⟨S4x8x256x1, .f32⟩
  | 12 => ⟨S4x8x256x1, .f32⟩
  | 13 => ⟨S4x256x8x1, .f32⟩
  | 14 => ⟨S4x256x8x128, .f32⟩
  | 15 => ⟨S4x256x8x128, .f32⟩
  | 16 => ⟨S4x8x128x256, .f32⟩
  | 17 => ⟨S4x256x8x128, .f32⟩
  | 18 => ⟨S4x256x8x128, .f32⟩
  | 19 => ⟨S4x1024x8x128, .f32⟩
  | 20 => ⟨S4x1024x8x128, .f32⟩
  | 21 => ⟨S4x8x256x1024, .f32⟩
  | 22 => ⟨S_, .f32⟩
  | 23 => ⟨S4x8x256x1024, .f32⟩
  | 24 => ⟨S4x8x256x1024, .f32⟩
  | 25 => ⟨S_, .f32⟩
  | 26 => ⟨S4x8x256, .f32⟩
  | 27 => ⟨S4x8x256x1, .f32⟩
  | 28 => ⟨S4x8x256x1, .f32⟩
  | 29 => ⟨S4x8x256x1, .f32⟩
  | 30 => ⟨S4x8x256x1, .f32⟩
  | 31 => ⟨S4x8x256x1024, .f32⟩
  | 32 => ⟨S4x8x256x1024, .f32⟩
  | 33 => ⟨S4x8x256x1024, .f32⟩
  | 34 => ⟨S4x8x256x1, .f32⟩
  | 35 => ⟨S_, .f32⟩
  | 36 => ⟨S4x8x256, .f32⟩
  | 37 => ⟨S4x8x256x1, .f32⟩
  | 38 => ⟨S4x8x256x1, .f32⟩
  | 39 => ⟨S4x256x8x1, .f32⟩
  | 40 => ⟨S4x256x8x128, .f32⟩
  | 41 => ⟨S4x256x8x128, .f32⟩
  | 42 => ⟨S4x8x128x256, .f32⟩
  | 43 => ⟨S4x256x8x128, .f32⟩
  | 44 => ⟨S4x256x8x128, .f32⟩
  | 45 => ⟨S4x1024x8x128, .f32⟩
  | 46 => ⟨S4x1024x8x128, .f32⟩
  | 47 => ⟨S4x8x256x1024, .f32⟩
  | 48 => ⟨S_, .f32⟩
  | 49 => ⟨S4x8x256x1024, .f32⟩
  | 50 => ⟨S4x8x256x1024, .f32⟩
  | 51 => ⟨S_, .f32⟩
  | 52 => ⟨S4x8x256, .f32⟩
  | 53 => ⟨S4x8x256x1, .f32⟩
  | 54 => ⟨S4x8x256x1, .f32⟩
  | 55 => ⟨S4x8x256x1, .f32⟩
  | 56 => ⟨S4x8x256x1, .f32⟩
  | 57 => ⟨S4x8x256x1024, .f32⟩
  | 58 => ⟨S4x8x256x1024, .f32⟩
  | 59 => ⟨S4x8x256x1024, .f32⟩
  | 60 => ⟨S4x8x256x1, .f32⟩
  | 61 => ⟨S_, .f32⟩
  | 62 => ⟨S4x8x256, .f32⟩
  | 63 => ⟨S4x8x256x1, .f32⟩
  | 64 => ⟨S4x8x256x1, .f32⟩
  | 65 => ⟨S4x256x8x1, .f32⟩
  | 66 => ⟨S4x256x8x128, .f32⟩
  | 67 => ⟨S4x256x8x128, .f32⟩
  | 68 => ⟨S4x8x128x256, .f32⟩
  | 69 => ⟨S4x256x8x128, .f32⟩
  | 70 => ⟨S4x256x8x128, .f32⟩
  | 71 => ⟨S4x1024x8x128, .f32⟩
  | 72 => ⟨S4x1024x8x128, .f32⟩
  | 73 => ⟨S4x8x256x1024, .f32⟩
  | 74 => ⟨S_, .f32⟩
  | 75 => ⟨S4x8x256x1024, .f32⟩
  | 76 => ⟨S4x8x256x1024, .f32⟩
  | 77 => ⟨S_, .f32⟩
  | 78 => ⟨S4x8x256, .f32⟩
  | 79 => ⟨S4x8x256x1, .f32⟩
  | 80 => ⟨S4x8x256x1, .f32⟩
  | 81 => ⟨S4x8x256x1, .f32⟩
  | 82 => ⟨S4x8x256x1, .f32⟩
  | 83 => ⟨S4x8x256x1024, .f32⟩
  | 84 => ⟨S4x8x256x1024, .f32⟩
  | 85 => ⟨S4x8x256x1024, .f32⟩
  | 86 => ⟨S4x8x256x1, .f32⟩
  | 87 => ⟨S_, .f32⟩
  | 88 => ⟨S4x8x256, .f32⟩
  | 89 => ⟨S4x8x256x1, .f32⟩
  | 90 => ⟨S4x8x256x1, .f32⟩
  | 91 => ⟨S4x256x8x1, .f32⟩
  | 92 => ⟨S4x256x8x128, .f32⟩
  | 93 => ⟨S4x256x8x128, .f32⟩
  | 94 => ⟨S4x8x128x256, .f32⟩
  | 95 => ⟨S4x256x8x128, .f32⟩
  | 96 => ⟨S4x256x8x128, .f32⟩
  | 97 => ⟨S4x256x8x1, .f32⟩
  | 98 => ⟨S4x256x8x128, .f32⟩
  | 99 => ⟨S4x256x8x128, .f32⟩
  | 100 => ⟨S4x256x1024, .f32⟩
  | 101 => ⟨S4x256x1024, .f32⟩
  | 102 => ⟨S4x256x1024, .bf16⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_14 : Ref sig .tc := ⟨.hbm, 124, rfl⟩
abbrev main_v104 : Ref sig .tc := ⟨.hbm, 125, rfl⟩
abbrev main_v105 : Ref sig .tc := ⟨.hbm, 126, rfl⟩
abbrev main_cst_15 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_16 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_17 : Ref sig .tc := ⟨.hbm, 150, rfl⟩
abbrev main_v127 : Ref sig .tc := ⟨.hbm, 151, rfl⟩
abbrev main_v128 : Ref sig .tc := ⟨.hbm, 152, rfl⟩
abbrev main_cst_18 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_19 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_20 : Ref sig .tc := ⟨.hbm, 176, rfl⟩
abbrev main_v150 : Ref sig .tc := ⟨.hbm, 177, rfl⟩
abbrev main_v151 : Ref sig .tc := ⟨.hbm, 178, rfl⟩
abbrev main_cst_21 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_22 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_cst_23 : Ref sig .tc := ⟨.hbm, 202, rfl⟩
abbrev main_v173 : Ref sig .tc := ⟨.hbm, 203, rfl⟩
abbrev main_v174 : Ref sig .tc := ⟨.hbm, 204, rfl⟩
abbrev main_cst_24 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_cst_25 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩

abbrev nD : Nat := 1
abbrev τ : Topo := Topo.v7x

variable {F : FTy → Type} [FloatOps F]

class Facts₀ : Prop where
  shapeCasts_S4x256x1024_S4x256x8x128 : S4x256x1024.ShapeCasts S4x256x8x128
  bcast_S4x8192x2x128_S4x8192x2x4x128_0_1_2_4 : S4x8192x2x128.BroadcastsInDim S4x8192x2x4x128 (![0, 1, 2, 4] : Fin 4 → Fin S4x8192x2x4x128.rank)
  shapeCasts_S4x8192x2x4x128_S4x8192x8x128 : S4x8192x2x4x128.ShapeCasts S4x8192x8x128
  bcast_S_S4x256x8x128 : S_.BroadcastsInDim S4x256x8x128 (![] : Fin 0 → Fin S4x256x8x128.rank)
  bcast_S_S4x8x256x1 : S_.BroadcastsInDim S4x8x256x1 (![] : Fin 0 → Fin S4x8x256x1.rank)
  slices_S4x8192x8x128_S4x1024x8x128_0_0_0_0 : S4x8192x8x128.Slices ![0, 0, 0, 0] S4x1024x8x128
  bcast_S_S4x8x256x1024 : S_.BroadcastsInDim S4x8x256x1024 (![] : Fin 0 → Fin S4x8x256x1024.rank)
  reducesTo_S4x8x256x1024_S4x8x256_d3 : S4x8x256x1024.ReducesTo [3] S4x8x256
  h_S_ : 0 < S_.numel
  bcast_S4x8x256_S4x8x256x1_0_1_2 : S4x8x256.BroadcastsInDim S4x8x256x1 (![0, 1, 2] : Fin 3 → Fin S4x8x256x1.rank)
  bcast_S4x8x256x1_S4x8x256x1024_0_1_2_3 : S4x8x256x1.BroadcastsInDim S4x8x256x1024 (![0, 1, 2, 3] : Fin 4 → Fin S4x8x256x1024.rank)
  transposes_S4x8x256x1_S4x256x8x1_0_2_1_3 : S4x8x256x1.Transposes [0, 2, 1, 3] S4x256x8x1
  bcast_S4x256x8x1_S4x256x8x128_0_1_2_3 : S4x256x8x1.BroadcastsInDim S4x256x8x128 (![0, 1, 2, 3] : Fin 4 → Fin S4x256x8x128.rank)
  transposes_S4x8x128x256_S4x256x8x128_0_3_1_2 : S4x8x128x256.Transposes [0, 3, 1, 2] S4x256x8x128
  slices_S4x8192x8x128_S4x1024x8x128_0_1024_0_0 : S4x8192x8x128.Slices ![0, 1024, 0, 0] S4x1024x8x128
  slices_S4x8192x8x128_S4x1024x8x128_0_2048_0_0 : S4x8192x8x128.Slices ![0, 2048, 0, 0] S4x1024x8x128
  slices_S4x8192x8x128_S4x1024x8x128_0_3072_0_0 : S4x8192x8x128.Slices ![0, 3072, 0, 0] S4x1024x8x128
  slices_S4x8192x8x128_S4x1024x8x128_0_4096_0_0 : S4x8192x8x128.Slices ![0, 4096, 0, 0] S4x1024x8x128
  slices_S4x8192x8x128_S4x1024x8x128_0_5120_0_0 : S4x8192x8x128.Slices ![0, 5120, 0, 0] S4x1024x8x128
  slices_S4x8192x8x128_S4x1024x8x128_0_6144_0_0 : S4x8192x8x128.Slices ![0, 6144, 0, 0] S4x1024x8x128
  slices_S4x8192x8x128_S4x1024x8x128_0_7168_0_0 : S4x8192x8x128.Slices ![0, 7168, 0, 0] S4x1024x8x128
  shapeCasts_S4x256x8x128_S4x256x1024 : S4x256x8x128.ShapeCasts S4x256x1024
  bitsLt_bf16_f32 : FTy.bits .bf16 < FTy.bits .f32
  dot_S4x256x1024_S1024x1024_S4x256x1024_2_0_01_1_n_n_wf : DotDims.WF S4x256x1024 S1024x1024 S4x256x1024 [2] [0] [0, 1] [1] [] []
  dot_S4x256x8x128_S4x1024x8x128_S4x8x256x1024_3_3_1_1_02_02_wf : DotDims.WF S4x256x8x128 S4x1024x8x128 S4x8x256x1024 [3] [3] [1] [1] [0, 2] [0, 2]
  dot_S4x1024x8x128_S4x8x256x1024_S4x8x128x256_1_3_3_2_02_01_wf : DotDims.WF S4x1024x8x128 S4x8x256x1024 S4x8x128x256 [1] [3] [3] [2] [0, 2] [0, 1]

variable [Facts₀]

def dot_S4x256x1024_S1024x1024_S4x256x1024_2_0_01_1_n_n : DotDims S4x256x1024 S1024x1024 S4x256x1024 where
  lhsContracting := [2]
  rhsContracting := [0]
  lhsNonContracting := [0, 1]
  rhsNonContracting := [1]
  lhsBatch := []
  rhsBatch := []
  wf := dot_S4x256x1024_S1024x1024_S4x256x1024_2_0_01_1_n_n_wf
def dot_S4x256x8x128_S4x1024x8x128_S4x8x256x1024_3_3_1_1_02_02 : DotDims S4x256x8x128 S4x1024x8x128 S4x8x256x1024 where
  lhsContracting := [3]
  rhsContracting := [3]
  lhsNonContracting := [1]
  rhsNonContracting := [1]
  lhsBatch := [0, 2]
  rhsBatch := [0, 2]
  wf := dot_S4x256x8x128_S4x1024x8x128_S4x8x256x1024_3_3_1_1_02_02_wf
def dot_S4x1024x8x128_S4x8x256x1024_S4x8x128x256_1_3_3_2_02_01 : DotDims S4x1024x8x128 S4x8x256x1024 S4x8x128x256 where
  lhsContracting := [1]
  rhsContracting := [3]
  lhsNonContracting := [3]
  rhsNonContracting := [2]
  lhsBatch := [0, 2]
  rhsBatch := [0, 1]
  wf := dot_S4x1024x8x128_S4x8x256x1024_S4x8x128x256_1_3_3_2_02_01_wf

class Facts : Prop extends Facts₀ where

variable [Facts]
-- ==== Proof.RefFrame.lean ====
import proofs.«900755_g7700000000000756_dist_attn_cross_gqa_kvseq_b4_sq256_skv1024_d1024_hq8_dh128_v7x_i8_bf16_1_alg».proof.Defs
import proofs.«900755_g7700000000000756_dist_attn_cross_gqa_kvseq_b4_sq256_skv1024_d1024_hq8_dh128_v7x_i8_bf16_1_alg».proof.Proof.Gen.Pre_finite_inputs_ReferenceIdeal
import proofs.«900755_g7700000000000756_dist_attn_cross_gqa_kvseq_b4_sq256_skv1024_d1024_hq8_dh128_v7x_i8_bf16_1_alg».proof.Proof.Gen.ReferenceIdeal.Run

noncomputable section

open Idealize.ShloMosaic Idealize.ShloMosaic.TcCoe Idealize.SL.Sem

namespace Cert.Hand

theorem frame_ri : Cert.frame_ReferenceIdeal := fun m ρ _ =>
  (θ_run Cert.ReferenceIdeal.defs _ _).mono (fun _ h c => (h c).2) (Cert.ReferenceIdeal.Value.run (F := Ideal) m ρ)

/-- info: 'Cert.Hand.frame_ri' depends on axioms: [propext, Classical.choice, Quot.sound] -/
#guard_msgs in #print axioms frame_ri

end Cert.Hand

end
-- ==== Proof.Base.lean ====
import proofs.«900755_g7700000000000756_dist_attn_cross_gqa_kvseq_b4_sq256_skv1024_d1024_hq8_dh128_v7x_i8_bf16_1_alg».proof.Proof.Gen.KernelIdeal
import proofs.«900755_g7700000000000756_dist_attn_cross_gqa_kvseq_b4_sq256_skv1024_d1024_hq8_dh128_v7x_i8_bf16_1_alg».proof.Proof.Gen.KernelIdeal.Skeleton
import proofs.«900755_g7700000000000756_dist_attn_cross_gqa_kvseq_b4_sq256_skv1024_d1024_hq8_dh128_v7x_i8_bf16_1_alg».proof.Proof.Gen.KernelIdeal.Launch
import proofs.«900755_g7700000000000756_dist_attn_cross_gqa_kvseq_b4_sq256_skv1024_d1024_hq8_dh128_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal.Gen
open Idealize.ShloMosaic
open Idealize.SL Idealize.SL.RA Idealize.SL.BI
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def px (k : Nat) (hk : k < 8) (c : Dev nD) : Dev nD := ⟨c.val ^^^ k, by
  have h := c.isLt
  exact Nat.xor_lt_two_pow (n := 3) h hk⟩

def p4 (c : Dev nD) : Dev nD := px 4 (by decide) c
def p2 (c : Dev nD) : Dev nD := px 2 (by decide) c
def p1 (c : Dev nD) : Dev nD := px 1 (by decide) c

theorem p4_p4 : ∀ c : Dev nD, p4 (p4 c) = c := by decide
theorem p2_p2 : ∀ c : Dev nD, p2 (p2 c) = c := by decide
theorem p1_p1 : ∀ c : Dev nD, p1 (p1 c) = c := by decide

theorem dev1_eq : ∀ c : Dev nD, (⟨k0_dev1 c, k0_dev1_lt c⟩ : Dev nD) = p4 c := by decide +kernel
theorem dev2_eq : ∀ c : Dev nD, (⟨k0_dev2 c, k0_dev2_lt c⟩ : Dev nD) = p2 c := by decide +kernel
theorem dev3_eq : ∀ c : Dev nD, (⟨k0_dev3 c, k0_dev3_lt c⟩ : Dev nD) = p1 c := by decide +kernel
theorem dev4_eq : ∀ c : Dev nD, (⟨k0_dev4 c, k0_dev4_lt c⟩ : Dev nD) = p4 c := by decide +kernel
theorem dev5_eq : ∀ c : Dev nD, (⟨k0_dev5 c, k0_dev5_lt c⟩ : Dev nD) = p4 c := by decide +kernel
theorem dev6_eq : ∀ c : Dev nD, (⟨k0_dev6 c, k0_dev6_lt c⟩ : Dev nD) = p2 c := by decide +kernel
theorem dev7_eq : ∀ c : Dev nD, (⟨k0_dev7 c, k0_dev7_lt c⟩ : Dev nD) = p2 c := by decide +kernel
theorem dev8_eq : ∀ c : Dev nD, (⟨k0_dev8 c, k0_dev8_lt c⟩ : Dev nD) = p1 c := by decide +kernel
theorem dev9_eq : ∀ c : Dev nD, (⟨k0_dev9 c, k0_dev9_lt c⟩ : Dev nD) = p1 c := by decide +kernel
theorem dev10_eq : ∀ c : Dev nD, (⟨k0_dev10 c, k0_dev10_lt c⟩ : Dev nD) = p1 c := by decide +kernel
theorem dev11_eq : ∀ c : Dev nD, (⟨k0_dev11 c, k0_dev11_lt c⟩ : Dev nD) = p2 c := by decide +kernel
theorem dev12_eq : ∀ c : Dev nD, (⟨k0_dev12 c, k0_dev12_lt c⟩ : Dev nD) = p4 c := by decide +kernel
theorem dev13_eq : ∀ c : Dev nD, (⟨k0_dev13 c, k0_dev13_lt c⟩ : Dev nD) = p1 c := by decide +kernel
theorem dev14_eq : ∀ c : Dev nD, (⟨k0_dev14 c, k0_dev14_lt c⟩ : Dev nD) = p2 c := by decide +kernel
theorem dev15_eq : ∀ c : Dev nD, (⟨k0_dev15 c, k0_dev15_lt c⟩ : Dev nD) = p4 c := by decide +kernel
theorem dev16_eq : ∀ c : Dev nD, (⟨k0_dev16 c, k0_dev16_lt c⟩ : Dev nD) = p1 c := by decide +kernel
theorem dev17_eq : ∀ c : Dev nD, (⟨k0_dev17 c, k0_dev17_lt c⟩ : Dev nD) = p4 c := by decide +kernel
theorem dev18_eq : ∀ c : Dev nD, (⟨k0_dev18 c, k0_dev18_lt c⟩ : Dev nD) = p2 c := by decide +kernel
theorem dev19_eq : ∀ c : Dev nD, (⟨k0_dev19 c, k0_dev19_lt c⟩ : Dev nD) = p1 c := by decide +kernel

end Cert.KernelIdeal.Hand

end
-- ==== Proof.Proto.lean ====
import proofs.«900755_g7700000000000756_dist_attn_cross_gqa_kvseq_b4_sq256_skv1024_d1024_hq8_dh128_v7x_i8_bf16_1_alg».proof.Proof.Base

noncomputable section

namespace Cert.KernelIdeal.Hand

open Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev barS : Sem sig := (SemArray.scalar (sig.barrier 0 rfl) : Sems sig S_).sem
abbrev endS : Sem sig := (cc0_scoped0 : Sems sig S_).sem

def sendNo : Fin 13 → DmaSem sig := ![6, 12, 7, 13, 8, 14, 18, 19, 20, 21, 22, 23, 24]
def recvNo : Fin 13 → DmaSem sig := ![9, 15, 10, 16, 11, 17, 25, 26, 27, 28, 29, 30, 31]
def partner : Fin 13 → Dev nD → Dev nD := ![p4, p4, p2, p2, p1, p1, p1, p2, p4, p1, p2, p4, p1]
def barPartner : Fin 3 → Dev nD → Dev nD := ![p4, p2, p1]

theorem partner_partner : ∀ (k : Fin 13) (c : Dev nD), partner k (partner k c) = c := by decide
theorem barPartner_barPartner : ∀ (d : Fin 3) (c : Dev nD), barPartner d (barPartner d c) = c := by decide

abbrev barCell (c : Dev nD) : GSem nD τ sig := ((c : Thread nD τ), .reg barS)
abbrev endCell (c : Dev nD) : GSem nD τ sig := ((c : Thread nD τ), .reg endS)
abbrev sendCell (k : Fin 13) (c : Dev nD) : GSem nD τ sig := ((c : Thread nD τ), .dma (sendNo k))
abbrev recvCell (k : Fin 13) (c : Dev nD) : GSem nD τ sig := ((c : Thread nD τ), .dma (recvNo k))

abbrev sdO : Memref sig .tc .vmem S4x4x2x128x128 .bf16 := Memref.whole cc0_scratch1
abbrev sdML : Memref sig .tc .vmem S4x2x8x128 .f32 := Memref.whole cc0_scratch2
abbrev ro0 : Memref sig .tc .vmem S4x4x2x128x128 .bf16 := Memref.whole cc0_scratch5
abbrev ro1 : Memref sig .tc .vmem S2x4x2x128x128 .bf16 := Memref.whole cc0_scratch6
abbrev ro2 : Memref sig .tc .vmem S1x4x2x128x128 .bf16 := Memref.whole cc0_scratch7
abbrev rml0 : Memref sig .tc .vmem S4x2x8x128 .f32 := Memref.whole cc0_scratch8
abbrev rml1 : Memref sig .tc .vmem S2x2x8x128 .f32 := Memref.whole cc0_scratch9
abbrev rml2 : Memref sig .tc .vmem S1x2x8x128 .f32 := Memref.whole cc0_scratch10
abbrev c0o : Memref sig .tc .vmem S4x4x2x128x128 .bf16 := Memref.whole cc0_scratch11
abbrev c0ml : Memref sig .tc .vmem S4x2x8x128 .f32 := Memref.whole cc0_scratch12
abbrev c1o : Memref sig .tc .vmem S2x4x2x128x128 .bf16 := Memref.whole cc0_scratch13
abbrev c1ml : Memref sig .tc .vmem S2x2x8x128 .f32 := Memref.whole cc0_scratch14
abbrev yx : Memref sig .tc .vmem S8x128x1024 .bf16 := Memref.whole cc0_scratch15

abbrev c0oS (c : Dev nD) : Memref sig .tc .vmem S2x4x2x128x128 .bf16 :=
  c0o.slice (Rect.unit (s := S4x4x2x128x128) (k0_off9 c) S2x4x2x128x128.size (k0_off9_inb c)) (fun _ => rfl)
abbrev c0mlS (c : Dev nD) : Memref sig .tc .vmem S2x2x8x128 .f32 :=
  c0ml.slice (Rect.unit (s := S4x2x8x128) (k0_off10 c) S2x2x8x128.size (k0_off10_inb c)) (fun _ => rfl)
abbrev c1oS (c : Dev nD) : Memref sig .tc .vmem S1x4x2x128x128 .bf16 :=
  c1o.slice (Rect.unit (s := S2x4x2x128x128) (k0_off13 c) S1x4x2x128x128.size (k0_off13_inb c)) (fun _ => rfl)
abbrev c1mlS (c : Dev nD) : Memref sig .tc .vmem S1x2x8x128 .f32 :=
  c1ml.slice (Rect.unit (s := S2x2x8x128) (k0_off14 c) S1x2x8x128.size (k0_off14_inb c)) (fun _ => rfl)

theorem inbY : ∀ (s : Fin 8) (a : Fin 3), (![s.val, 0, 0] : Fin 3 → Nat) a + S1x128x1024.size a ≤ S8x128x1024.size a := by decide

abbrev ySlot (s : Fin 8) : Memref sig .tc .vmem S128x1024 .bf16 :=
  (yx.slice (Rect.unit (s := S8x128x1024) ![s.val, 0, 0] S1x128x1024.size (inbY s)) (fun _ => rfl)).squeeze S128x1024 squeezes_S1x128x1024_S128x1024

def ySrc : Fin 7 → Fin 8 := ![0, 0, 0, 2, 4, 1, 6]
def yDst : Fin 7 → Fin 8 := ![1, 2, 4, 3, 6, 5, 7]

structure Conts (F : FTy → Type) where
  o0 : Dev nD → Vec F S4x4x2x128x128 .bf16
  ml0 : Dev nD → Vec F S4x2x8x128 .f32
  o1 : Dev nD → Vec F S2x4x2x128x128 .bf16
  ml1 : Dev nD → Vec F S2x2x8x128 .f32
  o2 : Dev nD → Vec F S1x4x2x128x128 .bf16
  ml2 : Dev nD → Vec F S1x2x8x128 .f32
  y : Dev nD → Vec F S128x1024 .bf16
  out : Dev nD → Vec F S4x256x1024 .bf16

variable (𝒞 : Conts F)

def held {sp : Space} {s : Shape} {e : EltTy} (v : Memref sig .tc sp s e) (c : Dev nD) : sProp 𝕄 :=
  iprop(∃ f : Buf (Elt F) (v.view.loc (c : Thread nD τ)), (v.view.loc (c : Thread nD τ)) ↦[v.view.set]{fullShare} f)

def holds {sp : Space} {s : Shape} {e : EltTy} (v : Memref sig .tc sp s e) (c : Dev nD) (q : PosShare TreeShare) (x : Vec F s e) : sProp 𝕄 :=
  iprop(∃ f : Buf (Elt F) (v.view.loc (c : Thread nD τ)), ⌜v.view.read (Elt F) f = x⌝ ∗ ((v.view.loc (c : Thread nD τ)) ↦[v.view.set]{q} f))

end Cert.KernelIdeal.Hand

end
-- ==== Proof.Sched.lean ====
import proofs.«900755_g7700000000000756_dist_attn_cross_gqa_kvseq_b4_sq256_skv1024_d1024_hq8_dh128_v7x_i8_bf16_1_alg».proof.Proof.Proto

noncomputable section

namespace Cert.KernelIdeal.Hand

open Cert.KernelIdeal.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (𝒞 : Conts F)

def xorDev (s : Fin 8) (c : Dev nD) : Dev nD := px s.val s.isLt c

def yShare : Fin 7 → PosShare TreeShare :=
  ![fullShare.left.left, fullShare.left.right, fullShare.right, fullShare.left, fullShare.left, fullShare.left, fullShare.left]

def barPay (c : Dev nD) (d : Fin 3) : sProp 𝕄 :=
  match d with
  | ⟨0, _⟩ => iprop(held (F := F) ro0 (p4 c) ∗ held (F := F) rml0 (p4 c) ∗ held (F := F) (ySlot 4) (p4 c) ∗ held (F := F) (ySlot 5) (p4 c)
      ∗ reached ER (recvCell 0 (p4 c)) 0 ∗ reached ER (recvCell 1 (p4 c)) 0 ∗ reached ER (recvCell 8 (p4 c)) 0 ∗ reached ER (recvCell 11 (p4 c)) 0)
  | ⟨1, _⟩ => iprop(held (F := F) ro1 (p2 c) ∗ held (F := F) rml1 (p2 c) ∗ held (F := F) (ySlot 2) (p2 c) ∗ held (F := F) (ySlot 6) (p2 c)
      ∗ reached ER (recvCell 2 (p2 c)) 0 ∗ reached ER (recvCell 3 (p2 c)) 0 ∗ reached ER (recvCell 7 (p2 c)) 0 ∗ reached ER (recvCell 10 (p2 c)) 0)
  | ⟨_ + 2, _⟩ => iprop(held (F := F) ro2 (p1 c) ∗ held (F := F) rml2 (p1 c) ∗ held (F := F) (ySlot 1) (p1 c) ∗ held (F := F) (ySlot 3) (p1 c) ∗ held (F := F) (ySlot 7) (p1 c)
      ∗ reached ER (recvCell 4 (p1 c)) 0 ∗ reached ER (recvCell 5 (p1 c)) 0 ∗ reached ER (recvCell 6 (p1 c)) 0 ∗ reached ER (recvCell 9 (p1 c)) 0 ∗ reached ER (recvCell 12 (p1 c)) 0)

def recvPay (k : Fin 13) (c : Dev nD) : sProp 𝕄 :=
  match k with
  | ⟨0, _⟩ => holds ro0 c fullShare (𝒞.o0 (p4 c))
  | ⟨1, _⟩ => holds rml0 c fullShare (𝒞.ml0 (p4 c))
  | ⟨2, _⟩ => holds ro1 c fullShare (𝒞.o1 (p2 c))
  | ⟨3, _⟩ => holds rml1 c fullShare (𝒞.ml1 (p2 c))
  | ⟨4, _⟩ => holds ro2 c fullShare (𝒞.o2 (p1 c))
  | ⟨5, _⟩ => holds rml2 c fullShare (𝒞.ml2 (p1 c))
  | ⟨j + 6, h⟩ => holds (ySlot (yDst ⟨j, by omega⟩)) c fullShare (𝒞.y (xorDev (yDst ⟨j, by omega⟩) c))

def sendPay (k : Fin 13) (c : Dev nD) : sProp 𝕄 :=
  match k with
  | ⟨0, _⟩ => holds sdO c fullShare (𝒞.o0 c)
  | ⟨1, _⟩ => holds sdML c fullShare (𝒞.ml0 c)
  | ⟨2, _⟩ => holds (c0oS c) c fullShare (𝒞.o1 c)
  | ⟨3, _⟩ => holds (c0mlS c) c fullShare (𝒞.ml1 c)
  | ⟨4, _⟩ => holds (c1oS c) c fullShare (𝒞.o2 c)
  | ⟨5, _⟩ => holds (c1mlS c) c fullShare (𝒞.ml2 c)
  | ⟨j + 6, h⟩ => holds (ySlot (ySrc ⟨j, by omega⟩)) c (yShare ⟨j, by omega⟩) (𝒞.y (xorDev (ySrc ⟨j, by omega⟩) c))

def xferAmt : Fin 13 → ℕ :=
  ![ro0.view.dmaCredit, rml0.view.dmaCredit, ro1.view.dmaCredit, rml1.view.dmaCredit, ro2.view.dmaCredit, rml2.view.dmaCredit,
    (ySlot 1).view.dmaCredit, (ySlot 2).view.dmaCredit, (ySlot 4).view.dmaCredit, (ySlot 3).view.dmaCredit, (ySlot 6).view.dmaCredit,
    (ySlot 5).view.dmaCredit, (ySlot 7).view.dmaCredit]

end Cert.KernelIdeal.Hand

end
-- ==== Proof.Rd.lean ====
import proofs.«900755_g7700000000000756_dist_attn_cross_gqa_kvseq_b4_sq256_skv1024_d1024_hq8_dh128_v7x_i8_bf16_1_alg».proof.Proof.Sched

noncomputable section

namespace Cert.KernelIdeal.Hand

open Cert.KernelIdeal.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

inductive Role where
  | bar | fin | send (k : Fin 13) | recv (k : Fin 13) | idle
  deriving DecidableEq

def dmaRole (q : DmaSem sig) : Role :=
  match q.val with
  | 6 => .send 0 | 12 => .send 1 | 7 => .send 2 | 13 => .send 3 | 8 => .send 4 | 14 => .send 5
  | 18 => .send 6 | 19 => .send 7 | 20 => .send 8 | 21 => .send 9 | 22 => .send 10 | 23 => .send 11 | 24 => .send 12
  | 9 => .recv 0 | 15 => .recv 1 | 10 => .recv 2 | 16 => .recv 3 | 11 => .recv 4 | 17 => .recv 5
  | 25 => .recv 6 | 26 => .recv 7 | 27 => .recv 8 | 28 => .recv 9 | 29 => .recv 10 | 30 => .recv 11 | 31 => .recv 12
  | _ => .idle

def semRole : SemLoc sig → Role
  | .reg s => if s = barS then .bar else if s = endS then .fin else .idle
  | .dma q => dmaRole q

theorem endS_ne_barS : endS ≠ barS := by decide
theorem semRole_bar : semRole (.reg barS) = .bar := by unfold semRole; exact if_pos rfl
theorem semRole_end : semRole (.reg endS) = .fin := by unfold semRole; exact (if_neg endS_ne_barS).trans (if_pos rfl)
theorem semRole_send : ∀ k : Fin 13, semRole (.dma (sendNo k)) = .send k := by decide
theorem semRole_recv : ∀ k : Fin 13, semRole (.dma (recvNo k)) = .recv k := by decide

theorem xferAmt_pos : ∀ k : Fin 13, 0 < xferAmt k := by
  intro k
  fin_cases k <;> exact View.dmaCredit_pos _ (by decide)

def dutiesOf : Role → Finset (Fin 3)
  | .bar => Finset.univ | .fin => Finset.univ | .send _ => {0} | .recv _ => {0} | .idle => ∅
def amtOf : Role → ℕ
  | .send k => xferAmt k | .recv k => xferAmt k | _ => 1
def payOf (𝒞 : Conts F) (c : Dev nD) (d : Fin 3) : Role → sProp 𝕄
  | .bar => barPay (F := F) c d | .fin => iprop(emp) | .send k => sendPay 𝒞 k c | .recv k => recvPay 𝒞 k c | .idle => iprop(emp)

theorem amtOf_pos (ro : Role) : 0 < amtOf ro := by
  cases ro <;> first | exact Nat.one_pos | exact xferAmt_pos _

def Rd (𝒞 : Conts F) : Rounds.Schedule (GSem nD τ sig) (Fin 3) 𝕄 where
  duties g r := if r = 0 ∧ g.1.2 = .tc then dutiesOf (semRole g.2) else ∅
  unitless _ := False
  amount g _ _ := amtOf (semRole g.2)
  payload g _ d := payOf 𝒞 g.1.1 d (semRole g.2)
  amount_pos g _ _ _ := amtOf_pos _

section Tables

theorem duties_bar (𝒞 : Conts F) (c : Dev nD) : (Rd 𝒞).duties (barCell c) 0 = Finset.univ := by
  dsimp only [Rd]; rw [if_pos ⟨rfl, rfl⟩, semRole_bar]; rfl
theorem duties_end (𝒞 : Conts F) (c : Dev nD) : (Rd 𝒞).duties (endCell c) 0 = Finset.univ := by
  dsimp only [Rd]; rw [if_pos ⟨rfl, rfl⟩, semRole_end]; rfl
theorem duties_send (𝒞 : Conts F) (c : Dev nD) (k : Fin 13) : (Rd 𝒞).duties (sendCell k c) 0 = {0} := by
  dsimp only [Rd]; rw [if_pos ⟨rfl, rfl⟩, semRole_send]; rfl
theorem duties_recv (𝒞 : Conts F) (c : Dev nD) (k : Fin 13) : (Rd 𝒞).duties (recvCell k c) 0 = {0} := by
  dsimp only [Rd]; rw [if_pos ⟨rfl, rfl⟩, semRole_recv]; rfl
theorem duties_later (𝒞 : Conts F) (g : GSem nD τ sig) : ∀ r, 1 ≤ r → (Rd 𝒞).duties g r = ∅ :=
  fun r hr => by dsimp only [Rd]; rw [if_neg fun h => by omega]

theorem amount_bar (𝒞 : Conts F) (c : Dev nD) (d : Fin 3) : (Rd 𝒞).amount (barCell c) 0 d = 1 := by dsimp only [Rd]; rw [semRole_bar]; rfl
theorem amount_end (𝒞 : Conts F) (c : Dev nD) (d : Fin 3) : (Rd 𝒞).amount (endCell c) 0 d = 1 := by dsimp only [Rd]; rw [semRole_end]; rfl
theorem amount_send (𝒞 : Conts F) (c : Dev nD) (k : Fin 13) (d : Fin 3) : (Rd 𝒞).amount (sendCell k c) 0 d = xferAmt k := by dsimp only [Rd]; rw [semRole_send]; rfl
theorem amount_recv (𝒞 : Conts F) (c : Dev nD) (k : Fin 13) (d : Fin 3) : (Rd 𝒞).amount (recvCell k c) 0 d = xferAmt k := by dsimp only [Rd]; rw [semRole_recv]; rfl

theorem expect_bar (𝒞 : Conts F) (c : Dev nD) : (Rd 𝒞).expect (barCell c) 0 = 3 := by
  unfold Schedule.expect Schedule.amountOf
  rw [duties_bar, Finset.sum_congr rfl fun d _ => amount_bar 𝒞 c d, Finset.sum_const, Finset.card_univ, Fintype.card_fin, smul_eq_mul]
theorem expect_send (𝒞 : Conts F) (c : Dev nD) (k : Fin 13) : (Rd 𝒞).expect (sendCell k c) 0 = xferAmt k := by
  unfold Schedule.expect Schedule.amountOf; rw [duties_send, Finset.sum_singleton, amount_send]
theorem expect_recv (𝒞 : Conts F) (c : Dev nD) (k : Fin 13) : (Rd 𝒞).expect (recvCell k c) 0 = xferAmt k := by
  unfold Schedule.expect Schedule.amountOf; rw [duties_recv, Finset.sum_singleton, amount_recv]

theorem payload_bar (𝒞 : Conts F) (c : Dev nD) (d : Fin 3) : (Rd 𝒞).payload (barCell c) 0 d = barPay (F := F) c d := by dsimp only [Rd]; rw [semRole_bar]; rfl
theorem payload_end (𝒞 : Conts F) (c : Dev nD) (d : Fin 3) : (Rd 𝒞).payload (endCell c) 0 d = iprop(emp) := by dsimp only [Rd]; rw [semRole_end]; rfl
theorem payload_send (𝒞 : Conts F) (c : Dev nD) (k : Fin 13) (d : Fin 3) : (Rd 𝒞).payload (sendCell k c) 0 d = sendPay 𝒞 k c := by dsimp only [Rd]; rw [semRole_send]; rfl
theorem payload_recv (𝒞 : Conts F) (c : Dev nD) (k : Fin 13) (d : Fin 3) : (Rd 𝒞).payload (recvCell k c) 0 d = recvPay 𝒞 k c := by dsimp only [Rd]; rw [semRole_recv]; rfl

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar (𝒞 : Conts F) (c : Dev nD) : bigSep ((Rd 𝒞).duties (barCell c) 0 \ ∅) (fun d => (Rd 𝒞).payload (barCell c) 0 d)
    = iprop(barPay (F := F) c 0 ∗ barPay (F := F) c 1 ∗ barPay (F := F) c 2) := by
  rw [Finset.sdiff_empty, duties_bar, bigSep_fin3, payload_bar, payload_bar, payload_bar]
theorem rest_send (𝒞 : Conts F) (c : Dev nD) (k : Fin 13) : bigSep ((Rd 𝒞).duties (sendCell k c) 0 \ ∅) (fun d => (Rd 𝒞).payload (sendCell k c) 0 d) = sendPay 𝒞 k c := by
  rw [Finset.sdiff_empty, duties_send, bigSep_singleton, payload_send]
theorem rest_recv (𝒞 : Conts F) (c : Dev nD) (k : Fin 13) : bigSep ((Rd 𝒞).duties (recvCell k c) 0 \ ∅) (fun d => (Rd 𝒞).payload (recvCell k c) 0 d) = recvPay 𝒞 k c := by
  rw [Finset.sdiff_empty, duties_recv, bigSep_singleton, payload_recv]

end Tables

instance held_storable {sp : Space} {s : Shape} {e : EltTy} (v : Memref sig .tc sp s e) (c : Dev nD) :
    BI.Storable (upEmb : UEmb _ 𝕄) (held (F := F) v c) := by unfold held; infer_instance
instance holds_storable {sp : Space} {s : Shape} {e : EltTy} (v : Memref sig .tc sp s e) (c : Dev nD) (q : PosShare TreeShare) (x : Vec F s e) :
    BI.Storable (upEmb : UEmb _ 𝕄) (holds (F := F) v c q x) := by unfold holds; infer_instance

instance barPay_storable (c : Dev nD) (d : Fin 3) : BI.Storable (upEmb : UEmb _ 𝕄) (barPay (F := F) c d) := by
  unfold barPay; split <;> infer_instance
instance recvPay_storable (𝒞 : Conts F) (k : Fin 13) (c : Dev nD) : BI.Storable (upEmb : UEmb _ 𝕄) (recvPay 𝒞 k c) := by
  unfold recvPay; split <;> infer_instance
instance sendPay_storable (𝒞 : Conts F) (k : Fin 13) (c : Dev nD) : BI.Storable (upEmb : UEmb _ 𝕄) (sendPay 𝒞 k c) := by
  unfold sendPay; split <;> infer_instance

instance Rd_payload_storable (𝒞 : Conts F) (g : GSem nD τ sig) (r : ℕ) (d : Fin 3) :
    BI.Storable (upEmb : UEmb _ 𝕄) ((Rd 𝒞).payload g r d) := by
  show BI.Storable upEmb (payOf 𝒞 g.1.1 d (semRole g.2))
  cases semRole g.2 <;> (unfold payOf; infer_instance)

end Cert.KernelIdeal.Hand

end
-- ==== Proof.Dats.lean ====
import proofs.«900755_g7700000000000756_dist_attn_cross_gqa_kvseq_b4_sq256_skv1024_d1024_hq8_dh128_v7x_i8_bf16_1_alg».proof.Proof.Rd

noncomputable section

namespace Cert.KernelIdeal.Hand

open Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

variable (𝒞 : Conts F) (m : (ℓ : Loc nD τ sig) → Buf (Elt F) ℓ) (ρ : Dev nD → PrngReg)

def s₀ : MemSt nD τ sig (Elt F) := ⟨m, fun _ => 0, ρ⟩

def rSem : Fin 19 → SemLoc sig :=
  ![.reg endS, .reg endS, .reg endS,
    .dma (recvNo 12), .dma (recvNo 11), .dma (recvNo 10), .dma (recvNo 9), .dma (recvNo 8), .dma (recvNo 7), .dma (recvNo 6),
    .dma (recvNo 5), .dma (recvNo 4), .dma (recvNo 3), .dma (recvNo 2), .dma (recvNo 1), .dma (recvNo 0),
    .reg barS, .reg barS, .reg barS]
def rTo : Fin 19 → Dev nD → Dev nD :=
  ![p1, p2, p4, partner 12, partner 11, partner 10, partner 9, partner 8, partner 7, partner 6,
    partner 5, partner 4, partner 3, partner 2, partner 1, partner 0, p1, p2, p4]
def rAmt : Fin 19 → ℕ :=
  ![1, 1, 1, xferAmt 12, xferAmt 11, xferAmt 10, xferAmt 9, xferAmt 8, xferAmt 7, xferAmt 6,
    xferAmt 5, xferAmt 4, xferAmt 3, xferAmt 2, xferAmt 1, xferAmt 0, 1, 1, 1]

def rdue (c : Dev nD) (j : Fin 19) : CellTallies nD τ sig Unit := tallyAt (((rTo j c : Dev nD) : Thread nD τ), rSem j) () (rAmt j)

def owedLast (c : Dev nD) : ℕ → CellTallies nD τ sig Unit
  | 0 => 0
  | n + 1 => owedLast c n + (if h : n < 19 then rdue c ⟨n, h⟩ else 0)

abbrev owedFrom (c : Dev nD) (n : ℕ) : CellTallies nD τ sig Unit := owedLast c (19 - n)

def O₀ (c : Dev nD) : CellTallies nD τ sig Unit := owedLast c 19

theorem owed_bar (c : Dev nD) (d : Fin 3) :
    owedFrom c d.val = owedFrom c (d.val + 1) + tallyAt (barCell (barPartner d c)) () 1 := by
  fin_cases d <;> rfl
theorem owed_xfer (c : Dev nD) (k : Fin 13) :
    owedFrom c (3 + k.val) = owedFrom c (4 + k.val) + tallyAt (recvCell k (partner k c)) () (xferAmt k) := by
  fin_cases k <;> rfl
theorem owed_end (c : Dev nD) (d : Fin 3) :
    owedFrom c (16 + d.val) = owedFrom c (17 + d.val) + tallyAt (endCell (barPartner d c)) () 1 := by
  fin_cases d <;> rfl

def L (g : GSem nD τ sig) : Finset Unit := if g.1.2 = .tc then {()} else ∅

def rlev : Fin 13 → ℕ := ![2, 2, 3, 3, 4, 4, 5, 5, 5, 6, 6, 6, 7]
def lvS (s : SemLoc sig) : ℕ :=
  match semRole s with
  | .bar => 1 | .recv k => rlev k | .fin => 8 | .send _ => 0 | .idle => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def csem : Fin 28 → SemLoc sig :=
  ![.reg barS, .reg endS,
    .dma (sendNo 0), .dma (sendNo 1), .dma (sendNo 2), .dma (sendNo 3), .dma (sendNo 4), .dma (sendNo 5), .dma (sendNo 6),
    .dma (sendNo 7), .dma (sendNo 8), .dma (sendNo 9), .dma (sendNo 10), .dma (sendNo 11), .dma (sendNo 12),
    .dma (recvNo 0), .dma (recvNo 1), .dma (recvNo 2), .dma (recvNo 3), .dma (recvNo 4), .dma (recvNo 5), .dma (recvNo 6),
    .dma (recvNo 7), .dma (recvNo 8), .dma (recvNo 9), .dma (recvNo 10), .dma (recvNo 11), .dma (recvNo 12)]
abbrev kcell (ck : Dev nD × Fin 28) : GSem nD τ sig := ((ck.1 : Thread nD τ), csem ck.2)
def sIx (k : Fin 13) : Fin 28 := ⟨2 + k.val, by omega⟩
def rIx (k : Fin 13) : Fin 28 := ⟨15 + k.val, by omega⟩
theorem csem_sIx : ∀ k : Fin 13, csem (sIx k) = .dma (sendNo k) := by decide
theorem csem_rIx : ∀ k : Fin 13, csem (rIx k) = .dma (recvNo k) := by decide
abbrev osem : Fin 27 → SemLoc sig := fun i => csem i.succ

def invs (K : Dev nD × Fin 28 → ℕ) (c : Dev nD) : sProp 𝕄 :=
  iprop(cellInv ER (Rd 𝒞) (K (c, 0)) (barCell c) ∗ cellInv ER (Rd 𝒞) (K (c, 1)) (endCell c)
    ∗ (bigSep Finset.univ fun k : Fin 13 => cellInv ER (Rd 𝒞) (K (c, sIx k)) (sendCell k c))
    ∗ (bigSep Finset.univ fun k : Fin 13 => cellInv ER (Rd 𝒞) (K (c, rIx k)) (recvCell k c))
    ∗ (bigSep Finset.univ fun d : Fin 3 => cellInv ER (Rd 𝒞) (K (barPartner d c, 0)) (barCell (barPartner d c)))
    ∗ (bigSep Finset.univ fun d : Fin 3 => cellInv ER (Rd 𝒞) (K (barPartner d c, 1)) (endCell (barPartner d c)))
    ∗ (bigSep Finset.univ fun k : Fin 13 => cellInv ER (Rd 𝒞) (K (partner k c, rIx k)) (recvCell k (partner k c))))

instance invs_persistent (K : Dev nD × Fin 28 → ℕ) (c : Dev nD) : BI.Persistent (invs 𝒞 K c) := by
  unfold invs; infer_instance

def marks (c : Dev nD) : sProp 𝕄 :=
  iprop(reached ER (barCell c) 0 ∗ reached ER (endCell c) 0
    ∗ (bigSep Finset.univ fun k : Fin 13 => reached ER (sendCell k c) 0)
    ∗ (bigSep Finset.univ fun k : Fin 13 => reached ER (recvCell k c) 0)
    ∗ (bigSep Finset.univ fun d : Fin 3 => reached ER (barCell (barPartner d c)) 0)
    ∗ (bigSep Finset.univ fun d : Fin 3 => reached ER (endCell (barPartner d c)) 0)
    ∗ (bigSep Finset.univ fun k : Fin 13 => reached ER (recvCell k (partner k c)) 0))

instance marks_persistent (c : Dev nD) : BI.Persistent (marks (F := F) c) := by unfold marks; infer_instance

def positions (c : Dev nD) : sProp 𝕄 :=
  iprop(atPos ER (barCell c) 0 ∅ 0 ∗ atPos ER (endCell c) 0 ∅ 0
    ∗ (bigSep Finset.univ fun k : Fin 13 => atPos ER (sendCell k c) 0 ∅ 0)
    ∗ (bigSep Finset.univ fun k : Fin 13 => atPos ER (recvCell k c) 0 ∅ 0))

def payToks (c : Dev nD) : sProp 𝕄 :=
  iprop((bigSep Finset.univ fun d : Fin 3 => dutyTok ER (barCell (barPartner d c)) 0 d)
    ∗ (bigSep Finset.univ fun d : Fin 3 => dutyTok ER (endCell (barPartner d c)) 0 d)
    ∗ (bigSep Finset.univ fun k : Fin 13 => dutyTok ER (recvCell k (partner k c)) 0 (0 : Fin 3))
    ∗ (bigSep Finset.univ fun k : Fin 13 => dutyTok ER (sendCell k c) 0 (0 : Fin 3)))

def ghost (K : Dev nD × Fin 28 → ℕ) (c : Dev nD) : sProp 𝕄 :=
  iprop(invs 𝒞 K c ∗ marks c ∗ positions c ∗ payToks c)

def creds (c : Dev nD) : sProp 𝕄 :=
  iprop(cred (tallyAt (barCell c) () 3) ∗ cred (tallyAt (endCell c) () 3)
    ∗ (bigSep Finset.univ fun k : Fin 13 => cred (tallyAt (recvCell k c) () (xferAmt k))))

def start (c : Dev nD) : sProp 𝕄 :=
  iprop((∃ K, ghost 𝒞 K c) ∗ creds c ∗ levAts L lv)

def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f)
    ∗ (∃ f : Buf (Elt F) ((c : Thread nD τ).loc cc0_scratch12), ((c : Thread nD τ).loc cc0_scratch12) ↦{fullShare} f)
    ∗ (∃ f : Buf (Elt F) ((c : Thread nD τ).loc cc0_scratch13), ((c : Thread nD τ).loc cc0_scratch13) ↦{fullShare} f)
    ∗ (∃ f : Buf (Elt F) ((c : Thread nD τ).loc cc0_scratch14), ((c : Thread nD τ).loc cc0_scratch14) ↦{fullShare} f)
    ∗ (∃ f : Buf (Elt F) ((c : Thread nD τ).loc cc0_scratch15), ((c : Thread nD τ).loc cc0_scratch15) ↦{fullShare} f))

def Φ₀ (c : Dev nD) : sProp 𝕄 := iprop(start 𝒞 c ∗ scratchAny c)
def Φ₁ (c : Dev nD) : sProp 𝕄 :=
  iprop(scratchAny c ∗ semVal (endCell c) 0
    ∗ (bigSep Finset.univ fun k : Fin 13 => semVal (sendCell k c) 0)
    ∗ (bigSep Finset.univ fun k : Fin 13 => semVal (recvCell k c) 0))

def xin0 (c : Dev nD) : (cc0_stg0_0 : Ref sig .tc).ty.Contents (Elt F) :=
  (win0_0.blk (0 : Fin 1)).view.read (Elt F) ((s₀ m ρ).mem ((c : Thread nD τ).loc main_arg0))
def xin1 (c : Dev nD) : (cc0_stg1_0 : Ref sig .tc).ty.Contents (Elt F) :=
  (win0_1.blk (0 : Fin 1)).view.read (Elt F) ((s₀ m ρ).mem ((c : Thread nD τ).loc main_arg1))
def xin2 (c : Dev nD) : (cc0_stg2_0 : Ref sig .tc).ty.Contents (Elt F) :=
  (win0_2.blk (0 : Fin 1)).view.read (Elt F) ((s₀ m ρ).mem ((c : Thread nD τ).loc main_arg2))
def xin3 (c : Dev nD) : (cc0_stg3_0 : Ref sig .tc).ty.Contents (Elt F) :=
  (win0_3.blk (0 : Fin 1)).view.read (Elt F) ((s₀ m ρ).mem ((c : Thread nD τ).loc main_arg3))
def xin4 (c : Dev nD) : (cc0_stg4_0 : Ref sig .tc).ty.Contents (Elt F) :=
  (win0_4.blk (0 : Fin 1)).view.read (Elt F) ((s₀ m ρ).mem ((c : Thread nD τ).loc main_arg4))

def dats (_ : Fin 1) (c : Dev nD) :
    Dat τ (Elt F) Unit ℕ UU ℕ cfg0 c where
  A w := (s₀ m ρ).mem ((cfg0.win w).arr.view.loc (c : Thread nD τ))
  after w _ := match w with
    | ⟨0, _⟩ => xin0 m ρ c
    | ⟨1, _⟩ => xin1 m ρ c
    | ⟨2, _⟩ => xin2 m ρ c
    | ⟨3, _⟩ => xin3 m ρ c
    | ⟨4, _⟩ => xin4 m ρ c
    | ⟨5, _⟩ => 𝒞.out c
  Φ t := match t with
    | ⟨0, _⟩ => Φ₀ 𝒞 c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 28 → ℕ) (c : Dev nD) : sProp 𝕄 :=
  iprop((ghost 𝒞 K c ∗ creds c ∗ levAts L lv ∗ scratchAny c)
    ∗ (dats 𝒞 m ρ 0 c).owesAt () t0_0.castSucc
    ∗ (∃ d, stg c cc0_stg0_0 ((dats 𝒞 m ρ 0 c).before (0 : Fin 6) t0_0 d))
    ∗ (∃ d, stg c cc0_stg1_0 ((dats 𝒞 m ρ 0 c).before (1 : Fin 6) t0_0 d))
    ∗ (∃ d, stg c cc0_stg2_0 ((dats 𝒞 m ρ 0 c).before (2 : Fin 6) t0_0 d))
    ∗ (∃ d, stg c cc0_stg3_0 ((dats 𝒞 m ρ 0 c).before (3 : Fin 6) t0_0 d))
    ∗ (∃ d, stg c cc0_stg4_0 ((dats 𝒞 m ρ 0 c).before (4 : Fin 6) t0_0 d))
    ∗ (∃ d, stg c cc0_stg5_0 ((dats 𝒞 m ρ 0 c).before (5 : Fin 6) t0_0 d)))

def bodyPost (c : Dev nD) : sProp 𝕄 :=
  iprop(Φ₁ c ∗ (dats 𝒞 m ρ 0 c).owesAt () t0_0.succ
    ∗ stg c cc0_stg0_0 (xin0 m ρ c) ∗ stg c cc0_stg1_0 (xin1 m ρ c) ∗ stg c cc0_stg2_0 (xin2 m ρ c)
    ∗ stg c cc0_stg3_0 (xin3 m ρ c) ∗ stg c cc0_stg4_0 (xin4 m ρ c) ∗ stg c cc0_stg5_0 (𝒞.out c))

end Cert.KernelIdeal.Hand

end
-- ==== Proof.Fund.lean ====
import proofs.«900755_g7700000000000756_dist_attn_cross_gqa_kvseq_b4_sq256_skv1024_d1024_hq8_dh128_v7x_i8_bf16_1_alg».proof.Proof.Dats

noncomputable section

namespace Cert.KernelIdeal.Hand

open Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin28 (Φ : Fin 28 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

theorem split28 (Φ : Fin 28 → sProp 𝕄) :
    bigSep Finset.univ Φ ⊢ iprop(Φ 0 ∗ Φ 1 ∗ (bigSep Finset.univ fun k : Fin 13 => Φ (sIx k)) ∗ (bigSep Finset.univ fun k : Fin 13 => Φ (rIx k))) := by
  rw [bigSep_fin28, bigSep_fin13, bigSep_fin13]
  change _ ⊢ iprop(Φ 0 ∗ Φ 1 ∗ (Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ∗ (Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27))
  iintro ⟨H0, H1, H2, H3, H4, H5, H6, H7, H8, H9, H10, H11, H12, H13, H14, H15, H16, H17, H18, H19, H20, H21, H22, H23, H24, H25, H26, H27⟩
  iframe

theorem deal {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_congr (s := Finset.univ) (fun i _ => bigSep_univ_equiv (e i) (Φ i)), bigSep_univ_comm]

def barEquiv (d : Fin 3) : Dev nD ≃ Dev nD := ⟨barPartner d, barPartner d, barPartner_barPartner d, barPartner_barPartner d⟩
def partnerEquiv (k : Fin 13) : Dev nD ≃ Dev nD := ⟨partner k, partner k, partner_partner k, partner_partner k⟩

theorem csem_injective : Function.Injective (csem : Fin 28 → SemLoc sig) := by decide

theorem kcell_injective : Function.Injective (kcell : Dev nD × Fin 28 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def protoCells : Finset (GSem nD τ sig) := Finset.univ.map ⟨kcell, kcell_injective⟩

theorem kcell_send (c : Dev nD) (k : Fin 13) : kcell (c, sIx k) = sendCell k c := by
  show (((c : Dev nD) : Thread nD τ), csem (sIx k)) = _; rw [csem_sIx]
theorem kcell_recv (c : Dev nD) (k : Fin 13) : kcell (c, rIx k) = recvCell k c := by
  show (((c : Dev nD) : Thread nD τ), csem (rIx k)) = _; rw [csem_rIx]

abbrev TI : Type := (Fin 3 ⊕ Fin 3) ⊕ (Fin 13 ⊕ Fin 13)
def tokD : TI → SemLoc sig × Fin 3
  | .inl (.inl d) => (.reg barS, d)
  | .inl (.inr d) => (.reg endS, d)
  | .inr (.inl k) => (.dma (sendNo k), 0)
  | .inr (.inr k) => (.dma (recvNo k), 0)
theorem tokD_injective : Function.Injective tokD := by decide
abbrev tokOf (cj : Dev nD × TI) : GSem nD τ sig × ℕ × Fin 3 := (((cj.1 : Thread nD τ), (tokD cj.2).1), 0, (tokD cj.2).2)
theorem tokOf_injective : Function.Injective (tokOf : Dev nD × TI → GSem nD τ sig × ℕ × Fin 3) := by
  rintro ⟨c, j⟩ ⟨c', j'⟩ h
  have h1 : c = c' := congrArg (fun x : GSem nD τ sig × ℕ × Fin 3 => x.1.1.1) h
  subst h1
  have h2 : tokD j = tokD j' :=
    Prod.ext (congrArg (fun x : GSem nD τ sig × ℕ × Fin 3 => x.1.2) h) (congrArg (fun x : GSem nD τ sig × ℕ × Fin 3 => x.2.2) h)
  rw [tokD_injective h2]
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop(((bigSep Finset.univ fun d : Fin 3 => dutyTok ER (barCell c) 0 d) ∗ (bigSep Finset.univ fun d : Fin 3 => dutyTok ER (endCell c) 0 d))
    ∗ ((bigSep Finset.univ fun k : Fin 13 => dutyTok ER (sendCell k c) 0 (0 : Fin 3))
      ∗ (bigSep Finset.univ fun k : Fin 13 => dutyTok ER (recvCell k c) 0 (0 : Fin 3))))

def G (𝒞 : Conts F) (c : Dev nD) : sProp 𝕄 :=
  iprop((bigSep Finset.univ fun k : Fin 28 => roundState ER (Rd 𝒞) (kcell (c, k)) 0)
    ∗ (bigSep Finset.univ fun k : Fin 28 => iprop(atPos ER (kcell (c, k)) 0 ∅ 0 ∗ reached ER (kcell (c, k)) 0)) ∗ toks c)

def G' (𝒞 : Conts F) (c : Dev nD) : sProp 𝕄 := iprop(∃ K, ghost 𝒞 K c)

theorem fund_proto (𝒞 : Conts F) : BI.own (ER (initOf protoCells protoToks)) ⊢ (|==> bigSep Finset.univ (G 𝒞) : sProp 𝕄) := by
  have hX (Φ : GSem nD τ sig → sProp 𝕄) : bigSep protoCells Φ = bigSep Finset.univ fun c : Dev nD => bigSep Finset.univ fun k : Fin 28 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum, bigSep_univ_sum]; rfl
  iintro HX
  imod (Rounds.fund ER (Rd 𝒞) protoCells protoToks) $$ HX with ⟨Hst, Hr, Hat, Htok⟩
  imodintro
  ihave Hst' := (Entails.of_eq (hX fun g => roundState ER (Rd 𝒞) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

end Cert.KernelIdeal.Hand

end
-- ==== Proof.Alloc.lean ====
import proofs.«900755_g7700000000000756_dist_attn_cross_gqa_kvseq_b4_sq256_skv1024_d1024_hq8_dh128_v7x_i8_bf16_1_alg».proof.Proof.Fund

noncomputable section

namespace Cert.KernelIdeal.Hand

open Cert.KernelIdeal.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

theorem ownSemFacts : Pipeline.OwnSemFacts cfg0.spec osem := by decide

theorem ownSems0_eq (c : Dev nD) : (Pipeline.ownSems0 osem c : sProp 𝕄)
    = iprop(semVal (endCell c) 0 ∗ semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0 ∗ semVal (sendCell 8 c) 0 ∗ semVal (sendCell 9 c) 0 ∗ semVal (sendCell 10 c) 0 ∗ semVal (sendCell 11 c) 0 ∗ semVal (sendCell 12 c) 0
        ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0 ∗ semVal (recvCell 8 c) 0 ∗ semVal (recvCell 9 c) 0 ∗ semVal (recvCell 10 c) 0 ∗ semVal (recvCell 11 c) 0 ∗ semVal (recvCell 12 c) 0) := by
  rw [Pipeline.ownSems0_eq_of_list c osem [0, 1, 2, 3, 4, 5, 6, 7, 8, 9, 10, 11, 12, 13, 14, 15, 16, 17, 18, 19, 20, 21, 22, 23, 24, 25, 26] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : Fin 28 => semVal (kcell (c, k)) 0 : sProp 𝕄) := by
  rw [ownSems0_eq, unscopedSems0_eq, bigSep_fin28]
  iintro ⟨H, HB⟩
  isplitl [HB]; · iexact HB
  iexact H

theorem core_alloc (𝒞 : Conts F) (c : Dev nD) :
    iprop(Pipeline.ownSems0 osem c ∗ unscopedSems0 c ∗ G 𝒞 c)
      ⊢ |={Set.univ}=> iprop((bigSep Finset.univ fun k => iprop(∃ κ : ℕ, cellInv ER (Rd 𝒞) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe
  imod (show iprop((bigSep Finset.univ fun k : Fin 28 => semVal (kcell (c, k)) 0) ∗ bigSep Finset.univ fun k : Fin 28 => roundState ER (Rd 𝒞) (kcell (c, k)) 0)
      ⊢ (|={Set.univ}=> bigSep Finset.univ fun k => iprop(∃ κ : ℕ, cellInv ER (Rd 𝒞) κ (kcell (c, k))) : sProp 𝕄) from by
        rw [← bigSep_sep']
        exact (bigSep_mono fun k _ => (Rounds.body_intro ER (Rd 𝒞) (kcell (c, k))).trans inv_alloc).trans (bigSep_fupd _ _)) $$ [Hv Hst] with Hinv
  · iframe
  imodintro
  iframe

def records (𝒞 : Conts F) (K : Dev nD × Fin 28 → ℕ) : sProp 𝕄 :=
  iprop((bigSep Finset.univ fun ck : Dev nD × Fin 28 => cellInv ER (Rd 𝒞) (K ck) (kcell ck))
    ∗ bigSep Finset.univ fun ck : Dev nD × Fin 28 => reached ER (kcell ck) 0)

instance records_persistent (𝒞 : Conts F) (K : Dev nD × Fin 28 → ℕ) : BI.Persistent (records 𝒞 K) := by unfold records; infer_instance

theorem rec_inv (𝒞 : Conts F) (K : Dev nD × Fin 28 → ℕ) (ck : Dev nD × Fin 28) :
    records 𝒞 K ⊢ cellInv ER (Rd 𝒞) (K ck) (kcell ck) := by
  have h : (bigSep Finset.univ fun ck : Dev nD × Fin 28 => (cellInv ER (Rd 𝒞) (K ck) (kcell ck) : sProp 𝕄)) ⊢ cellInv ER (Rd 𝒞) (K ck) (kcell ck) :=
    bigSep_elim (Finset.mem_univ ck)
  unfold records; iintro ⟨H, -⟩; iapply h; iexact H
theorem rec_reached (𝒞 : Conts F) (K : Dev nD × Fin 28 → ℕ) (ck : Dev nD × Fin 28) :
    records 𝒞 K ⊢ reached ER (kcell ck) 0 := by
  have h : (bigSep Finset.univ fun ck : Dev nD × Fin 28 => (reached ER (kcell ck) 0 : sProp 𝕄)) ⊢ reached ER (kcell ck) 0 :=
    bigSep_elim (Finset.mem_univ ck)
  unfold records; iintro ⟨-, H⟩; iapply h; iexact H

theorem around (𝒞 : Conts F) (K : Dev nD × Fin 28 → ℕ) (c : Dev nD) (Ψ : ℕ → GSem nD τ sig → sProp 𝕄)
    (h : ∀ ck, records 𝒞 K ⊢ Ψ (K ck) (kcell ck)) :
    records 𝒞 K ⊢ iprop(Ψ (K (c, 0)) (barCell c) ∗ Ψ (K (c, 1)) (endCell c)
      ∗ (bigSep Finset.univ fun k : Fin 13 => Ψ (K (c, sIx k)) (sendCell k c))
      ∗ (bigSep Finset.univ fun k : Fin 13 => Ψ (K (c, rIx k)) (recvCell k c))
      ∗ (bigSep Finset.univ fun d : Fin 3 => Ψ (K (barPartner d c, 0)) (barCell (barPartner d c)))
      ∗ (bigSep Finset.univ fun d : Fin 3 => Ψ (K (barPartner d c, 1)) (endCell (barPartner d c)))
      ∗ (bigSep Finset.univ fun k : Fin 13 => Ψ (K (partner k c, rIx k)) (recvCell k (partner k c)))) := by
  have hb (c : Dev nD) : records 𝒞 K ⊢ Ψ (K (c, 0)) (barCell c) := h (c, 0)
  have he (c : Dev nD) : records 𝒞 K ⊢ Ψ (K (c, 1)) (endCell c) := h (c, 1)
  have hs (c : Dev nD) (k : Fin 13) : records 𝒞 K ⊢ Ψ (K (c, sIx k)) (sendCell k c) := kcell_send c k ▸ h (c, sIx k)
  have hr (c : Dev nD) (k : Fin 13) : records 𝒞 K ⊢ Ψ (K (c, rIx k)) (recvCell k c) := kcell_recv c k ▸ h (c, rIx k)
  iintro #HR
  isplitr; · iapply (hb c); iexact HR
  isplitr; · iapply (he c); iexact HR
  isplitr; · iapply (bigSep_intro_persistent (R := records 𝒞 K) fun k _ => hs c k); iexact HR
  isplitr; · iapply (bigSep_intro_persistent (R := records 𝒞 K) fun k _ => hr c k); iexact HR
  isplitr; · iapply (bigSep_intro_persistent (R := records 𝒞 K) fun d _ => hb (barPartner d c)); iexact HR
  isplitr; · iapply (bigSep_intro_persistent (R := records 𝒞 K) fun d _ => he (barPartner d c)); iexact HR
  iapply (bigSep_intro_persistent (R := records 𝒞 K) fun k _ => hr (partner k c) k); iexact HR

theorem invs_of_records (𝒞 : Conts F) (K : Dev nD × Fin 28 → ℕ) (c : Dev nD) : records 𝒞 K ⊢ invs 𝒞 K c :=
  around 𝒞 K c (fun κ g => cellInv ER (Rd 𝒞) κ g) (rec_inv 𝒞 K)
theorem marks_of_records (𝒞 : Conts F) (K : Dev nD × Fin 28 → ℕ) (c : Dev nD) : records 𝒞 K ⊢ marks c :=
  around 𝒞 K c (fun _ g => reached ER g 0) (rec_reached 𝒞 K)

theorem split_cells (c : Dev nD) (Ψ : GSem nD τ sig → sProp 𝕄) :
    (bigSep Finset.univ fun k : Fin 28 => Ψ (kcell (c, k)))
      ⊢ iprop(Ψ (barCell c) ∗ Ψ (endCell c) ∗ (bigSep Finset.univ fun k : Fin 13 => Ψ (sendCell k c)) ∗ (bigSep Finset.univ fun k : Fin 13 => Ψ (recvCell k c))) := by
  refine (split28 fun k => Ψ (kcell (c, k))).trans ?_
  simp only [kcell_send, kcell_recv]; exact .rfl

def linear (c : Dev nD) : sProp 𝕄 :=
  iprop((bigSep Finset.univ fun k : Fin 28 => atPos ER (kcell (c, k)) 0 ∅ 0) ∗ payToks c)

theorem ghost_intro (𝒞 : Conts F) (K : Dev nD × Fin 28 → ℕ) (c : Dev nD) : iprop(records 𝒞 K ∗ linear c) ⊢ G' 𝒞 c := by
  unfold linear G' ghost positions
  iintro ⟨#HR, Hat, Htok⟩
  iexists K
  isplitr; · iapply (invs_of_records 𝒞 K c); iexact HR
  isplitr; · iapply (marks_of_records 𝒞 K c); iexact HR
  isplitl [Hat]; · iapply (split_cells c fun g => atPos ER g 0 ∅ 0); iexact Hat
  iexact Htok

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal barEquiv (fun d c => (dutyTok ER (barCell c) 0 d : sProp 𝕄)),
    deal barEquiv (fun d c => (dutyTok ER (endCell c) 0 d : sProp 𝕄)),
    deal partnerEquiv (fun k c => (dutyTok ER (recvCell k c) 0 (0 : Fin 3) : sProp 𝕄))]
  iintro ⟨⟨HA, HB⟩, HS, HR⟩
  isplitl [HA]; · iexact HA
  isplitl [HB]; · iexact HB
  isplitl [HR]; · iexact HR
  iexact HS

theorem regroup (𝒞 : Conts F) :
    (bigSep Finset.univ fun c : Dev nD => iprop((bigSep Finset.univ fun k => iprop(∃ κ : ℕ, cellInv ER (Rd 𝒞) κ (kcell (c, k))))
          ∗ (bigSep Finset.univ fun k => iprop(atPos ER (kcell (c, k)) 0 ∅ 0 ∗ reached ER (kcell (c, k)) 0)) ∗ toks c) : sProp 𝕄)
      ⊢ bigSep Finset.univ (G' 𝒞) := by
  rw [bigSep_sep', bigSep_sep', ← bigSep_univ_prod (fun ck : Dev nD × Fin 28 => iprop(∃ κ : ℕ, cellInv ER (Rd 𝒞) κ (kcell ck))),
    bigSep_congr (s := Finset.univ) (fun (c : Dev nD) _ => bigSep_sep' Finset.univ (fun k : Fin 28 => (atPos ER (kcell (c, k)) 0 ∅ 0 : sProp 𝕄)) (fun k => reached ER (kcell (c, k)) 0)),
    bigSep_sep', ← bigSep_univ_prod (fun ck : Dev nD × Fin 28 => (reached ER (kcell ck) 0 : sProp 𝕄))]
  iintro ⟨HI, ⟨Hat, #HR⟩, Htok⟩
  ihave HK := (BI.bigSep_exists_pi Finset.univ (fun (ck : Dev nD × Fin 28) (κ : ℕ) => (cellInv ER (Rd 𝒞) κ (kcell ck) : sProp 𝕄))) $$ HI
  icases HK with ⟨%K, #HI⟩
  ihave Htk := (toks_around (F := F)) $$ Htok
  iapply (bigSep_with_persistent (R := records 𝒞 K) fun c _ => ghost_intro 𝒞 K c)
  isplitr
  · unfold records; isplitl; · iexact HI
    iexact HR
  · iapply ((Entails.of_eq (bigSep_sep' Finset.univ (fun c : Dev nD => bigSep Finset.univ fun k : Fin 28 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob (𝒞 : Conts F) : (bigSep Finset.univ fun c => iprop(Pipeline.ownSems0 osem c ∗ unscopedSems0 c ∗ G 𝒞 c) : sProp 𝕄)
    ⊢ |={Set.univ}=> bigSep Finset.univ (G' 𝒞) :=
  ((bigSep_mono fun c _ => core_alloc 𝒞 c).trans (bigSep_fupd _ _)).trans (BI.fupd_mono (regroup 𝒞))

/-- info: 'Cert.KernelIdeal.Hand.glob' depends on axioms: [propext, Classical.choice, Quot.sound] -/
#guard_msgs in #print axioms glob

end Cert.KernelIdeal.Hand

end
-- ==== Proof.Levels.lean ====
import proofs.«900755_g7700000000000756_dist_attn_cross_gqa_kvseq_b4_sq256_skv1024_d1024_hq8_dh128_v7x_i8_bf16_1_alg».proof.Proof.Dats

noncomputable section

namespace Cert.KernelIdeal.Hand

open Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type}

local notation "𝕄" => MT nD τ sig Unit (Elt F) ℕ UU ℕ

theorem owedLast_succ (c : Dev nD) (n : ℕ) (h : n < 19) : owedLast c (n + 1) = owedLast c n + rdue c ⟨n, h⟩ := by
  rw [owedLast, dif_pos h]

theorem owedLast_pos {c : Dev nD} : ∀ {n : ℕ} {g : GSem nD τ sig} {u : Unit}, 0 < owedLast c n g u →
    ∃ j : Fin 19, j.val < n ∧ g = (((rTo j c : Dev nD) : Thread nD τ), rSem j)
  | 0, g, u, h => absurd h (Nat.lt_irrefl 0)
  | n + 1, g, u, h => by
    rw [owedLast] at h
    rcases Pipeline.add_pos_cases h with h1 | h2
    · obtain ⟨j, hj, hg⟩ := owedLast_pos h1
      exact ⟨j, Nat.lt_succ_of_lt hj, hg⟩
    · by_cases hn : n < 19
      · rw [dif_pos hn] at h2
        exact ⟨⟨n, hn⟩, Nat.lt_succ_self n, (Pipeline.tallyAt_pos h2).1⟩
      · rw [dif_neg hn] at h2
        exact absurd h2 (Nat.lt_irrefl 0)

theorem mayWait_at (c : Dev nD) (s : SemLoc sig) (n : ℕ) (h : ∀ j : Fin 19, j.val < n → lvS s < lvS (rSem j)) :
    (levAts L lv : sProp 𝕄) ⊢ MayWait (c : Thread nD τ) s () (owedLast c n) :=
  Pipeline.mayWait_of_levAts (by rw [L_tc]; exact Finset.mem_singleton_self _) fun g i hg => by
    obtain ⟨j, hj, rfl⟩ := owedLast_pos hg
    exact ⟨by rw [L_tc]; exact Finset.mem_singleton.mpr rfl, h j hj⟩

theorem due_levels_pos : ∀ j : Fin 19, 0 < lvS (rSem j) := by decide

theorem mayWait_low (c : Dev nD) (s : SemLoc sig) (hs : lvS s = 0) (n : ℕ) :
    (levAts L lv : sProp 𝕄) ⊢ MayWait (c : Thread nD τ) s () (owedLast c n) :=
  mayWait_at c s n fun j _ => by rw [hs]; exact due_levels_pos j

theorem lvS_send : ∀ k : Fin 13, lvS (.dma (sendNo k)) = 0 := by decide

def waitAt : Fin 13 → ℕ := ![5, 5, 7, 7, 9, 9, 12, 12, 12, 15, 15, 15, 16]

theorem recv_below : ∀ (k : Fin 13) (j : Fin 19), j.val < 19 - waitAt k → lvS (.dma (recvNo k)) < lvS (rSem j) := by decide
theorem bar_below : ∀ j : Fin 19, j.val < 19 - 3 → lvS (.reg barS) < lvS (rSem j) := by decide

theorem mayWait_bar (c : Dev nD) : (levAts L lv : sProp 𝕄) ⊢ MayWait (c : Thread nD τ) (.reg barS) () (owedFrom c 3) :=
  mayWait_at c _ _ bar_below
theorem mayWait_send (c : Dev nD) (k : Fin 13) (n : ℕ) :
    (levAts L lv : sProp 𝕄) ⊢ MayWait (c : Thread nD τ) (.dma (sendNo k)) () (owedFrom c n) :=
  mayWait_low c _ (lvS_send k) _
theorem mayWait_recv (c : Dev nD) (k : Fin 13) :
    (levAts L lv : sProp 𝕄) ⊢ MayWait (c : Thread nD τ) (.dma (recvNo k)) () (owedFrom c (waitAt k)) :=
  mayWait_at c _ _ (recv_below k)

theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact mayWait_low c _ hq 19
  · rw [MayWait_zero]; iintro -; iempintro

/-- info: 'Cert.KernelIdeal.Hand.mayWait_recv' depends on axioms: [propext, Classical.choice, Quot.sound] -/
#guard_msgs in #print axioms mayWait_recv

end Cert.KernelIdeal.Hand

end
-- ==== Proof.Launch.lean ====
import proofs.«900755_g7700000000000756_dist_attn_cross_gqa_kvseq_b4_sq256_skv1024_d1024_hq8_dh128_v7x_i8_bf16_1_alg».proof.Proof.Alloc
import proofs.«900755_g7700000000000756_dist_attn_cross_gqa_kvseq_b4_sq256_skv1024_d1024_hq8_dh128_v7x_i8_bf16_1_alg».proof.Proof.Levels

noncomputable section

namespace Cert.KernelIdeal.Hand

open Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

theorem rTo_invol : ∀ (j : Fin 19) (c : Dev nD), rTo j (rTo j c) = c := by decide

omit [FloatOps F] in
theorem launch_due (j : Fin 19) (c : Dev nD) :
    (Pipeline.launchCred (fun d => rdue d j) c : sProp 𝕄) ⊢ cred (tallyAt ((c : Thread nD τ), rSem j) () (rAmt j)) :=
  Pipeline.launchCred_tallyAt (rSem j) (rTo j) (rTo j) (rTo_invol j) (rTo_invol j) () (rAmt j) c

omit [FloatOps F] in
theorem launch_step (c : Dev nD) (n : ℕ) (h : n < 19) :
    (Pipeline.launchCred (fun d => owedLast d (n + 1)) c : sProp 𝕄)
      = iprop(Pipeline.launchCred (fun d => owedLast d n) c ∗ Pipeline.launchCred (fun d => rdue d ⟨n, h⟩) c) := by
  rw [← Pipeline.launchCred_add]
  exact congrArg (fun O => (Pipeline.launchCred O c : sProp 𝕄)) (funext fun d => owedLast_succ d n h)

omit [FloatOps F] in
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by rw [tallyAt_add, tallyAt_add]]
  exact (sep_mono .rfl (cred_add _ _).2).trans (cred_add _ _).2

omit [FloatOps F] in
theorem creds_of_launch (c : Dev nD) : (Pipeline.launchCred O₀ c : sProp 𝕄) ⊢ creds c := by
  show (Pipeline.launchCred (fun d => owedLast d 19) c : sProp 𝕄) ⊢ creds c
  simp (disch := decide) only [launch_step c]
  rw [show (fun d : Dev nD => owedLast d 0) = fun _ => (0 : CellTallies nD τ sig Unit) from rfl, Pipeline.launchCred_zero]
  iintro ⟨⟨⟨⟨⟨⟨⟨⟨⟨⟨⟨⟨⟨⟨⟨⟨⟨⟨⟨-, H0⟩, H1⟩, H2⟩, H3⟩, H4⟩, H5⟩, H6⟩, H7⟩, H8⟩, H9⟩, H10⟩, H11⟩, H12⟩, H13⟩, H14⟩, H15⟩, H16⟩, H17⟩, H18⟩
  unfold creds
  rw [bigSep_fin13]
  isplitl [H16 H17 H18]
  · iapply (cred3 (barCell c)); isplitl [H16]; · iapply (launch_due 16 c); iexact H16
    isplitl [H17]; · iapply (launch_due 17 c); iexact H17
    iapply (launch_due 18 c); iexact H18
  isplitl [H0 H1 H2]
  · iapply (cred3 (endCell c)); isplitl [H0]; · iapply (launch_due 0 c); iexact H0
    isplitl [H1]; · iapply (launch_due 1 c); iexact H1
    iapply (launch_due 2 c); iexact H2
  isplitl [H15]; · iapply (launch_due 15 c); iexact H15
  isplitl [H14]; · iapply (launch_due 14 c); iexact H14
  isplitl [H13]; · iapply (launch_due 13 c); iexact H13
  isplitl [H12]; · iapply (launch_due 12 c); iexact H12
  isplitl [H11]; · iapply (launch_due 11 c); iexact H11
  isplitl [H10]; · iapply (launch_due 10 c); iexact H10
  isplitl [H9]; · iapply (launch_due 9 c); iexact H9
  isplitl [H8]; · iapply (launch_due 8 c); iexact H8
  isplitl [H7]; · iapply (launch_due 7 c); iexact H7
  isplitl [H6]; · iapply (launch_due 6 c); iexact H6
  isplitl [H5]; · iapply (launch_due 5 c); iexact H5
  isplitl [H4]; · iapply (launch_due 4 c); iexact H4
  iapply (launch_due 3 c); iexact H3

variable (𝒞 : Conts F) (m : (ℓ : Loc nD τ sig) → Buf (Elt F) ℓ) (ρ : Dev nD → PrngReg)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' 𝒞 c)
      ⊢ |={Set.univ}=> iprop(start 𝒞 c ∗ emp) := by
  iintro ⟨-, Hlev, Hcr, -, HG⟩
  ihave Hc := (creds_of_launch (F := F) c) $$ Hcr
  imodintro
  unfold start G'
  iframe

theorem phi0_intro (c : Dev nD) :
    iprop(start 𝒞 c ∗ Pipeline.prefHeld Pipeline.Prefetch.none c (fun _ => fullShare.right) (fun k => k.elim0) ∗ Pipeline.scopedRest cfg0.spec c)
      ⊢ (dats 𝒞 m ρ 0 c).Φ 0 := by
  rw [show (dats 𝒞 m ρ 0 c).Φ 0 = Φ₀ 𝒞 c from rfl, scopedRest0_eq]
  unfold Φ₀ scratchAny
  iintro ⟨Hs, -, Hr⟩
  iframe

theorem phi1_exit (c : Dev nD) :
    (dats 𝒞 m ρ 0 c).Φ (Fin.last cfg0.N) ⊢ iprop(emp ∗ Pipeline.ownSems0 osem c ∗ Pipeline.scopedRest cfg0.spec c) := by
  rw [show (dats 𝒞 m ρ 0 c).Φ (Fin.last cfg0.N) = Φ₁ c from rfl, scopedRest0_eq, ownSems0_eq]
  unfold Φ₁ scratchAny
  rw [bigSep_fin13, bigSep_fin13]
  iintro ⟨Hr, He, ⟨S0, S1, S2, S3, S4, S5, S6, S7, S8, S9, S10, S11, S12⟩, ⟨V0, V1, V2, V3, V4, V5, V6, V7, V8, V9, V10, V11, V12⟩⟩
  iframe

theorem stage_levels : ∀ (w : Fin cfg0.W) (s : Fin (cfg0.win w).nbuf), lvS (.dma ((cfg0.win w).sem s)) = 0 := by decide

theorem waits (c : Dev nD) : (levAts L lv : sProp 𝕄) ⊢ Pipeline.cellsWaits cfgs (dats 𝒞 m ρ) () 0 c :=
  Pipeline.cellsWaits_intro cfgs (dats 𝒞 m ρ) () 0 c fun w s t =>
    mayWait_stage c _ (stage_levels w s) _ (by
      rcases t with ⟨_ | _, ht⟩
      · exact Or.inl rfl
      · exact Or.inr rfl)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev theBody : Prog (TpuEff nD τ sig (Elt F) Λ₀ .tc) PUnit := defs₀ (F := F) Proc.tc 0 (t0_0, cfg0.slots t0_0)

theorem body_obligation (c : Dev nD)
    (hsound : ∀ (K : Dev nD × Fin 28 → ℕ) (Kt : PUnit → sProp 𝕄),
      iprop(bodyPre 𝒞 m ρ K c ∗ (bodyPost 𝒞 m ρ c -∗ Kt ⟨⟩))
        ⊢ wp frame (wpE (defs₀ (F := F)) 𝒱₀ c none) Set.univ (theBody (F := F)) Kt) :
    BodyObligation (dats (F := F) 𝒞 m ρ 0 c) (defs₀ (F := F)) 𝒱₀ () Set.univ := fun t => by
  rw [fin_N0 t]
  rw [bigSep_W0, bigSep_W0]
  simp only [owns_whole_eq]
  rw [show (dats 𝒞 m ρ 0 c).Φ t0_0.castSucc = Φ₀ 𝒞 c from rfl, show (dats 𝒞 m ρ 0 c).Φ t0_0.succ = Φ₁ c from rfl]
  unfold Φ₀ start
  iintro ⟨⟨⟨⟨%K, Hg⟩, Hcr, Hlev⟩, Hscr⟩, Ho, H0, H1, H2, H3, H4, H5⟩
  iapply (hsound K _)
  unfold bodyPre bodyPost
  isplitr []
  · iframe
  · iintro H; iexact H

def finalA (c : Dev nD) (w : Fin cfg0.W) : Buf (Elt F) ((cfg0.win w).arr.view.loc (c : Thread nD τ)) :=
  (dats 𝒞 m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA 𝒞 m ρ c w

set_option maxRecDepth 8000 in
theorem run_main
    (hbody : ∀ c, BodyObligation (dats 𝒞 m ρ 0 c) (defs₀ (F := F)) 𝒱₀ () Set.univ) :
    θ_run defs (onTc (τ := τ) (main (F := F))) (s₀ m ρ) (QC 𝒞 m ρ) :=
  Pipeline.θ_run_region_owing_glob_pf (fun p => (cfgs p).toPCfg) (fun p => (cfgs p).toPCfg_adm) (dats 𝒞 m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := fun c => (dats 𝒞 m ρ 0 c).share_full fun _ => rfl)
    (hdistinct := winFacts0.arr_inj)
    (O₀ := O₀) (howed₀ := fun _ => rfl) (howedN := fun _ => rfl)
    (L := L) (lv := lv) (hL := L_of_ne) (hwaits := waits 𝒞 m ρ)
    (G := G 𝒞) (G' := G' 𝒞) (u₀ := u₀)
    (hu₀ := by
      unfold u₀
      iintro Hu
      ihave H := (ownU_pair _ _) $$ Hu
      icases H with ⟨HP, HX⟩
      imod (fund_proto 𝒞) $$ HX with HG
      imodintro
      isplitl [HP] <;> iassumption)
    (hglob := glob 𝒞)
    (hA := fun _ _ => rfl) (hpf := fun _ k => k.elim0)
    (X := start 𝒞) (Y := fun _ => iprop(emp)) (Z := fun _ => iprop(emp))
    (hX := start_intro 𝒞 m ρ) (hin := phi0_intro 𝒞 m ρ) (hout := phi1_exit 𝒞 m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

theorem finalA_in (c : Dev nD) (w : Fin cfg0.W)
    (hw : (cfg0.win w).isOut = false) : finalA 𝒞 m ρ c w = (s₀ m ρ).mem ((cfg0.win w).arr.view.loc (c : Thread nD τ)) :=
  (dats (F := F) 𝒞 m ρ 0 c).arrAt_in w hw _

end Cert.KernelIdeal.Hand

end
-- ==== Proof.Final.lean ====
import proofs.«900755_g7700000000000756_dist_attn_cross_gqa_kvseq_b4_sq256_skv1024_d1024_hq8_dh128_v7x_i8_bf16_1_alg».proof.Proof.Launch

namespace Cert.KernelIdeal.Hand

/-- info: 'Cert.KernelIdeal.Hand.rest_bar' depends on axioms: [propext, Classical.choice, Quot.sound] -/
#guard_msgs in #print axioms rest_bar
/-- info: 'Cert.KernelIdeal.Hand.rest_send' depends on axioms: [propext, Classical.choice, Quot.sound] -/
#guard_msgs in #print axioms rest_send
/-- info: 'Cert.KernelIdeal.Hand.rest_recv' depends on axioms: [propext, Classical.choice, Quot.sound] -/
#guard_msgs in #print axioms rest_recv
/-- info: 'Cert.KernelIdeal.Hand.expect_recv' depends on axioms: [propext, Classical.choice, Quot.sound] -/
#guard_msgs in #print axioms expect_recv
/-- info: 'Cert.KernelIdeal.Hand.Rd_payload_storable' depends on axioms: [propext, Classical.choice, Quot.sound] -/
#guard_msgs in #print axioms Rd_payload_storable
/-- info: 'Cert.KernelIdeal.Hand.owed_xfer' depends on axioms: [propext, Classical.choice, Quot.sound] -/
#guard_msgs in #print axioms owed_xfer
/-- info: 'Cert.KernelIdeal.Hand.fund_proto' depends on axioms: [propext, Classical.choice, Quot.sound] -/
#guard_msgs in #print axioms fund_proto
/-- info: 'Cert.KernelIdeal.Hand.body_obligation' depends on axioms: [propext, Classical.choice, Quot.sound] -/
#guard_msgs in #print axioms body_obligation

end Cert.KernelIdeal.Hand
-- ==== Proof.Frames.lean ====
import proofs.«900755_g7700000000000756_dist_attn_cross_gqa_kvseq_b4_sq256_skv1024_d1024_hq8_dh128_v7x_i8_bf16_1_alg».proof.Proof.Final

noncomputable section

namespace Cert.KernelIdeal.Hand

open Cert.KernelIdeal.Gen
open Idealize.ShloMosaic
open Idealize.ShloMosaic.Pipeline (Dat Cfg Window BodyObligation cellOf)

variable {F : FTy → Type} [FloatOps F]

local notation "𝕄" => MT nD τ sig Unit (Elt F) ℕ UU ℕ

variable (𝒞 : Conts F) (m : (ℓ : Loc nD τ sig) → Buf (Elt F) ℓ) (ρ : Dev nD → PrngReg)

theorem finalA_out_whole (c : Dev nD) :
    finalA 𝒞 m ρ c (5 : Fin 6) = 𝒞.out c := by
  unfold finalA
  have h := (dats (F := F) 𝒞 m ρ 0 c).arrAt_succ (5 : Fin 6) t0_0
  rw [if_pos (flush0_5 t0_0)] at h
  rw [show cfg0.N = t0_0.val + 1 from rfl, h]
  show ((cfg0.win (5 : Fin 6)).blk t0_0).view.write (Elt F) _ ((cfg0.win (5 : Fin 6)).cut (cfg0.grid.coords t0_0) (𝒞.out c)) Finset.univ = _
  dsimp only [Pipeline.Window.blk, Pipeline.Window.rect]
  exact Memref.write_access_unit_zero_univ (Elt F) main_v1 (funext fun a => Nat.zero_mul _) _ _ _

theorem run_value
    (hbody : ∀ c, BodyObligation (dats 𝒞 m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = 𝒞.out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (5 : Fin 6)).trans (finalA_out_whole 𝒞 m ρ c),
      (h c (0 : Fin 6)).trans (finalA_in 𝒞 m ρ c _ rfl), (h c (1 : Fin 6)).trans (finalA_in 𝒞 m ρ c _ rfl), (h c (2 : Fin 6)).trans (finalA_in 𝒞 m ρ c _ rfl),
      (h c (3 : Fin 6)).trans (finalA_in 𝒞 m ρ c _ rfl), (h c (4 : Fin 6)).trans (finalA_in 𝒞 m ρ c _ rfl)⟩)
    (run_main 𝒞 m ρ hbody)

theorem run_frame
    (hbody : ∀ c, BodyObligation (dats 𝒞 m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value 𝒞 m ρ hbody)

/-- info: 'Cert.KernelIdeal.Hand.run_value' depends on axioms: [propext, Classical.choice, Quot.sound] -/
#guard_msgs in #print axioms run_value
/-- info: 'Cert.KernelIdeal.Hand.run_frame' depends on axioms: [propext, Classical.choice, Quot.sound] -/
#guard_msgs in #print axioms run_frame

end Cert.KernelIdeal.Hand

end
-- ==== Proof.Contents.lean ====
import proofs.«900755_g7700000000000756_dist_attn_cross_gqa_kvseq_b4_sq256_skv1024_d1024_hq8_dh128_v7x_i8_bf16_1_alg».proof.Proof.Sched
import proofs.«900755_g7700000000000756_dist_attn_cross_gqa_kvseq_b4_sq256_skv1024_d1024_hq8_dh128_v7x_i8_bf16_1_alg».proof.Proof.Gen.KernelIdeal.Frame
import Idealize.ShloMosaic.Lib.Pipeline.FrameBody

noncomputable section

namespace Cert.KernelIdeal.Hand

open Cert.KernelIdeal.Gen
open Idealize.ShloMosaic

variable {F : FTy → Type} [FloatOps F]

structure Ins (F : FTy → Type) where
  x : Vec F S4x256x1024 .f32
  wq : Vec F S1024x1024 .f32
  wo : Vec F S1024x1024 .f32
  kb : Vec F S4x1024x2x128 .f32
  vb : Vec F S4x1024x2x128 .f32

def sq (v : Vec F S1x128x1024 .bf16) : Vec F S128x1024 .bf16 :=
  fun j => v (Shape.reshapeEquiv squeezes_S1x128x1024_S128x1024.numel_eq j)
def unsq (v : Vec F S128x1024 .bf16) : Vec F S1x128x1024 .bf16 :=
  fun i => v ((Shape.reshapeEquiv squeezes_S1x128x1024_S128x1024.numel_eq).symm i)

theorem unsq_sq (v : Vec F S1x128x1024 .bf16) : unsq (sq v) = v := funext fun i => congrArg v (Equiv.apply_symm_apply _ i)

variable (I : Dev nD → Ins F) (c : Dev nD)

def qv : Vec F S4x256x8x128 .bf16 :=
  k0_pay1 (I c).x (I c).wq
def qr1 : Vec F S1x128x8x128 .bf16 :=
  View.ld (qv I c) (Rect.unit (k0_off1 c) S1x128x8x128.size (k0_off1_inb c))
def qr2 : Vec F S1x128x8x128 .bf16 :=
  View.ld (qv I c) (Rect.unit (k0_off2 c) S1x128x8x128.size (k0_off2_inb c))
def qr3 : Vec F S1x128x8x128 .bf16 :=
  View.ld (qv I c) (Rect.unit (k0_off3 c) S1x128x8x128.size (k0_off3_inb c))
def qr4 : Vec F S1x128x8x128 .bf16 :=
  View.ld (qv I c) (Rect.unit (k0_off4 c) S1x128x8x128.size (k0_off4_inb c))
def qr5 : Vec F S1x128x8x128 .bf16 :=
  View.ld (qv I c) (Rect.unit (k0_off5 c) S1x128x8x128.size (k0_off5_inb c))
def qr6 : Vec F S1x128x8x128 .bf16 :=
  View.ld (qv I c) (Rect.unit (k0_off6 c) S1x128x8x128.size (k0_off6_inb c))
def qr7 : Vec F S1x128x8x128 .bf16 :=
  View.ld (qv I c) (Rect.unit (k0_off7 c) S1x128x8x128.size (k0_off7_inb c))
def qr8 : Vec F S1x128x8x128 .bf16 :=
  View.ld (qv I c) (Rect.unit (k0_off8 c) S1x128x8x128.size (k0_off8_inb c))
def kS00 : Vec F S1x1024x1x128 .f32 :=
  View.ld (I c).kb (Rect.unit ![0, 0, 0, 0] S1x1024x1x128.size inb_S4x1024x2x128_S1x1024x1x128_0_0_0_0)
def vS00 : Vec F S1x1024x1x128 .f32 :=
  View.ld (I c).vb (Rect.unit ![0, 0, 0, 0] S1x1024x1x128.size inb_S4x1024x2x128_S1x1024x1x128_0_0_0_0)
def kS01 : Vec F S1x1024x1x128 .f32 :=
  View.ld (I c).kb (Rect.unit ![0, 0, 1, 0] S1x1024x1x128.size inb_S4x1024x2x128_S1x1024x1x128_0_0_1_0)
def vS01 : Vec F S1x1024x1x128 .f32 :=
  View.ld (I c).vb (Rect.unit ![0, 0, 1, 0] S1x1024x1x128.size inb_S4x1024x2x128_S1x1024x1x128_0_0_1_0)
def kS10 : Vec F S1x1024x1x128 .f32 :=
  View.ld (I c).kb (Rect.unit ![1, 0, 0, 0] S1x1024x1x128.size inb_S4x1024x2x128_S1x1024x1x128_1_0_0_0)
def vS10 : Vec F S1x1024x1x128 .f32 :=
  View.ld (I c).vb (Rect.unit ![1, 0, 0, 0] S1x1024x1x128.size inb_S4x1024x2x128_S1x1024x1x128_1_0_0_0)
def kS11 : Vec F S1x1024x1x128 .f32 :=
  View.ld (I c).kb (Rect.unit ![1, 0, 1, 0] S1x1024x1x128.size inb_S4x1024x2x128_S1x1024x1x128_1_0_1_0)
def vS11 : Vec F S1x1024x1x128 .f32 :=
  View.ld (I c).vb (Rect.unit ![1, 0, 1, 0] S1x1024x1x128.size inb_S4x1024x2x128_S1x1024x1x128_1_0_1_0)
def kS20 : Vec F S1x1024x1x128 .f32 :=
  View.ld (I c).kb (Rect.unit ![2, 0, 0, 0] S1x1024x1x128.size inb_S4x1024x2x128_S1x1024x1x128_2_0_0_0)
def vS20 : Vec F S1x1024x1x128 .f32 :=
  View.ld (I c).vb (Rect.unit ![2, 0, 0, 0] S1x1024x1x128.size inb_S4x1024x2x128_S1x1024x1x128_2_0_0_0)
def kS21 : Vec F S1x1024x1x128 .f32 :=
  View.ld (I c).kb (Rect.unit ![2, 0, 1, 0] S1x1024x1x128.size inb_S4x1024x2x128_S1x1024x1x128_2_0_1_0)
def vS21 : Vec F S1x1024x1x128 .f32 :=
  View.ld (I c).vb (Rect.unit ![2, 0, 1, 0] S1x1024x1x128.size inb_S4x1024x2x128_S1x1024x1x128_2_0_1_0)
def kS30 : Vec F S1x1024x1x128 .f32 :=
  View.ld (I c).kb (Rect.unit ![3, 0, 0, 0] S1x1024x1x128.size inb_S4x1024x2x128_S1x1024x1x128_3_0_0_0)
def vS30 : Vec F S1x1024x1x128 .f32 :=
  View.ld (I c).vb (Rect.unit ![3, 0, 0, 0] S1x1024x1x128.size inb_S4x1024x2x128_S1x1024x1x128_3_0_0_0)
def kS31 : Vec F S1x1024x1x128 .f32 :=
  View.ld (I c).kb (Rect.unit ![3, 0, 1, 0] S1x1024x1x128.size inb_S4x1024x2x128_S1x1024x1x128_3_0_1_0)
def vS31 : Vec F S1x1024x1x128 .f32 :=
  View.ld (I c).vb (Rect.unit ![3, 0, 1, 0] S1x1024x1x128.size inb_S4x1024x2x128_S1x1024x1x128_3_0_1_0)

def sdOL : List (View.Piece (Elt F) S4x4x2x128x128 .bf16) :=
  [⟨Rect.unit ![0, 3, 1, 0, 0] S4x1x1x128x128.size inb_S4x4x2x128x128_S4x1x1x128x128_0_3_1_0_0, k0_pay65 (k0_pay64 (k0_pay51 (qr4 I c)) (kS31 I c) (vS31 I c))⟩,
    ⟨Rect.unit ![0, 3, 0, 0, 0] S4x1x1x128x128.size inb_S4x4x2x128x128_S4x1x1x128x128_0_3_0_0_0, k0_pay57 (k0_pay56 (qr4 I c) (kS30 I c) (vS30 I c))⟩,
    ⟨Rect.unit ![0, 2, 1, 0, 0] S4x1x1x128x128.size inb_S4x4x2x128x128_S4x1x1x128x128_0_2_1_0_0, k0_pay47 (k0_pay35 (qr3 I c)) (kS21 I c) (vS21 I c)⟩,
    ⟨Rect.unit ![0, 2, 0, 0, 0] S4x1x1x128x128.size inb_S4x4x2x128x128_S4x1x1x128x128_0_2_0_0_0, k0_pay40 (qr3 I c) (kS20 I c) (vS20 I c)⟩,
    ⟨Rect.unit ![0, 1, 1, 0, 0] S4x1x1x128x128.size inb_S4x4x2x128x128_S4x1x1x128x128_0_1_1_0_0, k0_pay31 (k0_pay18 (qr2 I c)) (kS11 I c) (vS11 I c)⟩,
    ⟨Rect.unit ![0, 1, 0, 0, 0] S4x1x1x128x128.size inb_S4x4x2x128x128_S4x1x1x128x128_0_1_0_0_0, k0_pay23 (qr2 I c) (kS10 I c) (vS10 I c)⟩,
    ⟨Rect.unit ![0, 0, 1, 0, 0] S4x1x1x128x128.size inb_S4x4x2x128x128_S4x1x1x128x128_0_0_1_0_0, k0_pay15 (k0_pay2 (qr1 I c)) (kS01 I c) (vS01 I c)⟩,
    ⟨Rect.unit ![0, 0, 0, 0, 0] S4x1x1x128x128.size inb_S4x4x2x128x128_S4x1x1x128x128_0_0_0_0_0, k0_pay7 (qr1 I c) (kS00 I c) (vS00 I c)⟩]
def sdMLL : List (View.Piece (Elt F) S4x2x8x128 .f32) :=
  [⟨Rect.unit ![0, 1, 7, 0] S4x1x1x128.size inb_S4x2x8x128_S4x1x1x128_0_1_7_0, k0_pay67 (k0_pay63 (k0_pay51 (qr4 I c)) (kS31 I c))⟩,
    ⟨Rect.unit ![0, 0, 7, 0] S4x1x1x128.size inb_S4x2x8x128_S4x1x1x128_0_0_7_0, k0_pay66 (k0_pay61 (k0_pay51 (qr4 I c)) (kS31 I c))⟩,
    ⟨Rect.unit ![0, 1, 6, 0] S4x1x1x128.size inb_S4x2x8x128_S4x1x1x128_0_1_6_0, k0_pay59 (k0_pay55 (qr4 I c) (kS30 I c))⟩,
    ⟨Rect.unit ![0, 0, 6, 0] S4x1x1x128.size inb_S4x2x8x128_S4x1x1x128_0_0_6_0, k0_pay58 (k0_pay53 (qr4 I c) (kS30 I c))⟩,
    ⟨Rect.unit ![0, 1, 5, 0] S4x1x1x128.size inb_S4x2x8x128_S4x1x1x128_0_1_5_0, k0_pay50 (k0_pay46 (k0_pay35 (qr3 I c)) (kS21 I c))⟩,
    ⟨Rect.unit ![0, 0, 5, 0] S4x1x1x128.size inb_S4x2x8x128_S4x1x1x128_0_0_5_0, k0_pay49 (k0_pay48 (k0_pay35 (qr3 I c)) (kS21 I c))⟩,
    ⟨Rect.unit ![0, 1, 4, 0] S4x1x1x128.size inb_S4x2x8x128_S4x1x1x128_0_1_4_0, k0_pay42 (k0_pay39 (qr3 I c) (kS20 I c))⟩,
    ⟨Rect.unit ![0, 0, 4, 0] S4x1x1x128.size inb_S4x2x8x128_S4x1x1x128_0_0_4_0, k0_pay41 (k0_pay37 (qr3 I c) (kS20 I c))⟩,
    ⟨Rect.unit ![0, 1, 3, 0] S4x1x1x128.size inb_S4x2x8x128_S4x1x1x128_0_1_3_0, k0_pay34 (k0_pay30 (k0_pay18 (qr2 I c)) (kS11 I c))⟩,
    ⟨Rect.unit ![0, 0, 3, 0] S4x1x1x128.size inb_S4x2x8x128_S4x1x1x128_0_0_3_0, k0_pay33 (k0_pay32 (k0_pay18 (qr2 I c)) (kS11 I c))⟩,
    ⟨Rect.unit ![0, 1, 2, 0] S4x1x1x128.size inb_S4x2x8x128_S4x1x1x128_0_1_2_0, k0_pay26 (k0_pay22 (qr2 I c) (kS10 I c))⟩,
    ⟨Rect.unit ![0, 0, 2, 0] S4x1x1x128.size inb_S4x2x8x128_S4x1x1x128_0_0_2_0, k0_pay25 (k0_pay24 (qr2 I c) (kS10 I c))⟩,
    ⟨Rect.unit ![0, 1, 1, 0] S4x1x1x128.size inb_S4x2x8x128_S4x1x1x128_0_1_1_0, k0_pay17 (k0_pay14 (k0_pay2 (qr1 I c)) (kS01 I c))⟩,
    ⟨Rect.unit ![0, 0, 1, 0] S4x1x1x128.size inb_S4x2x8x128_S4x1x1x128_0_0_1_0, k0_pay16 (k0_pay2 (qr1 I c)) (kS01 I c)⟩,
    ⟨Rect.unit ![0, 1, 0, 0] S4x1x1x128.size inb_S4x2x8x128_S4x1x1x128_0_1_0_0, k0_pay10 (k0_pay6 (qr1 I c) (kS00 I c))⟩,
    ⟨Rect.unit ![0, 0, 0, 0] S4x1x1x128.size inb_S4x2x8x128_S4x1x1x128_0_0_0_0, k0_pay9 (k0_pay8 (qr1 I c) (kS00 I c))⟩]
def kpOL : List (View.Piece (Elt F) S4x4x2x128x128 .bf16) :=
  [⟨Rect.unit ![0, 3, 1, 0, 0] S4x1x1x128x128.size inb_S4x4x2x128x128_S4x1x1x128x128_0_3_1_0_0, k0_pay125 (k0_pay115 (qr8 I c)) (kS31 I c) (vS31 I c)⟩,
    ⟨Rect.unit ![0, 3, 0, 0, 0] S4x1x1x128x128.size inb_S4x4x2x128x128_S4x1x1x128x128_0_3_0_0_0, k0_pay119 (qr8 I c) (kS30 I c) (vS30 I c)⟩,
    ⟨Rect.unit ![0, 2, 1, 0, 0] S4x1x1x128x128.size inb_S4x4x2x128x128_S4x1x1x128x128_0_2_1_0_0, k0_pay112 (k0_pay108 (k0_pay100 (qr7 I c))) (kS21 I c) (vS21 I c)⟩,
    ⟨Rect.unit ![0, 2, 0, 0, 0] S4x1x1x128x128.size inb_S4x4x2x128x128_S4x1x1x128x128_0_2_0_0_0, k0_pay105 (k0_pay101 (qr7 I c)) (kS20 I c) (vS20 I c)⟩,
    ⟨Rect.unit ![0, 1, 1, 0, 0] S4x1x1x128x128.size inb_S4x4x2x128x128_S4x1x1x128x128_0_1_1_0_0, k0_pay97 (k0_pay93 (k0_pay85 (qr6 I c))) (kS11 I c) (vS11 I c)⟩,
    ⟨Rect.unit ![0, 1, 0, 0, 0] S4x1x1x128x128.size inb_S4x4x2x128x128_S4x1x1x128x128_0_1_0_0_0, k0_pay90 (k0_pay86 (qr6 I c)) (kS10 I c) (vS10 I c)⟩,
    ⟨Rect.unit ![0, 0, 1, 0, 0] S4x1x1x128x128.size inb_S4x4x2x128x128_S4x1x1x128x128_0_0_1_0_0, k0_pay82 (k0_pay77 (k0_pay68 (qr5 I c))) (k0_pay78 (kS01 I c)) (vS01 I c)⟩,
    ⟨Rect.unit ![0, 0, 0, 0, 0] S4x1x1x128x128.size inb_S4x4x2x128x128_S4x1x1x128x128_0_0_0_0_0, k0_pay74 (k0_pay69 (qr5 I c)) (k0_pay70 (kS00 I c)) (vS00 I c)⟩]
def kpMLL : List (View.Piece (Elt F) S4x2x8x128 .f32) :=
  [⟨Rect.unit ![0, 1, 7, 0] S4x1x1x128.size inb_S4x2x8x128_S4x1x1x128_0_1_7_0, k0_pay127 (k0_pay115 (qr8 I c)) (kS31 I c)⟩,
    ⟨Rect.unit ![0, 0, 7, 0] S4x1x1x128.size inb_S4x2x8x128_S4x1x1x128_0_0_7_0, k0_pay126 (k0_pay115 (qr8 I c)) (kS31 I c)⟩,
    ⟨Rect.unit ![0, 1, 6, 0] S4x1x1x128.size inb_S4x2x8x128_S4x1x1x128_0_1_6_0, k0_pay121 (qr8 I c) (kS30 I c)⟩,
    ⟨Rect.unit ![0, 0, 6, 0] S4x1x1x128.size inb_S4x2x8x128_S4x1x1x128_0_0_6_0, k0_pay120 (qr8 I c) (kS30 I c)⟩,
    ⟨Rect.unit ![0, 1, 5, 0] S4x1x1x128.size inb_S4x2x8x128_S4x1x1x128_0_1_5_0, k0_pay114 (k0_pay108 (k0_pay100 (qr7 I c))) (kS21 I c)⟩,
    ⟨Rect.unit ![0, 0, 5, 0] S4x1x1x128.size inb_S4x2x8x128_S4x1x1x128_0_0_5_0, k0_pay113 (k0_pay108 (k0_pay100 (qr7 I c))) (kS21 I c)⟩,
    ⟨Rect.unit ![0, 1, 4, 0] S4x1x1x128.size inb_S4x2x8x128_S4x1x1x128_0_1_4_0, k0_pay107 (k0_pay101 (qr7 I c)) (kS20 I c)⟩,
    ⟨Rect.unit ![0, 0, 4, 0] S4x1x1x128.size inb_S4x2x8x128_S4x1x1x128_0_0_4_0, k0_pay106 (k0_pay101 (qr7 I c)) (kS20 I c)⟩,
    ⟨Rect.unit ![0, 1, 3, 0] S4x1x1x128.size inb_S4x2x8x128_S4x1x1x128_0_1_3_0, k0_pay99 (k0_pay93 (k0_pay85 (qr6 I c))) (kS11 I c)⟩,
    ⟨Rect.unit ![0, 0, 3, 0] S4x1x1x128.size inb_S4x2x8x128_S4x1x1x128_0_0_3_0, k0_pay98 (k0_pay93 (k0_pay85 (qr6 I c))) (kS11 I c)⟩,
    ⟨Rect.unit ![0, 1, 2, 0] S4x1x1x128.size inb_S4x2x8x128_S4x1x1x128_0_1_2_0, k0_pay92 (k0_pay86 (qr6 I c)) (kS10 I c)⟩,
    ⟨Rect.unit ![0, 0, 2, 0] S4x1x1x128.size inb_S4x2x8x128_S4x1x1x128_0_0_2_0, k0_pay91 (k0_pay86 (qr6 I c)) (kS10 I c)⟩,
    ⟨Rect.unit ![0, 1, 1, 0] S4x1x1x128.size inb_S4x2x8x128_S4x1x1x128_0_1_1_0, k0_pay84 (k0_pay77 (k0_pay68 (qr5 I c))) (k0_pay78 (kS01 I c))⟩,
    ⟨Rect.unit ![0, 0, 1, 0] S4x1x1x128.size inb_S4x2x8x128_S4x1x1x128_0_0_1_0, k0_pay83 (k0_pay77 (k0_pay68 (qr5 I c))) (k0_pay78 (kS01 I c))⟩,
    ⟨Rect.unit ![0, 1, 0, 0] S4x1x1x128.size inb_S4x2x8x128_S4x1x1x128_0_1_0_0, k0_pay76 (k0_pay69 (qr5 I c)) (k0_pay70 (kS00 I c))⟩,
    ⟨Rect.unit ![0, 0, 0, 0] S4x1x1x128.size inb_S4x2x8x128_S4x1x1x128_0_0_0_0, k0_pay75 (k0_pay69 (qr5 I c)) (k0_pay70 (kS00 I c))⟩]
def o0 : Vec F S4x4x2x128x128 .bf16 :=
  View.canon (sdOL I c)
def ml0 : Vec F S4x2x8x128 .f32 :=
  View.canon (sdMLL I c)
def kpO : Vec F S4x4x2x128x128 .bf16 :=
  View.canon (kpOL I c)
def kpML : Vec F S4x2x8x128 .f32 :=
  View.canon (kpMLL I c)

def m0a : Vec F S4x8x128 .f32 :=
  k0_pay129 (View.ld (kpML I c) (Rect.unit ![0, 0, 0, 0] S4x1x8x128.size inb_S4x2x8x128_S4x1x8x128_0_0_0_0))
def m0b : Vec F S4x8x128 .f32 :=
  k0_pay130 (View.ld (kpML I c) (Rect.unit ![0, 1, 0, 0] S4x1x8x128.size inb_S4x2x8x128_S4x1x8x128_0_1_0_0))
def r0a : Vec F S4x1x8x128 .f32 :=
  View.ld (ml0 I (p4 c)) (Rect.unit ![0, 0, 0, 0] S4x1x8x128.size inb_S4x2x8x128_S4x1x8x128_0_0_0_0)
def r0b : Vec F S4x1x8x128 .f32 :=
  View.ld (ml0 I (p4 c)) (Rect.unit ![0, 1, 0, 0] S4x1x8x128.size inb_S4x2x8x128_S4x1x8x128_0_1_0_0)
def c0oV : Vec F S4x4x2x128x128 .bf16 :=
  k0_pay136 (k0_pay128 (kpO I c)) (m0a I c) (k0_pay131 (o0 I (p4 c))) (r0a I c)
def c0mlV : Vec F S4x2x8x128 .f32 :=
  k0_pay137 (m0a I c) (m0b I c) (r0a I c) (r0b I c)
def o1 : Vec F S2x4x2x128x128 .bf16 :=
  View.ld (c0oV I c) (Rect.unit (k0_off9 c) S2x4x2x128x128.size (k0_off9_inb c))
def ml1 : Vec F S2x2x8x128 .f32 :=
  View.ld (c0mlV I c) (Rect.unit (k0_off10 c) S2x2x8x128.size (k0_off10_inb c))
def k1ml : Vec F S2x2x8x128 .f32 :=
  View.ld (c0mlV I c) (Rect.unit (k0_off11 c) S2x2x8x128.size (k0_off11_inb c))
def k1o : Vec F S2x4x2x128x128 .bf16 :=
  View.ld (c0oV I c) (Rect.unit (k0_off12 c) S2x4x2x128x128.size (k0_off12_inb c))
def r1a : Vec F S2x1x8x128 .f32 :=
  View.ld (ml1 I (p2 c)) (Rect.unit ![0, 0, 0, 0] S2x1x8x128.size inb_S2x2x8x128_S2x1x8x128_0_0_0_0)
def r1b : Vec F S2x1x8x128 .f32 :=
  View.ld (ml1 I (p2 c)) (Rect.unit ![0, 1, 0, 0] S2x1x8x128.size inb_S2x2x8x128_S2x1x8x128_0_1_0_0)
def c1oV : Vec F S2x4x2x128x128 .bf16 :=
  k0_pay145 (k0_pay144 (k1ml I c) (k1o I c) (o1 I (p2 c)) (r1a I c))
def c1mlV : Vec F S2x2x8x128 .f32 :=
  k0_pay146 (k0_pay140 (k1ml I c) (r1a I c)) (k0_pay143 (k1ml I c) (r1a I c) (r1b I c))
def o2 : Vec F S1x4x2x128x128 .bf16 :=
  View.ld (c1oV I c) (Rect.unit (k0_off13 c) S1x4x2x128x128.size (k0_off13_inb c))
def ml2 : Vec F S1x2x8x128 .f32 :=
  View.ld (c1mlV I c) (Rect.unit (k0_off14 c) S1x2x8x128.size (k0_off14_inb c))
def k2ml : Vec F S1x2x8x128 .f32 :=
  View.ld (c1mlV I c) (Rect.unit (k0_off15 c) S1x2x8x128.size (k0_off15_inb c))
def k2o : Vec F S1x4x2x128x128 .bf16 :=
  View.ld (c1oV I c) (Rect.unit (k0_off16 c) S1x4x2x128x128.size (k0_off16_inb c))
def r2a : Vec F S1x1x8x128 .f32 :=
  View.ld (ml2 I (p1 c)) (Rect.unit ![0, 0, 0, 0] S1x1x8x128.size inb_S1x2x8x128_S1x1x8x128_0_0_0_0)
def r2b : Vec F S1x1x8x128 .f32 :=
  View.ld (ml2 I (p1 c)) (Rect.unit ![0, 1, 0, 0] S1x1x8x128.size inb_S1x2x8x128_S1x1x8x128_0_1_0_0)

def y1 : Vec F S1x128x1024 .bf16 :=
  k0_pay157 (k0_pay150 (I c).wo) (k0_pay151 (k0_pay147 (k2o I c)) (k0_pay148 (k2ml I c)) (k0_pay149 (k2ml I c)) (o2 I (p1 c)) (r2a I c) (r2b I c)) (k0_pay152 (k0_pay147 (k2o I c)) (k0_pay148 (k2ml I c)) (k0_pay149 (k2ml I c)) (o2 I (p1 c)) (r2a I c) (r2b I c)) (k0_pay153 (k0_pay147 (k2o I c)) (k0_pay148 (k2ml I c)) (k0_pay149 (k2ml I c)) (o2 I (p1 c)) (r2a I c) (r2b I c)) (k0_pay154 (k0_pay147 (k2o I c)) (k0_pay148 (k2ml I c)) (k0_pay149 (k2ml I c)) (o2 I (p1 c)) (r2a I c) (r2b I c)) (k0_pay155 (k0_pay147 (k2o I c)) (k0_pay148 (k2ml I c)) (k0_pay149 (k2ml I c)) (o2 I (p1 c)) (r2a I c) (r2b I c))
def yf : FVec F S128x1024 .f32 :=
  k0_pay156 (k0_pay150 (I c).wo) (k0_pay151 (k0_pay147 (k2o I c)) (k0_pay148 (k2ml I c)) (k0_pay149 (k2ml I c)) (o2 I (p1 c)) (r2a I c) (r2b I c)) (k0_pay152 (k0_pay147 (k2o I c)) (k0_pay148 (k2ml I c)) (k0_pay149 (k2ml I c)) (o2 I (p1 c)) (r2a I c) (r2b I c)) (k0_pay153 (k0_pay147 (k2o I c)) (k0_pay148 (k2ml I c)) (k0_pay149 (k2ml I c)) (o2 I (p1 c)) (r2a I c) (r2b I c)) (k0_pay154 (k0_pay147 (k2o I c)) (k0_pay148 (k2ml I c)) (k0_pay149 (k2ml I c)) (o2 I (p1 c)) (r2a I c) (r2b I c)) (k0_pay155 (k0_pay147 (k2o I c)) (k0_pay148 (k2ml I c)) (k0_pay149 (k2ml I c)) (o2 I (p1 c)) (r2a I c) (r2b I c))
def yV : Vec F S128x1024 .bf16 :=
  sq (y1 I c)
def outL : List (View.Piece (Elt F) S4x256x1024 .bf16) :=
  [⟨Rect.unit (k0_off18 c 7#32) S4x32x1024.size (k0_off18_inb c 6), k0_pay165 (unsq (yV I (xorDev 7 c)))⟩,
    ⟨Rect.unit (k0_off18 c 5#32) S4x32x1024.size (k0_off18_inb c 4), k0_pay164 (unsq (yV I (xorDev 5 c)))⟩,
    ⟨Rect.unit (k0_off18 c 6#32) S4x32x1024.size (k0_off18_inb c 5), k0_pay163 (unsq (yV I (xorDev 6 c)))⟩,
    ⟨Rect.unit (k0_off18 c 3#32) S4x32x1024.size (k0_off18_inb c 2), k0_pay162 (unsq (yV I (xorDev 3 c)))⟩,
    ⟨Rect.unit (k0_off18 c 4#32) S4x32x1024.size (k0_off18_inb c 3), k0_pay161 (unsq (yV I (xorDev 4 c)))⟩,
    ⟨Rect.unit (k0_off18 c 2#32) S4x32x1024.size (k0_off18_inb c 1), k0_pay160 (unsq (yV I (xorDev 2 c)))⟩,
    ⟨Rect.unit (k0_off18 c 1#32) S4x32x1024.size (k0_off18_inb c 0), k0_pay159 (unsq (yV I (xorDev 1 c)))⟩,
    ⟨Rect.unit (k0_off17 c) S4x32x1024.size (k0_off17_inb c), k0_pay158 (yf I c)⟩]
def outV : Vec F S4x256x1024 .bf16 :=
  View.canon (outL I c)

def contsOf : Conts F where
  o0 := o0 I
  ml0 := ml0 I
  o1 := o1 I
  ml1 := ml1 I
  o2 := o2 I
  ml2 := ml2 I
  y := yV I
  out := outV I

variable (m : (ℓ : Loc nD τ sig) → Buf (Elt F) ℓ)

def ins (c : Dev nD) : Ins F where
  x := Gen.iblk m c 0 t0_0
  wq := Gen.iblk m c 1 t0_0
  wo := Gen.iblk m c 2 t0_0
  kb := Gen.iblk m c 3 t0_0
  vb := Gen.iblk m c 4 t0_0

def conts : Conts F := contsOf (ins m)

end Cert.KernelIdeal.Hand

end
-- ==== Proof.BodyOffs.lean ====
import proofs.«900755_g7700000000000756_dist_attn_cross_gqa_kvseq_b4_sq256_skv1024_d1024_hq8_dh128_v7x_i8_bf16_1_alg».proof.Proof.Sched
import Idealize.ShloMosaic.Lib.Exec

namespace Cert.KernelIdeal.Hand

open Cert.KernelIdeal.Gen Idealize.ShloMosaic

theorem k0_off1_eq : ∀ d0 : Dev nD, k0_off1 d0 = ![0, 128 - 128 * (d0.val / 4), 0, 0] := by decide +kernel
instance closedOff_k0_off1 (d0 : Dev nD) : ClosedOff (k0_off1 d0) := ⟨![0, 128 - 128 * (d0.val / 4), 0, 0], k0_off1_eq d0⟩
theorem k0_off2_eq : ∀ d0 : Dev nD, k0_off2 d0 = ![1, 128 - 128 * (d0.val / 4), 0, 0] := by decide +kernel
instance closedOff_k0_off2 (d0 : Dev nD) : ClosedOff (k0_off2 d0) := ⟨![1, 128 - 128 * (d0.val / 4), 0, 0], k0_off2_eq d0⟩
theorem k0_off3_eq : ∀ d0 : Dev nD, k0_off3 d0 = ![2, 128 - 128 * (d0.val / 4), 0, 0] := by decide +kernel
instance closedOff_k0_off3 (d0 : Dev nD) : ClosedOff (k0_off3 d0) := ⟨![2, 128 - 128 * (d0.val / 4), 0, 0], k0_off3_eq d0⟩
theorem k0_off4_eq : ∀ d0 : Dev nD, k0_off4 d0 = ![3, 128 - 128 * (d0.val / 4), 0, 0] := by decide +kernel
instance closedOff_k0_off4 (d0 : Dev nD) : ClosedOff (k0_off4 d0) := ⟨![3, 128 - 128 * (d0.val / 4), 0, 0], k0_off4_eq d0⟩
theorem k0_off5_eq : ∀ d0 : Dev nD, k0_off5 d0 = ![0, 128 * (d0.val / 4), 0, 0] := by decide +kernel
instance closedOff_k0_off5 (d0 : Dev nD) : ClosedOff (k0_off5 d0) := ⟨![0, 128 * (d0.val / 4), 0, 0], k0_off5_eq d0⟩
theorem k0_off6_eq : ∀ d0 : Dev nD, k0_off6 d0 = ![1, 128 * (d0.val / 4), 0, 0] := by decide +kernel
instance closedOff_k0_off6 (d0 : Dev nD) : ClosedOff (k0_off6 d0) := ⟨![1, 128 * (d0.val / 4), 0, 0], k0_off6_eq d0⟩
theorem k0_off7_eq : ∀ d0 : Dev nD, k0_off7 d0 = ![2, 128 * (d0.val / 4), 0, 0] := by decide +kernel
instance closedOff_k0_off7 (d0 : Dev nD) : ClosedOff (k0_off7 d0) := ⟨![2, 128 * (d0.val / 4), 0, 0], k0_off7_eq d0⟩
theorem k0_off8_eq : ∀ d0 : Dev nD, k0_off8 d0 = ![3, 128 * (d0.val / 4), 0, 0] := by decide +kernel
instance closedOff_k0_off8 (d0 : Dev nD) : ClosedOff (k0_off8 d0) := ⟨![3, 128 * (d0.val / 4), 0, 0], k0_off8_eq d0⟩
theorem k0_off9_eq : ∀ d0 : Dev nD, k0_off9 d0 = ![2 - 2 * (d0.val / 2 % 2), 0, 0, 0, 0] := by decide +kernel
instance closedOff_k0_off9 (d0 : Dev nD) : ClosedOff (k0_off9 d0) := ⟨![2 - 2 * (d0.val / 2 % 2), 0, 0, 0, 0], k0_off9_eq d0⟩
theorem k0_off10_eq : ∀ d0 : Dev nD, k0_off10 d0 = ![2 - 2 * (d0.val / 2 % 2), 0, 0, 0] := by decide +kernel
instance closedOff_k0_off10 (d0 : Dev nD) : ClosedOff (k0_off10 d0) := ⟨![2 - 2 * (d0.val / 2 % 2), 0, 0, 0], k0_off10_eq d0⟩
theorem k0_off11_eq : ∀ d0 : Dev nD, k0_off11 d0 = ![2 * (d0.val / 2 % 2), 0, 0, 0] := by decide +kernel
instance closedOff_k0_off11 (d0 : Dev nD) : ClosedOff (k0_off11 d0) := ⟨![2 * (d0.val / 2 % 2), 0, 0, 0], k0_off11_eq d0⟩
theorem k0_off12_eq : ∀ d0 : Dev nD, k0_off12 d0 = ![2 * (d0.val / 2 % 2), 0, 0, 0, 0] := by decide +kernel
instance closedOff_k0_off12 (d0 : Dev nD) : ClosedOff (k0_off12 d0) := ⟨![2 * (d0.val / 2 % 2), 0, 0, 0, 0], k0_off12_eq d0⟩
theorem k0_off13_eq : ∀ d0 : Dev nD, k0_off13 d0 = ![1 - d0.val % 2, 0, 0, 0, 0] := by decide +kernel
instance closedOff_k0_off13 (d0 : Dev nD) : ClosedOff (k0_off13 d0) := ⟨![1 - d0.val % 2, 0, 0, 0, 0], k0_off13_eq d0⟩
theorem k0_off14_eq : ∀ d0 : Dev nD, k0_off14 d0 = ![1 - d0.val % 2, 0, 0, 0] := by decide +kernel
instance closedOff_k0_off14 (d0 : Dev nD) : ClosedOff (k0_off14 d0) := ⟨![1 - d0.val % 2, 0, 0, 0], k0_off14_eq d0⟩
theorem k0_off15_eq : ∀ d0 : Dev nD, k0_off15 d0 = ![d0.val % 2, 0, 0, 0] := by decide +kernel
instance closedOff_k0_off15 (d0 : Dev nD) : ClosedOff (k0_off15 d0) := ⟨![d0.val % 2, 0, 0, 0], k0_off15_eq d0⟩
theorem k0_off16_eq : ∀ d0 : Dev nD, k0_off16 d0 = ![d0.val % 2, 0, 0, 0, 0] := by decide +kernel
instance closedOff_k0_off16 (d0 : Dev nD) : ClosedOff (k0_off16 d0) := ⟨![d0.val % 2, 0, 0, 0, 0], k0_off16_eq d0⟩
theorem k0_off18_1_eq : ∀ d0 : Dev nD, k0_off18 d0 1#32 = ![0, 32 * (d0.val + 1 - 2 * (d0.val % 2)), 0] := by decide +kernel
instance closedOff_k0_off18_1 (d0 : Dev nD) : ClosedOff (k0_off18 d0 1#32) := ⟨![0, 32 * (d0.val + 1 - 2 * (d0.val % 2)), 0], k0_off18_1_eq d0⟩
theorem k0_off18_2_eq : ∀ d0 : Dev nD, k0_off18 d0 2#32 = ![0, 32 * (d0.val + 2 - 2 * (2 * (d0.val / 2 % 2))), 0] := by decide +kernel
instance closedOff_k0_off18_2 (d0 : Dev nD) : ClosedOff (k0_off18 d0 2#32) := ⟨![0, 32 * (d0.val + 2 - 2 * (2 * (d0.val / 2 % 2))), 0], k0_off18_2_eq d0⟩
theorem k0_off18_3_eq : ∀ d0 : Dev nD, k0_off18 d0 3#32 = ![0, 32 * (d0.val + 3 - 2 * (d0.val % 2 + 2 * (d0.val / 2 % 2))), 0] := by decide +kernel
instance closedOff_k0_off18_3 (d0 : Dev nD) : ClosedOff (k0_off18 d0 3#32) := ⟨![0, 32 * (d0.val + 3 - 2 * (d0.val % 2 + 2 * (d0.val / 2 % 2))), 0], k0_off18_3_eq d0⟩
theorem k0_off18_4_eq : ∀ d0 : Dev nD, k0_off18 d0 4#32 = ![0, 32 * (d0.val + 4 - 2 * (4 * (d0.val / 4))), 0] := by decide +kernel
instance closedOff_k0_off18_4 (d0 : Dev nD) : ClosedOff (k0_off18 d0 4#32) := ⟨![0, 32 * (d0.val + 4 - 2 * (4 * (d0.val / 4))), 0], k0_off18_4_eq d0⟩
theorem k0_off18_5_eq : ∀ d0 : Dev nD, k0_off18 d0 5#32 = ![0, 32 * (d0.val + 5 - 2 * (d0.val % 2 + 4 * (d0.val / 4))), 0] := by decide +kernel
instance closedOff_k0_off18_5 (d0 : Dev nD) : ClosedOff (k0_off18 d0 5#32) := ⟨![0, 32 * (d0.val + 5 - 2 * (d0.val % 2 + 4 * (d0.val / 4))), 0], k0_off18_5_eq d0⟩
theorem k0_off18_6_eq : ∀ d0 : Dev nD, k0_off18 d0 6#32 = ![0, 32 * (d0.val + 6 - 2 * (2 * (d0.val / 2 % 2) + 4 * (d0.val / 4))), 0] := by decide +kernel
instance closedOff_k0_off18_6 (d0 : Dev nD) : ClosedOff (k0_off18 d0 6#32) := ⟨![0, 32 * (d0.val + 6 - 2 * (2 * (d0.val / 2 % 2) + 4 * (d0.val / 4))), 0], k0_off18_6_eq d0⟩
theorem k0_off18_7_eq : ∀ d0 : Dev nD, k0_off18 d0 7#32 = ![0, 32 * (d0.val + 7 - 2 * (d0.val % 2 + 2 * (d0.val / 2 % 2) + 4 * (d0.val / 4))), 0] := by decide +kernel
instance closedOff_k0_off18_7 (d0 : Dev nD) : ClosedOff (k0_off18 d0 7#32) := ⟨![0, 32 * (d0.val + 7 - 2 * (d0.val % 2 + 2 * (d0.val / 2 % 2) + 4 * (d0.val / 4))), 0], k0_off18_7_eq d0⟩

end Cert.KernelIdeal.Hand
-- ==== Proof.BodySlots.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.Dats
import Idealize.ShloMosaic.Lib.Tactic

noncomputable section

namespace Cert.KernelIdeal.Hand

open Cert.KernelIdeal.Gen Idealize.ShloMosaic Idealize.ShloMosaic.TcCoe Idealize.SL Idealize.SL.RA Idealize.SL.BI Idealize.SL.BI.BIBase Idealize.SL.ProofMode Idealize.SL.Sem

variable {F : FTy → Type} [FloatOps F]

local notation "𝕄" => MT nD τ sig Unit (Elt F) ℕ UU ℕ

abbrev yRect (s : Fin 8) : Rect S8x128x1024 := Rect.unit (s := S8x128x1024) ![s.val, 0, 0] S1x128x1024.size (inbY s)

omit [FloatOps F] in
theorem ySlot_set (s : Fin 8) : (ySlot s).view.set = (yx.access (yRect s) : View sig .tc _ _ _).set := by
  simp only [Memref.view_squeeze, View.set_reshape]

theorem ySlot_read (c : Dev nD) (s : Fin 8) (f : Buf (Elt F) ((ySlot s).view.loc (c : Thread nD τ))) :
    (ySlot s).view.read (Elt F) f = sq ((yx.access (yRect s) : View sig .tc _ _ _).read (Elt F) f) := by
  funext j
  rfl

theorem slot_load (c : Dev nD) (s : Fin 8) (q : PosShare TreeShare) (f : Buf (Elt F) ((ySlot s).view.loc (c : Thread nD τ)))
    {hl : yx.view.LoadsAt (yRect s).toLoadRect} {α : Type} {Q : α → sProp 𝕄} {E : Set ℕ}
    {k : ((yRect s).toLoadRect.shape.Idx → Elt F .bf16) → Prog (TpuEff nD τ sig (Elt F) Λ₀ .tc) α} :
    ((ySlot s).view.loc (c : Thread nD τ) ↦[(ySlot s).view.set]{q} f)
      ⊢ iprop((((ySlot s).view.loc (c : Thread nD τ) ↦[(ySlot s).view.set]{q} f)
            -∗ wp frame (wpE (defs₀ (F := F)) 𝒱₀ c none) E (k (unsq ((ySlot s).view.read (Elt F) f))) Q)
          -∗ wp frame (wpE (defs₀ (F := F)) 𝒱₀ c none) E (.op (.load yx (yRect s).toLoadRect hl) k) Q) := by
  rw [ySlot_read c s f, unsq_sq]
  refine wp_load 𝒱₀ (c : Thread nD τ) none E (m := yx) (r := (yRect s).toLoadRect) ?_
  rw [ySlot_set]
  exact (View.set_slice (v := yx.view) (yRect s)).ge

theorem slot_store (c : Dev nD) (s : Fin 8) (f : Buf (Elt F) ((ySlot s).view.loc (c : Thread nD τ)))
    (w : (yRect s).shape.Idx → Elt F .bf16)
    {hx : (yx.access (yRect s) : View sig .tc _ _ _).Stores Finset.univ} {hm : (Finset.univ : Finset (yRect s).shape.Idx) = Finset.univ ∨ ∀ a, (yRect s).stride a = 1}
    {α : Type} {Q : α → sProp 𝕄} {E : Set ℕ} {k : PUnit → Prog (TpuEff nD τ sig (Elt F) Λ₀ .tc) α} :
    ((ySlot s).view.loc (c : Thread nD τ) ↦[(ySlot s).view.set]{fullShare} f)
      ⊢ iprop(((∃ f' : Buf (Elt F) ((ySlot s).view.loc (c : Thread nD τ)), ⌜(ySlot s).view.read (Elt F) f' = sq w⌝
              ∗ ((ySlot s).view.loc (c : Thread nD τ) ↦[(ySlot s).view.set]{fullShare} f'))
            -∗ wp frame (wpE (defs₀ (F := F)) 𝒱₀ c none) E (k ⟨⟩) Q)
          -∗ wp frame (wpE (defs₀ (F := F)) 𝒱₀ c none) E (.op (.store yx (yRect s) w Finset.univ hx hm) k) Q) := by
  iintro H Hk
  iapply (wp_store 𝒱₀ (c : Thread nD τ) none E (m := yx) (r := yRect s) (Mk := Finset.univ) (S := (ySlot s).view.set)
    (by rw [ySlot_set]; exact subset_rfl)) $$ H
  iintro H
  iapply Hk
  iexists ((yx.access (yRect s) : View sig .tc _ _ _).write (Elt F) f w Finset.univ)
  isplitr
  · ipureintro
    exact (ySlot_read c s _).trans (congrArg sq (View.read_write_univ (v := (yx.access (yRect s) : View sig .tc _ _ _)) f w))
  · iexact H

end Cert.KernelIdeal.Hand

end
-- ==== Proof.BodyVals.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.Dats
import proofs.«900755_g7700000000000756_dist_attn_cross_gqa_kvseq_b4_sq256_skv1024_d1024_hq8_dh128_v7x_i8_bf16_1_alg».proof.Proof.BodyOffs

noncomputable section

namespace Cert.KernelIdeal.Hand

open Cert.KernelIdeal.Gen Idealize.ShloMosaic Idealize.ShloMosaic.Tactic

variable {F : FTy → Type} [FloatOps F] (𝒞 : Conts F) (m : (ℓ : Loc nD τ sig) → Buf (Elt F) ℓ) (ρ : Dev nD → PrngReg)
  (I : Dev nD → Ins F) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

theorem readAt_full_stg0_0 (inb) (g : (cc0_stg0_0 : Ref sig .tc).ty.Contents (Elt F)) :
    (Memref.whole cc0_stg0_0).view.readAt (Elt F) (Rect.unit (s := S4x256x1024) ![0, 0, 0] S4x256x1024.size inb).toLoadRect g = g :=
  Memref.readAt_unit_zero _ cc0_stg0_0 zeros3 inb g
theorem readAt_full_stg1_0 (inb) (g : (cc0_stg1_0 : Ref sig .tc).ty.Contents (Elt F)) :
    (Memref.whole cc0_stg1_0).view.readAt (Elt F) (Rect.unit (s := S1024x1024) ![0, 0] S1024x1024.size inb).toLoadRect g = g :=
  Memref.readAt_unit_zero _ cc0_stg1_0 zeros2 inb g
theorem readAt_full_stg2_0 (inb) (g : (cc0_stg2_0 : Ref sig .tc).ty.Contents (Elt F)) :
    (Memref.whole cc0_stg2_0).view.readAt (Elt F) (Rect.unit (s := S1024x1024) ![0, 0] S1024x1024.size inb).toLoadRect g = g :=
  Memref.readAt_unit_zero _ cc0_stg2_0 zeros2 inb g
theorem readAt_full_scratch3 (inb) (g : (cc0_scratch3 : Ref sig .tc).ty.Contents (Elt F)) :
    (Memref.whole cc0_scratch3).view.readAt (Elt F) (Rect.unit (s := S4x4x2x128x128) ![0, 0, 0, 0, 0] S4x4x2x128x128.size inb).toLoadRect g = g :=
  Memref.readAt_unit_zero _ cc0_scratch3 zeros5 inb g
theorem readAt_full_scratch5 (inb) (g : (cc0_scratch5 : Ref sig .tc).ty.Contents (Elt F)) :
    (Memref.whole cc0_scratch5).view.readAt (Elt F) (Rect.unit (s := S4x4x2x128x128) ![0, 0, 0, 0, 0] S4x4x2x128x128.size inb).toLoadRect g = g :=
  Memref.readAt_unit_zero _ cc0_scratch5 zeros5 inb g
theorem readAt_full_scratch6 (inb) (g : (cc0_scratch6 : Ref sig .tc).ty.Contents (Elt F)) :
    (Memref.whole cc0_scratch6).view.readAt (Elt F) (Rect.unit (s := S2x4x2x128x128) ![0, 0, 0, 0, 0] S2x4x2x128x128.size inb).toLoadRect g = g :=
  Memref.readAt_unit_zero _ cc0_scratch6 zeros5 inb g
theorem readAt_full_scratch7 (inb) (g : (cc0_scratch7 : Ref sig .tc).ty.Contents (Elt F)) :
    (Memref.whole cc0_scratch7).view.readAt (Elt F) (Rect.unit (s := S1x4x2x128x128) ![0, 0, 0, 0, 0] S1x4x2x128x128.size inb).toLoadRect g = g :=
  Memref.readAt_unit_zero _ cc0_scratch7 zeros5 inb g
theorem writes_full (b : Ref sig .tc) {off : Fin b.ty.shape.rank → Nat} (h : off = fun _ => 0) (inb) (g0 w : b.ty.Contents (Elt F)) :
    (Memref.whole b).view.writes (Elt F) g0 [⟨Rect.unit off b.ty.shape.size inb, w⟩] = w :=
  Memref.write_access_unit_zero_univ _ b h inb g0 w
theorem writes_full_scratch11 (inb) (g0 w : (cc0_scratch11 : Ref sig .tc).ty.Contents (Elt F)) :
    (Memref.whole cc0_scratch11).view.writes (Elt F) g0 [⟨Rect.unit (s := S4x4x2x128x128) ![0, 0, 0, 0, 0] S4x4x2x128x128.size inb, w⟩] = w :=
  writes_full cc0_scratch11 zeros5 inb g0 w
theorem writes_full_scratch12 (inb) (g0 w : (cc0_scratch12 : Ref sig .tc).ty.Contents (Elt F)) :
    (Memref.whole cc0_scratch12).view.writes (Elt F) g0 [⟨Rect.unit (s := S4x2x8x128) ![0, 0, 0, 0] S4x2x8x128.size inb, w⟩] = w :=
  writes_full cc0_scratch12 zeros4 inb g0 w
theorem writes_full_scratch13 (inb) (g0 w : (cc0_scratch13 : Ref sig .tc).ty.Contents (Elt F)) :
    (Memref.whole cc0_scratch13).view.writes (Elt F) g0 [⟨Rect.unit (s := S2x4x2x128x128) ![0, 0, 0, 0, 0] S2x4x2x128x128.size inb, w⟩] = w :=
  writes_full cc0_scratch13 zeros5 inb g0 w
theorem writes_full_scratch14 (inb) (g0 w : (cc0_scratch14 : Ref sig .tc).ty.Contents (Elt F)) :
    (Memref.whole cc0_scratch14).view.writes (Elt F) g0 [⟨Rect.unit (s := S2x2x8x128) ![0, 0, 0, 0] S2x2x8x128.size inb, w⟩] = w :=
  writes_full cc0_scratch14 zeros4 inb g0 w

theorem writes_tiled (b : Ref sig .tc) (g0 : b.ty.Contents (Elt F)) (L : List (View.Piece (Elt F) b.ty.shape b.ty.elt))
    (size : Fin b.ty.shape.rank → ℕ) (h : View.Piece.tiledL L size = true) : (Memref.whole b).view.writes (Elt F) g0 L = View.canon L :=
  View.read_writes_eq_canon (Memref.whole b).view g0 L (View.cover_of_tiledL L size h)

theorem writes_sdOL (g0 : (cc0_scratch1 : Ref sig .tc).ty.Contents (Elt F)) :
    (Memref.whole cc0_scratch1).view.writes (Elt F) g0 (sdOL I c) = o0 I c :=
  writes_tiled cc0_scratch1 g0 _ S4x1x1x128x128.size (by sl_kernel_rfl)
theorem writes_sdMLL (g0 : (cc0_scratch2 : Ref sig .tc).ty.Contents (Elt F)) :
    (Memref.whole cc0_scratch2).view.writes (Elt F) g0 (sdMLL I c) = ml0 I c :=
  writes_tiled cc0_scratch2 g0 _ S4x1x1x128.size (by sl_kernel_rfl)
theorem writes_kpOL (g0 : (cc0_scratch3 : Ref sig .tc).ty.Contents (Elt F)) :
    (Memref.whole cc0_scratch3).view.writes (Elt F) g0 (kpOL I c) = kpO I c :=
  writes_tiled cc0_scratch3 g0 _ S4x1x1x128x128.size (by sl_kernel_rfl)
theorem writes_kpMLL (g0 : (cc0_scratch4 : Ref sig .tc).ty.Contents (Elt F)) :
    (Memref.whole cc0_scratch4).view.writes (Elt F) g0 (kpMLL I c) = kpML I c :=
  writes_tiled cc0_scratch4 g0 _ S4x1x1x128.size (by sl_kernel_rfl)
theorem writes_outL (g0 : (cc0_stg5_0 : Ref sig .tc).ty.Contents (Elt F)) :
    (Memref.whole cc0_stg5_0).view.writes (Elt F) g0 (outL I c) = outV I c :=
  writes_tiled cc0_stg5_0 g0 _ S4x32x1024.size (by fin_cases c <;> sl_kernel_rfl)

theorem ins_x : (ins m c).x = xin0 m ρ c := rfl
theorem ins_wq : (ins m c).wq = xin1 m ρ c := rfl
theorem ins_wo : (ins m c).wo = xin2 m ρ c := rfl
theorem ins_kb : (ins m c).kb = xin3 m ρ c := rfl
theorem ins_vb : (ins m c).vb = xin4 m ρ c := rfl

theorem before_0 (d : (cfg0.win (0 : Fin 6)).block.Idx → Elt F (cfg0.win (0 : Fin 6)).elt) :
    (dats 𝒞 m ρ 0 c).before (0 : Fin 6) t0_0 d = xin0 m ρ c :=
  (if_pos (Gen.fetch0_0 t0_0)).trans rfl
theorem before_1 (d : (cfg0.win (1 : Fin 6)).block.Idx → Elt F (cfg0.win (1 : Fin 6)).elt) :
    (dats 𝒞 m ρ 0 c).before (1 : Fin 6) t0_0 d = xin1 m ρ c :=
  (if_pos (Gen.fetch0_1 t0_0)).trans rfl
theorem before_2 (d : (cfg0.win (2 : Fin 6)).block.Idx → Elt F (cfg0.win (2 : Fin 6)).elt) :
    (dats 𝒞 m ρ 0 c).before (2 : Fin 6) t0_0 d = xin2 m ρ c :=
  (if_pos (Gen.fetch0_2 t0_0)).trans rfl
theorem before_3 (d : (cfg0.win (3 : Fin 6)).block.Idx → Elt F (cfg0.win (3 : Fin 6)).elt) :
    (dats 𝒞 m ρ 0 c).before (3 : Fin 6) t0_0 d = xin3 m ρ c :=
  (if_pos (Gen.fetch0_3 t0_0)).trans rfl
theorem before_4 (d : (cfg0.win (4 : Fin 6)).block.Idx → Elt F (cfg0.win (4 : Fin 6)).elt) :
    (dats 𝒞 m ρ 0 c).before (4 : Fin 6) t0_0 d = xin4 m ρ c :=
  (if_pos (Gen.fetch0_4 t0_0)).trans rfl

theorem ldZ_stg3_0 (R : Rect S4x1024x2x128) (g : (cc0_stg3_0 : Ref sig .tc).ty.Contents (Elt F)) :
    (Memref.whole cc0_stg3_0).view.readAt (Elt F) R.toLoadRect g = @View.ld (Elt F) S4x1024x2x128 .f32 g R := rfl
theorem ldZ_stg4_0 (R : Rect S4x1024x2x128) (g : (cc0_stg4_0 : Ref sig .tc).ty.Contents (Elt F)) :
    (Memref.whole cc0_stg4_0).view.readAt (Elt F) R.toLoadRect g = @View.ld (Elt F) S4x1024x2x128 .f32 g R := rfl
theorem rjZ_scratch0 (inb) (w : FVec F S4x256x8x128 .bf16) (R : Rect S4x256x8x128) :
    (Memref.whole cc0_scratch0).view.readAt (Elt F) R.toLoadRect
        ((Memref.whole cc0_scratch0).view.writes (Elt F) (Memref.whole cc0_scratch0).view.junk
          [⟨Rect.unit (s := S4x256x8x128) ![0, 0, 0, 0] S4x256x8x128.size inb, w⟩])
      = @View.ld (Elt F) S4x256x8x128 .bf16 w R :=
  congrArg ((Memref.whole cc0_scratch0).view.readAt (Elt F) R.toLoadRect) (writes_full cc0_scratch0 zeros4 inb _ w)

/-- info: 'Cert.KernelIdeal.Hand.writes_sdOL' depends on axioms: [propext, Classical.choice, Quot.sound] -/
#guard_msgs in #print axioms writes_sdOL
/-- info: 'Cert.KernelIdeal.Hand.writes_kpMLL' depends on axioms: [propext, Classical.choice, Quot.sound] -/
#guard_msgs in #print axioms writes_kpMLL
/-- info: 'Cert.KernelIdeal.Hand.writes_outL' depends on axioms: [propext, Classical.choice, Quot.sound] -/
#guard_msgs in #print axioms writes_outL

end Cert.KernelIdeal.Hand

end
-- ==== Proof.Steps.lean ====
import proofs.«900755_g7700000000000756_dist_attn_cross_gqa_kvseq_b4_sq256_skv1024_d1024_hq8_dh128_v7x_i8_bf16_1_alg».proof.Proof.Levels

noncomputable section

namespace Cert.KernelIdeal.Hand

open Idealize.ShloMosaic
open Idealize.ShloMosaic.TcCoe
open Idealize.SL Idealize.SL.RA Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

def ownPay (c : Dev nD) (d : Fin 3) : sProp 𝕄 :=
  match d with
  | ⟨0, _⟩ => iprop(held (F := F) ro0 c ∗ held (F := F) rml0 c ∗ held (F := F) (ySlot 4) c ∗ held (F := F) (ySlot 5) c
      ∗ reached ER (recvCell 0 c) 0 ∗ reached ER (recvCell 1 c) 0 ∗ reached ER (recvCell 8 c) 0 ∗ reached ER (recvCell 11 c) 0)
  | ⟨1, _⟩ => iprop(held (F := F) ro1 c ∗ held (F := F) rml1 c ∗ held (F := F) (ySlot 2) c ∗ held (F := F) (ySlot 6) c
      ∗ reached ER (recvCell 2 c) 0 ∗ reached ER (recvCell 3 c) 0 ∗ reached ER (recvCell 7 c) 0 ∗ reached ER (recvCell 10 c) 0)
  | ⟨_ + 2, _⟩ => iprop(held (F := F) ro2 c ∗ held (F := F) rml2 c ∗ held (F := F) (ySlot 1) c ∗ held (F := F) (ySlot 3) c ∗ held (F := F) (ySlot 7) c
      ∗ reached ER (recvCell 4 c) 0 ∗ reached ER (recvCell 5 c) 0 ∗ reached ER (recvCell 6 c) 0 ∗ reached ER (recvCell 9 c) 0 ∗ reached ER (recvCell 12 c) 0)

omit [FloatOps F] in
theorem barPay_eq_ownPay (c : Dev nD) (d : Fin 3) : barPay (F := F) c d = ownPay (F := F) (barPartner d c) d := by
  fin_cases d <;> rfl

theorem step_signal_bar (𝒞 : Conts F) (c : Dev nD) (d : Fin 3) (κ : ℕ) (O : CellTallies nD τ sig Unit) (W : Waits sig Unit)
    (dst : Dev nD) (hdst : dst = barPartner d c) (n : ℕ) (hn : n = 1)
    {α : Type} {Q : α → sProp 𝕄} {k : PUnit → Prog (TpuEff nD τ sig (Elt F) Λ₀ .tc) α} :
    iprop(cellInv ER (Rd 𝒞) κ (barCell (barPartner d c))
        ∗ owes (c : Thread nD τ) (O + tallyAt (barCell (barPartner d c)) () 1) W
        ∗ dutyTok ER (barCell (barPartner d c)) 0 d ∗ ownPay (F := F) c d
        ∗ reached ER (barCell (barPartner d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, Proc.tc) : Thread nD τ) barS n) k) Q) := by
  subst hdst hn
  have h := Rounds.wp_signal 𝒱₀ ER (Rd 𝒞) (c : Thread nD τ) none (defs := defs₀ (F := F)) (Γ := .empty) (dst := (barPartner d c : Thread nD τ)) (sem := barS)
    (r := 0) (d := d) (k' := 1) (k := k) (κ := κ) (Q := Q)
    (by rw [duties_bar]; exact Finset.mem_univ _) (amount_bar 𝒞 (barPartner d c) d) () O rfl (W := W) (Es := Set.univ)
  rwa [payload_bar, barPay_eq_ownPay, barPartner_barPartner] at h

theorem step_signal_end (𝒞 : Conts F) (c : Dev nD) (d : Fin 3) (κ : ℕ) (O : CellTallies nD τ sig Unit) (W : Waits sig Unit)
    (dst : Dev nD) (hdst : dst = barPartner d c) (n : ℕ) (hn : n = 1)
    {α : Type} {Q : α → sProp 𝕄} {k : PUnit → Prog (TpuEff nD τ sig (Elt F) Λ₀ .tc) α} :
    iprop(cellInv ER (Rd 𝒞) κ (endCell (barPartner d c))
        ∗ owes (c : Thread nD τ) (O + tallyAt (endCell (barPartner d c)) () 1) W
        ∗ dutyTok ER (endCell (barPartner d c)) 0 d ∗ reached ER (endCell (barPartner d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, Proc.tc) : Thread nD τ) endS n) k) Q) := by
  subst hdst hn
  have h := Rounds.wp_signal 𝒱₀ ER (Rd 𝒞) (c : Thread nD τ) none (defs := defs₀ (F := F)) (Γ := .empty) (dst := (barPartner d c : Thread nD τ)) (sem := endS)
    (r := 0) (d := d) (k' := 1) (k := k) (κ := κ) (Q := Q)
    (by rw [duties_end]; exact Finset.mem_univ _) (amount_end 𝒞 (barPartner d c) d) () O rfl (W := W) (Es := Set.univ)
  rw [payload_end] at h
  exact (sep_mono_right (sep_mono_right (sep_mono_right emp_sep.2))).trans h

omit [FloatOps F] in
theorem close_cell (𝒞 : Conts F) (g : GSem nD τ sig) (κ : ℕ) :
    iprop(cellInv ER (Rd 𝒞) κ g ∗ atPos ER g 1 ∅ 0) ⊢ iprop(|={Set.univ}=> semVal g 0) :=
  Rounds.cell_close ER (Rd 𝒞) (Set.mem_univ κ) (fun h => h) (R := 1) (duties_later 𝒞 g)

theorem step_wait_bar_at (𝒞 : Conts F) (c : Dev nD) (κ : ℕ) (W : Waits sig Unit) (n : ℕ) (hn : n = 3)
    {α : Type} {Q : α → sProp 𝕄} {k : PUnit → Prog (TpuEff nD τ sig (Elt F) Λ₀ .tc) α} :
    iprop(cellInv ER (Rd 𝒞) κ (barCell c) ∗ cred (tallyAt (barCell c) () 3) ∗ owes (c : Thread nD τ) (owedFrom c 3) W ∗ levAts L lv
        ∗ atPos ER (barCell c) 0 ∅ 0)
      ⊢ iprop(((owes (c : Thread nD τ) (owedFrom c 3) (insert (SemLoc.reg barS, ()) W) ∗ atPos ER (barCell c) 1 ∅ 0 ∗ reached ER (barCell c) 1
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  have h := Rounds.wp_wait_rest_token 𝒱₀ ER (Rd 𝒞) (c : Thread nD τ) none (defs := defs₀ (F := F)) (Γ := .empty) (w := .semWait barS 3) (sm := .reg barS) (k' := 3)
    (Es := Set.univ) (κ := κ) (wpE_semWait_eq 𝒱₀ (c : Thread nD τ) none Set.univ) (Set.mem_univ _) (k := k) () (O := owedFrom c 3) (W := W)
    (R := 0) (m := 0) (T := ∅) (Q := Q) (by rw [expect_bar])
  rw [rest_bar] at h
  exact (sep_mono_right (sep_mono_right (sep_mono_right (sep_mono_left (mayWait_bar c))))).trans h

/-- Waiting out an exchange of one round returns the semaphore, at zero, to its owner. -/
theorem wait_close (𝒞 : Conts F) (c : Dev nD) (g : GSem nD τ sig) (κ : ℕ) {A B C D P Y : sProp 𝕄}
    (hmw : (levAts L lv : sProp 𝕄) ⊢ D) {α : Type} {Q : α → sProp 𝕄} {e : Prog (TpuEff nD τ sig (Elt F) Λ₀ .tc) α}
    (h : iprop(cellInv ER (Rd 𝒞) κ g ∗ A ∗ B ∗ D ∗ atPos ER g 0 ∅ 0)
      ⊢ iprop(((C ∗ atPos ER g 1 ∅ 0 ∗ reached ER g 1 ∗ P) -∗ wp frame (wpE (defs₀ (F := F)) 𝒱₀ (c : Thread nD τ) none) Set.univ e Q) -∗ Y)) :
    iprop(cellInv ER (Rd 𝒞) κ g ∗ A ∗ B ∗ levAts L lv ∗ atPos ER g 0 ∅ 0)
      ⊢ iprop(((C ∗ reached ER g 1 ∗ semVal g 0 ∗ P) -∗ wp frame (wpE (defs₀ (F := F)) 𝒱₀ (c : Thread nD τ) none) Set.univ e Q) -∗ Y) := by
  iintro ⟨#Hg, Hc, HO, #Hlev, Hat⟩ Hk
  iapply h $$ [Hc HO Hat]
  · isplitr; · iexact Hg
    isplitl [Hc]; · iexact Hc
    isplitl [HO]; · iexact HO
    isplitr; · iapply hmw; iexact Hlev
    iexact Hat
  iintro ⟨HO, Hat, #Hr, Hpay⟩
  imod (close_cell 𝒞 g κ) $$ [Hat] with Hz
  · isplitr; · iexact Hg
    iexact Hat
  iapply Hk
  isplitl [HO]; · iexact HO
  isplitr; · iexact Hr
  isplitl [Hz]; · iexact Hz
  iexact Hpay

theorem step_wait_send_at (𝒞 : Conts F) (c : Dev nD) (k : Fin 13) (κ : ℕ) (n : ℕ) (W : Waits sig Unit)
    {sp sp' : Space} {s s' : Shape} {e e' : EltTy} {src : Memref sig .tc sp' s' e'} {κ' : Kind} {dst : Memref sig κ' sp s e}
    {hsrc : src.view.WordExact} {hdst : dst.view.WordExact} (sem : DmaSem sig) (hsem : sem = sendNo k)
    (hamt : dst.view.dmaCredit = xferAmt k)
    {α : Type} {Q : α → sProp 𝕄} {kont : PUnit → Prog (TpuEff nD τ sig (Elt F) Λ₀ .tc) α} :
    iprop(cellInv ER (Rd 𝒞) κ (sendCell k c) ∗ cred (tallyAt (sendCell k c) () (xferAmt k)) ∗ owes (c : Thread nD τ) (owedFrom c n) W ∗ levAts L lv
        ∗ atPos ER (sendCell k c) 0 ∅ 0)
      ⊢ iprop(((owes (c : Thread nD τ) (owedFrom c n) (insert (SemLoc.dma (sendNo k), ()) W) ∗ reached ER (sendCell k c) 1 ∗ semVal (sendCell k c) 0
              ∗ sendPay 𝒞 k c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  have h := Rounds.wp_wait_rest_token 𝒱₀ ER (Rd 𝒞) (c : Thread nD τ) none (defs := defs₀ (F := F)) (Γ := .empty)
    (w := .waitDma2 (sendNo k) src dst hsrc hdst) (sm := .dma (sendNo k)) (k' := dst.view.dmaCredit)
    (Es := Set.univ) (κ := κ) (wpE_waitDma2_eq 𝒱₀ (c : Thread nD τ) none Set.univ) (Set.mem_univ _) (k := kont) () (O := owedFrom c n) (W := W)
    (R := 0) (m := 0) (T := ∅) (Q := Q) (by rw [expect_send, hamt, Nat.zero_add])
  rw [rest_send, hamt] at h
  exact wait_close 𝒞 c (sendCell k c) κ (mayWait_send c k n) h

theorem step_wait_recv_at (𝒞 : Conts F) (c : Dev nD) (k : Fin 13) (κ : ℕ) (W : Waits sig Unit)
    {sp sp' : Space} {s s' : Shape} {e e' : EltTy} {src : Memref sig .tc sp' s' e'} {κ' : Kind} {dst : Memref sig κ' sp s e}
    {hsrc : src.view.WordExact} {hdst : dst.view.WordExact} (sem : DmaSem sig) (hsem : sem = recvNo k)
    (hamt : dst.view.dmaCredit = xferAmt k)
    {α : Type} {Q : α → sProp 𝕄} {kont : PUnit → Prog (TpuEff nD τ sig (Elt F) Λ₀ .tc) α} :
    iprop(cellInv ER (Rd 𝒞) κ (recvCell k c) ∗ cred (tallyAt (recvCell k c) () (xferAmt k)) ∗ owes (c : Thread nD τ) (owedFrom c (waitAt k)) W ∗ levAts L lv
        ∗ atPos ER (recvCell k c) 0 ∅ 0)
      ⊢ iprop(((owes (c : Thread nD τ) (owedFrom c (waitAt k)) (insert (SemLoc.dma (recvNo k), ()) W) ∗ reached ER (recvCell k c) 1 ∗ semVal (recvCell k c) 0
              ∗ recvPay 𝒞 k c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  have h := Rounds.wp_wait_rest_token 𝒱₀ ER (Rd 𝒞) (c : Thread nD τ) none (defs := defs₀ (F := F)) (Γ := .empty)
    (w := .waitDma2 (recvNo k) src dst hsrc hdst) (sm := .dma (recvNo k)) (k' := dst.view.dmaCredit)
    (Es := Set.univ) (κ := κ) (wpE_waitDma2_eq 𝒱₀ (c : Thread nD τ) none Set.univ) (Set.mem_univ _) (k := kont) () (O := owedFrom c (waitAt k)) (W := W)
    (R := 0) (m := 0) (T := ∅) (Q := Q) (by rw [expect_recv, hamt, Nat.zero_add])
  rw [rest_recv, hamt] at h
  exact wait_close 𝒞 c (recvCell k c) κ (mayWait_recv c k) h

/-- info: 'Cert.KernelIdeal.Hand.step_signal_bar' depends on axioms: [propext, Classical.choice, Quot.sound] -/
#guard_msgs in #print axioms step_signal_bar
/-- info: 'Cert.KernelIdeal.Hand.step_signal_end' depends on axioms: [propext, Classical.choice, Quot.sound] -/
#guard_msgs in #print axioms step_signal_end
/-- info: 'Cert.KernelIdeal.Hand.step_wait_bar_at' depends on axioms: [propext, Classical.choice, Quot.sound] -/
#guard_msgs in #print axioms step_wait_bar_at
/-- info: 'Cert.KernelIdeal.Hand.step_wait_send_at' depends on axioms: [propext, Classical.choice, Quot.sound] -/
#guard_msgs in #print axioms step_wait_send_at
/-- info: 'Cert.KernelIdeal.Hand.step_wait_recv_at' depends on axioms: [propext, Classical.choice, Quot.sound] -/
#guard_msgs in #print axioms step_wait_recv_at

end Cert.KernelIdeal.Hand

end
-- ==== Proof.StepsB.lean ====
import proofs.«900755_g7700000000000756_dist_attn_cross_gqa_kvseq_b4_sq256_skv1024_d1024_hq8_dh128_v7x_i8_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Transfer `k` lends the source share to its send cell and the landing view to the partner's receive cell; the units owed for it come back as credit. -/
theorem step_send (𝒞 : Conts F) (c : Dev nD) (k : Fin 13) (K : Dev nD × Fin 28 → ℕ) (O O' : CellTallies nD τ sig Unit) (W : Waits sig Unit)
    {sp sp' : Space} {s : Shape} {e : EltTy} {src : Memref sig .tc sp s e} {dst : Memref sig .tc sp' s e} {q : PosShare TreeShare} {x x' : Vec F s e}
    (hO : O' = O + tallyAt (recvCell k (partner k c)) () (xferAmt k))
    (hx : x = x') (hS : sendPay 𝒞 k c = holds (F := F) src c q x)
    (hR : recvPay 𝒞 k (partner k c) = holds (F := F) dst (partner k c) fullShare x') (hamt : dst.view.dmaCredit = xferAmt k)
    (dev : Dev nD) (hdev : dev = partner k c) (sS sR : DmaSem sig) (hsS : sS = sendNo k) (hsR : sR = recvNo k)
    {hsc : (dst : Memref sig (Dev.tc dev : Thread nD τ).2.kind sp' s e).view.ref.isScScratch = false}
    {hsrc : src.view.WordExact} {hdst : dst.view.WordExact}
    {hsem : DmaTarget.Typed sp (.dma sR) (.remote (Dev.tc dev : Thread nD τ) dst (.dma sS) hsc)}
    {α : Type} {Q : α → sProp 𝕄} {kont : PUnit → Prog (TpuEff nD τ sig (Elt F) Λ₀ .tc) α} :
    iprop(cellInv ER (Rd 𝒞) (K (c, sIx k)) (sendCell k c) ∗ cellInv ER (Rd 𝒞) (K (partner k c, rIx k)) (recvCell k (partner k c))
        ∗ owes (c : Thread nD τ) O' W
        ∗ dutyTok ER (sendCell k c) 0 (0 : Fin 3) ∗ reached ER (sendCell k c) 0
        ∗ dutyTok ER (recvCell k (partner k c)) 0 (0 : Fin 3) ∗ reached ER (recvCell k (partner k c)) 0
        ∗ holds (F := F) src c q x ∗ held (F := F) dst (partner k c))
      ⊢ iprop(((cred (tallyAt (sendCell k c) () (xferAmt k)) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc dev : Thread nD τ) dst (.dma sS) hsc) (.dma sR) hsrc hdst hsem) kont) Q) := by
  subst hdev hsS hsR hO hx
  unfold holds held
  iintro ⟨#Hg₁, #Hg₂, HO, Ht₁, #Hr₁, Ht₂, #Hr₂, ⟨%fs, %hfs, Hsrc⟩, ⟨%fd, Hdst⟩⟩ Hk
  have hp₁ : ((src.view.loc (c : Thread nD τ)) ↦[src.view.set]{q} fs : sProp 𝕄) ⊢ (Rd 𝒞).payload (sendCell k c) 0 (0 : Fin 3) := by
    rw [payload_send, hS]
    unfold holds
    iintro H
    iexists fs
    iframe H
    ipureintro; exact hfs
  have hp₂ : ((dst.view.loc (partner k c : Thread nD τ)) ↦[dst.view.set]{fullShare}
        (dst.view.write (Elt F) fd (src.view.read (Elt F) fs) Finset.univ) : sProp 𝕄)
      ⊢ (Rd 𝒞).payload (recvCell k (partner k c)) 0 (0 : Fin 3) := by
    rw [payload_recv, hR]
    unfold holds
    iintro H
    iexists (dst.view.write (Elt F) fd (src.view.read (Elt F) fs) Finset.univ)
    iframe H
    ipureintro; rw [View.read_write_univ, hfs]
  iapply (Rounds.wp_send_pointsTo 𝒱₀ ER (Rd 𝒞) (c : Thread nD τ) none (defs := defs₀ (F := F)) (Γ := .empty)
      (c' := (partner k c : Thread nD τ)) (src := src) (dst := dst) (sS := .dma (sendNo k)) (sem := .dma (recvNo k)) (q := q) (fs := fs) (fd := fd)
      (r₁ := 0) (r₂ := 0) (d₁ := (0 : Fin 3)) (d₂ := (0 : Fin 3)) (κ₁ := K (c, sIx k)) (κ₂ := K (partner k c, rIx k)) (k := kont) (Q := Q)
      (by rw [duties_send]; exact Finset.mem_singleton_self _) (by rw [duties_recv]; exact Finset.mem_singleton_self _)
      () () (xferAmt k) hamt (amount_send 𝒞 c k 0) (amount_recv 𝒞 (partner k c) k 0) O rfl (W := W) (Es := Set.univ)
      hp₁ hp₂) $$ [$Hg₁ $Hg₂ $Hsrc $Hdst $HO $Ht₁ $Hr₁ $Ht₂ $Hr₂]
  iexact Hk

theorem xorDev_zero : ∀ c : Dev nD, xorDev 0 c = c := by decide

theorem xor_route : ∀ (j : Fin 7) (c : Dev nD), xorDev (yDst j) (partner (Fin.natAdd 6 j) c) = xorDev (ySrc j) c := by decide

/-- info: 'Cert.KernelIdeal.Hand.step_send' depends on axioms: [propext, Classical.choice, Quot.sound] -/
#guard_msgs in #print axioms step_send

end Cert.KernelIdeal.Hand

end
-- ==== Proof.StepsC.lean ====
import proofs.«900755_g7700000000000756_dist_attn_cross_gqa_kvseq_b4_sq256_skv1024_d1024_hq8_dh128_v7x_i8_bf16_1_alg».proof.Proof.StepsB

namespace Cert.KernelIdeal.Hand

open Cert.KernelIdeal.Gen Idealize.ShloMosaic

theorem amtV0 {sp : Space} (v : View sig .tc sp S4x4x2x128x128 .bf16) : v.dmaCredit = xferAmt 0 := rfl
theorem amtV1 {sp : Space} (v : View sig .tc sp S4x2x8x128 .f32) : v.dmaCredit = xferAmt 1 := rfl
theorem amtV2 {sp : Space} (v : View sig .tc sp S2x4x2x128x128 .bf16) : v.dmaCredit = xferAmt 2 := rfl
theorem amtV3 {sp : Space} (v : View sig .tc sp S2x2x8x128 .f32) : v.dmaCredit = xferAmt 3 := rfl
theorem amtV4 {sp : Space} (v : View sig .tc sp S1x4x2x128x128 .bf16) : v.dmaCredit = xferAmt 4 := rfl
theorem amtV5 {sp : Space} (v : View sig .tc sp S1x2x8x128 .f32) : v.dmaCredit = xferAmt 5 := rfl
theorem amtVy {sp : Space} (v : View sig .tc sp S128x1024 .bf16) (k : Fin 13) (hk : 6 ≤ k.val) : v.dmaCredit = xferAmt k := by
  have h : ∀ k : Fin 13, 6 ≤ k.val → xferAmt k = (ySlot 0).view.dmaCredit := by decide
  rw [h k hk]

/-- info: 'Cert.KernelIdeal.Hand.amtVy' depends on axioms: [propext, Classical.choice, Quot.sound] -/
#guard_msgs in #print axioms amtVy

end Cert.KernelIdeal.Hand
-- ==== Proof.Regions.lean ====
import proofs.«900755_g7700000000000756_dist_attn_cross_gqa_kvseq_b4_sq256_skv1024_d1024_hq8_dh128_v7x_i8_bf16_1_alg».proof.Proof.Sched
import Idealize.ShloMosaic.Rules.PointsTo
import Idealize.ShloMosaic.Lib.Pipeline.StackWindow

noncomputable section

namespace Cert.KernelIdeal.Hand

open Cert.KernelIdeal.Gen
open Idealize.ShloMosaic
open Idealize.ShloMosaic.TcCoe
open Idealize.SL.RA Idealize.SL.BI
open Idealize.SL.BI.BIBase Idealize.SL.BI.Laws

variable {F : FTy → Type} [FloatOps F]

local notation "𝕄" => MT nD τ sig Unit (Elt F) ℕ UU ℕ

theorem holds_whole (b : Ref sig .tc) (c : Dev nD) (q : PosShare TreeShare) (x : Vec F b.ty.shape b.ty.elt) :
    (holds (F := F) (Memref.whole b) c q x : sProp 𝕄)
      = iprop(∃ f : Buf (Elt F) ((c : Thread nD τ).loc b), ⌜f = x⌝ ∗ (((c : Thread nD τ).loc b) ↦{q} f)) := by
  unfold holds
  simp only [Memref.view_whole, View.read_whole, View.set_whole]

theorem holds_whole_intro (b : Ref sig .tc) (c : Dev nD) (q : PosShare TreeShare) (f : Buf (Elt F) ((c : Thread nD τ).loc b)) :
    ((((c : Thread nD τ).loc b) ↦{q} f : sProp 𝕄)) ⊢ holds (F := F) (Memref.whole b) c q f := by
  rw [holds_whole]
  iintro H
  iexists f
  isplitr
  · ipureintro; rfl
  · iexact H

theorem holds_whole_elim (b : Ref sig .tc) (c : Dev nD) (q : PosShare TreeShare) (x : Vec F b.ty.shape b.ty.elt) :
    (holds (F := F) (Memref.whole b) c q x : sProp 𝕄) ⊢ (((c : Thread nD τ).loc b) ↦{q} x) := by
  rw [holds_whole]
  iintro ⟨%f, %hf, H⟩
  subst hf
  iexact H

theorem pts_congr {sp : Space} {s : Shape} {e : EltTy} (v : Memref sig .tc sp s e) (c : Dev nD) (q : PosShare TreeShare)
    (f g : Buf (Elt F) (v.view.loc (c : Thread nD τ))) (h : ∀ i ∈ v.view.set, f i = g i) :
    (((v.view.loc (c : Thread nD τ)) ↦[v.view.set]{q} f : sProp 𝕄)) = ((v.view.loc (c : Thread nD τ)) ↦[v.view.set]{q} g) := pointsTo_congr h

theorem holds_intro {sp : Space} {s : Shape} {e : EltTy} (v : Memref sig .tc sp s e) (c : Dev nD) (q : PosShare TreeShare)
    (f : Buf (Elt F) (v.view.loc (c : Thread nD τ))) :
    (((v.view.loc (c : Thread nD τ)) ↦[v.view.set]{q} f : sProp 𝕄)) ⊢ holds (F := F) v c q (v.view.read (Elt F) f) := by
  unfold holds
  iintro H
  iexists f
  isplitr
  · ipureintro; rfl
  · iexact H

theorem held_of_holds {sp : Space} {s : Shape} {e : EltTy} (v : Memref sig .tc sp s e) (c : Dev nD) (x : Vec F s e) :
    (holds (F := F) v c fullShare x : sProp 𝕄) ⊢ held (F := F) v c := by
  unfold holds held
  iintro ⟨%f, -, H⟩
  iexists f
  iexact H

theorem held_whole_intro (b : Ref sig .tc) (c : Dev nD) (f : Buf (Elt F) ((c : Thread nD τ).loc b)) :
    ((((c : Thread nD τ).loc b) ↦{fullShare} f : sProp 𝕄)) ⊢ held (F := F) (Memref.whole b) c :=
  (holds_whole_intro b c fullShare f).trans (held_of_holds (Memref.whole b) c f)

theorem pts_carve {sp : Space} {s : Shape} {e : EltTy} (v : Memref sig .tc sp s e) (c : Dev nD) (q : PosShare TreeShare)
    (f : Buf (Elt F) (v.view.loc (c : Thread nD τ))) :
    (((v.view.loc (c : Thread nD τ)) ↦{q} f : sProp 𝕄))
      ⊣⊢ iprop(((v.view.loc (c : Thread nD τ)) ↦[v.view.set]{q} f) ∗ ((v.view.loc (c : Thread nD τ)) ↦[Finset.univ \ v.view.set]{q} f)) := pointsTo_split_subset (Finset.subset_univ _)

theorem pts_uncarve {sp : Space} {s : Shape} {e : EltTy} (v : Memref sig .tc sp s e) (c : Dev nD) (q : PosShare TreeShare)
    (f g : Buf (Elt F) (v.view.loc (c : Thread nD τ))) :
    iprop(((v.view.loc (c : Thread nD τ)) ↦[v.view.set]{q} g) ∗ ((v.view.loc (c : Thread nD τ)) ↦[Finset.univ \ v.view.set]{q} f))
      ⊢ (((v.view.loc (c : Thread nD τ)) ↦{q} (v.view.set.piecewise g f) : sProp 𝕄)) := pointsTo_join_subset (Finset.subset_univ _)

/-- Holders of two parts of a share agree on the elements they both hold, so the parts join at the contents of the first. -/
theorem pts_join (ℓ : Loc nD τ sig) (I : Finset (Idx ℓ)) {q q₁ q₂ : PosShare TreeShare} (h : q ∈ PCS.op q₁ q₂) (f g : Buf (Elt F) ℓ) :
    (iprop((ℓ ↦[I]{q₁} f) ∗ (ℓ ↦[I]{q₂} g)) : sProp 𝕄) ⊢ (ℓ ↦[I]{q} f) :=
  Laws.pure_elim _ pointsTo_agree fun hfg => by
    rw [pointsTo_congr (q := q₂) (f := g) (g := f) fun i hi => ((hfg i (Finset.mem_inter.mpr ⟨hi, hi⟩)).1).symm]
    exact (pointsTo_share h).2

/-- A view read at a share is the view read at any two parts the share is composed of. -/
theorem holds_op {sp : Space} {s : Shape} {e : EltTy} (v : Memref sig .tc sp s e) (c : Dev nD) {q q₁ q₂ : PosShare TreeShare}
    (h : q ∈ PCS.op q₁ q₂) (x : Vec F s e) :
    (holds (F := F) v c q x : sProp 𝕄) ⊣⊢ iprop(holds (F := F) v c q₁ x ∗ holds (F := F) v c q₂ x) := by
  unfold holds
  constructor
  · iintro ⟨%f, %hf, H⟩
    ihave H2 := (pointsTo_share h).1 $$ H
    icases H2 with ⟨Hl, Hr⟩
    isplitl [Hl] <;> iexists f <;> isplitr <;> first | (ipureintro; exact hf) | iassumption
  · iintro ⟨⟨%f, %hf, Hl⟩, ⟨%g, -, Hr⟩⟩
    iexists f
    isplitr
    · ipureintro; exact hf
    · iapply (pts_join _ _ h f g)
      isplitl [Hl] <;> iassumption

theorem holds_halves {sp : Space} {s : Shape} {e : EltTy} (v : Memref sig .tc sp s e) (c : Dev nD) (q : PosShare TreeShare) (x : Vec F s e) :
    (holds (F := F) v c q x : sProp 𝕄) ⊣⊢ iprop(holds (F := F) v c q.left x ∗ holds (F := F) v c q.right x) :=
  holds_op v c (PosShare.mem_left_op_right q) x

theorem holds_thirds {sp : Space} {s : Shape} {e : EltTy} (v : Memref sig .tc sp s e) (c : Dev nD) (x : Vec F s e) :
    (holds (F := F) v c fullShare x : sProp 𝕄)
      ⊣⊢ iprop(holds (F := F) v c fullShare.left.left x ∗ holds (F := F) v c fullShare.left.right x ∗ holds (F := F) v c fullShare.right x) := by
  have a := holds_op (F := F) v c (PosShare.mem_left_op_right fullShare) x
  have b := holds_op (F := F) v c (PosShare.mem_left_op_right fullShare.left) x
  exact ⟨a.1.trans ((sep_mono_left b.1).trans sep_assoc.1), (sep_assoc.2.trans (sep_mono_left b.2)).trans a.2⟩

theorem mem_ySlot_set (s : Fin 8) (i : S8x128x1024.Idx) : i ∈ (ySlot s).view.set ↔ (i 0).val = s.val := by
  show i ∈ (((View.whole cc0_scratch15 : View sig .tc _ _ _).slice
      (Rect.unit (s := S8x128x1024) ![s.val, 0, 0] S1x128x1024.size (inbY s))).reshape S128x1024
        squeezes_S1x128x1024_S128x1024.numel_eq).set ↔ _
  rw [View.set_reshape, View.set_slice_whole]
  refine StackWindow.IsMemberRect.mem_set_iff (G := 8) (d := ![128, 1024]) (g := s) ?_ i
  exact ⟨rfl, fun b => by fin_cases b <;> rfl, rfl, fun b => by fin_cases b <;> rfl⟩

abbrev slotSet (s : Fin 8) : Finset S8x128x1024.Idx := (ySlot s).view.set

theorem ySlot_cover : (Finset.univ : Finset (Fin 8)).biUnion slotSet = Finset.univ := by
  ext i
  simp only [Finset.mem_biUnion, Finset.mem_univ, true_and, iff_true]
  exact ⟨⟨(i 0).val, (i 0).isLt⟩, (mem_ySlot_set _ i).2 rfl⟩

theorem ySlot_disjoint : ∀ t ∈ (Finset.univ : Finset (Fin 8)), ∀ t' ∈ (Finset.univ : Finset (Fin 8)), t ≠ t' →
    Disjoint (slotSet t) (slotSet t') := by
  intro t _ t' _ hne
  rw [Finset.disjoint_left]
  intro i hi hi'
  have hi := (mem_ySlot_set t i).1 hi
  have hi' := (mem_ySlot_set t' i).1 hi'
  exact hne (Fin.ext (hi.symm.trans hi'))

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

theorem held_intro {sp : Space} {s : Shape} {e : EltTy} (v : Memref sig .tc sp s e) (c : Dev nD) (f : Buf (Elt F) (v.view.loc (c : Thread nD τ))) :
    (((v.view.loc (c : Thread nD τ)) ↦[v.view.set]{fullShare} f : sProp 𝕄)) ⊢ held (F := F) v c := by
  unfold held
  iintro H
  iexists f
  iexact H

/-- The slots are pairwise disjoint and cover the buffer: the whole buffer is its eight slots. -/
theorem yx_split (c : Dev nD) (q : PosShare TreeShare) (f : Buf (Elt F) ((c : Thread nD τ).loc cc0_scratch15)) :
    ((((c : Thread nD τ).loc cc0_scratch15) ↦{q} f : sProp 𝕄)) = bigSep Finset.univ fun s : Fin 8 => pointsTo ((c : Thread nD τ).loc cc0_scratch15) (slotSet s) q f := by
  rw [← pointsTo_biUnion _ _ ySlot_disjoint, ySlot_cover]

theorem yx_join (c : Dev nD) (q : PosShare TreeShare) (fs : Fin 8 → Buf (Elt F) ((c : Thread nD τ).loc cc0_scratch15)) :
    (bigSep Finset.univ fun s : Fin 8 => pointsTo ((c : Thread nD τ).loc cc0_scratch15) (slotSet s) q (fs s))
      ⊢ (iprop(∃ f : Buf (Elt F) ((c : Thread nD τ).loc cc0_scratch15), ((c : Thread nD τ).loc cc0_scratch15) ↦{q} f) : sProp 𝕄) := by
  refine (pointsTo_biUnion_join (ℓ := ((c : Thread nD τ).loc cc0_scratch15)) (q := q) Finset.univ slotSet fs (fs 0) ySlot_disjoint).trans ?_
  rw [ySlot_cover]
  iintro ⟨%g, -, H⟩
  iexists g
  iexact H

theorem yx_held_split (c : Dev nD) :
    (iprop(∃ f : Buf (Elt F) ((c : Thread nD τ).loc cc0_scratch15), ((c : Thread nD τ).loc cc0_scratch15) ↦{fullShare} f) : sProp 𝕄)
      ⊢ iprop(held (F := F) (ySlot 0) c
      ∗ held (F := F) (ySlot 1) c
      ∗ held (F := F) (ySlot 2) c
      ∗ held (F := F) (ySlot 3) c
      ∗ held (F := F) (ySlot 4) c
      ∗ held (F := F) (ySlot 5) c
      ∗ held (F := F) (ySlot 6) c
      ∗ held (F := F) (ySlot 7) c) := by
  rw [← bigSep_fin8 fun s => held (F := F) (ySlot s) c]
  refine exists_elim fun f => ?_
  rw [yx_split]
  exact bigSep_mono fun s _ => held_intro (ySlot s) c f

theorem yx_held_join (c : Dev nD) :
    (iprop(held (F := F) (ySlot 0) c
      ∗ held (F := F) (ySlot 1) c
      ∗ held (F := F) (ySlot 2) c
      ∗ held (F := F) (ySlot 3) c
      ∗ held (F := F) (ySlot 4) c
      ∗ held (F := F) (ySlot 5) c
      ∗ held (F := F) (ySlot 6) c
      ∗ held (F := F) (ySlot 7) c) : sProp 𝕄)
      ⊢ iprop(∃ f : Buf (Elt F) ((c : Thread nD τ).loc cc0_scratch15), ((c : Thread nD τ).loc cc0_scratch15) ↦{fullShare} f) :=
  (Entails.of_eq (bigSep_fin8 fun s => held (F := F) (ySlot s) c).symm).trans <|
    (bigSep_exists_pi Finset.univ fun (s : Fin 8) f => pointsTo ((c : Thread nD τ).loc cc0_scratch15) (slotSet s) fullShare f).trans <|
      exists_elim fun fs => yx_join c fullShare fs

end Cert.KernelIdeal.Hand

end

/-- info: 'Cert.KernelIdeal.Hand.yx_split' depends on axioms: [propext, Classical.choice, Quot.sound] -/
#guard_msgs in #print axioms Cert.KernelIdeal.Hand.yx_split

/-- info: 'Cert.KernelIdeal.Hand.yx_join' depends on axioms: [propext, Classical.choice, Quot.sound] -/
#guard_msgs in #print axioms Cert.KernelIdeal.Hand.yx_join

/-- info: 'Cert.KernelIdeal.Hand.yx_held_split' depends on axioms: [propext, Classical.choice, Quot.sound] -/
#guard_msgs in #print axioms Cert.KernelIdeal.Hand.yx_held_split

/-- info: 'Cert.KernelIdeal.Hand.yx_held_join' depends on axioms: [propext, Classical.choice, Quot.sound] -/
#guard_msgs in #print axioms Cert.KernelIdeal.Hand.yx_held_join

/-- info: 'Cert.KernelIdeal.Hand.holds_halves' depends on axioms: [propext, Classical.choice, Quot.sound] -/
#guard_msgs in #print axioms Cert.KernelIdeal.Hand.holds_halves

/-- info: 'Cert.KernelIdeal.Hand.holds_thirds' depends on axioms: [propext, Classical.choice, Quot.sound] -/
#guard_msgs in #print axioms Cert.KernelIdeal.Hand.holds_thirds

/-- info: 'Cert.KernelIdeal.Hand.holds_whole' depends on axioms: [propext, Classical.choice, Quot.sound] -/
#guard_msgs in #print axioms Cert.KernelIdeal.Hand.holds_whole

/-- info: 'Cert.KernelIdeal.Hand.pts_carve' depends on axioms: [propext, Classical.choice, Quot.sound] -/
#guard_msgs in #print axioms Cert.KernelIdeal.Hand.pts_carve

/-- info: 'Cert.KernelIdeal.Hand.pts_uncarve' depends on axioms: [propext, Classical.choice, Quot.sound] -/
#guard_msgs in #print axioms Cert.KernelIdeal.Hand.pts_uncarve
-- ==== Proof.BodyAux.lean ====
import proofs.«900755_g7700000000000756_dist_attn_cross_gqa_kvseq_b4_sq256_skv1024_d1024_hq8_dh128_v7x_i8_bf16_1_alg».proof.Proof.Steps
import proofs.«900755_g7700000000000756_dist_attn_cross_gqa_kvseq_b4_sq256_skv1024_d1024_hq8_dh128_v7x_i8_bf16_1_alg».proof.Proof.BodySlots

noncomputable section

namespace Cert.KernelIdeal.Hand

open Cert.KernelIdeal.Gen Idealize.ShloMosaic Idealize.ShloMosaic.TcCoe Idealize.SL Idealize.SL.RA Idealize.SL.BI Idealize.SL.BI.BIBase Idealize.SL.ProofMode Idealize.SL.Sem

variable {F : FTy → Type} [FloatOps F]

local notation "𝕄" => MT nD τ sig Unit (Elt F) ℕ UU ℕ

omit [FloatOps F] in
theorem owes_cast' (c : Dev nD) {O O' : CellTallies nD τ sig Unit} (h : O = O') (W : Waits sig Unit) :
    (owes (c : Thread nD τ) O W : sProp 𝕄) ⊢ owes (c : Thread nD τ) O' W := by subst h; exact BI.Entails.refl _

theorem held_open {sp : Space} {s : Shape} {e : EltTy} (v : Memref sig .tc sp s e) (c : Dev nD) :
    (held (F := F) v c : sProp 𝕄)
      ⊢ iprop(∃ f : Buf (Elt F) (v.view.loc (c : Thread nD τ)), (v.view.loc (c : Thread nD τ)) ↦[v.view.set]{fullShare} f) := by
  unfold held; exact BI.Entails.refl _

theorem holds_close {sp : Space} {s : Shape} {e : EltTy} (v : Memref sig .tc sp s e) (c : Dev nD) (q : PosShare TreeShare) (x : Vec F s e)
    (f : Buf (Elt F) (v.view.loc (c : Thread nD τ))) (h : v.view.read (Elt F) f = x) :
    (((v.view.loc (c : Thread nD τ)) ↦[v.view.set]{q} f : sProp 𝕄)) ⊢ holds (F := F) v c q x := by
  unfold holds
  iintro H
  iexists f
  isplitr; · ipureintro; exact h
  iexact H

omit [FloatOps F] in
theorem prog_ret_bind {E : Type → Type} {α β : Type} (a : α) (k : α → Prog E β) : (Prog.ret a).bind k = k a := rfl

theorem slot_load_holds (c : Dev nD) (s : Fin 8) (q : PosShare TreeShare) (x : Vec F S128x1024 .bf16)
    {hl : yx.view.LoadsAt (yRect s).toLoadRect} {α : Type} {Q : α → sProp 𝕄} {E : Set ℕ}
    {k : ((yRect s).toLoadRect.shape.Idx → Elt F .bf16) → Prog (TpuEff nD τ sig (Elt F) Λ₀ .tc) α} :
    (holds (F := F) (ySlot s) c q x : sProp 𝕄)
      ⊢ iprop((holds (F := F) (ySlot s) c q x -∗ wp frame (wpE (defs₀ (F := F)) 𝒱₀ c none) E (k (unsq x)) Q)
          -∗ wp frame (wpE (defs₀ (F := F)) 𝒱₀ c none) E (.op (.load yx (yRect s).toLoadRect hl) k) Q) := by
  unfold holds
  iintro ⟨%f, %hf, H⟩ Hk
  subst hf
  iapply (slot_load c s q f) $$ H
  iintro H
  iapply Hk
  iexists f
  isplitr; · ipureintro; rfl
  iexact H

variable (𝒞 : Conts F) (c : Dev nD)

theorem sendPay_6 : (sendPay 𝒞 6 c : sProp 𝕄) = holds (F := F) (ySlot 0) c fullShare.left.left (𝒞.y (xorDev 0 c)) := rfl
theorem recvPay_6 : (recvPay 𝒞 6 c : sProp 𝕄) = holds (F := F) (ySlot 1) c fullShare (𝒞.y (xorDev 1 c)) := rfl
theorem sendPay_7 : (sendPay 𝒞 7 c : sProp 𝕄) = holds (F := F) (ySlot 0) c fullShare.left.right (𝒞.y (xorDev 0 c)) := rfl
theorem recvPay_7 : (recvPay 𝒞 7 c : sProp 𝕄) = holds (F := F) (ySlot 2) c fullShare (𝒞.y (xorDev 2 c)) := rfl
theorem sendPay_8 : (sendPay 𝒞 8 c : sProp 𝕄) = holds (F := F) (ySlot 0) c fullShare.right (𝒞.y (xorDev 0 c)) := rfl
theorem recvPay_8 : (recvPay 𝒞 8 c : sProp 𝕄) = holds (F := F) (ySlot 4) c fullShare (𝒞.y (xorDev 4 c)) := rfl
theorem sendPay_9 : (sendPay 𝒞 9 c : sProp 𝕄) = holds (F := F) (ySlot 2) c fullShare.left (𝒞.y (xorDev 2 c)) := rfl
theorem recvPay_9 : (recvPay 𝒞 9 c : sProp 𝕄) = holds (F := F) (ySlot 3) c fullShare (𝒞.y (xorDev 3 c)) := rfl
theorem sendPay_10 : (sendPay 𝒞 10 c : sProp 𝕄) = holds (F := F) (ySlot 4) c fullShare.left (𝒞.y (xorDev 4 c)) := rfl
theorem recvPay_10 : (recvPay 𝒞 10 c : sProp 𝕄) = holds (F := F) (ySlot 6) c fullShare (𝒞.y (xorDev 6 c)) := rfl
theorem sendPay_11 : (sendPay 𝒞 11 c : sProp 𝕄) = holds (F := F) (ySlot 1) c fullShare.left (𝒞.y (xorDev 1 c)) := rfl
theorem recvPay_11 : (recvPay 𝒞 11 c : sProp 𝕄) = holds (F := F) (ySlot 5) c fullShare (𝒞.y (xorDev 5 c)) := rfl
theorem sendPay_12 : (sendPay 𝒞 12 c : sProp 𝕄) = holds (F := F) (ySlot 6) c fullShare.left (𝒞.y (xorDev 6 c)) := rfl
theorem recvPay_12 : (recvPay 𝒞 12 c : sProp 𝕄) = holds (F := F) (ySlot 7) c fullShare (𝒞.y (xorDev 7 c)) := rfl

theorem conts_y_eq (m : (ℓ : Loc nD τ sig) → Buf (Elt F) ℓ) (c : Dev nD) : (conts m).y c = yV (ins m) c := by
  unfold conts contsOf
  with_reducible rfl
theorem conts_out_eq (m : (ℓ : Loc nD τ sig) → Buf (Elt F) ℓ) (c : Dev nD) : (conts m).out c = outV (ins m) c := by
  unfold conts contsOf
  with_reducible rfl

/-- info: 'Cert.KernelIdeal.Hand.owes_cast'' depends on axioms: [propext, Classical.choice, Quot.sound] -/
#guard_msgs in #print axioms owes_cast'
/-- info: 'Cert.KernelIdeal.Hand.held_open' depends on axioms: [propext, Classical.choice, Quot.sound] -/
#guard_msgs in #print axioms held_open
/-- info: 'Cert.KernelIdeal.Hand.holds_close' depends on axioms: [propext, Classical.choice, Quot.sound] -/
#guard_msgs in #print axioms holds_close
/-- info: 'Cert.KernelIdeal.Hand.slot_load_holds' depends on axioms: [propext, Classical.choice, Quot.sound] -/
#guard_msgs in #print axioms slot_load_holds
/-- info: 'Cert.KernelIdeal.Hand.prog_ret_bind' does not depend on any axioms -/
#guard_msgs in #print axioms prog_ret_bind
/-- info: 'Cert.KernelIdeal.Hand.sendPay_6' depends on axioms: [propext, Classical.choice, Quot.sound] -/
#guard_msgs in #print axioms sendPay_6
/-- info: 'Cert.KernelIdeal.Hand.sendPay_7' depends on axioms: [propext, Classical.choice, Quot.sound] -/
#guard_msgs in #print axioms sendPay_7
/-- info: 'Cert.KernelIdeal.Hand.sendPay_8' depends on axioms: [propext, Classical.choice, Quot.sound] -/
#guard_msgs in #print axioms sendPay_8
/-- info: 'Cert.KernelIdeal.Hand.sendPay_9' depends on axioms: [propext, Classical.choice, Quot.sound] -/
#guard_msgs in #print axioms sendPay_9
/-- info: 'Cert.KernelIdeal.Hand.sendPay_10' depends on axioms: [propext, Classical.choice, Quot.sound] -/
#guard_msgs in #print axioms sendPay_10
/-- info: 'Cert.KernelIdeal.Hand.sendPay_11' depends on axioms: [propext, Classical.choice, Quot.sound] -/
#guard_msgs in #print axioms sendPay_11
/-- info: 'Cert.KernelIdeal.Hand.sendPay_12' depends on axioms: [propext, Classical.choice, Quot.sound] -/
#guard_msgs in #print axioms sendPay_12
/-- info: 'Cert.KernelIdeal.Hand.recvPay_6' depends on axioms: [propext, Classical.choice, Quot.sound] -/
#guard_msgs in #print axioms recvPay_6
/-- info: 'Cert.KernelIdeal.Hand.recvPay_7' depends on axioms: [propext, Classical.choice, Quot.sound] -/
#guard_msgs in #print axioms recvPay_7
/-- info: 'Cert.KernelIdeal.Hand.recvPay_8' depends on axioms: [propext, Classical.choice, Quot.sound] -/
#guard_msgs in #print axioms recvPay_8
/-- info: 'Cert.KernelIdeal.Hand.recvPay_9' depends on axioms: [propext, Classical.choice, Quot.sound] -/
#guard_msgs in #print axioms recvPay_9
/-- info: 'Cert.KernelIdeal.Hand.recvPay_10' depends on axioms: [propext, Classical.choice, Quot.sound] -/
#guard_msgs in #print axioms recvPay_10
/-- info: 'Cert.KernelIdeal.Hand.recvPay_11' depends on axioms: [propext, Classical.choice, Quot.sound] -/
#guard_msgs in #print axioms recvPay_11
/-- info: 'Cert.KernelIdeal.Hand.recvPay_12' depends on axioms: [propext, Classical.choice, Quot.sound] -/
#guard_msgs in #print axioms recvPay_12
/-- info: 'Cert.KernelIdeal.Hand.conts_y_eq' depends on axioms: [propext, Classical.choice, Quot.sound] -/
#guard_msgs in #print axioms conts_y_eq
/-- info: 'Cert.KernelIdeal.Hand.conts_out_eq' depends on axioms: [propext, Classical.choice, Quot.sound] -/
#guard_msgs in #print axioms conts_out_eq

end Cert.KernelIdeal.Hand

end
-- ==== Proof.BodyPost.lean ====
import proofs.«900755_g7700000000000756_dist_attn_cross_gqa_kvseq_b4_sq256_skv1024_d1024_hq8_dh128_v7x_i8_bf16_1_alg».proof.Proof.Fund

noncomputable section

namespace Cert.KernelIdeal.Hand

open Cert.KernelIdeal.Gen Idealize.ShloMosaic Idealize.ShloMosaic.TcCoe Idealize.SL Idealize.SL.RA Idealize.SL.BI Idealize.SL.BI.BIBase Idealize.SL.ProofMode Idealize.SL.Sem

set_option maxRecDepth 16384 in
theorem final_post {F : FTy → Type} [FloatOps F] (𝒞 : Conts F) (m : (ℓ : Loc nD τ sig) → Buf (Elt F) ℓ) (ρ : Dev nD → PrngReg)
    (c : Dev nD) (W : Waits sig Unit)
    (g0 : Buf (Elt F) ((c : Thread nD τ).loc cc0_scratch0))
    (g1 : Buf (Elt F) ((c : Thread nD τ).loc cc0_scratch1))
    (g2 : Buf (Elt F) ((c : Thread nD τ).loc cc0_scratch2))
    (g3 : Buf (Elt F) ((c : Thread nD τ).loc cc0_scratch3))
    (g4 : Buf (Elt F) ((c : Thread nD τ).loc cc0_scratch4))
    (g5 : Buf (Elt F) ((c : Thread nD τ).loc cc0_scratch5))
    (g6 : Buf (Elt F) ((c : Thread nD τ).loc cc0_scratch6))
    (g7 : Buf (Elt F) ((c : Thread nD τ).loc cc0_scratch7))
    (g8 : Buf (Elt F) ((c : Thread nD τ).loc cc0_scratch8))
    (g9 : Buf (Elt F) ((c : Thread nD τ).loc cc0_scratch9))
    (g10 : Buf (Elt F) ((c : Thread nD τ).loc cc0_scratch10))
    (g11 : Buf (Elt F) ((c : Thread nD τ).loc cc0_scratch11))
    (g12 : Buf (Elt F) ((c : Thread nD τ).loc cc0_scratch12))
    (g13 : Buf (Elt F) ((c : Thread nD τ).loc cc0_scratch13))
    (g14 : Buf (Elt F) ((c : Thread nD τ).loc cc0_scratch14))
    (g15 : Buf (Elt F) ((c : Thread nD τ).loc cc0_scratch15)) :
    (iprop((((c : Thread nD τ).loc cc0_scratch0) ↦{fullShare} g0)
        ∗ (((c : Thread nD τ).loc cc0_scratch1) ↦{fullShare} g1)
        ∗ (((c : Thread nD τ).loc cc0_scratch2) ↦{fullShare} g2)
        ∗ (((c : Thread nD τ).loc cc0_scratch3) ↦{fullShare} g3)
        ∗ (((c : Thread nD τ).loc cc0_scratch4) ↦{fullShare} g4)
        ∗ (((c : Thread nD τ).loc cc0_scratch5) ↦{fullShare} g5)
        ∗ (((c : Thread nD τ).loc cc0_scratch6) ↦{fullShare} g6)
        ∗ (((c : Thread nD τ).loc cc0_scratch7) ↦{fullShare} g7)
        ∗ (((c : Thread nD τ).loc cc0_scratch8) ↦{fullShare} g8)
        ∗ (((c : Thread nD τ).loc cc0_scratch9) ↦{fullShare} g9)
        ∗ (((c : Thread nD τ).loc cc0_scratch10) ↦{fullShare} g10)
        ∗ (((c : Thread nD τ).loc cc0_scratch11) ↦{fullShare} g11)
        ∗ (((c : Thread nD τ).loc cc0_scratch12) ↦{fullShare} g12)
        ∗ (((c : Thread nD τ).loc cc0_scratch13) ↦{fullShare} g13)
        ∗ (((c : Thread nD τ).loc cc0_scratch14) ↦{fullShare} g14)
        ∗ (((c : Thread nD τ).loc cc0_scratch15) ↦{fullShare} g15)
        ∗ semVal (endCell c) 0
        ∗ semVal (sendCell 0 c) 0
        ∗ semVal (sendCell 1 c) 0
        ∗ semVal (sendCell 2 c) 0
        ∗ semVal (sendCell 3 c) 0
        ∗ semVal (sendCell 4 c) 0
        ∗ semVal (sendCell 5 c) 0
        ∗ semVal (sendCell 6 c) 0
        ∗ semVal (sendCell 7 c) 0
        ∗ semVal (sendCell 8 c) 0
        ∗ semVal (sendCell 9 c) 0
        ∗ semVal (sendCell 10 c) 0
        ∗ semVal (sendCell 11 c) 0
        ∗ semVal (sendCell 12 c) 0
        ∗ semVal (recvCell 0 c) 0
        ∗ semVal (recvCell 1 c) 0
        ∗ semVal (recvCell 2 c) 0
        ∗ semVal (recvCell 3 c) 0
        ∗ semVal (recvCell 4 c) 0
        ∗ semVal (recvCell 5 c) 0
        ∗ semVal (recvCell 6 c) 0
        ∗ semVal (recvCell 7 c) 0
        ∗ semVal (recvCell 8 c) 0
        ∗ semVal (recvCell 9 c) 0
        ∗ semVal (recvCell 10 c) 0
        ∗ semVal (recvCell 11 c) 0
        ∗ semVal (recvCell 12 c) 0
        ∗ owes (c : Thread nD τ) (owedFrom c 19) W
        ∗ (((c : Thread nD τ).loc cc0_stg0_0) ↦{fullShare} xin0 m ρ c)
        ∗ (((c : Thread nD τ).loc cc0_stg1_0) ↦{fullShare} xin1 m ρ c)
        ∗ (((c : Thread nD τ).loc cc0_stg2_0) ↦{fullShare} xin2 m ρ c)
        ∗ (((c : Thread nD τ).loc cc0_stg3_0) ↦{fullShare} xin3 m ρ c)
        ∗ (((c : Thread nD τ).loc cc0_stg4_0) ↦{fullShare} xin4 m ρ c)
        ∗ (((c : Thread nD τ).loc cc0_stg5_0) ↦{fullShare} 𝒞.out c)) : sProp (MT nD τ sig Unit (Elt F) ℕ UU ℕ))
      ⊢ bodyPost 𝒞 m ρ c := by
  unfold bodyPost Φ₁ scratchAny
  rw [bigSep_fin13, bigSep_fin13]
  iintro ⟨G0, G1, G2, G3, G4, G5, G6, G7, G8, G9, G10, G11, G12, G13, G14, G15, Hend, S0, S1, S2, S3, S4, S5, S6, S7, S8, S9, S10, S11, S12, R0, R1, R2, R3, R4, R5, R6, R7, R8, R9, R10, R11, R12, HO, X0, X1, X2, X3, X4, X5⟩
  isplitr [HO X0 X1 X2 X3 X4 X5]
  · isplitl [G0 G1 G2 G3 G4 G5 G6 G7 G8 G9 G10 G11 G12 G13 G14 G15]
    · isplitl [G0]; · iexists g0; iexact G0
      isplitl [G1]; · iexists g1; iexact G1
      isplitl [G2]; · iexists g2; iexact G2
      isplitl [G3]; · iexists g3; iexact G3
      isplitl [G4]; · iexists g4; iexact G4
      isplitl [G5]; · iexists g5; iexact G5
      isplitl [G6]; · iexists g6; iexact G6
      isplitl [G7]; · iexists g7; iexact G7
      isplitl [G8]; · iexists g8; iexact G8
      isplitl [G9]; · iexists g9; iexact G9
      isplitl [G10]; · iexists g10; iexact G10
      isplitl [G11]; · iexists g11; iexact G11
      isplitl [G12]; · iexists g12; iexact G12
      isplitl [G13]; · iexists g13; iexact G13
      isplitl [G14]; · iexists g14; iexact G14
      iexists g15; iexact G15
    isplitl [Hend]; · iexact Hend
    isplitr [R0 R1 R2 R3 R4 R5 R6 R7 R8 R9 R10 R11 R12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
  isplitl [HO]
  · iexists W
    isplitr; · ipureintro; exact fun _ _ => Or.inl trivial
    iexact HO
  isplitl [X0]
  · iexists _
    isplitr; · ipureintro; rfl
    iexact X0
  isplitl [X1]
  · iexists _
    isplitr; · ipureintro; rfl
    iexact X1
  isplitl [X2]
  · iexists _
    isplitr; · ipureintro; rfl
    iexact X2
  isplitl [X3]
  · iexists _
    isplitr; · ipureintro; rfl
    iexact X3
  isplitl [X4]
  · iexists _
    isplitr; · ipureintro; rfl
    iexact X4
  iexists _
  isplitr; · ipureintro; rfl
  iexact X5

/-- info: 'Cert.KernelIdeal.Hand.final_post' depends on axioms: [propext, Classical.choice, Quot.sound] -/
#guard_msgs in #print axioms final_post

end Cert.KernelIdeal.Hand

end
-- ==== Proof.BodyAuxM.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.Regions
import Idealize.ShloMosaic.Rules.PointsTo
import Idealize.ShloMosaic.Lib.Pipeline.Value

noncomputable section

namespace Cert.KernelIdeal.Hand

open Cert.KernelIdeal.Gen Idealize.ShloMosaic Idealize.ShloMosaic.TcCoe Idealize.SL Idealize.SL.RA Idealize.SL.BI Idealize.SL.BI.BIBase Idealize.SL.BI.Laws Idealize.SL.ProofMode Idealize.SL.Sem

variable {F : FTy → Type} [FloatOps F]

local notation "𝕄" => MT nD τ sig Unit (Elt F) ℕ UU ℕ

theorem eq_on_set_of_read_eq {sp : Space} {s : Shape} {e : EltTy} (v : Memref sig .tc sp s e) (c : Dev nD)
    (f g : Buf (Elt F) (v.view.loc (c : Thread nD τ))) (h : v.view.read (Elt F) f = v.view.read (Elt F) g) :
    ∀ i ∈ v.view.set, f i = g i := by
  intro i hi
  obtain ⟨x, -, rfl⟩ := Finset.mem_map.mp hi
  have hx := congrFun h x
  rw [View.read_apply, View.read_apply] at hx
  exact (cast_bijective _).1 hx

theorem carve_out {sp : Space} {s : Shape} {e : EltTy} (v : Memref sig .tc sp s e) (c : Dev nD)
    (f : Buf (Elt F) (v.view.loc (c : Thread nD τ))) :
    (((v.view.loc (c : Thread nD τ)) ↦{fullShare} f : sProp 𝕄))
      ⊢ iprop(holds (F := F) v c fullShare (v.view.read (Elt F) f) ∗ ((v.view.loc (c : Thread nD τ)) ↦[Finset.univ \ v.view.set]{fullShare} f)) :=
  (pts_carve v c fullShare f).1.trans (sep_mono_left (holds_intro v c fullShare f))

theorem uncarve_back {sp : Space} {s : Shape} {e : EltTy} (v : Memref sig .tc sp s e) (c : Dev nD)
    (f : Buf (Elt F) (v.view.loc (c : Thread nD τ))) (x : Vec F s e) (hx : v.view.read (Elt F) f = x) :
    iprop(holds (F := F) v c fullShare x ∗ ((v.view.loc (c : Thread nD τ)) ↦[Finset.univ \ v.view.set]{fullShare} f))
      ⊢ (((v.view.loc (c : Thread nD τ)) ↦{fullShare} f : sProp 𝕄)) := by
  unfold holds
  iintro ⟨⟨%f', %hf', H⟩, Hrest⟩
  ihave H' := (BIBase.Entails.of_eq (pts_congr v c fullShare f' f (eq_on_set_of_read_eq v c f' f (hf'.trans hx.symm)))) $$ H
  ihave Hw := (pts_uncarve v c fullShare f f) $$ [H' Hrest]
  · isplitl [H']; · iexact H'
    iexact Hrest
  rw [Finset.piecewise_same]
  iexact Hw

theorem holds_whole_view (b : Ref sig .tc) (c : Dev nD) (q : PosShare TreeShare) (x : Vec F b.ty.shape b.ty.elt) :
    (holds (F := F) (Memref.whole b) c q x : sProp 𝕄) ⊢ (((Memref.whole b).view.loc (c : Thread nD τ)) ↦{q} x) :=
  holds_whole_elim b c q x

theorem ldY_scratch4 (R : Rect S4x2x8x128) (g : (cc0_scratch4 : Ref sig .tc).ty.Contents (Elt F)) :
    (Memref.whole cc0_scratch4).view.readAt (Elt F) R.toLoadRect g = @View.ld (Elt F) S4x2x8x128 .f32 g R := rfl
theorem ldY_scratch8 (R : Rect S4x2x8x128) (g : (cc0_scratch8 : Ref sig .tc).ty.Contents (Elt F)) :
    (Memref.whole cc0_scratch8).view.readAt (Elt F) R.toLoadRect g = @View.ld (Elt F) S4x2x8x128 .f32 g R := rfl
theorem ldY_scratch12 (R : Rect S4x2x8x128) (g : (cc0_scratch12 : Ref sig .tc).ty.Contents (Elt F)) :
    (Memref.whole cc0_scratch12).view.readAt (Elt F) R.toLoadRect g = @View.ld (Elt F) S4x2x8x128 .f32 g R := rfl
theorem ldY_scratch11 (R : Rect S4x4x2x128x128) (g : (cc0_scratch11 : Ref sig .tc).ty.Contents (Elt F)) :
    (Memref.whole cc0_scratch11).view.readAt (Elt F) R.toLoadRect g = @View.ld (Elt F) S4x4x2x128x128 .bf16 g R := rfl
theorem ldY_scratch9 (R : Rect S2x2x8x128) (g : (cc0_scratch9 : Ref sig .tc).ty.Contents (Elt F)) :
    (Memref.whole cc0_scratch9).view.readAt (Elt F) R.toLoadRect g = @View.ld (Elt F) S2x2x8x128 .f32 g R := rfl
theorem ldY_scratch14 (R : Rect S2x2x8x128) (g : (cc0_scratch14 : Ref sig .tc).ty.Contents (Elt F)) :
    (Memref.whole cc0_scratch14).view.readAt (Elt F) R.toLoadRect g = @View.ld (Elt F) S2x2x8x128 .f32 g R := rfl
theorem ldY_scratch13 (R : Rect S2x4x2x128x128) (g : (cc0_scratch13 : Ref sig .tc).ty.Contents (Elt F)) :
    (Memref.whole cc0_scratch13).view.readAt (Elt F) R.toLoadRect g = @View.ld (Elt F) S2x4x2x128x128 .bf16 g R := rfl
theorem ldY_scratch10 (R : Rect S1x2x8x128) (g : (cc0_scratch10 : Ref sig .tc).ty.Contents (Elt F)) :
    (Memref.whole cc0_scratch10).view.readAt (Elt F) R.toLoadRect g = @View.ld (Elt F) S1x2x8x128 .f32 g R := rfl

variable (I : Dev nD → Ins F) (c : Dev nD)

theorem c0oV_unfold : c0oV I c
    = k0_pay136 (k0_pay128 (kpO I c)) (k0_pay129 (View.ld (kpML I c) (Rect.unit (s := S4x2x8x128) ![0, 0, 0, 0] S4x1x8x128.size inb_S4x2x8x128_S4x1x8x128_0_0_0_0))) (k0_pay131 (o0 I (p4 c))) (View.ld (ml0 I (p4 c)) (Rect.unit (s := S4x2x8x128) ![0, 0, 0, 0] S4x1x8x128.size inb_S4x2x8x128_S4x1x8x128_0_0_0_0)) := rfl
theorem c0mlV_unfold : c0mlV I c
    = k0_pay137 (k0_pay129 (View.ld (kpML I c) (Rect.unit (s := S4x2x8x128) ![0, 0, 0, 0] S4x1x8x128.size inb_S4x2x8x128_S4x1x8x128_0_0_0_0))) (k0_pay130 (View.ld (kpML I c) (Rect.unit (s := S4x2x8x128) ![0, 1, 0, 0] S4x1x8x128.size inb_S4x2x8x128_S4x1x8x128_0_1_0_0)))
        (View.ld (ml0 I (p4 c)) (Rect.unit (s := S4x2x8x128) ![0, 0, 0, 0] S4x1x8x128.size inb_S4x2x8x128_S4x1x8x128_0_0_0_0)) (View.ld (ml0 I (p4 c)) (Rect.unit (s := S4x2x8x128) ![0, 1, 0, 0] S4x1x8x128.size inb_S4x2x8x128_S4x1x8x128_0_1_0_0)) := rfl
theorem c1oV_unfold : c1oV I c
    = k0_pay145 (k0_pay144 (View.ld (c0mlV I c) (Rect.unit (s := S4x2x8x128) (k0_off11 c) S2x2x8x128.size (k0_off11_inb c))) (View.ld (c0oV I c) (Rect.unit (s := S4x4x2x128x128) (k0_off12 c) S2x4x2x128x128.size (k0_off12_inb c))) (o1 I (p2 c)) (View.ld (ml1 I (p2 c)) (Rect.unit (s := S2x2x8x128) ![0, 0, 0, 0] S2x1x8x128.size inb_S2x2x8x128_S2x1x8x128_0_0_0_0))) := rfl
theorem c1mlV_unfold : c1mlV I c
    = k0_pay146 (k0_pay140 (View.ld (c0mlV I c) (Rect.unit (s := S4x2x8x128) (k0_off11 c) S2x2x8x128.size (k0_off11_inb c))) (View.ld (ml1 I (p2 c)) (Rect.unit (s := S2x2x8x128) ![0, 0, 0, 0] S2x1x8x128.size inb_S2x2x8x128_S2x1x8x128_0_0_0_0)))
        (k0_pay143 (View.ld (c0mlV I c) (Rect.unit (s := S4x2x8x128) (k0_off11 c) S2x2x8x128.size (k0_off11_inb c))) (View.ld (ml1 I (p2 c)) (Rect.unit (s := S2x2x8x128) ![0, 0, 0, 0] S2x1x8x128.size inb_S2x2x8x128_S2x1x8x128_0_0_0_0)) (View.ld (ml1 I (p2 c)) (Rect.unit (s := S2x2x8x128) ![0, 1, 0, 0] S2x1x8x128.size inb_S2x2x8x128_S2x1x8x128_0_1_0_0))) := rfl

/-- info: 'Cert.KernelIdeal.Hand.uncarve_back' depends on axioms: [propext, Classical.choice, Quot.sound] -/
#guard_msgs in #print axioms uncarve_back
/-- info: 'Cert.KernelIdeal.Hand.carve_out' depends on axioms: [propext, Classical.choice, Quot.sound] -/
#guard_msgs in #print axioms carve_out
/-- info: 'Cert.KernelIdeal.Hand.c1mlV_unfold' depends on axioms: [propext, Classical.choice, Quot.sound] -/
#guard_msgs in #print axioms c1mlV_unfold

end Cert.KernelIdeal.Hand

end
-- ==== Proof.Body.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.BodyOffs
import proofs.«900755_g7700000000000756_dist_attn_cross_gqa_kvseq_b4_sq256_skv1024_d1024_hq8_dh128_v7x_i8_bf16_1_alg».proof.Proof.BodySlots
import proofs.«900755_g7700000000000756_dist_attn_cross_gqa_kvseq_b4_sq256_skv1024_d1024_hq8_dh128_v7x_i8_bf16_1_alg».proof.Proof.BodyVals
import proofs.«900755_g7700000000000756_dist_attn_cross_gqa_kvseq_b4_sq256_skv1024_d1024_hq8_dh128_v7x_i8_bf16_1_alg».proof.Proof.Dats
import proofs.«900755_g7700000000000756_dist_attn_cross_gqa_kvseq_b4_sq256_skv1024_d1024_hq8_dh128_v7x_i8_bf16_1_alg».proof.Proof.Levels
import proofs.«900755_g7700000000000756_dist_attn_cross_gqa_kvseq_b4_sq256_skv1024_d1024_hq8_dh128_v7x_i8_bf16_1_alg».proof.Proof.StepsB
import proofs.«900755_g7700000000000756_dist_attn_cross_gqa_kvseq_b4_sq256_skv1024_d1024_hq8_dh128_v7x_i8_bf16_1_alg».proof.Proof.StepsC
import proofs.«900755_g7700000000000756_dist_attn_cross_gqa_kvseq_b4_sq256_skv1024_d1024_hq8_dh128_v7x_i8_bf16_1_alg».proof.Proof.Regions
import Idealize.ShloMosaic.Lib.Exec
import Idealize.ShloMosaic.Lib.Tactic
import proofs.«900755_g7700000000000756_dist_attn_cross_gqa_kvseq_b4_sq256_skv1024_d1024_hq8_dh128_v7x_i8_bf16_1_alg».proof.Proof.BodyAux
import proofs.«900755_g7700000000000756_dist_attn_cross_gqa_kvseq_b4_sq256_skv1024_d1024_hq8_dh128_v7x_i8_bf16_1_alg».proof.Proof.BodyPost
import proofs.«900755_g7700000000000756_dist_attn_cross_gqa_kvseq_b4_sq256_skv1024_d1024_hq8_dh128_v7x_i8_bf16_1_alg».proof.Proof.BodyAuxM
import proofs.«900755_g7700000000000756_dist_attn_cross_gqa_kvseq_b4_sq256_skv1024_d1024_hq8_dh128_v7x_i8_bf16_1_alg».proof.Proof.Launch

noncomputable section

namespace Cert.KernelIdeal.Hand

open Cert.KernelIdeal.Gen
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem pv (b : Ref sig .tc) (c : Dev nD) {q : PosShare TreeShare} {f : Buf (Elt F) ((c : Thread nD τ).loc b)} :
    (((c : Thread nD τ).loc b) ↦{q} f : sProp 𝕄) ⊢ (((Memref.whole b).view.loc (c : Thread nD τ)) ↦{q} f) := BI.Entails.refl _
omit [FloatOps F] in
theorem vp (b : Ref sig .tc) (c : Dev nD) {q : PosShare TreeShare} {f : Buf (Elt F) ((c : Thread nD τ).loc b)} :
    (((Memref.whole b).view.loc (c : Thread nD τ)) ↦{q} f : sProp 𝕄) ⊢ (((c : Thread nD τ).loc b) ↦{q} f) := BI.Entails.refl _

theorem conts_o0 (m : (ℓ : Loc nD τ sig) → Buf (Elt F) ℓ) : (conts m).o0 = o0 (ins m) := by simp only [conts, contsOf]
theorem conts_ml0 (m : (ℓ : Loc nD τ sig) → Buf (Elt F) ℓ) : (conts m).ml0 = ml0 (ins m) := by simp only [conts, contsOf]

attribute [local irreducible] qv o0 ml0 kpO kpML k0_pay128 k0_pay129 k0_pay130 k0_pay131 k0_pay136 k0_pay137 k0_pay140 k0_pay143 k0_pay144 k0_pay145 k0_pay146 k0_pay147 k0_pay148 k0_pay149 k0_pay150 k0_pay151 k0_pay152 k0_pay153 k0_pay154 k0_pay155

set_option maxHeartbeats 16000000 in
theorem sound_body (m : (ℓ : Loc nD τ sig) → Buf (Elt F) ℓ) (ρ : Dev nD → PrngReg) (K : Dev nD × Fin 28 → ℕ) (c : Dev nD) (Kt : PUnit → sProp 𝕄) :
    iprop(bodyPre (conts m) m ρ K c ∗ (bodyPost (conts m) m ρ c -∗ Kt ⟨⟩))
      ⊢ wp frame (wpE (defs₀ (F := F)) 𝒱₀ c none) Set.univ (Gen.bodyAt0 (F := F) Gen.t0_0) Kt := by
  show _ ⊢ wp _ _ _ (cc0__fused_body (Memref.whole cc0_stg0_0) _ (Memref.whole cc0_stg1_0) _ (Memref.whole cc0_stg2_0) _ (Memref.whole cc0_stg3_0) _ (Memref.whole cc0_stg4_0) _ (Memref.whole cc0_stg5_0) _ _ _ _ _ _ _ _ _ _ _ _ _ _ _ _ _ _ _ _ _ _ _ _ _ _ _ _ _ _ _ _ _ _ _ _ _ _ _ _) _
  unfold bodyPre ghost invs marks positions payToks creds scratchAny
  simp only [bigSep_fin13, bigSep_fin3]
  iintro ⟨⟨⟨⟨⟨#Ibar, #Iend, ⟨#IS0, #IS1, #IS2, #IS3, #IS4, #IS5, #IS6, #IS7, #IS8, #IS9, #IS10, #IS11, #IS12⟩, ⟨#IR0, #IR1, #IR2, #IR3, #IR4, #IR5, #IR6, #IR7, #IR8, #IR9, #IR10, #IR11, #IR12⟩, ⟨#IbP0, #IbP1, #IbP2⟩, ⟨#IeP0, #IeP1, #IeP2⟩, #IRP0, #IRP1, #IRP2, #IRP3, #IRP4, #IRP5, #IRP6, #IRP7, #IRP8, #IRP9, #IRP10, #IRP11, #IRP12⟩,
      ⟨#Mbar, #Mend, ⟨#MS0, #MS1, #MS2, #MS3, #MS4, #MS5, #MS6, #MS7, #MS8, #MS9, #MS10, #MS11, #MS12⟩, ⟨#MR0, #MR1, #MR2, #MR3, #MR4, #MR5, #MR6, #MR7, #MR8, #MR9, #MR10, #MR11, #MR12⟩, ⟨#MbP0, #MbP1, #MbP2⟩, ⟨#MeP0, #MeP1, #MeP2⟩, #MRP0, #MRP1, #MRP2, #MRP3, #MRP4, #MRP5, #MRP6, #MRP7, #MRP8, #MRP9, #MRP10, #MRP11, #MRP12⟩,
      ⟨Pbar, Pend, ⟨PS0, PS1, PS2, PS3, PS4, PS5, PS6, PS7, PS8, PS9, PS10, PS11, PS12⟩, PR0, PR1, PR2, PR3, PR4, PR5, PR6, PR7, PR8, PR9, PR10, PR11, PR12⟩,
      ⟨TB0, TB1, TB2⟩, ⟨TE0, TE1, TE2⟩, ⟨TR0, TR1, TR2, TR3, TR4, TR5, TR6, TR7, TR8, TR9, TR10, TR11, TR12⟩, TS0, TS1, TS2, TS3, TS4, TS5, TS6, TS7, TS8, TS9, TS10, TS11, TS12⟩,
      ⟨Cbar, Cend, CR0, CR1, CR2, CR3, CR4, CR5, CR6, CR7, CR8, CR9, CR10, CR11, CR12⟩, #Hlev, ⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩, ⟨%g10, Hs10⟩, ⟨%g11, Hs11⟩, ⟨%g12, Hs12⟩, ⟨%g13, Hs13⟩, ⟨%g14, Hs14⟩, ⟨%g15, Hs15⟩⟩,
    Ho, ⟨%d0, %a0, %ha0, Ha0⟩, ⟨%d1, %a1, %ha1, Ha1⟩, ⟨%d2, %a2, %ha2, Ha2⟩, ⟨%d3, %a3, %ha3, Ha3⟩, ⟨%d4, %a4, %ha4, Ha4⟩, ⟨%d5, %a5, %ha5, Ha5⟩⟩, Hk⟩
  rw [before_0, ← ins_x m ρ c] at ha0; rw [before_1, ← ins_wq m ρ c] at ha1; rw [before_2, ← ins_wo m ρ c] at ha2; rw [before_3, ← ins_kb m ρ c] at ha3; rw [before_4, ← ins_vb m ρ c] at ha4
  unfold Dat.owesAt Pipeline.owesWithin
  icases Ho with ⟨%W, %hW, HO⟩
  rw [show (dats (conts m) m ρ 0 c).owed t0_0.castSucc = owedFrom c 0 from rfl]
  ihave HY := (yx_held_split (F := F) c) $$ [Hs15]
  · iexists g15; iexact Hs15
  icases HY with ⟨Y0, Y1, Y2, Y3, Y4, Y5, Y6, Y7⟩
  ihave Hro0 := (held_whole_intro cc0_scratch5 c g5) $$ Hs5
  ihave Hro1 := (held_whole_intro cc0_scratch6 c g6) $$ Hs6
  ihave Hro2 := (held_whole_intro cc0_scratch7 c g7) $$ Hs7
  ihave Hrml0 := (held_whole_intro cc0_scratch8 c g8) $$ Hs8
  ihave Hrml1 := (held_whole_intro cc0_scratch9 c g9) $$ Hs9
  ihave Hrml2 := (held_whole_intro cc0_scratch10 c g10) $$ Hs10
  ihave A0 := (pv cc0_stg0_0 c) $$ Ha0
  ihave A1 := (pv cc0_stg1_0 c) $$ Ha1
  ihave A2 := (pv cc0_stg2_0 c) $$ Ha2
  ihave A3 := (pv cc0_stg3_0 c) $$ Ha3
  ihave A4 := (pv cc0_stg4_0 c) $$ Ha4
  ihave A5 := (pv cc0_stg5_0 c) $$ Ha5
  ihave S0 := (pv cc0_scratch0 c) $$ Hs0
  ihave S1 := (pv cc0_scratch1 c) $$ Hs1
  ihave S2 := (pv cc0_scratch2 c) $$ Hs2
  ihave S3 := (pv cc0_scratch3 c) $$ Hs3
  ihave S4 := (pv cc0_scratch4 c) $$ Hs4
  ihave S11 := (pv cc0_scratch11 c) $$ Hs11
  ihave S12 := (pv cc0_scratch12 c) $$ Hs12
  ihave S13 := (pv cc0_scratch13 c) $$ Hs13
  ihave S14 := (pv cc0_scratch14 c) $$ Hs14
  sl_unfold [cc0__fused_body]
  sl_exec_parts
  iapply (step_signal_bar (conts m) c 0 (K (barPartner 0 c, 0)) (owedFrom c 1) W _ (dev1_eq c) _ rfl) $$ [$IbP0 HO $TB0 Hro0 Hrml0 Y4 Y5 $MbP0]
  · isplitl [HO]; · iapply (owes_cast' c (owed_bar c 0) W); iexact HO
    unfold ownPay
    isplitl [Hro0]; · iexact Hro0
    isplitl [Hrml0]; · iexact Hrml0
    isplitl [Y4]; · iexact Y4
    isplitl [Y5]; · iexact Y5
    iframe MR0 MR1 MR8 MR11
  iintro HO
  sl_exec_parts
  iapply (step_signal_bar (conts m) c 1 (K (barPartner 1 c, 0)) (owedFrom c 2) W _ (dev2_eq c) _ rfl) $$ [$IbP1 HO $TB1 Hro1 Hrml1 Y2 Y6 $MbP1]
  · isplitl [HO]; · iapply (owes_cast' c (owed_bar c 1) W); iexact HO
    unfold ownPay
    isplitl [Hro1]; · iexact Hro1
    isplitl [Hrml1]; · iexact Hrml1
    isplitl [Y2]; · iexact Y2
    isplitl [Y6]; · iexact Y6
    iframe MR2 MR3 MR7 MR10
  iintro HO
  sl_exec_parts
  iapply (step_signal_bar (conts m) c 2 (K (barPartner 2 c, 0)) (owedFrom c 3) W _ (dev3_eq c) _ rfl) $$ [$IbP2 HO $TB2 Hro2 Hrml2 Y1 Y3 Y7 $MbP2]
  · isplitl [HO]; · iapply (owes_cast' c (owed_bar c 2) W); iexact HO
    unfold ownPay
    isplitl [Hro2]; · iexact Hro2
    isplitl [Hrml2]; · iexact Hrml2
    isplitl [Y1]; · iexact Y1
    isplitl [Y3]; · iexact Y3
    isplitl [Y7]; · iexact Y7
    iframe MR4 MR5 MR6 MR9 MR12
  iintro HO
  sl_exec_parts
  iapply (step_wait_bar_at (conts m) c (K (c, 0)) W _ rfl) $$ [$Ibar $Cbar $HO $Hlev $Pbar]
  iintro ⟨HO, Pbar, #Mbar1, B0, B1, B2⟩
  unfold barPay
  icases B0 with ⟨Dro0, Drml0, DY4, DY5, -⟩
  icases B1 with ⟨Dro1, Drml1, DY2, DY6, -⟩
  icases B2 with ⟨Dro2, Drml2, DY1, DY3, DY7, -⟩
  sl_exec_parts
  generalize hw1 : (Memref.whole cc0_scratch1).view.writes (Elt F) g1 _ = w1
  have hv1 : w1 = o0 (ins m) c := by
    rw [← hw1, ← writes_sdOL (ins m) c g1]
    refine congrArg ((Memref.whole cc0_scratch1).view.writes (Elt F) g1) ?_
    unfold sdOL qr1 qr2 qr3 qr4 qv kS00 kS01 kS10 kS11 kS20 kS21 kS30 kS31 vS00 vS01 vS10 vS11 vS20 vS21 vS30 vS31
    rw [← ha0, ← ha1, ← ha3, ← ha4]
    sl_unfold_run_names
    sl_unfold_run_names
    rw [readAt_full_stg0_0, readAt_full_stg1_0]
    repeat rw [rjZ_scratch0]
    repeat rw [ldZ_stg3_0]
    repeat rw [ldZ_stg4_0]
  subst hv1
  generalize hw2 : (Memref.whole cc0_scratch2).view.writes (Elt F) g2 _ = w2
  have hv2 : w2 = ml0 (ins m) c := by
    rw [← hw2, ← writes_sdMLL (ins m) c g2]
    refine congrArg ((Memref.whole cc0_scratch2).view.writes (Elt F) g2) ?_
    unfold sdMLL qr1 qr2 qr3 qr4 qv kS00 kS01 kS10 kS11 kS20 kS21 kS30 kS31
    rw [← ha0, ← ha1, ← ha3]
    sl_unfold_run_names
    sl_unfold_run_names
    rw [readAt_full_stg0_0, readAt_full_stg1_0]
    repeat rw [rjZ_scratch0]
    repeat rw [ldZ_stg3_0]
  subst hv2
  ihave X1 := (vp cc0_scratch1 c) $$ S1
  ihave X1 := (holds_whole_intro (F := F) cc0_scratch1 c fullShare _) $$ X1
  iapply (step_send (conts m) c 0 K (owedFrom c 4) (owedFrom c 3) _ (owed_xfer c 0) (congrArg (conts m).o0 (p4_p4 c).symm) rfl rfl rfl _ (dev4_eq c) _ _ rfl rfl) $$ [$IS0 $IRP0 $HO $TS0 $MS0 $TR0 $MRP0 X1 Dro0]
  · isplitl [X1]; · rw [conts_o0]; iexact X1
    iexact Dro0
  iintro ⟨CS0, HO⟩
  sl_exec_parts
  ihave X2 := (vp cc0_scratch2 c) $$ S2
  ihave X2 := (holds_whole_intro (F := F) cc0_scratch2 c fullShare _) $$ X2
  iapply (step_send (conts m) c 1 K (owedFrom c 5) (owedFrom c 4) _ (owed_xfer c 1) (congrArg (conts m).ml0 (p4_p4 c).symm) rfl rfl rfl _ (dev5_eq c) _ _ rfl rfl) $$ [$IS1 $IRP1 $HO $TS1 $MS1 $TR1 $MRP1 X2 Drml0]
  · isplitl [X2]; · rw [conts_ml0]; iexact X2
    iexact Drml0
  iintro ⟨CS1, HO⟩
  sl_exec_parts
  generalize hw3 : (Memref.whole cc0_scratch3).view.writes (Elt F) g3 _ = w3
  have hv3 : w3 = kpO (ins m) c := by
    rw [← hw3, ← writes_kpOL (ins m) c g3]
    refine congrArg ((Memref.whole cc0_scratch3).view.writes (Elt F) g3) ?_
    unfold kpOL qr5 qr6 qr7 qr8 qv kS00 kS01 kS10 kS11 kS20 kS21 kS30 kS31 vS00 vS01 vS10 vS11 vS20 vS21 vS30 vS31
    rw [← ha0, ← ha1, ← ha3, ← ha4]
    sl_unfold_run_names
    sl_unfold_run_names
    rw [readAt_full_stg0_0, readAt_full_stg1_0]
    repeat rw [rjZ_scratch0]
    repeat rw [ldZ_stg3_0]
    repeat rw [ldZ_stg4_0]
  subst hv3
  generalize hw4 : (Memref.whole cc0_scratch4).view.writes (Elt F) g4 _ = w4
  have hv4 : w4 = kpML (ins m) c := by
    rw [← hw4, ← writes_kpMLL (ins m) c g4]
    refine congrArg ((Memref.whole cc0_scratch4).view.writes (Elt F) g4) ?_
    unfold kpMLL qr5 qr6 qr7 qr8 qv kS00 kS01 kS10 kS11 kS20 kS21 kS30 kS31
    rw [← ha0, ← ha1, ← ha3]
    sl_unfold_run_names
    sl_unfold_run_names
    rw [readAt_full_stg0_0, readAt_full_stg1_0]
    repeat rw [rjZ_scratch0]
    repeat rw [ldZ_stg3_0]
  subst hv4
  iapply (step_wait_send_at (conts m) c 0 (K (c, sIx 0)) 5 _ _ rfl (amtV0 _)) $$ [$IS0 $CS0 $HO $Hlev $PS0]
  iintro ⟨HO, -, ZS0, Y0⟩
  sl_exec_parts
  iapply (step_wait_recv_at (conts m) c 0 (K (c, rIx 0)) _ _ rfl (amtV0 _)) $$ [$IR0 $CR0 HO $Hlev $PR0]
  · iexact HO
  iintro ⟨HO, -, ZR0, X0⟩
  sl_exec_parts
  iapply (step_wait_send_at (conts m) c 1 (K (c, sIx 1)) 5 _ _ rfl (amtV1 _)) $$ [$IS1 $CS1 HO $Hlev $PS1]
  · iexact HO
  iintro ⟨HO, -, ZS1, Y1⟩
  sl_exec_parts
  iapply (step_wait_recv_at (conts m) c 1 (K (c, rIx 1)) _ _ rfl (amtV1 _)) $$ [$IR1 $CR1 HO $Hlev $PR1]
  · iexact HO
  iintro ⟨HO, -, ZR1, X1⟩
  unfold sendPay recvPay
  ihave Hs1 := (holds_whole_view cc0_scratch1 c fullShare ((conts m).o0 c)) $$ Y0
  ihave Hs2 := (holds_whole_view cc0_scratch2 c fullShare ((conts m).ml0 c)) $$ Y1
  ihave Hs5 := (holds_whole_view cc0_scratch5 c fullShare ((conts m).o0 (p4 c))) $$ X0
  ihave Hs8 := (holds_whole_view cc0_scratch8 c fullShare ((conts m).ml0 (p4 c))) $$ X1
  sl_exec_parts
  generalize hw11 : (Memref.whole cc0_scratch11).view.writes (Elt F) g11 _ = w11
  have hv11 : w11 = c0oV (ins m) c := by
    rw [← hw11]
    sl_unfold_run_names
    rw [writes_full_scratch11, readAt_full_scratch3, readAt_full_scratch5, ldY_scratch4, ldY_scratch8, c0oV_unfold]
    rfl
  subst hv11
  generalize hw12 : (Memref.whole cc0_scratch12).view.writes (Elt F) g12 _ = w12
  have hv12 : w12 = c0mlV (ins m) c := by
    rw [← hw12]
    sl_unfold_run_names
    rw [writes_full_scratch12, ldY_scratch4, ldY_scratch4, ldY_scratch8, ldY_scratch8, c0mlV_unfold]
    rfl
  subst hv12
  ihave ⟨Hsl2, Hrest11⟩ := (carve_out (c0oS c) c (c0oV (ins m) c)) $$ S11
  ihave ⟨Hsl3, Hrest12⟩ := (carve_out (c0mlS c) c (c0mlV (ins m) c)) $$ S12
  iapply (step_send (conts m) c 2 K (owedFrom c 6) (owedFrom c 5) _ (owed_xfer c 2) (congrArg (conts m).o1 (p2_p2 c).symm) rfl rfl rfl _ (dev6_eq c) _ _ rfl rfl) $$ [$IS2 $IRP2 HO $TS2 $MS2 $TR2 $MRP2 Hsl2 Dro1]
  · isplitl [HO]; · iexact HO
    isplitl [Hsl2]; · iexact Hsl2
    iexact Dro1
  iintro ⟨CS2, HO⟩
  sl_exec_parts
  iapply (step_send (conts m) c 3 K (owedFrom c 7) (owedFrom c 6) _ (owed_xfer c 3) (congrArg (conts m).ml1 (p2_p2 c).symm) rfl rfl rfl _ (dev7_eq c) _ _ rfl rfl) $$ [$IS3 $IRP3 $HO $TS3 $MS3 $TR3 $MRP3 Hsl3 Drml1]
  · isplitl [Hsl3]; · iexact Hsl3
    iexact Drml1
  iintro ⟨CS3, HO⟩
  sl_exec_parts
  iapply (step_wait_send_at (conts m) c 2 (K (c, sIx 2)) 7 _ _ rfl (amtV2 _)) $$ [$IS2 $CS2 $HO $Hlev $PS2]
  iintro ⟨HO, -, ZS2, Y2⟩
  sl_exec_parts
  iapply (step_wait_recv_at (conts m) c 2 (K (c, rIx 2)) _ _ rfl (amtV2 _)) $$ [$IR2 $CR2 HO $Hlev $PR2]
  · iexact HO
  iintro ⟨HO, -, ZR2, X2⟩
  sl_exec_parts
  iapply (step_wait_send_at (conts m) c 3 (K (c, sIx 3)) 7 _ _ rfl (amtV3 _)) $$ [$IS3 $CS3 HO $Hlev $PS3]
  · iexact HO
  iintro ⟨HO, -, ZS3, Y3⟩
  sl_exec_parts
  iapply (step_wait_recv_at (conts m) c 3 (K (c, rIx 3)) _ _ rfl (amtV3 _)) $$ [$IR3 $CR3 HO $Hlev $PR3]
  · iexact HO
  iintro ⟨HO, -, ZR3, X3⟩
  unfold sendPay recvPay
  ihave Hs11 := (uncarve_back (c0oS c) c (c0oV (ins m) c) ((conts m).o1 c) rfl) $$ [$Y2 $Hrest11]
  ihave Hs12 := (uncarve_back (c0mlS c) c (c0mlV (ins m) c) ((conts m).ml1 c) rfl) $$ [$Y3 $Hrest12]
  ihave Hs11 : (((Memref.whole cc0_scratch11 : Memref sig .tc .vmem _ _).view.loc (c : Thread nD τ)) ↦{fullShare} c0oV (ins m) c) $$ [Hs11]
  · iexact Hs11
  ihave Hs12 : (((Memref.whole cc0_scratch12 : Memref sig .tc .vmem _ _).view.loc (c : Thread nD τ)) ↦{fullShare} c0mlV (ins m) c) $$ [Hs12]
  · iexact Hs12
  ihave Hs6 := (holds_whole_view cc0_scratch6 c fullShare ((conts m).o1 (p2 c))) $$ X2
  ihave Hs9 := (holds_whole_view cc0_scratch9 c fullShare ((conts m).ml1 (p2 c))) $$ X3
  sl_exec_parts
  generalize hw13 : (Memref.whole cc0_scratch13).view.writes (Elt F) g13 _ = w13
  have hv13 : w13 = c1oV (ins m) c := by
    rw [← hw13]
    sl_unfold_run_names
    rw [writes_full_scratch13, readAt_full_scratch6, ldY_scratch12, ldY_scratch11, ldY_scratch9, c1oV_unfold]
    unfold k0_pay145
    rfl
  subst hv13
  generalize hw14 : (Memref.whole cc0_scratch14).view.writes (Elt F) g14 _ = w14
  have hv14 : w14 = c1mlV (ins m) c := by
    rw [← hw14]
    sl_unfold_run_names
    rw [writes_full_scratch14, ldY_scratch12, ldY_scratch9, ldY_scratch9, c1mlV_unfold]
    unfold k0_pay146
    rfl
  subst hv14
  ihave ⟨Hsl4, Hrest13⟩ := (carve_out (c1oS c) c (c1oV (ins m) c)) $$ S13
  ihave ⟨Hsl5, Hrest14⟩ := (carve_out (c1mlS c) c (c1mlV (ins m) c)) $$ S14
  iapply (step_send (conts m) c 4 K (owedFrom c 8) (owedFrom c 7) _ (owed_xfer c 4) (congrArg (conts m).o2 (p1_p1 c).symm) rfl rfl rfl _ (dev8_eq c) _ _ rfl rfl) $$ [$IS4 $IRP4 HO $TS4 $MS4 $TR4 $MRP4 Hsl4 Dro2]
  · isplitl [HO]; · iexact HO
    isplitl [Hsl4]; · iexact Hsl4
    iexact Dro2
  iintro ⟨CS4, HO⟩
  sl_exec_parts
  iapply (step_send (conts m) c 5 K (owedFrom c 9) (owedFrom c 8) _ (owed_xfer c 5) (congrArg (conts m).ml2 (p1_p1 c).symm) rfl rfl rfl _ (dev9_eq c) _ _ rfl rfl) $$ [$IS5 $IRP5 $HO $TS5 $MS5 $TR5 $MRP5 Hsl5 Drml2]
  · isplitl [Hsl5]; · iexact Hsl5
    iexact Drml2
  iintro ⟨CS5, HO⟩
  sl_exec_parts
  iapply (step_wait_send_at (conts m) c 4 (K (c, sIx 4)) 9 _ _ rfl (amtV4 _)) $$ [$IS4 $CS4 $HO $Hlev $PS4]
  iintro ⟨HO, -, ZS4, Y4⟩
  sl_exec_parts
  iapply (step_wait_recv_at (conts m) c 4 (K (c, rIx 4)) _ _ rfl (amtV4 _)) $$ [$IR4 $CR4 HO $Hlev $PR4]
  · iexact HO
  iintro ⟨HO, -, ZR4, X4⟩
  sl_exec_parts
  iapply (step_wait_send_at (conts m) c 5 (K (c, sIx 5)) 9 _ _ rfl (amtV5 _)) $$ [$IS5 $CS5 HO $Hlev $PS5]
  · iexact HO
  iintro ⟨HO, -, ZS5, Y5⟩
  sl_exec_parts
  iapply (step_wait_recv_at (conts m) c 5 (K (c, rIx 5)) _ _ rfl (amtV5 _)) $$ [$IR5 $CR5 HO $Hlev $PR5]
  · iexact HO
  iintro ⟨HO, -, ZR5, X5⟩
  unfold sendPay recvPay
  ihave Hs13 := (uncarve_back (c1oS c) c (c1oV (ins m) c) ((conts m).o2 c) rfl) $$ [$Y4 $Hrest13]
  ihave Hs14 := (uncarve_back (c1mlS c) c (c1mlV (ins m) c) ((conts m).ml2 c) rfl) $$ [$Y5 $Hrest14]
  ihave Hs13 : (((Memref.whole cc0_scratch13 : Memref sig .tc .vmem _ _).view.loc (c : Thread nD τ)) ↦{fullShare} c1oV (ins m) c) $$ [Hs13]
  · iexact Hs13
  ihave Hs14 : (((Memref.whole cc0_scratch14 : Memref sig .tc .vmem _ _).view.loc (c : Thread nD τ)) ↦{fullShare} c1mlV (ins m) c) $$ [Hs14]
  · iexact Hs14
  ihave Hs7 := (holds_whole_view cc0_scratch7 c fullShare ((conts m).o2 (p1 c))) $$ X4
  ihave Hs10 := (holds_whole_view cc0_scratch10 c fullShare ((conts m).ml2 (p1 c))) $$ X5
  sl_exec_parts
  ihave ⟨%f0, Y0⟩ := (held_open (F := F) (ySlot 0) c) $$ Y0
  iapply (slot_load c 0 fullShare f0) $$ Y0
  iintro Y0
  iapply (slot_store c 0 f0 _) $$ Y0
  iintro ⟨%f0', %hf0', Y0⟩
  rw [prog_ret_bind]
  have hy0 : (ySlot 0).view.read (Elt F) f0' = (conts m).y (xorDev 0 c) := by
    rw [hf0', xorDev_zero, conts_y_eq]
    unfold yV y1 k2o k2ml r2a r2b
    rw [← ha2]
    sl_unfold_run_names
    sl_unfold_run_names
    rw [readAt_full_stg2_0, readAt_full_scratch7, ldY_scratch13, ldY_scratch14, ldY_scratch10, ldY_scratch10]
    simp only [conts, contsOf]
  ihave Y0 := (holds_close (ySlot 0) c fullShare ((conts m).y (xorDev 0 c)) f0' hy0) $$ Y0
  ihave ⟨Y0a, Y0b, Y0c⟩ := (holds_thirds (ySlot 0) c _).1 $$ Y0
  sl_exec_parts
  iapply (step_send (conts m) c 6 K (owedFrom c 10) (owedFrom c 9) _ (owed_xfer c 6) (congrArg (conts m).y (xor_route 0 c).symm) rfl rfl rfl _ (dev10_eq c) _ _ rfl rfl) $$ [$IS6 $IRP6 HO $TS6 $MS6 $TR6 $MRP6 Y0a DY1]
  · isplitl [HO]; · iexact HO
    isplitl [Y0a]; · iexact Y0a
    iexact DY1
  iintro ⟨CS6, HO⟩
  sl_exec_parts
  iapply (step_send (conts m) c 7 K (owedFrom c 11) (owedFrom c 10) _ (owed_xfer c 7) (congrArg (conts m).y (xor_route 1 c).symm) rfl rfl rfl _ (dev11_eq c) _ _ rfl rfl) $$ [$IS7 $IRP7 $HO $TS7 $MS7 $TR7 $MRP7 Y0b DY2]
  · isplitl [Y0b]; · iexact Y0b
    iexact DY2
  iintro ⟨CS7, HO⟩
  sl_exec_parts
  iapply (step_send (conts m) c 8 K (owedFrom c 12) (owedFrom c 11) _ (owed_xfer c 8) (congrArg (conts m).y (xor_route 2 c).symm) rfl rfl rfl _ (dev12_eq c) _ _ rfl rfl) $$ [$IS8 $IRP8 $HO $TS8 $MS8 $TR8 $MRP8 Y0c DY4]
  · isplitl [Y0c]; · iexact Y0c
    iexact DY4
  iintro ⟨CS8, HO⟩
  sl_exec_parts
  iapply (step_wait_send_at (conts m) c 6 (K (c, sIx 6)) 12 _ _ rfl (amtVy _ 6 (by decide))) $$ [$IS6 $CS6 $HO $Hlev $PS6]
  iintro ⟨HO, -, ZS6, Y0a⟩
  ihave Y0a := (BIBase.Entails.of_eq (sendPay_6 (conts m) c)) $$ Y0a
  sl_exec_parts
  iapply (step_wait_recv_at (conts m) c 6 (K (c, rIx 6)) _ _ rfl (amtVy _ 6 (by decide))) $$ [$IR6 $CR6 HO $Hlev $PR6]
  · iexact HO
  iintro ⟨HO, -, ZR6, Y1⟩
  ihave Y1 := (BIBase.Entails.of_eq (recvPay_6 (conts m) c)) $$ Y1
  sl_exec_parts
  iapply (step_wait_send_at (conts m) c 7 (K (c, sIx 7)) 12 _ _ rfl (amtVy _ 7 (by decide))) $$ [$IS7 $CS7 HO $Hlev $PS7]
  · iexact HO
  iintro ⟨HO, -, ZS7, Y0b⟩
  ihave Y0b := (BIBase.Entails.of_eq (sendPay_7 (conts m) c)) $$ Y0b
  sl_exec_parts
  iapply (step_wait_recv_at (conts m) c 7 (K (c, rIx 7)) _ _ rfl (amtVy _ 7 (by decide))) $$ [$IR7 $CR7 HO $Hlev $PR7]
  · iexact HO
  iintro ⟨HO, -, ZR7, Y2⟩
  ihave Y2 := (BIBase.Entails.of_eq (recvPay_7 (conts m) c)) $$ Y2
  sl_exec_parts
  iapply (step_wait_send_at (conts m) c 8 (K (c, sIx 8)) 12 _ _ rfl (amtVy _ 8 (by decide))) $$ [$IS8 $CS8 HO $Hlev $PS8]
  · iexact HO
  iintro ⟨HO, -, ZS8, Y0c⟩
  ihave Y0c := (BIBase.Entails.of_eq (sendPay_8 (conts m) c)) $$ Y0c
  sl_exec_parts
  iapply (step_wait_recv_at (conts m) c 8 (K (c, rIx 8)) _ _ rfl (amtVy _ 8 (by decide))) $$ [$IR8 $CR8 HO $Hlev $PR8]
  · iexact HO
  iintro ⟨HO, -, ZR8, Y4⟩
  ihave Y4 := (BIBase.Entails.of_eq (recvPay_8 (conts m) c)) $$ Y4
  sl_exec_parts
  ihave Y0 := (holds_thirds (ySlot 0) c _).2 $$ [$Y0a $Y0b $Y0c]
  ihave ⟨Y2l, Y2r⟩ := (holds_halves (ySlot 2) c fullShare _).1 $$ Y2
  ihave ⟨Y4l, Y4r⟩ := (holds_halves (ySlot 4) c fullShare _).1 $$ Y4
  ihave ⟨Y1l, Y1r⟩ := (holds_halves (ySlot 1) c fullShare _).1 $$ Y1
  iapply (step_send (conts m) c 9 K (owedFrom c 13) (owedFrom c 12) _ (owed_xfer c 9) (congrArg (conts m).y (xor_route 3 c).symm) rfl rfl rfl _ (dev13_eq c) _ _ rfl rfl) $$ [$IS9 $IRP9 HO $TS9 $MS9 $TR9 $MRP9 Y2l DY3]
  · isplitl [HO]; · iexact HO
    isplitl [Y2l]; · iexact Y2l
    iexact DY3
  iintro ⟨CS9, HO⟩
  sl_exec_parts
  iapply (step_send (conts m) c 10 K (owedFrom c 14) (owedFrom c 13) _ (owed_xfer c 10) (congrArg (conts m).y (xor_route 4 c).symm) rfl rfl rfl _ (dev14_eq c) _ _ rfl rfl) $$ [$IS10 $IRP10 $HO $TS10 $MS10 $TR10 $MRP10 Y4l DY6]
  · isplitl [Y4l]; · iexact Y4l
    iexact DY6
  iintro ⟨CS10, HO⟩
  sl_exec_parts
  iapply (step_send (conts m) c 11 K (owedFrom c 15) (owedFrom c 14) _ (owed_xfer c 11) (congrArg (conts m).y (xor_route 5 c).symm) rfl rfl rfl _ (dev15_eq c) _ _ rfl rfl) $$ [$IS11 $IRP11 $HO $TS11 $MS11 $TR11 $MRP11 Y1l DY5]
  · isplitl [Y1l]; · iexact Y1l
    iexact DY5
  iintro ⟨CS11, HO⟩
  sl_exec_parts
  iapply (slot_load_holds c 1 fullShare.right _) $$ Y1r
  iintro Y1r
  sl_exec_parts
  iapply (slot_load_holds c 2 fullShare.right _) $$ Y2r
  iintro Y2r
  sl_exec_parts
  iapply (slot_load_holds c 4 fullShare.right _) $$ Y4r
  iintro Y4r
  sl_exec_parts
  iapply (step_wait_send_at (conts m) c 9 (K (c, sIx 9)) 15 _ _ rfl (amtVy _ 9 (by decide))) $$ [$IS9 $CS9 $HO $Hlev $PS9]
  iintro ⟨HO, -, ZS9, Y2l⟩
  ihave Y2l := (BIBase.Entails.of_eq (sendPay_9 (conts m) c)) $$ Y2l
  sl_exec_parts
  iapply (step_wait_recv_at (conts m) c 9 (K (c, rIx 9)) _ _ rfl (amtVy _ 9 (by decide))) $$ [$IR9 $CR9 HO $Hlev $PR9]
  · iexact HO
  iintro ⟨HO, -, ZR9, Y3⟩
  ihave Y3 := (BIBase.Entails.of_eq (recvPay_9 (conts m) c)) $$ Y3
  sl_exec_parts
  iapply (step_wait_send_at (conts m) c 10 (K (c, sIx 10)) 15 _ _ rfl (amtVy _ 10 (by decide))) $$ [$IS10 $CS10 HO $Hlev $PS10]
  · iexact HO
  iintro ⟨HO, -, ZS10, Y4l⟩
  ihave Y4l := (BIBase.Entails.of_eq (sendPay_10 (conts m) c)) $$ Y4l
  sl_exec_parts
  iapply (step_wait_recv_at (conts m) c 10 (K (c, rIx 10)) _ _ rfl (amtVy _ 10 (by decide))) $$ [$IR10 $CR10 HO $Hlev $PR10]
  · iexact HO
  iintro ⟨HO, -, ZR10, Y6⟩
  ihave Y6 := (BIBase.Entails.of_eq (recvPay_10 (conts m) c)) $$ Y6
  sl_exec_parts
  iapply (step_wait_send_at (conts m) c 11 (K (c, sIx 11)) 15 _ _ rfl (amtVy _ 11 (by decide))) $$ [$IS11 $CS11 HO $Hlev $PS11]
  · iexact HO
  iintro ⟨HO, -, ZS11, Y1l⟩
  ihave Y1l := (BIBase.Entails.of_eq (sendPay_11 (conts m) c)) $$ Y1l
  sl_exec_parts
  iapply (step_wait_recv_at (conts m) c 11 (K (c, rIx 11)) _ _ rfl (amtVy _ 11 (by decide))) $$ [$IR11 $CR11 HO $Hlev $PR11]
  · iexact HO
  iintro ⟨HO, -, ZR11, Y5⟩
  ihave Y5 := (BIBase.Entails.of_eq (recvPay_11 (conts m) c)) $$ Y5
  sl_exec_parts
  ihave ⟨Y6l, Y6r⟩ := (holds_halves (ySlot 6) c fullShare _).1 $$ Y6
  iapply (step_send (conts m) c 12 K (owedFrom c 16) (owedFrom c 15) _ (owed_xfer c 12) (congrArg (conts m).y (xor_route 6 c).symm) rfl rfl rfl _ (dev16_eq c) _ _ rfl rfl) $$ [$IS12 $IRP12 HO $TS12 $MS12 $TR12 $MRP12 Y6l DY7]
  · isplitl [HO]; · iexact HO
    isplitl [Y6l]; · iexact Y6l
    iexact DY7
  iintro ⟨CS12, HO⟩
  sl_exec_parts
  iapply (slot_load_holds c 3 fullShare _) $$ Y3
  iintro Y3
  sl_exec_parts
  iapply (slot_load_holds c 6 fullShare.right _) $$ Y6r
  iintro Y6r
  sl_exec_parts
  iapply (slot_load_holds c 5 fullShare _) $$ Y5
  iintro Y5
  sl_exec_parts
  iapply (step_wait_send_at (conts m) c 12 (K (c, sIx 12)) 16 _ _ rfl (amtVy _ 12 (by decide))) $$ [$IS12 $CS12 $HO $Hlev $PS12]
  iintro ⟨HO, -, ZS12, Y6l⟩
  ihave Y6l := (BIBase.Entails.of_eq (sendPay_12 (conts m) c)) $$ Y6l
  sl_exec_parts
  iapply (step_wait_recv_at (conts m) c 12 (K (c, rIx 12)) _ _ rfl (amtVy _ 12 (by decide))) $$ [$IR12 $CR12 HO $Hlev $PR12]
  · iexact HO
  iintro ⟨HO, -, ZR12, Y7⟩
  ihave Y7 := (BIBase.Entails.of_eq (recvPay_12 (conts m) c)) $$ Y7
  sl_exec_parts
  iapply (slot_load_holds c 7 fullShare _) $$ Y7
  iintro Y7
  sl_exec_parts
  iapply (step_signal_end (conts m) c 0 (K (barPartner 0 c, 1)) (owedFrom c 17) _ _ (dev17_eq c) _ rfl) $$ [$IeP0 HO $TE0 $MeP0]
  · iapply (owes_cast' c (owed_end c 0) _); iexact HO
  iintro HO
  sl_exec_parts
  iapply (step_signal_end (conts m) c 1 (K (barPartner 1 c, 1)) (owedFrom c 18) _ _ (dev18_eq c) _ rfl) $$ [$IeP1 HO $TE1 $MeP1]
  · iapply (owes_cast' c (owed_end c 1) _); iexact HO
  iintro HO
  sl_exec_parts
  iapply (step_signal_end (conts m) c 2 (K (barPartner 2 c, 1)) (owedFrom c 19) _ _ (dev19_eq c) _ rfl) $$ [$IeP2 HO $TE2 $MeP2]
  · iapply (owes_cast' c (owed_end c 2) _); iexact HO
  iintro HO
  sl_exec_parts
  ihave Y1 := (holds_halves (ySlot 1) c fullShare _).2 $$ [$Y1l $Y1r]
  ihave Y2 := (holds_halves (ySlot 2) c fullShare _).2 $$ [$Y2l $Y2r]
  ihave Y4 := (holds_halves (ySlot 4) c fullShare _).2 $$ [$Y4l $Y4r]
  ihave Y6 := (holds_halves (ySlot 6) c fullShare _).2 $$ [$Y6l $Y6r]
  ihave Y0 := (held_of_holds (ySlot 0) c _) $$ Y0
  ihave Y1 := (held_of_holds (ySlot 1) c _) $$ Y1
  ihave Y2 := (held_of_holds (ySlot 2) c _) $$ Y2
  ihave Y3 := (held_of_holds (ySlot 3) c _) $$ Y3
  ihave Y4 := (held_of_holds (ySlot 4) c _) $$ Y4
  ihave Y5 := (held_of_holds (ySlot 5) c _) $$ Y5
  ihave Y6 := (held_of_holds (ySlot 6) c _) $$ Y6
  ihave Y7 := (held_of_holds (ySlot 7) c _) $$ Y7
  imod (close_cell (conts m) (endCell c) (K (c, 1))) $$ [Pend] with Zend
  · isplitr; · iexact Iend
    iexact Pend
  generalize hw5 : (Memref.whole cc0_stg5_0).view.writes (Elt F) a5 _ = w5
  have hv5 : w5 = (conts m).out c := by
    rw [← hw5, conts_out_eq, ← writes_outL (ins m) c a5]
    refine congrArg ((Memref.whole cc0_stg5_0).view.writes (Elt F) a5) ?_
    unfold outL k0_pay159 k0_pay160 k0_pay161 k0_pay162 k0_pay163 k0_pay164 k0_pay165 yf k2o k2ml r2a r2b
    rw [← ha2]
    sl_unfold_run_names
    sl_unfold_run_names
    rw [readAt_full_stg2_0, readAt_full_scratch7, ldY_scratch13, ldY_scratch14, ldY_scratch10, ldY_scratch10]
    simp only [conts, contsOf]
  subst hv5
  ihave ⟨%gy, HY⟩ := (yx_held_join (F := F) c) $$ [$Y0 $Y1 $Y2 $Y3 $Y4 $Y5 $Y6 $Y7]
  ihave Hout : ((((c : Thread nD τ).loc cc0_stg5_0) ↦{fullShare} (conts m).out c)) $$ [A5]
  · iexact A5
  iapply (le_wp_ret _ _ _ PUnit.unit Kt)
  iapply Hk
  iapply (final_post (conts m) m ρ c _ _ _ _ _ _ _ _ _ _ _ _ _ _ _ _ _) $$ [S0 Hs1 Hs2 S3 S4 Hs5 Hs6 Hs7 Hs8 Hs9 Hs10 Hs11 Hs12 Hs13 Hs14 $HY $Zend $ZS0 $ZS1 $ZS2 $ZS3 $ZS4 $ZS5 $ZS6 $ZS7 $ZS8 $ZS9 $ZS10 $ZS11 $ZS12 $ZR0 $ZR1 $ZR2 $ZR3 $ZR4 $ZR5 $ZR6 $ZR7 $ZR8 $ZR9 $ZR10 $ZR11 $ZR12 $HO A0 A1 A2 A3 A4 Hout]
  · isplitl [S0]; · iexact S0
    isplitl [Hs1]; · iexact Hs1
    isplitl [Hs2]; · iexact Hs2
    isplitl [S3]; · iexact S3
    isplitl [S4]; · iexact S4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [A0]; · rw [← ha0.trans (ins_x m ρ c)]; iexact A0
    isplitl [A1]; · rw [← ha1.trans (ins_wq m ρ c)]; iexact A1
    isplitl [A2]; · rw [← ha2.trans (ins_wo m ρ c)]; iexact A2
    isplitl [A3]; · rw [← ha3.trans (ins_kb m ρ c)]; iexact A3
    isplitl [A4]; · rw [← ha4.trans (ins_vb m ρ c)]; iexact A4
    iexact Hout

theorem body_ob (m : (ℓ : Loc nD τ sig) → Buf (Elt F) ℓ) (ρ : Dev nD → PrngReg) (c : Dev nD) :
    Pipeline.BodyObligation (dats (F := F) (conts m) m ρ 0 c) (defs₀ (F := F)) 𝒱₀ () Set.univ :=
  body_obligation (conts m) m ρ c (fun K Kt => sound_body m ρ K c Kt)

/-- info: 'Cert.KernelIdeal.Hand.sound_body' depends on axioms: [propext, Classical.choice, Quot.sound] -/
#guard_msgs in #print axioms sound_body

end Cert.KernelIdeal.Hand

end
-- ==== Proof.Inputs.lean ====
import proofs.«900755_g7700000000000756_dist_attn_cross_gqa_kvseq_b4_sq256_skv1024_d1024_hq8_dh128_v7x_i8_bf16_1_alg».proof.Defs
import proofs.«900755_g7700000000000756_dist_attn_cross_gqa_kvseq_b4_sq256_skv1024_d1024_hq8_dh128_v7x_i8_bf16_1_alg».proof.Proof.Gen.Pre_finite_inputs_Kernel
import Idealize.ShloMosaic.Lib.ReduceAll
import Idealize.ShloMosaic.Lib.ValueIdx

noncomputable section

namespace Cert.Hand.Inputs

open Idealize.ShloMosaic Idealize.SL.Sem
open Idealize.ShloMosaic.ValueIdx

instance instSubsingletonScalarIdx : Subsingleton Cert.Pre_finite_inputs_Kernel.S_.Idx :=
  ⟨fun a b => funext fun d => d.elim0⟩

/-- An entry with |x| = max x (-x) below ⊤ is neither ⊥ nor ⊤, so it is a real. -/
theorem real_of_finite_elt {S : Shape} (a : FVec Ideal S .f32)
    (hb : Cert.Pre_finite_inputs_Kernel.S_.BroadcastsInDim S (![] : Fin 0 → Fin S.rank)) (i : S.Idx)
    (h : cmpf .olt (Host.absf a)
      (broadcastInDim S ![] hb (constant (F := Ideal) Cert.Pre_finite_inputs_Kernel.S_ .f32 0x7F800000#32)) i = 1#1) :
    ∃ r : ℝ, a i = (r : EReal) := by
  have h' : BitVec.ofBool (decide (max (a i) (-(a i)) < Ideal.ofBits .f32 0x7F800000#32)) = 1#1 := h
  rw [show Ideal.ofBits .f32 0x7F800000#32 = ⊤ by simp [Ideal.ofBits, Ideal.ieee]] at h'
  generalize a i = x at h' ⊢
  induction x using EReal.rec with
  | bot => simp at h'
  | coe r => exact ⟨r, rfl⟩
  | top => simp at h'

theorem finite_args [Cert.Pre_finite_inputs_Kernel.Facts]
    (a0 : FVec Ideal Cert.Pre_finite_inputs_Kernel.S4x256x1024 .f32)
    (a1 a2 : FVec Ideal Cert.Pre_finite_inputs_Kernel.S1024x1024 .f32)
    (a3 a4 : FVec Ideal Cert.Pre_finite_inputs_Kernel.S4x1024x2x128 .f32)
    (h : Cert.Pre_finite_inputs_Kernel.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) := by
  have h0 := congrFun h ValueIdx.ix0
  dsimp only [Cert.Pre_finite_inputs_Kernel.fn, Cert.Pre_finite_inputs_Kernel.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_finite_elt a0 _ i (Host.reduce_andi_all _ _ _ _ _ h0' i),
    fun i => real_of_finite_elt a1 _ i (Host.reduce_andi_all _ _ _ _ _ h1 i),
    fun i => real_of_finite_elt a2 _ i (Host.reduce_andi_all _ _ _ _ _ h2 i),
    fun i => real_of_finite_elt a3 _ i (Host.reduce_andi_all _ _ _ _ _ h3 i),
    fun i => real_of_finite_elt a4 _ i (Host.reduce_andi_all _ _ _ _ _ h4 i)⟩

theorem block_ix4 {α : Type} (W : (⟨4, ![4, 8192, 2, 128]⟩ : Shape).Idx → α) (c : Dev 8) (b : Fin 4)
    (j : Fin 1024) (g : Fin 2) (d : Fin 128) :
    (Layout.block ⟨4, ![4, 1024, 2, 128]⟩ ⟨4, ![4, 8192, 2, 128]⟩ 1 8 c W) (ix4 b j g d)
      = W (ix4 b ⟨c.val * 1024 + j.val, by have := c.isLt; have := j.isLt; omega⟩ g d) := by
  rw [Layout.block_apply]
  congr 1
  funext e
  match e with
  | ⟨0, _⟩ => rfl
  | ⟨1, _⟩ => rfl
  | ⟨2, _⟩ => rfl
  | ⟨3, _⟩ => rfl

/-- An array whose eight device blocks hold reals holds reals: key J is row J % 1024 of block J / 1024. -/
theorem whole_real (W : (⟨4, ![4, 8192, 2, 128]⟩ : Shape).Idx → EReal)
    (hW : ∀ (c : Dev 8) i, ∃ r : ℝ, (Layout.block ⟨4, ![4, 1024, 2, 128]⟩ ⟨4, ![4, 8192, 2, 128]⟩ 1 8 c W) i = (r : EReal))
    (i : (⟨4, ![4, 8192, 2, 128]⟩ : Shape).Idx) : ∃ r : ℝ, W i = (r : EReal) := by
  obtain ⟨b, J, g, d, rfl⟩ : ∃ (b : Fin 4) (J : Fin 8192) (g : Fin 2) (d : Fin 128), i = ix4 b J g d :=
    ⟨i 0, i 1, i 2, i 3, eq_ix4 i⟩
  obtain ⟨r, hr⟩ := hW ⟨J.val / 1024, by have := J.isLt; omega⟩ (ix4 b ⟨J.val % 1024, Nat.mod_lt _ (by decide)⟩ g d)
  refine ⟨r, Eq.trans ?_ hr⟩
  rw [block_ix4]
  congr 2
  apply Fin.ext
  show J.val = J.val / 1024 * 1024 + J.val % 1024
  omega

theorem ref_args_real [Cert.Pre_finite_inputs_Kernel.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 2, 128]⟩ ⟨4, ![4, 8192, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 2, 128]⟩ ⟨4, ![4, 8192, 2, 128]⟩ 1 8 c (m' (((0 : Dev Cert.ReferenceIdeal.nD).tc : Thread Cert.ReferenceIdeal.nD Cert.ReferenceIdeal.τ).loc Cert.ReferenceIdeal.main_arg4))) :
    (∀ i, ∃ r : ℝ, m' (((0 : Dev Cert.ReferenceIdeal.nD).tc : Thread Cert.ReferenceIdeal.nD Cert.ReferenceIdeal.τ).loc Cert.ReferenceIdeal.main_arg0) i = (r : EReal))
      ∧ (∀ i, ∃ r : ℝ, m' (((0 : Dev Cert.ReferenceIdeal.nD).tc : Thread Cert.ReferenceIdeal.nD Cert.ReferenceIdeal.τ).loc Cert.ReferenceIdeal.main_arg1) i = (r : EReal))
      ∧ (∀ i, ∃ r : ℝ, m' (((0 : Dev Cert.ReferenceIdeal.nD).tc : Thread Cert.ReferenceIdeal.nD Cert.ReferenceIdeal.τ).loc Cert.ReferenceIdeal.main_arg2) i = (r : EReal))
      ∧ (∀ i : (⟨4, ![4, 8192, 2, 128]⟩ : Shape).Idx, ∃ r : ℝ, m' (((0 : Dev Cert.ReferenceIdeal.nD).tc : Thread Cert.ReferenceIdeal.nD Cert.ReferenceIdeal.τ).loc Cert.ReferenceIdeal.main_arg3) i = (r : EReal))
      ∧ (∀ i : (⟨4, ![4, 8192, 2, 128]⟩ : Shape).Idx, ∃ r : ℝ, m' (((0 : Dev Cert.ReferenceIdeal.nD).tc : Thread Cert.ReferenceIdeal.nD Cert.ReferenceIdeal.τ).loc Cert.ReferenceIdeal.main_arg4) i = (r : EReal)) := by
  have hf := fun c => finite_args _ _ _ _ _ (h c)
  refine ⟨fun i => ?_, fun i => ?_, fun i => ?_, whole_real _ fun c i => ?_, whole_real _ fun c i => ?_⟩
  · rw [← (hagree 0).1]; exact (hf 0).1 i
  · rw [← (hagree 0).2.1]; exact (hf 0).2.1 i
  · rw [← (hagree 0).2.2.1]; exact (hf 0).2.2.1 i
  · rw [← (hagree c).2.2.2.1]; exact (hf c).2.2.2.1 i
  · rw [← (hagree c).2.2.2.2]; exact (hf c).2.2.2.2 i

end Cert.Hand.Inputs

/-- info: 'Cert.Hand.Inputs.block_ix4' depends on axioms: [propext, Quot.sound] -/
#guard_msgs in #print axioms Cert.Hand.Inputs.block_ix4

/-- info: 'Cert.Hand.Inputs.ref_args_real' depends on axioms: [propext, Classical.choice, Quot.sound] -/
#guard_msgs in #print axioms Cert.Hand.Inputs.ref_args_real
-- ==== Proof.RefValue1.lean ====
import proofs.«900755_g7700000000000756_dist_attn_cross_gqa_kvseq_b4_sq256_skv1024_d1024_hq8_dh128_v7x_i8_bf16_1_alg».proof.Proof.Gen.ReferenceIdeal
import Idealize.ShloMosaic.Lib.ValueLayout
import Idealize.ShloMosaic.Lib.IdealHost

noncomputable section

namespace Cert.Hand.RefValue

open Idealize.ShloMosaic Idealize.ShloMosaic.ValueIdx Cert.ReferenceIdeal Cert.ReferenceIdeal.Gen

local notation "D1" => dot_S4x256x1024_S1024x1024_S4x256x1024_2_0_01_1_n_n
local notation "D2" => dot_S4x256x8x128_S4x1024x8x128_S4x8x256x1024_3_3_1_1_02_02
local notation "D3" => dot_S4x1024x8x128_S4x8x256x1024_S4x8x128x256_1_3_3_2_02_01

/-- A statement about four axes holds once it holds at each. -/
theorem fin4 {p : Fin 4 → Prop} (h0 : p 0) (h1 : p 1) (h2 : p 2) (h3 : p 3) : ∀ a, p a
  | ⟨0, _⟩ => h0 | ⟨1, _⟩ => h1 | ⟨2, _⟩ => h2 | ⟨3, _⟩ => h3

/-- A contraction over one axis of extent `n` is the sum over `Fin n` of the products at the operands' indices. -/
theorem dot_apply {sl sr so : Shape} (D : DotDims sl sr so) (n : Nat) (hr : D.contr.rank = 1) (hs : D.contr.size ⟨0, by omega⟩ = n)
    (A : FVec Ideal sl .f32) (B : FVec Ideal sr .f32) (j : so.Idx) (f : Fin n → sl.Idx) (g : Fin n → sr.Idx)
    (hf : ∀ k c, (k ⟨0, by omega⟩ : ℕ) = c.val → D.lhsIdx j k = f c) (hg : ∀ k c, (k ⟨0, by omega⟩ : ℕ) = c.val → D.rhsIdx j k = g c) :
    Host.dotGeneral D none A B j = ∑ c, A (f c) * B (g c) := by
  refine (Ideal.dotGeneral_apply D none .single A B j).trans ?_
  rw [← Equiv.sum_comp (contrEquiv1 D n hr hs).symm]
  exact Finset.sum_congr rfl fun c _ => by rw [hf _ c (contrEquiv1_symm_val D n hr hs c), hg _ c (contrEquiv1_symm_val D n hr hs c)]

theorem proj_apply (X : FVec Ideal S4x256x1024 .f32) (W : FVec Ideal S1024x1024 .f32) (b : Fin 4) (i : Fin 256) (n : Fin 1024) :
    Host.dotGeneral D1 none X W (ix3 b i n) = ∑ k : Fin 1024, X (ix3 b i k) * W (ix2 k n) := by
  refine dot_apply D1 1024 rfl rfl _ _ _ _ _ (fun k c hc => funext fun a => Fin.ext ?_) (fun k c hc => funext fun a => Fin.ext ?_)
  all_goals fin_cases a <;> simp [DotDims.lhsIdx, DotDims.rhsIdx, dot_S4x256x1024_S1024x1024_S4x256x1024_2_0_01_1_n_n] <;> first | rfl | exact hc

theorem scores_apply (Q : FVec Ideal S4x256x8x128 .f32) (Kt : FVec Ideal S4x1024x8x128 .f32)
    (b : Fin 4) (h : Fin 8) (i : Fin 256) (j : Fin 1024) :
    Host.dotGeneral D2 none Q Kt (ix4 b h i j) = ∑ d : Fin 128, Q (ix4 b i h d) * Kt (ix4 b j h d) := by
  refine dot_apply D2 128 rfl rfl _ _ _ _ _ (fun k c hc => funext fun a => Fin.ext ?_) (fun k c hc => funext fun a => Fin.ext ?_)
  all_goals fin_cases a <;> simp [DotDims.lhsIdx, DotDims.rhsIdx, dot_S4x256x8x128_S4x1024x8x128_S4x8x256x1024_3_3_1_1_02_02] <;> first | rfl | exact hc

theorem pv_apply (Vt : FVec Ideal S4x1024x8x128 .f32) (Pm : FVec Ideal S4x8x256x1024 .f32)
    (b : Fin 4) (h : Fin 8) (d : Fin 128) (i : Fin 256) :
    Host.dotGeneral D3 none Vt Pm (ix4 b h d i) = ∑ j : Fin 1024, Vt (ix4 b j h d) * Pm (ix4 b h i j) := by
  refine dot_apply D3 1024 rfl rfl _ _ _ _ _ (fun k c hc => funext fun a => Fin.ext ?_) (fun k c hc => funext fun a => Fin.ext ?_)
  all_goals fin_cases a <;> simp [DotDims.lhsIdx, DotDims.rhsIdx, dot_S4x1024x8x128_S4x8x256x1024_S4x8x128x256_1_3_3_2_02_01] <;> first | rfl | exact hc

theorem ofBits_neg_inf : Ideal.ofBits .f32 0xFF800000#32 = (⊥ : EReal) := by simp [Ideal.ofBits, Ideal.ieee]

theorem bcast_keys_apply (M : FVec Ideal S4x8x256x1 .f32) (b : Fin 4) (h : Fin 8) (i : Fin 256) (j : Fin 1024) :
    broadcastInDim S4x8x256x1024 ![0, 1, 2, 3] bcast_S4x8x256x1_S4x8x256x1024_0_1_2_3 M (ix4 b h i j) = M (ix4 b h i (0 : Fin 1)) := by
  apply broadcastInDim_apply; exact fin4 rfl rfl rfl rfl

theorem bcast_heads_apply (A : FVec Ideal S4x8x256x1 .f32) (b : Fin 4) (i : Fin 256) (h : Fin 8) (d : Fin 128) :
    broadcastInDim S4x256x8x128 ![0, 1, 2, 3] bcast_S4x256x8x1_S4x256x8x128_0_1_2_3
        (transpose S4x256x8x1 [0, 2, 1, 3] A transposes_S4x8x256x1_S4x256x8x1_0_2_1_3) (ix4 b i h d)
      = A (ix4 b h i (0 : Fin 1)) := by
  refine (broadcastInDim_apply _ _ _ _ (ix4 b i h (0 : Fin 1)) (fin4 rfl rfl rfl rfl)).trans ?_
  apply transpose_apply; exact fin4 rfl rfl rfl rfl

theorem tr_out_apply (A : FVec Ideal S4x8x128x256 .f32) (b : Fin 4) (i : Fin 256) (h : Fin 8) (d : Fin 128) :
    transpose S4x256x8x128 [0, 3, 1, 2] A transposes_S4x8x128x256_S4x256x8x128_0_3_1_2 (ix4 b i h d) = A (ix4 b h d i) := by
  apply transpose_apply; exact fin4 rfl rfl rfl rfl

theorem split_heads_apply (A : FVec Ideal S4x256x1024 .f32) (b : Fin 4) (i : Fin 256) (h : Fin 8) (d : Fin 128) :
    shapeCast S4x256x8x128 A shapeCasts_S4x256x1024_S4x256x8x128 (ix4 b i h d)
      = A (ix3 b i (⟨h.val * 128 + d.val, by have := h.isLt; have := d.isLt; omega⟩ : Fin 1024)) := by
  refine shapeCast_apply _ _ _ _ ?_
  rw [Shape.rowMajor_val_three, Shape.rowMajor_val_four]
  show (b.val * 256 + i.val) * 1024 + (h.val * 128 + d.val) = ((b.val * 256 + i.val) * 8 + h.val) * 128 + d.val
  omega

theorem merge_heads_apply (A : FVec Ideal S4x256x8x128 .f32) (b : Fin 4) (i : Fin 256) (n : Fin 1024) :
    shapeCast S4x256x1024 A shapeCasts_S4x256x8x128_S4x256x1024 (ix3 b i n)
      = A (ix4 b i (⟨n.val / 128, by have := n.isLt; omega⟩ : Fin 8) (⟨n.val % 128, Nat.mod_lt _ (by decide)⟩ : Fin 128)) := by
  refine shapeCast_apply _ _ _ _ ?_
  rw [Shape.rowMajor_val_three, Shape.rowMajor_val_four]
  show ((b.val * 256 + i.val) * 8 + n.val / 128) * 128 + n.val % 128 = (b.val * 256 + i.val) * 1024 + n.val
  omega

theorem red3 : S4x8x256x1024.Reduces [3] S4x8x256 := by decide

theorem lift_keys (b : Fin 4) (h : Fin 8) (i : Fin 256) (k : Fin (S4x8x256x1024.size 3)) :
    red3.lift (ix3 b h i) k = ix4 b h i (⟨k.val, k.isLt⟩ : Fin 1024) := by
  funext c; apply Fin.ext
  match c with
  | ⟨0, _⟩ => rfl
  | ⟨1, _⟩ => rfl
  | ⟨2, _⟩ => rfl
  | ⟨3, _⟩ => rfl

theorem rowmax_apply (S : FVec Ideal S4x8x256x1024 .f32) (b : Fin 4) (h : Fin 8) (i : Fin 256) (z : Fin 1) :
    broadcastInDim S4x8x256x1 ![0, 1, 2] bcast_S4x8x256_S4x8x256x1_0_1_2
        (Host.reduce FloatOps.maximumf S (constant (F := Ideal) S_ .f32 0xFF800000#32) reducesTo_S4x8x256x1024_S4x8x256_d3 h_S_) (ix4 b h i z)
      = Finset.univ.sup fun j : Fin 1024 => S (ix4 b h i j) := by
  refine (broadcastInDim_apply _ _ _ _ (ix3 b h i) (fun a => match a with
    | ⟨0, _⟩ => rfl
    | ⟨1, _⟩ => rfl
    | ⟨2, _⟩ => rfl)).trans ?_
  rw [Host.reduce_eq_fold_single FloatOps.maximumf S _ reducesTo_S4x8x256x1024_S4x8x256_d3 red3 h_S_,
    show (S ∘ red3.lift (ix3 b h i)) = fun k : Fin 1024 => S (ix4 b h i k) from funext fun k => congrArg S (lift_keys b h i k)]
  exact congrArg (Finset.fold max · _ _) ofBits_neg_inf

theorem rowsum_apply (Pm : FVec Ideal S4x8x256x1024 .f32) (b : Fin 4) (h : Fin 8) (i : Fin 256) (z : Fin 1) :
    broadcastInDim S4x8x256x1 ![0, 1, 2] bcast_S4x8x256_S4x8x256x1_0_1_2
        (Host.reduceAdd Pm (constant (F := Ideal) S_ .f32 0x00000000#32) reducesTo_S4x8x256x1024_S4x8x256_d3 h_S_) (ix4 b h i z)
      = ∑ j : Fin 1024, Pm (ix4 b h i j) := by
  refine (broadcastInDim_apply _ _ _ _ (ix3 b h i) (fun a => match a with
    | ⟨0, _⟩ => rfl
    | ⟨1, _⟩ => rfl
    | ⟨2, _⟩ => rfl)).trans ?_
  rw [hostReduceAdd_apply, Ideal.hostReduceAdd_single _ red3, constant_apply, Ideal.ofBits_zero_f32, zero_add]
  exact Finset.sum_congr rfl fun k _ => congrArg Pm (lift_keys b h i k)

def scoreBlk (Q : FVec Ideal S4x256x8x128 .f32) (K3 : FVec Ideal S4x8192x8x128 .f32) (off : Nat)
    (hs : S4x8192x8x128.Slices ![0, off, 0, 0] S4x1024x8x128) : FVec Ideal S4x8x256x1024 .f32 :=
  mulf (Host.dotGeneral D2 none Q (extractStridedSlice S4x1024x8x128 ![0, off, 0, 0] K3 hs))
    (broadcastInDim S4x8x256x1024 ![] bcast_S_S4x8x256x1024 (constant S_ .f32 0x3DB504F3#32))

def mNext (mP : FVec Ideal S4x8x256x1 .f32) (S : FVec Ideal S4x8x256x1024 .f32) : FVec Ideal S4x8x256x1 .f32 :=
  maximumf mP (broadcastInDim S4x8x256x1 ![0, 1, 2] bcast_S4x8x256_S4x8x256x1_0_1_2
    (Host.reduce FloatOps.maximumf S (constant S_ .f32 0xFF800000#32) reducesTo_S4x8x256x1024_S4x8x256_d3 h_S_))

def alphaOf (mP mN : FVec Ideal S4x8x256x1 .f32) : FVec Ideal S4x8x256x1 .f32 := Host.exp (subf mP mN)

def pBlk (S : FVec Ideal S4x8x256x1024 .f32) (mN : FVec Ideal S4x8x256x1 .f32) : FVec Ideal S4x8x256x1024 .f32 :=
  Host.exp (subf S (broadcastInDim S4x8x256x1024 ![0, 1, 2, 3] bcast_S4x8x256x1_S4x8x256x1024_0_1_2_3 mN))

def lNext (lP a : FVec Ideal S4x8x256x1 .f32) (Pm : FVec Ideal S4x8x256x1024 .f32) : FVec Ideal S4x8x256x1 .f32 :=
  addf (mulf lP a) (broadcastInDim S4x8x256x1 ![0, 1, 2] bcast_S4x8x256_S4x8x256x1_0_1_2
    (Host.reduceAdd Pm (constant S_ .f32 0x00000000#32) reducesTo_S4x8x256x1024_S4x8x256_d3 h_S_))

def oNext (oP : FVec Ideal S4x256x8x128 .f32) (a : FVec Ideal S4x8x256x1 .f32) (V5 : FVec Ideal S4x8192x8x128 .f32) (off : Nat)
    (hs : S4x8192x8x128.Slices ![0, off, 0, 0] S4x1024x8x128) (Pm : FVec Ideal S4x8x256x1024 .f32) : FVec Ideal S4x256x8x128 .f32 :=
  addf (mulf oP (broadcastInDim S4x256x8x128 ![0, 1, 2, 3] bcast_S4x256x8x1_S4x256x8x128_0_1_2_3
      (transpose S4x256x8x1 [0, 2, 1, 3] a transposes_S4x8x256x1_S4x256x8x1_0_2_1_3)))
    (transpose S4x256x8x128 [0, 3, 1, 2]
      (Host.dotGeneral D3 none (extractStridedSlice S4x1024x8x128 ![0, off, 0, 0] V5 hs) Pm)
      transposes_S4x8x128x256_S4x256x8x128_0_3_1_2)

theorem scoreBlk_apply (Q : FVec Ideal S4x256x8x128 .f32) (K3 : FVec Ideal S4x8192x8x128 .f32) (off : Nat) (hoff : off + 1024 ≤ 8192)
    (hs : S4x8192x8x128.Slices ![0, off, 0, 0] S4x1024x8x128) (b : Fin 4) (h : Fin 8) (i : Fin 256) (j : Fin 1024) :
    scoreBlk Q K3 off hs (ix4 b h i j)
      = (∑ d : Fin 128, Q (ix4 b i h d) * K3 (ix4 b (⟨off + j.val, by have := j.isLt; omega⟩ : Fin 8192) h d))
          * Ideal.ofBits .f32 0x3DB504F3#32 := by
  unfold scoreBlk
  rw [mulf_apply, scores_apply, broadcastInDim_scalar_apply, constant_apply]
  exact congrArg (· * Ideal.ofBits .f32 0x3DB504F3#32) (Finset.sum_congr rfl fun d _ => by rw [slice4_axis1_eq])

theorem mNext_apply (mP : FVec Ideal S4x8x256x1 .f32) (S : FVec Ideal S4x8x256x1024 .f32) (b : Fin 4) (h : Fin 8) (i : Fin 256) :
    mNext mP S (ix4 b h i (0 : Fin 1)) = max (mP (ix4 b h i (0 : Fin 1))) (Finset.univ.sup fun j : Fin 1024 => S (ix4 b h i j)) := by
  unfold mNext
  rw [maximumf_apply, rowmax_apply]

theorem alphaOf_apply (mP mN : FVec Ideal S4x8x256x1 .f32) (j : S4x8x256x1.Idx) :
    alphaOf mP mN j = Ideal.exp (mP j - mN j) := rfl

theorem pBlk_apply (S : FVec Ideal S4x8x256x1024 .f32) (mN : FVec Ideal S4x8x256x1 .f32) (b : Fin 4) (h : Fin 8) (i : Fin 256) (j : Fin 1024) :
    pBlk S mN (ix4 b h i j) = Ideal.exp (S (ix4 b h i j) - mN (ix4 b h i (0 : Fin 1))) := by
  unfold pBlk
  show Ideal.exp (S (ix4 b h i j) - broadcastInDim S4x8x256x1024 ![0, 1, 2, 3] bcast_S4x8x256x1_S4x8x256x1024_0_1_2_3 mN (ix4 b h i j)) = _
  rw [bcast_keys_apply]

theorem lNext_apply (lP a : FVec Ideal S4x8x256x1 .f32) (Pm : FVec Ideal S4x8x256x1024 .f32) (b : Fin 4) (h : Fin 8) (i : Fin 256) :
    lNext lP a Pm (ix4 b h i (0 : Fin 1))
      = lP (ix4 b h i (0 : Fin 1)) * a (ix4 b h i (0 : Fin 1)) + ∑ j : Fin 1024, Pm (ix4 b h i j) := by
  unfold lNext
  rw [addf_apply, mulf_apply, rowsum_apply]

theorem oNext_apply (oP : FVec Ideal S4x256x8x128 .f32) (a : FVec Ideal S4x8x256x1 .f32) (V5 : FVec Ideal S4x8192x8x128 .f32) (off : Nat)
    (hoff : off + 1024 ≤ 8192) (hs : S4x8192x8x128.Slices ![0, off, 0, 0] S4x1024x8x128) (Pm : FVec Ideal S4x8x256x1024 .f32)
    (b : Fin 4) (i : Fin 256) (h : Fin 8) (d : Fin 128) :
    oNext oP a V5 off hs Pm (ix4 b i h d)
      = oP (ix4 b i h d) * a (ix4 b h i (0 : Fin 1))
          + ∑ j : Fin 1024, V5 (ix4 b (⟨off + j.val, by have := j.isLt; omega⟩ : Fin 8192) h d) * Pm (ix4 b h i j) := by
  unfold oNext
  rw [addf_apply, mulf_apply, bcast_heads_apply, tr_out_apply, pv_apply]
  exact congrArg (oP (ix4 b i h d) * a (ix4 b h i (0 : Fin 1)) + ·) (Finset.sum_congr rfl fun j _ => by rw [slice4_axis1_eq])

/-- The pass's state for every query row: running maximum, running sum, running output. -/
structure St where
  m : FVec Ideal S4x8x256x1 .f32
  l : FVec Ideal S4x8x256x1 .f32
  o : FVec Ideal S4x256x8x128 .f32

def St.init : St where
  m := broadcastInDim S4x8x256x1 ![] bcast_S_S4x8x256x1 (constant S_ .f32 0xFF800000#32)
  l := broadcastInDim S4x8x256x1 ![] bcast_S_S4x8x256x1 (constant S_ .f32 0x00000000#32)
  o := broadcastInDim S4x256x8x128 ![] bcast_S_S4x256x8x128 (constant S_ .f32 0x00000000#32)

/-- One step of the pass: the state after the block of 1024 keys that starts at row `off`. -/
def St.next (s : St) (Q : FVec Ideal S4x256x8x128 .f32) (K3 V5 : FVec Ideal S4x8192x8x128 .f32) (off : Nat)
    (hs : S4x8192x8x128.Slices ![0, off, 0, 0] S4x1024x8x128) : St :=
  let S := scoreBlk Q K3 off hs
  let M := mNext s.m S
  ⟨M, lNext s.l (alphaOf s.m M) (pBlk S M), oNext s.o (alphaOf s.m M) V5 off hs (pBlk S M)⟩

end Cert.Hand.RefValue

end
-- ==== Proof.LibSoftmaxMerge.lean ====
import Idealize.ShloMosaic.PureOps.Ideal
import Mathlib.Data.EReal.Basic
import Mathlib.Data.EReal.Operations
import Mathlib.Analysis.SpecialFunctions.Exp
import Mathlib.Algebra.BigOperators.Group.Finset.Basic
import Mathlib.Algebra.BigOperators.Ring.Finset
import Mathlib.Data.Finset.Lattice.Fold

open Idealize.ShloMosaic
open scoped BigOperators

namespace Cert.Hand.SoftmaxMerge

noncomputable def top {J : Type*} (σ : J → EReal) (S : Finset J) : EReal := S.sup σ

noncomputable def den {J : Type*} (σ : J → EReal) (S : Finset J) (M : EReal) : EReal :=
  ∑ j ∈ S, Ideal.exp (σ j - M)

noncomputable def num {J : Type*} (σ ν : J → EReal) (S : Finset J) (M : EReal) : EReal :=
  ∑ j ∈ S, Ideal.exp (σ j - M) * ν j

-- A denominator is the numerator of the constant value 1, so every fact is proved for numerators only.
theorem den_eq_num {J : Type*} (σ : J → EReal) (S : Finset J) (M : EReal) :
    den σ S M = num σ (fun _ => 1) S M :=
  Finset.sum_congr rfl (fun _ _ => (mul_one _).symm)

theorem coe_sum {J : Type*} [DecidableEq J] (S : Finset J) (f : J → ℝ) :
    ((∑ j ∈ S, f j : ℝ) : EReal) = ∑ j ∈ S, (f j : EReal) := by
  induction S using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem exp_coe_sub (a b : ℝ) :
    Ideal.exp ((a : EReal) - (b : EReal)) = ((Real.exp (a - b) : ℝ) : EReal) := by
  rw [← EReal.coe_sub, Ideal.exp_coe]

theorem exists_real_fun {J : Type*} (σ : J → EReal) (hσ : ∀ j, ∃ r : ℝ, σ j = (r : EReal)) :
    ∃ s : J → ℝ, σ = fun j => (s j : EReal) := by
  choose s hs using hσ
  exact ⟨s, funext hs⟩

theorem num_coe {J : Type*} [DecidableEq J] (s v : J → ℝ) (S : Finset J) (M : ℝ) :
    num (fun j => (s j : EReal)) (fun j => (v j : EReal)) S (M : EReal)
      = ((∑ j ∈ S, Real.exp (s j - M) * v j : ℝ) : EReal) := by
  rw [coe_sum]
  exact Finset.sum_congr rfl (fun j _ => by rw [exp_coe_sub, ← EReal.coe_mul])

theorem top_real {J : Type*} [DecidableEq J] (σ : J → EReal)
    (hσ : ∀ j, ∃ r : ℝ, σ j = (r : EReal)) (S : Finset J) (hS : S.Nonempty) :
    ∃ r : ℝ, top σ S = (r : EReal) := by
  obtain ⟨i, _, hi⟩ := Finset.exists_mem_eq_sup S hS σ
  obtain ⟨r, hr⟩ := hσ i
  exact ⟨r, by rw [top, hi, hr]⟩

theorem top_union {J : Type*} [DecidableEq J] (σ : J → EReal) (S T : Finset J) :
    top σ (S ∪ T) = max (top σ S) (top σ T) :=
  Finset.sup_union

theorem top_empty {J : Type*} (σ : J → EReal) : top σ (∅ : Finset J) = ⊥ :=
  Finset.sup_empty

theorem den_empty {J : Type*} (σ : J → EReal) (M : EReal) : den σ (∅ : Finset J) M = 0 :=
  Finset.sum_empty

theorem num_empty {J : Type*} (σ ν : J → EReal) (M : EReal) :
    num σ ν (∅ : Finset J) M = 0 :=
  Finset.sum_empty

-- Moving the shift of a real block from a to c multiplies every term by exp (a - c).
theorem num_rescale {J : Type*} [DecidableEq J] (σ ν : J → EReal)
    (hσ : ∀ j, ∃ r : ℝ, σ j = (r : EReal)) (hν : ∀ j, ∃ r : ℝ, ν j = (r : EReal))
    (S : Finset J) (a c : ℝ) :
    num σ ν S (a : EReal) * Ideal.exp ((a : EReal) - (c : EReal)) = num σ ν S (c : EReal) := by
  obtain ⟨s, rfl⟩ := exists_real_fun σ hσ
  obtain ⟨v, rfl⟩ := exists_real_fun ν hν
  rw [num_coe, num_coe, exp_coe_sub, ← EReal.coe_mul, Finset.sum_mul]
  congr 1
  refine Finset.sum_congr rfl (fun j _ => ?_)
  rw [show s j - c = (s j - a) + (a - c) by ring, Real.exp_add]
  ring

theorem num_online {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S]
  exact (Finset.sum_union hST).symm

-- Two blocks, each rescaled from its own maximum to the common one, add up to the block of the union.
theorem num_merge {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (top σ T) * Ideal.exp (top σ T - max (top σ S) (top σ T))
      = num σ ν (S ∪ T) (max (top σ S) (top σ T)) := by
  rw [← num_online σ ν hσ hν S T hS hT hST]
  obtain ⟨a, ha⟩ := top_real σ hσ S hS
  obtain ⟨b, hb⟩ := top_real σ hσ T hT
  rw [ha, hb, ← coe_max, num_rescale σ ν hσ hν T]

theorem den_online {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (max (top σ S) (top σ T))
      = den σ (S ∪ T) (max (top σ S) (top σ T)) := by
  simp only [den_eq_num]
  exact num_online σ _ hσ (fun _ => ⟨1, rfl⟩) S T hS hT hST

theorem den_merge {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (top σ T) * Ideal.exp (top σ T - max (top σ S) (top σ T))
      = den σ (S ∪ T) (max (top σ S) (top σ T)) := by
  simp only [den_eq_num]
  exact num_merge σ _ hσ (fun _ => ⟨1, rfl⟩) S T hS hT hST

-- A real scale on the left factor of a finite contraction of reals comes out of the sum.
theorem scale_out' {D : Type*} [Fintype D] [DecidableEq D] (a b : D → EReal)
    (ha : ∀ d, ∃ r : ℝ, a d = (r : EReal)) (hb : ∀ d, ∃ r : ℝ, b d = (r : EReal))
    (κ : EReal) (hκ : ∃ r : ℝ, κ = (r : EReal)) :
    ∑ d, (a d * κ) * b d = (∑ d, a d * b d) * κ := by
  obtain ⟨x, rfl⟩ := exists_real_fun a ha
  obtain ⟨y, rfl⟩ := exists_real_fun b hb
  obtain ⟨k, rfl⟩ := hκ
  simp only [← EReal.coe_mul, ← coe_sum, Finset.sum_mul]
  exact congrArg _ (Finset.sum_congr rfl (fun d _ => mul_right_comm _ _ _))

end Cert.Hand.SoftmaxMerge

/-- info: 'Cert.Hand.SoftmaxMerge.den_merge' depends on axioms: [propext, Classical.choice, Quot.sound] -/
#guard_msgs in #print axioms Cert.Hand.SoftmaxMerge.den_merge

/-- info: 'Cert.Hand.SoftmaxMerge.num_merge' depends on axioms: [propext, Classical.choice, Quot.sound] -/
#guard_msgs in #print axioms Cert.Hand.SoftmaxMerge.num_merge

/-- info: 'Cert.Hand.SoftmaxMerge.den_online' depends on axioms: [propext, Classical.choice, Quot.sound] -/
#guard_msgs in #print axioms Cert.Hand.SoftmaxMerge.den_online

/-- info: 'Cert.Hand.SoftmaxMerge.num_online' depends on axioms: [propext, Classical.choice, Quot.sound] -/
#guard_msgs in #print axioms Cert.Hand.SoftmaxMerge.num_online
-- ==== Proof.RefValue2.lean ====
import proofs.«900755_g7700000000000756_dist_attn_cross_gqa_kvseq_b4_sq256_skv1024_d1024_hq8_dh128_v7x_i8_bf16_1_alg».proof.Proof.LibSoftmaxMerge

noncomputable section

namespace Cert.Hand.RefValue

open Idealize.ShloMosaic Cert.Hand.SoftmaxMerge
open scoped BigOperators

/-- The keys before row `off`. -/
def pre (off : Nat) : Finset (Fin 8192) := Finset.univ.filter fun j => j.val < off

def keyAt (off : Nat) (hoff : off + 1024 ≤ 8192) (jj : Fin 1024) : Fin 8192 :=
  ⟨off + jj.val, by have := jj.isLt; omega⟩

def keyEmb (off : Nat) (hoff : off + 1024 ≤ 8192) : Fin 1024 ↪ Fin 8192 :=
  ⟨keyAt off hoff, fun _ _ h => Fin.ext (Nat.add_left_cancel (congrArg Fin.val h))⟩

/-- The block of 1024 keys that starts at row `off`. -/
def blk (off : Nat) (hoff : off + 1024 ≤ 8192) : Finset (Fin 8192) := Finset.univ.map (keyEmb off hoff)

theorem mem_pre (off : Nat) (j : Fin 8192) : j ∈ pre off ↔ j.val < off := by
  simp [pre]

theorem mem_blk (off : Nat) (hoff : off + 1024 ≤ 8192) (j : Fin 8192) :
    j ∈ blk off hoff ↔ off ≤ j.val ∧ j.val < off + 1024 := by
  unfold blk
  rw [Finset.mem_map]
  constructor
  · rintro ⟨jj, _, rfl⟩
    have := jj.isLt
    show off ≤ off + jj.val ∧ off + jj.val < off + 1024
    omega
  · rintro ⟨h1, h2⟩
    exact ⟨⟨j.val - off, by omega⟩, Finset.mem_univ _, Fin.ext (by show off + (j.val - off) = j.val; omega)⟩

theorem pre_zero : pre 0 = ∅ := by
  ext j; simp [mem_pre]

theorem pre_all : pre 8192 = Finset.univ := by
  ext j; simp [mem_pre]

theorem pre_succ (off : Nat) (hoff : off + 1024 ≤ 8192) : pre (off + 1024) = pre off ∪ blk off hoff := by
  ext j
  rw [Finset.mem_union, mem_pre, mem_pre, mem_blk]
  omega

theorem pre_blk_disjoint (off : Nat) (hoff : off + 1024 ≤ 8192) : Disjoint (pre off) (blk off hoff) := by
  rw [Finset.disjoint_left]
  intro j hj hb
  rw [mem_pre] at hj
  rw [mem_blk] at hb
  omega

theorem blk_nonempty (off : Nat) (hoff : off + 1024 ≤ 8192) : (blk off hoff).Nonempty :=
  (Finset.univ_nonempty (α := Fin 1024)).map

theorem top_blk (σ : Fin 8192 → EReal) (off : Nat) (hoff : off + 1024 ≤ 8192) :
    (Finset.univ.sup fun jj : Fin 1024 => σ (keyAt off hoff jj)) = top σ (blk off hoff) := by
  unfold top blk
  rw [Finset.sup_map]
  rfl

theorem den_blk (σ : Fin 8192 → EReal) (off : Nat) (hoff : off + 1024 ≤ 8192) (M : EReal) :
    (∑ jj : Fin 1024, Ideal.exp (σ (keyAt off hoff jj) - M)) = den σ (blk off hoff) M := by
  unfold den blk
  rw [Finset.sum_map]
  rfl

theorem num_blk (σ ν : Fin 8192 → EReal) (off : Nat) (hoff : off + 1024 ≤ 8192) (M : EReal) :
    (∑ jj : Fin 1024, ν (keyAt off hoff jj) * Ideal.exp (σ (keyAt off hoff jj) - M)) = num σ ν (blk off hoff) M := by
  unfold num blk
  rw [Finset.sum_map]
  exact Finset.sum_congr rfl fun jj _ => mul_comm _ _

theorem top_step (σ : Fin 8192 → EReal) (off : Nat) (hoff : off + 1024 ≤ 8192) :
    max (top σ (pre off)) (Finset.univ.sup fun jj : Fin 1024 => σ (keyAt off hoff jj)) = top σ (pre (off + 1024)) := by
  rw [top_blk, pre_succ off hoff, top_union]

/-- The old denominator rescaled to the new maximum, plus the block's terms, is the denominator of the longer prefix. -/
theorem den_step (σ : Fin 8192 → EReal) (hσ : ∀ j, ∃ r : ℝ, σ j = (r : EReal)) (off : Nat) (hoff : off + 1024 ≤ 8192) :
    den σ (pre off) (top σ (pre off)) * Ideal.exp (top σ (pre off) - top σ (pre (off + 1024)))
        + (∑ jj : Fin 1024, Ideal.exp (σ (keyAt off hoff jj) - top σ (pre (off + 1024))))
      = den σ (pre (off + 1024)) (top σ (pre (off + 1024))) := by
  rw [den_blk, pre_succ off hoff, top_union]
  rcases (pre off).eq_empty_or_nonempty with h0 | hne
  · rw [h0, top_empty, den_empty, Finset.empty_union, zero_mul, zero_add]
  · exact den_online σ hσ _ _ hne (blk_nonempty off hoff) (pre_blk_disjoint off hoff)

theorem num_step (σ ν : Fin 8192 → EReal) (hσ : ∀ j, ∃ r : ℝ, σ j = (r : EReal)) (hν : ∀ j, ∃ r : ℝ, ν j = (r : EReal))
    (off : Nat) (hoff : off + 1024 ≤ 8192) :
    num σ ν (pre off) (top σ (pre off)) * Ideal.exp (top σ (pre off) - top σ (pre (off + 1024)))
        + (∑ jj : Fin 1024, ν (keyAt off hoff jj) * Ideal.exp (σ (keyAt off hoff jj) - top σ (pre (off + 1024))))
      = num σ ν (pre (off + 1024)) (top σ (pre (off + 1024))) := by
  rw [num_blk, pre_succ off hoff, top_union]
  rcases (pre off).eq_empty_or_nonempty with h0 | hne
  · rw [h0, top_empty, num_empty, Finset.empty_union, zero_mul, zero_add]
  · exact num_online σ ν hσ hν _ _ hne (blk_nonempty off hoff) (pre_blk_disjoint off hoff)

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_sum {ι : Type} [Fintype ι] (f : ι → EReal) (hf : ∀ i, ∃ r : ℝ, f i = (r : EReal)) :
    ∃ r : ℝ, (∑ i, f i) = (r : EReal) := by
  classical
  obtain ⟨g, rfl⟩ := exists_real_fun f hf
  exact ⟨∑ i, g i, (coe_sum Finset.univ g).symm⟩

end Cert.Hand.RefValue

end
-- ==== Proof.RefValue3.lean ====
import proofs.«900755_g7700000000000756_dist_attn_cross_gqa_kvseq_b4_sq256_skv1024_d1024_hq8_dh128_v7x_i8_bf16_1_alg».proof.Proof.RefValue1
import proofs.«900755_g7700000000000756_dist_attn_cross_gqa_kvseq_b4_sq256_skv1024_d1024_hq8_dh128_v7x_i8_bf16_1_alg».proof.Proof.RefValue2

noncomputable section

namespace Cert.Hand.RefValue

open Idealize.ShloMosaic Idealize.ShloMosaic.ValueIdx Cert.ReferenceIdeal Cert.ReferenceIdeal.Gen Cert.Hand.SoftmaxMerge
open scoped BigOperators

def scoreOf (Q : FVec Ideal S4x256x8x128 .f32) (K3 : FVec Ideal S4x8192x8x128 .f32) (b : Fin 4) (h : Fin 8) (i : Fin 256)
    (j : Fin 8192) : EReal :=
  (∑ d : Fin 128, Q (ix4 b i h d) * K3 (ix4 b j h d)) * Ideal.ofBits .f32 0x3DB504F3#32

/-- After the keys before row `off` the state holds their maximum, shifted denominator and shifted numerator. -/
def Inv (Q : FVec Ideal S4x256x8x128 .f32) (K3 V5 : FVec Ideal S4x8192x8x128 .f32) (off : Nat) (s : St) : Prop :=
  ∀ (b : Fin 4) (h : Fin 8) (i : Fin 256),
    s.m (ix4 b h i (0 : Fin 1)) = top (scoreOf Q K3 b h i) (pre off)
    ∧ s.l (ix4 b h i (0 : Fin 1)) = den (scoreOf Q K3 b h i) (pre off) (top (scoreOf Q K3 b h i) (pre off))
    ∧ ∀ d : Fin 128, s.o (ix4 b i h d) = num (scoreOf Q K3 b h i) (fun j => V5 (ix4 b j h d)) (pre off) (top (scoreOf Q K3 b h i) (pre off))

theorem inv_init (Q : FVec Ideal S4x256x8x128 .f32) (K3 V5 : FVec Ideal S4x8192x8x128 .f32) : Inv Q K3 V5 0 St.init := by
  intro b h i
  simp only [pre_zero, top_empty, den_empty, num_empty, St.init]
  refine ⟨?_, ?_, fun d => ?_⟩ <;> rw [broadcastInDim_scalar_apply, constant_apply] <;>
    first | exact ofBits_neg_inf | exact Ideal.ofBits_zero_f32

theorem inv_next (Q : FVec Ideal S4x256x8x128 .f32) (K3 V5 : FVec Ideal S4x8192x8x128 .f32)
    (hσ : ∀ (b : Fin 4) (h : Fin 8) (i : Fin 256) (j : Fin 8192), ∃ r : ℝ, scoreOf Q K3 b h i j = (r : EReal))
    (hν : ∀ (b : Fin 4) (h : Fin 8) (d : Fin 128) (j : Fin 8192), ∃ r : ℝ, V5 (ix4 b j h d) = (r : EReal))
    (off : Nat) (hoff : off + 1024 ≤ 8192) (hs : S4x8192x8x128.Slices ![0, off, 0, 0] S4x1024x8x128)
    (s : St) (hinv : Inv Q K3 V5 off s) : Inv Q K3 V5 (off + 1024) (s.next Q K3 V5 off hs) := by
  intro b h i
  obtain ⟨hm, hl, ho⟩ := hinv b h i
  have hS : ∀ j : Fin 1024, scoreBlk Q K3 off hs (ix4 b h i j) = scoreOf Q K3 b h i (keyAt off hoff j) :=
    scoreBlk_apply Q K3 off hoff hs b h i
  have hM : mNext s.m (scoreBlk Q K3 off hs) (ix4 b h i (0 : Fin 1)) = top (scoreOf Q K3 b h i) (pre (off + 1024)) := by
    rw [mNext_apply, hm]
    simp only [hS]
    exact top_step (scoreOf Q K3 b h i) off hoff
  dsimp only [St.next]
  refine ⟨hM, ?_, fun d => ?_⟩
  · rw [lNext_apply, hl, alphaOf_apply, hm, hM]
    simp only [pBlk_apply, hS, hM]
    exact den_step (scoreOf Q K3 b h i) (hσ b h i) off hoff
  · rw [oNext_apply s.o _ V5 off hoff hs, ho d, alphaOf_apply, hm, hM]
    simp only [pBlk_apply, hS, hM]
    exact num_step (scoreOf Q K3 b h i) (fun j => V5 (ix4 b j h d)) (hσ b h i) (hν b h d) off hoff

def St.final (Q : FVec Ideal S4x256x8x128 .f32) (K3 V5 : FVec Ideal S4x8192x8x128 .f32) : St :=
  (((((((St.init.next Q K3 V5 0 slices_S4x8192x8x128_S4x1024x8x128_0_0_0_0).next Q K3 V5 1024
    slices_S4x8192x8x128_S4x1024x8x128_0_1024_0_0).next Q K3 V5 2048
    slices_S4x8192x8x128_S4x1024x8x128_0_2048_0_0).next Q K3 V5 3072
    slices_S4x8192x8x128_S4x1024x8x128_0_3072_0_0).next Q K3 V5 4096
    slices_S4x8192x8x128_S4x1024x8x128_0_4096_0_0).next Q K3 V5 5120
    slices_S4x8192x8x128_S4x1024x8x128_0_5120_0_0).next Q K3 V5 6144
    slices_S4x8192x8x128_S4x1024x8x128_0_6144_0_0).next Q K3 V5 7168
    slices_S4x8192x8x128_S4x1024x8x128_0_7168_0_0

theorem inv_final (Q : FVec Ideal S4x256x8x128 .f32) (K3 V5 : FVec Ideal S4x8192x8x128 .f32)
    (hσ : ∀ (b : Fin 4) (h : Fin 8) (i : Fin 256) (j : Fin 8192), ∃ r : ℝ, scoreOf Q K3 b h i j = (r : EReal))
    (hν : ∀ (b : Fin 4) (h : Fin 8) (d : Fin 128) (j : Fin 8192), ∃ r : ℝ, V5 (ix4 b j h d) = (r : EReal)) :
    Inv Q K3 V5 8192 (St.final Q K3 V5) := by
  have s := inv_next Q K3 V5 hσ hν
  exact s 7168 (by omega) _ _ (s 6144 (by omega) _ _ (s 5120 (by omega) _ _ (s 4096 (by omega) _ _
    (s 3072 (by omega) _ _ (s 2048 (by omega) _ _ (s 1024 (by omega) _ _ (s 0 (by omega) _ _ (inv_init Q K3 V5))))))))

end Cert.Hand.RefValue

end
-- ==== Proof.Spec.lean ====
import Idealize.ShloMosaic.PureOps.Ideal

noncomputable section

namespace Cert.Hand.Spec

open Idealize.ShloMosaic

def col (h : Fin 8) (d : Fin 128) : Fin 1024 := ⟨h.val * 128 + d.val, by have := h.isLt; have := d.isLt; omega⟩

def grp (h : Fin 8) : Fin 2 := ⟨h.val / 4, by have := h.isLt; omega⟩

def headOf (n : Fin 1024) : Fin 8 := ⟨n.val / 128, by have := n.isLt; omega⟩
def dimOf (n : Fin 1024) : Fin 128 := ⟨n.val % 128, Nat.mod_lt _ (by decide)⟩

variable (κ : EReal)
variable (x : Fin 4 → Fin 256 → Fin 1024 → EReal) (Wq Wo : Fin 1024 → Fin 1024 → EReal)
variable (K V : Fin 4 → Fin 8192 → Fin 2 → Fin 128 → EReal)

def q (b : Fin 4) (i : Fin 256) (n : Fin 1024) : EReal := ∑ k : Fin 1024, x b i k * Wq k n

def score (b : Fin 4) (i : Fin 256) (h : Fin 8) (j : Fin 8192) : EReal :=
  (∑ d : Fin 128, q x Wq b i (col h d) * K b j (grp h) d) * κ

def top (b : Fin 4) (i : Fin 256) (h : Fin 8) : EReal := Finset.univ.sup (score κ x Wq K b i h)

def weight (b : Fin 4) (i : Fin 256) (h : Fin 8) (j : Fin 8192) : EReal :=
  Ideal.exp (score κ x Wq K b i h j - top κ x Wq K b i h)

def den (b : Fin 4) (i : Fin 256) (h : Fin 8) : EReal := ∑ j : Fin 8192, weight κ x Wq K b i h j

def num (b : Fin 4) (i : Fin 256) (h : Fin 8) (d : Fin 128) : EReal :=
  ∑ j : Fin 8192, weight κ x Wq K b i h j * V b j (grp h) d

def attn (b : Fin 4) (i : Fin 256) (n : Fin 1024) : EReal :=
  Ideal.div (num κ x Wq K V b i (headOf n) (dimOf n)) (den κ x Wq K b i (headOf n))

def out (b : Fin 4) (i : Fin 256) (n : Fin 1024) : EReal := ∑ k : Fin 1024, attn κ x Wq K V b i k * Wo k n

end Cert.Hand.Spec

end
-- ==== Proof.RefValue4.lean ====
import proofs.«900755_g7700000000000756_dist_attn_cross_gqa_kvseq_b4_sq256_skv1024_d1024_hq8_dh128_v7x_i8_bf16_1_alg».proof.Proof.RefValue3
import proofs.«900755_g7700000000000756_dist_attn_cross_gqa_kvseq_b4_sq256_skv1024_d1024_hq8_dh128_v7x_i8_bf16_1_alg».proof.Proof.Spec

noncomputable section

namespace Cert.Hand.RefValue

open Idealize.ShloMosaic Idealize.ShloMosaic.ValueIdx Cert.ReferenceIdeal Cert.ReferenceIdeal.Gen Cert.Hand.SoftmaxMerge
open scoped BigOperators

def qArr (X : FVec Ideal S4x256x1024 .f32) (WQ : FVec Ideal S1024x1024 .f32) : FVec Ideal S4x256x8x128 .f32 :=
  shapeCast S4x256x8x128
    (Host.dotGeneral dot_S4x256x1024_S1024x1024_S4x256x1024_2_0_01_1_n_n none X WQ) shapeCasts_S4x256x1024_S4x256x8x128

def repArr (A : FVec Ideal S4x8192x2x128 .f32) : FVec Ideal S4x8192x8x128 .f32 :=
  shapeCast S4x8192x8x128 (broadcastInDim S4x8192x2x4x128 ![0, 1, 2, 4] bcast_S4x8192x2x128_S4x8192x2x4x128_0_1_2_4 A)
    shapeCasts_S4x8192x2x4x128_S4x8192x8x128

def refTerm (X : FVec Ideal S4x256x1024 .f32) (WQ WO : FVec Ideal S1024x1024 .f32) (KK VV : FVec Ideal S4x8192x2x128 .f32) :
    FVec Ideal S4x256x1024 .bf16 :=
  truncf .bf16 (Host.dotGeneral dot_S4x256x1024_S1024x1024_S4x256x1024_2_0_01_1_n_n none
    (shapeCast S4x256x1024
      (Host.divf (St.final (qArr X WQ) (repArr KK) (repArr VV)).o
        (broadcastInDim S4x256x8x128 ![0, 1, 2, 3] bcast_S4x256x8x1_S4x256x8x128_0_1_2_3
          (transpose S4x256x8x1 [0, 2, 1, 3] (St.final (qArr X WQ) (repArr KK) (repArr VV)).l
            transposes_S4x8x256x1_S4x256x8x1_0_2_1_3)))
      shapeCasts_S4x256x8x128_S4x256x1024) WO) bitsLt_bf16_f32

theorem kappa_real : ∃ r : ℝ, Ideal.ofBits .f32 0x3DB504F3#32 = (r : EReal) := by
  have h : Ideal.ofBits .f32 0x3DB504F3#32 = (((11863283 : ℝ) * ((2 : ℝ) ^ 27)⁻¹ : ℝ) : EReal) := by
    simp [Ideal.ofBits, Ideal.ieee]
  exact ⟨_, h⟩

theorem qArr_apply (X : FVec Ideal S4x256x1024 .f32) (WQ : FVec Ideal S1024x1024 .f32) (b : Fin 4) (i : Fin 256) (h : Fin 8) (d : Fin 128) :
    qArr X WQ (ix4 b i h d)
      = Spec.q (fun b i k => X (ix3 b i k)) (fun k n => WQ (ix2 k n)) b i (Spec.col h d) := by
  unfold qArr
  rw [split_heads_apply, proj_apply]
  rfl

theorem repArr_apply (A : FVec Ideal S4x8192x2x128 .f32) (b : Fin 4) (j : Fin 8192) (h : Fin 8) (d : Fin 128) :
    repArr A (ix4 b j h d) = A (ix4 b j (Spec.grp h) d) := by
  have hh := h.isLt
  unfold repArr
  refine (shapeCast_apply _ _ (ix4 b j h d) (ix5 b j (Spec.grp h) (⟨h.val % 4, by omega⟩ : Fin 4) d) ?_).trans ?_
  · rw [Shape.rowMajor_val_five, Shape.rowMajor_val_four]
    show ((((b.val * 8192 + j.val) * 2 + h.val / 4) * 4 + h.val % 4) * 128 + d.val) = (((b.val * 8192 + j.val) * 8 + h.val) * 128 + d.val)
    omega
  · exact broadcastInDim_apply _ _ A _ _ (fin4 rfl rfl rfl rfl)

theorem sig_eq (X : FVec Ideal S4x256x1024 .f32) (WQ : FVec Ideal S1024x1024 .f32) (KK : FVec Ideal S4x8192x2x128 .f32)
    (b : Fin 4) (h : Fin 8) (i : Fin 256) :
    scoreOf (qArr X WQ) (repArr KK) b h i
      = Spec.score (Ideal.ofBits .f32 0x3DB504F3#32) (fun b i k => X (ix3 b i k)) (fun k n => WQ (ix2 k n))
          (fun b j g d => KK (ix4 b j g d)) b i h := by
  funext j
  unfold scoreOf Spec.score
  simp only [qArr_apply, repArr_apply]

theorem sig_real (X : FVec Ideal S4x256x1024 .f32) (WQ : FVec Ideal S1024x1024 .f32) (KK : FVec Ideal S4x8192x2x128 .f32)
    (hX : ∀ i, ∃ r : ℝ, X i = (r : EReal)) (hWQ : ∀ i, ∃ r : ℝ, WQ i = (r : EReal)) (hKK : ∀ i, ∃ r : ℝ, KK i = (r : EReal))
    (b : Fin 4) (h : Fin 8) (i : Fin 256) (j : Fin 8192) : ∃ r : ℝ, scoreOf (qArr X WQ) (repArr KK) b h i j = (r : EReal) := by
  unfold scoreOf
  refine real_mul (real_sum _ fun d => real_mul ?_ ?_) kappa_real
  · rw [qArr_apply]
    unfold Spec.q
    exact real_sum _ fun k => real_mul (hX _) (hWQ _)
  · rw [repArr_apply]
    exact hKK _

/-- After all eight blocks the state is that of all 8192 keys, so the quotient is the specification's attention. -/
theorem refTerm_apply (X : FVec Ideal S4x256x1024 .f32) (WQ WO : FVec Ideal S1024x1024 .f32) (KK VV : FVec Ideal S4x8192x2x128 .f32)
    (hX : ∀ i, ∃ r : ℝ, X i = (r : EReal)) (hWQ : ∀ i, ∃ r : ℝ, WQ i = (r : EReal))
    (hKK : ∀ i, ∃ r : ℝ, KK i = (r : EReal)) (hVV : ∀ i, ∃ r : ℝ, VV i = (r : EReal))
    (b : Fin 4) (i : Fin 256) (n : Fin 1024) :
    refTerm X WQ WO KK VV (ix3 b i n)
      = Spec.out (Ideal.ofBits .f32 0x3DB504F3#32) (fun b i k => X (ix3 b i k)) (fun k n => WQ (ix2 k n))
          (fun k n => WO (ix2 k n)) (fun b j g d => KK (ix4 b j g d)) (fun b j g d => VV (ix4 b j g d)) b i n := by
  have hfin := inv_final (qArr X WQ) (repArr KK) (repArr VV) (sig_real X WQ KK hX hWQ hKK)
    (fun b h d j => by rw [repArr_apply]; exact hVV _)
  unfold refTerm Spec.out
  rw [truncf_apply, proj_apply]
  refine Finset.sum_congr rfl fun k _ => congrArg (· * WO (ix2 k n)) ?_
  rw [merge_heads_apply, hostDivf_apply, bcast_heads_apply]
  obtain ⟨_, hl, ho⟩ := hfin b (Spec.headOf k) i
  exact (congrArg₂ Ideal.div (ho (Spec.dimOf k)) hl).trans (by rw [pre_all, sig_eq]; simp only [repArr_apply]; rfl)

end Cert.Hand.RefValue

end
-- ==== Proof.RefValue.lean ====
import proofs.«900755_g7700000000000756_dist_attn_cross_gqa_kvseq_b4_sq256_skv1024_d1024_hq8_dh128_v7x_i8_bf16_1_alg».proof.Proof.RefValue4
import proofs.«900755_g7700000000000756_dist_attn_cross_gqa_kvseq_b4_sq256_skv1024_d1024_hq8_dh128_v7x_i8_bf16_1_alg».proof.Proof.Gen.ReferenceIdeal.Run

noncomputable section

namespace Cert.Hand.RefValue

open Idealize.ShloMosaic Idealize.ShloMosaic.ValueIdx Cert.ReferenceIdeal Cert.ReferenceIdeal.Gen
open Idealize.ShloMosaic.TcCoe Idealize.SL.Sem Idealize.ShloMosaic.StableHlo
open Cert.ReferenceIdeal.Value

set_option maxRecDepth 16384 in
/-- The run's composed result is `refTerm` of the arguments by unfolding the names of the eight steps. -/
theorem run_refTerm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198)
          = refTerm (launchContents m c (Proc.devRef .tc main_arg0)) (launchContents m c (Proc.devRef .tc main_arg1))
              (launchContents m c (Proc.devRef .tc main_arg2)) (launchContents m c (Proc.devRef .tc main_arg3))
              (launchContents m c (Proc.devRef .tc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

end Cert.Hand.RefValue

end

/-- info: 'Cert.Hand.RefValue.run_refTerm' depends on axioms: [propext, Classical.choice, Quot.sound] -/
#guard_msgs in #print axioms Cert.Hand.RefValue.run_refTerm
-- ==== Proof.KernelSpec.lean ====
import proofs.«900755_g7700000000000756_dist_attn_cross_gqa_kvseq_b4_sq256_skv1024_d1024_hq8_dh128_v7x_i8_bf16_1_alg».proof.Proof.Spec
import proofs.«900755_g7700000000000756_dist_attn_cross_gqa_kvseq_b4_sq256_skv1024_d1024_hq8_dh128_v7x_i8_bf16_1_alg».proof.Proof.LibSoftmaxMerge
import Mathlib.Data.Finset.Image
import Mathlib.Data.Finset.Filter
import Mathlib.Data.Fintype.Basic

noncomputable section

namespace Cert.Hand.KernelSpec

open Idealize.ShloMosaic
open Cert.Hand
open scoped BigOperators

abbrev XT := Fin 4 → Fin 256 → Fin 1024 → EReal
abbrev WT := Fin 1024 → Fin 1024 → EReal
abbrev KT := Fin 4 → Fin 8192 → Fin 2 → Fin 128 → EReal

def blk (c : Fin 8) (j : Fin 1024) : Fin 8192 :=
  ⟨c.val * 1024 + j.val, by have := c.isLt; have := j.isLt; omega⟩

def px (k c : Fin 8) : Fin 8 := ⟨c.val ^^^ k.val, Nat.xor_lt_two_pow (n := 3) c.isLt k.isLt⟩

def dev (j : Fin 8192) : Fin 8 := ⟨j.val / 1024, by have := j.isLt; omega⟩

theorem dev_blk (c : Fin 8) (j : Fin 1024) : dev (blk c j) = c := by
  apply Fin.ext
  have := j.isLt
  simp only [dev, blk]
  omega

theorem blk_injective (c : Fin 8) : Function.Injective (blk c) := by
  intro a b hab
  have h := congrArg Fin.val hab
  simp only [blk] at h
  exact Fin.ext (by omega)

def blkEmb (c : Fin 8) : Fin 1024 ↪ Fin 8192 := ⟨blk c, blk_injective c⟩

def keys (C : Finset (Fin 8)) : Finset (Fin 8192) := Finset.univ.filter (fun j => dev j ∈ C)

theorem mem_keys (C : Finset (Fin 8)) (j : Fin 8192) : j ∈ keys C ↔ dev j ∈ C := by
  simp [keys]

theorem keys_union (C C' : Finset (Fin 8)) : keys (C ∪ C') = keys C ∪ keys C' := by
  ext j
  simp only [mem_keys, Finset.mem_union]

theorem keys_disjoint (C C' : Finset (Fin 8)) (h : Disjoint C C') :
    Disjoint (keys C) (keys C') :=
  Finset.disjoint_left.mpr (fun j hj hj' =>
    Finset.disjoint_left.mp h ((mem_keys C j).mp hj) ((mem_keys C' j).mp hj'))

theorem keys_univ : keys Finset.univ = Finset.univ := by
  ext j
  simp only [mem_keys, Finset.mem_univ]

theorem keys_nonempty (C : Finset (Fin 8)) (h : C.Nonempty) : (keys C).Nonempty := by
  obtain ⟨c, hc⟩ := h
  exact ⟨blk c 0, (mem_keys C _).mpr (by rw [dev_blk]; exact hc)⟩

theorem keys_singleton (c : Fin 8) : keys {c} = Finset.univ.map (blkEmb c) := by
  ext j
  simp only [mem_keys, Finset.mem_singleton, Finset.mem_map, Finset.mem_univ, true_and]
  constructor
  · intro h
    have hv : j.val / 1024 = c.val := congrArg Fin.val h
    refine ⟨⟨j.val % 1024, Nat.mod_lt _ (by decide)⟩, Fin.ext ?_⟩
    show c.val * 1024 + j.val % 1024 = j.val
    omega
  · rintro ⟨a, rfl⟩
    exact dev_blk c a

section
variable (κ : EReal) (x : XT) (Wq Wo : WT) (K V : KT) (c : Fin 8) (b : Fin 4) (i : Fin 256) (h : Fin 8)

def qs (n : Fin 1024) : EReal := (∑ k : Fin 1024, x b i k * Wq k n) * κ

def sc (j : Fin 1024) : EReal := ∑ d : Fin 128, qs κ x Wq b i (Spec.col h d) * K b (blk c j) (Spec.grp h) d

def m0 : EReal := Finset.univ.sup (sc κ x Wq K c b i h)

def p (j : Fin 1024) : EReal := Ideal.exp (sc κ x Wq K c b i h j - m0 κ x Wq K c b i h)

def l0 : EReal := ∑ j : Fin 1024, p κ x Wq K c b i h j

def o0 (d : Fin 128) : EReal := ∑ j : Fin 1024, p κ x Wq K c b i h j * V b (blk c j) (Spec.grp h) d

def mrgM (mA mB : EReal) : EReal := max mA mB

def mrgV (mA vA mB vB : EReal) : EReal :=
  vA * Ideal.exp (mA - max mA mB) + vB * Ideal.exp (mB - max mA mB)

def m1 : EReal := mrgM (m0 κ x Wq K c b i h) (m0 κ x Wq K (px 4 c) b i h)

def l1 : EReal :=
  mrgV (m0 κ x Wq K c b i h) (l0 κ x Wq K c b i h) (m0 κ x Wq K (px 4 c) b i h) (l0 κ x Wq K (px 4 c) b i h)

def o1 (d : Fin 128) : EReal :=
  mrgV (m0 κ x Wq K c b i h) (o0 κ x Wq K V c b i h d) (m0 κ x Wq K (px 4 c) b i h) (o0 κ x Wq K V (px 4 c) b i h d)

def m2 : EReal := mrgM (m1 κ x Wq K c b i h) (m1 κ x Wq K (px 2 c) b i h)

def l2 : EReal :=
  mrgV (m1 κ x Wq K c b i h) (l1 κ x Wq K c b i h) (m1 κ x Wq K (px 2 c) b i h) (l1 κ x Wq K (px 2 c) b i h)

def o2 (d : Fin 128) : EReal :=
  mrgV (m1 κ x Wq K c b i h) (o1 κ x Wq K V c b i h d) (m1 κ x Wq K (px 2 c) b i h) (o1 κ x Wq K V (px 2 c) b i h d)

def m3 : EReal := mrgM (m2 κ x Wq K c b i h) (m2 κ x Wq K (px 1 c) b i h)

def l3 : EReal :=
  mrgV (m2 κ x Wq K c b i h) (l2 κ x Wq K c b i h) (m2 κ x Wq K (px 1 c) b i h) (l2 κ x Wq K (px 1 c) b i h)

def o3 (d : Fin 128) : EReal :=
  mrgV (m2 κ x Wq K c b i h) (o2 κ x Wq K V c b i h d) (m2 κ x Wq K (px 1 c) b i h) (o2 κ x Wq K V (px 1 c) b i h d)

def attnK (n : Fin 1024) : EReal :=
  Ideal.div (o3 κ x Wq K V c b i (Spec.headOf n) (Spec.dimOf n)) (l3 κ x Wq K c b i (Spec.headOf n))

def yK (n : Fin 1024) : EReal := ∑ k : Fin 1024, attnK κ x Wq K V c b i k * Wo k n

end

theorem real_mul (a b : EReal) (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_sum {D : Type*} [Fintype D] [DecidableEq D] (f : D → EReal)
    (hf : ∀ d, ∃ r : ℝ, f d = (r : EReal)) : ∃ r : ℝ, ∑ d, f d = (r : EReal) := by
  obtain ⟨g, rfl⟩ := SoftmaxMerge.exists_real_fun f hf
  exact ⟨∑ d, g d, (SoftmaxMerge.coe_sum Finset.univ g).symm⟩

structure IsState (σ : Fin 8192 → EReal) (ν : Fin 128 → Fin 8192 → EReal) (C : Finset (Fin 8))
    (m l : EReal) (o : Fin 128 → EReal) : Prop where
  hm : m = SoftmaxMerge.top σ (keys C)
  hl : l = SoftmaxMerge.den σ (keys C) (SoftmaxMerge.top σ (keys C))
  ho : ∀ d, o d = SoftmaxMerge.num σ (ν d) (keys C) (SoftmaxMerge.top σ (keys C))

-- Merging the states of two disjoint nonempty device sets gives the state of their union.
theorem IsState.merge {σ : Fin 8192 → EReal} {ν : Fin 128 → Fin 8192 → EReal}
    (hσ : ∀ j, ∃ r : ℝ, σ j = (r : EReal)) (hν : ∀ d j, ∃ r : ℝ, ν d j = (r : EReal))
    {C C' : Finset (Fin 8)} (hC : C.Nonempty) (hC' : C'.Nonempty) (hd : Disjoint C C')
    {mA lA : EReal} {oA : Fin 128 → EReal} {mB lB : EReal} {oB : Fin 128 → EReal}
    (hA : IsState σ ν C mA lA oA) (hB : IsState σ ν C' mB lB oB) :
    IsState σ ν (C ∪ C') (mrgM mA mB) (mrgV mA lA mB lB) (fun d => mrgV mA (oA d) mB (oB d)) := by
  have hS := keys_nonempty C hC
  have hT := keys_nonempty C' hC'
  have hST := keys_disjoint C C' hd
  refine ⟨?_, ?_, fun d => ?_⟩
  · rw [hA.hm, hB.hm, keys_union, SoftmaxMerge.top_union]
    rfl
  · rw [hA.hl, hB.hl, hA.hm, hB.hm, keys_union, SoftmaxMerge.top_union]
    exact SoftmaxMerge.den_merge σ hσ _ _ hS hT hST
  · show mrgV mA (oA d) mB (oB d) = _
    rw [hA.ho d, hB.ho d, hA.hm, hB.hm, keys_union, SoftmaxMerge.top_union]
    exact SoftmaxMerge.num_merge σ (ν d) hσ (hν d) _ _ hS hT hST

def D0 (c : Fin 8) : Finset (Fin 8) := {c}
def D1 (c : Fin 8) : Finset (Fin 8) := D0 c ∪ D0 (px 4 c)
def D2 (c : Fin 8) : Finset (Fin 8) := D1 c ∪ D1 (px 2 c)
def D3 (c : Fin 8) : Finset (Fin 8) := D2 c ∪ D2 (px 1 c)

theorem D0_nonempty (c : Fin 8) : (D0 c).Nonempty := Finset.singleton_nonempty c
theorem D1_nonempty (c : Fin 8) : (D1 c).Nonempty := (D0_nonempty c).mono Finset.subset_union_left
theorem D2_nonempty (c : Fin 8) : (D2 c).Nonempty := (D1_nonempty c).mono Finset.subset_union_left

theorem D0_disjoint : ∀ c : Fin 8, Disjoint (D0 c) (D0 (px 4 c)) := by decide
theorem D1_disjoint : ∀ c : Fin 8, Disjoint (D1 c) (D1 (px 2 c)) := by decide
theorem D2_disjoint : ∀ c : Fin 8, Disjoint (D2 c) (D2 (px 1 c)) := by decide
theorem D3_univ : ∀ c : Fin 8, D3 c = Finset.univ := by decide

section
variable (κ : EReal) (x : XT) (Wq : WT) (K V : KT) (hκ : ∃ r : ℝ, κ = (r : EReal))
  (hx : ∀ b i k, ∃ r : ℝ, x b i k = (r : EReal)) (hWq : ∀ k n, ∃ r : ℝ, Wq k n = (r : EReal))
  (hK : ∀ b j g d, ∃ r : ℝ, K b j g d = (r : EReal)) (hV : ∀ b j g d, ∃ r : ℝ, V b j g d = (r : EReal))
  (c : Fin 8) (b : Fin 4) (i : Fin 256) (h : Fin 8)
include hκ hx hWq hK hV

theorem q_real (n : Fin 1024) : ∃ r : ℝ, Spec.q x Wq b i n = (r : EReal) :=
  real_sum _ (fun k => real_mul _ _ (hx b i k) (hWq k n))

theorem score_real (j : Fin 8192) : ∃ r : ℝ, Spec.score κ x Wq K b i h j = (r : EReal) :=
  real_mul _ _ (real_sum _ (fun d => real_mul _ _ (q_real κ x Wq K V hκ hx hWq hK hV b i _) (hK b j _ d))) hκ

-- Scaling the query before the key product is scaling the product.
theorem sc_eq (j : Fin 1024) : sc κ x Wq K c b i h j = Spec.score κ x Wq K b i h (blk c j) :=
  SoftmaxMerge.scale_out' (fun d => Spec.q x Wq b i (Spec.col h d)) (fun d => K b (blk c j) (Spec.grp h) d)
    (fun _ => q_real κ x Wq K V hκ hx hWq hK hV b i _) (fun d => hK b (blk c j) _ d) κ hκ

-- A device's local triple is the softmax state of its own block of keys.
theorem level0 : IsState (Spec.score κ x Wq K b i h) (fun d j => V b j (Spec.grp h) d) (D0 c)
    (m0 κ x Wq K c b i h) (l0 κ x Wq K c b i h) (o0 κ x Wq K V c b i h) := by
  have hsc : ∀ j, sc κ x Wq K c b i h j = Spec.score κ x Wq K b i h (blkEmb c j) :=
    sc_eq κ x Wq K V hκ hx hWq hK hV c b i h
  have hm : m0 κ x Wq K c b i h
      = SoftmaxMerge.top (Spec.score κ x Wq K b i h) (Finset.univ.map (blkEmb c)) := by
    unfold m0 SoftmaxMerge.top
    rw [Finset.sup_map]
    exact congrArg _ (funext hsc)
  refine ⟨?_, ?_, fun d => ?_⟩ <;> rw [D0, keys_singleton]
  · exact hm
  · unfold SoftmaxMerge.den l0 p
    rw [Finset.sum_map]
    exact Finset.sum_congr rfl (fun j _ => by rw [hsc j, hm])
  · unfold SoftmaxMerge.num o0 p
    rw [Finset.sum_map]
    exact Finset.sum_congr rfl (fun j _ => by rw [hsc j, hm]; rfl)

-- Each exchange merges the states of two disjoint device sets; after three, every device has seen all eight blocks.
theorem level1 : IsState (Spec.score κ x Wq K b i h) (fun d j => V b j (Spec.grp h) d) (D1 c)
    (m1 κ x Wq K c b i h) (l1 κ x Wq K c b i h) (o1 κ x Wq K V c b i h) :=
  IsState.merge (score_real κ x Wq K V hκ hx hWq hK hV b i h) (fun d j => hV b j _ d)
    (D0_nonempty c) (D0_nonempty _) (D0_disjoint c)
    (level0 κ x Wq K V hκ hx hWq hK hV c b i h) (level0 κ x Wq K V hκ hx hWq hK hV (px 4 c) b i h)

theorem level2 : IsState (Spec.score κ x Wq K b i h) (fun d j => V b j (Spec.grp h) d) (D2 c)
    (m2 κ x Wq K c b i h) (l2 κ x Wq K c b i h) (o2 κ x Wq K V c b i h) :=
  IsState.merge (score_real κ x Wq K V hκ hx hWq hK hV b i h) (fun d j => hV b j _ d)
    (D1_nonempty c) (D1_nonempty _) (D1_disjoint c)
    (level1 κ x Wq K V hκ hx hWq hK hV c b i h) (level1 κ x Wq K V hκ hx hWq hK hV (px 2 c) b i h)

theorem level3 : IsState (Spec.score κ x Wq K b i h) (fun d j => V b j (Spec.grp h) d) Finset.univ
    (m3 κ x Wq K c b i h) (l3 κ x Wq K c b i h) (o3 κ x Wq K V c b i h) :=
  D3_univ c ▸ IsState.merge (score_real κ x Wq K V hκ hx hWq hK hV b i h) (fun d j => hV b j _ d)
    (D2_nonempty c) (D2_nonempty _) (D2_disjoint c)
    (level2 κ x Wq K V hκ hx hWq hK hV c b i h) (level2 κ x Wq K V hκ hx hWq hK hV (px 1 c) b i h)

theorem attnK_eq (n : Fin 1024) : attnK κ x Wq K V c b i n = Spec.attn κ x Wq K V b i n := by
  have s := level3 κ x Wq K V hκ hx hWq hK hV c b i (Spec.headOf n)
  unfold attnK Spec.attn
  rw [s.ho, s.hl, keys_univ]
  rfl

end

theorem yK_eq (κ : EReal) (x : XT) (Wq Wo : WT) (K V : KT) (hκ : ∃ r : ℝ, κ = (r : EReal))
    (hx : ∀ b i k, ∃ r : ℝ, x b i k = (r : EReal)) (hWq : ∀ k n, ∃ r : ℝ, Wq k n = (r : EReal))
    (hK : ∀ b j g d, ∃ r : ℝ, K b j g d = (r : EReal))
    (hV : ∀ b j g d, ∃ r : ℝ, V b j g d = (r : EReal)) (c : Fin 8) (b : Fin 4) (i : Fin 256)
    (n : Fin 1024) :
    yK κ x Wq Wo K V c b i n = Spec.out κ x Wq Wo K V b i n :=
  Finset.sum_congr rfl (fun k _ => by rw [attnK_eq κ x Wq K V hκ hx hWq hK hV c b i k])

end Cert.Hand.KernelSpec

/-- info: 'Cert.Hand.KernelSpec.yK_eq' depends on axioms: [propext, Classical.choice, Quot.sound] -/
#guard_msgs in #print axioms Cert.Hand.KernelSpec.yK_eq
-- ==== Proof.Rows.lean ====
import proofs.«900755_g7700000000000756_dist_attn_cross_gqa_kvseq_b4_sq256_skv1024_d1024_hq8_dh128_v7x_i8_bf16_1_alg».proof.Proof.KernelSpec

noncomputable section

namespace Cert.KernelIdeal.Hand.KV

def rowK0 (c : Fin 8) (blk : Fin 4) (r : Fin 128) : Fin 256 :=
  ⟨128 * (c.val / 4) + blk.val * 32 + r.val / 4, by have := c.isLt; have := blk.isLt; have := r.isLt; omega⟩

def rowS0 (c : Fin 8) (blk : Fin 4) (r : Fin 128) : Fin 256 :=
  ⟨(128 - 128 * (c.val / 4)) + blk.val * 32 + r.val / 4, by have := c.isLt; have := blk.isLt; have := r.isLt; omega⟩

def rowK1 (c : Fin 8) (blk : Fin 2) (r : Fin 128) : Fin 256 :=
  ⟨128 * (c.val / 4) + (2 * (c.val / 2 % 2) + blk.val) * 32 + r.val / 4, by have := c.isLt; have := blk.isLt; have := r.isLt; omega⟩

def rowK2 (c : Fin 8) (r : Fin 128) : Fin 256 :=
  ⟨c.val * 32 + r.val / 4, by have := c.isLt; have := r.isLt; omega⟩

def rowOwn (c : Fin 8) (i : Fin 32) : Fin 256 := ⟨c.val * 32 + i.val, by have := c.isLt; have := i.isLt; omega⟩

def ownerOf (i : Fin 256) : Fin 8 := ⟨i.val / 32, by have := i.isLt; omega⟩

end Cert.KernelIdeal.Hand.KV

end
-- ==== Proof.BlockMath.lean ====
import Idealize.ShloMosaic.PureOps.Ideal

noncomputable section

namespace Cert.Hand.Block

open Idealize.ShloMosaic

variable (Q : Fin 128 → Fin 8 → Fin 128 → EReal) (Kb Vb : Fin 1024 → Fin 128 → EReal)

def score (i : Fin 128) (h : Fin 8) (j : Fin 1024) : EReal := ∑ d : Fin 128, Q i h d * Kb j d

def top (i : Fin 128) (h : Fin 8) : EReal := Finset.univ.sup (score Q Kb i h)

def wgt (i : Fin 128) (h : Fin 8) (j : Fin 1024) : EReal := Ideal.exp (score Q Kb i h j - top Q Kb i h)

def den (i : Fin 128) (h : Fin 8) : EReal := ∑ j : Fin 1024, wgt Q Kb i h j

def num (i : Fin 128) (h : Fin 8) (d : Fin 128) : EReal := ∑ j : Fin 1024, wgt Q Kb i h j * Vb j d

def rowOf (blk : Fin 4) (r : Fin 128) : Fin 128 := ⟨blk.val * 32 + r.val / 4, by omega⟩

def headOf (g : Fin 2) (r : Fin 128) : Fin 8 := ⟨4 * g.val + r.val % 4, by omega⟩

def mergeTop (mA mB : EReal) : EReal := max mA mB
def mergeDen (mA lA mB lB : EReal) : EReal := lA * Ideal.exp (mA - max mA mB) + lB * Ideal.exp (mB - max mA mB)
def mergeNum (mA oA mB oB : EReal) : EReal := oA * Ideal.exp (mA - max mA mB) + oB * Ideal.exp (mB - max mA mB)

end Cert.Hand.Block

end
-- ==== Proof.RowFacts.lean ====
import proofs.«900755_g7700000000000756_dist_attn_cross_gqa_kvseq_b4_sq256_skv1024_d1024_hq8_dh128_v7x_i8_bf16_1_alg».proof.Proof.Rows
import proofs.«900755_g7700000000000756_dist_attn_cross_gqa_kvseq_b4_sq256_skv1024_d1024_hq8_dh128_v7x_i8_bf16_1_alg».proof.Proof.BlockMath
import proofs.«900755_g7700000000000756_dist_attn_cross_gqa_kvseq_b4_sq256_skv1024_d1024_hq8_dh128_v7x_i8_bf16_1_alg».proof.Proof.Base

noncomputable section

namespace Cert.KernelIdeal.Hand.KV

open Idealize.ShloMosaic Cert.Hand Cert.KernelIdeal

theorem px4_bit2 : ∀ c : Fin 8, (KernelSpec.px 4 c).val / 4 = 1 - c.val / 4 := by decide

-- Flipping the top bit of a position swaps the two halves of the rows.
theorem rowS0_px4 (c : Fin 8) (blk : Fin 4) (r : Fin 128) : rowS0 (KernelSpec.px 4 c) blk r = rowK0 c blk r := by
  have hc := c.isLt
  apply Fin.ext
  show (128 - 128 * ((KernelSpec.px 4 c).val / 4)) + blk.val * 32 + r.val / 4 = 128 * (c.val / 4) + blk.val * 32 + r.val / 4
  rw [px4_bit2 c]
  omega

theorem ownerOf_rowOwn (c : Fin 8) (i : Fin 32) : ownerOf (rowOwn c i) = c := by
  have := i.isLt
  apply Fin.ext
  show (c.val * 32 + i.val) / 32 = c.val
  omega

theorem grp_headOf (g : Fin 2) (r : Fin 128) : Spec.grp (Block.headOf g r) = g := by
  apply Fin.ext
  show (4 * g.val + r.val % 4) / 4 = g.val
  omega

theorem px4_eq_p4 (c : Dev nD) : KernelSpec.px 4 c = p4 c := Fin.ext rfl

end Cert.KernelIdeal.Hand.KV

end
-- ==== Proof.OpLemmas.lean ====
import proofs.«900755_g7700000000000756_dist_attn_cross_gqa_kvseq_b4_sq256_skv1024_d1024_hq8_dh128_v7x_i8_bf16_1_alg».proof.Proof.Gen.KernelIdeal
import proofs.«900755_g7700000000000756_dist_attn_cross_gqa_kvseq_b4_sq256_skv1024_d1024_hq8_dh128_v7x_i8_bf16_1_alg».proof.Proof.BlockMath
import Idealize.ShloMosaic.Lib.ValueLayout
import Idealize.ShloMosaic.PureOps.Ideal.Laws
import Mathlib.Data.Finset.Lattice.Fold

noncomputable section

namespace Cert.KernelIdeal.Hand.Ops

open Idealize.ShloMosaic Idealize.ShloMosaic.ValueIdx Cert.KernelIdeal Cert.KernelIdeal.Gen Cert.Hand.Block

theorem slab_apply (s : Vec Ideal S1x1024x1x128 .f32) (j : Fin 1024) (d : Fin 128) :
    (truncf .bf16 (shapeCast S1024x128 s shapeCasts_S1x1024x1x128_S1024x128) bitsLt_bf16_f32 : FVec Ideal S1024x128 .bf16) (ix2 j d)
      = s (ix4 0 j 0 d) :=
  shapeCast_apply _ _ _ (ix4 0 j 0 d)
    (by rw [Shape.rowMajor_val_four, Shape.rowMajor_val_two]
        show ((0 * 1024 + j.val) * 1 + 0) * 128 + d.val = j.val * 128 + d.val
        omega)

theorem scores_apply (A : FVec Ideal S512x128 .bf16) (B : FVec Ideal S1024x128 .bf16) (R : Fin 512) (j : Fin 1024) :
    matmul dot_S512x128_S1024x128_S512x1024_1_1_0_0_n_n none A B (constant (F := Ideal) S512x1024 .f32 0x00000000#32) (ix2 R j)
      = ∑ d : Fin 128, A (ix2 R d) * B (ix2 j d) := by
  refine (Ideal.matmul_constant_zero_apply _ none A B (ix2 R j)).trans ?_
  rw [← Equiv.sum_comp (contrEquiv1 dot_S512x128_S1024x128_S512x1024_1_1_0_0_n_n 128 rfl rfl).symm]
  refine Finset.sum_congr rfl fun k _ => ?_
  have hk := contrEquiv1_symm_val dot_S512x128_S1024x128_S512x1024_1_1_0_0_n_n 128 rfl rfl k
  exact congrArg₂ (fun a b => A a * B b)
    (funext fun a => match a with
      | ⟨0, _⟩ => Fin.ext rfl
      | ⟨1, _⟩ => Fin.ext ((DotDims.lhsIdx_val_of_single _ rfl _ _).trans hk))
    (funext fun a => match a with
      | ⟨0, _⟩ => Fin.ext rfl
      | ⟨1, _⟩ => Fin.ext ((DotDims.rhsIdx_val_of_single _ rfl _ _).trans hk))

theorem outprod_apply (P : FVec Ideal S512x1024 .f32) (Vt : FVec Ideal S1024x128 .bf16) (R : Fin 512) (d : Fin 128) :
    matmul dot_S512x1024_S1024x128_S512x128_1_0_0_1_n_n none
        (truncf .bf16 P bitsLt_bf16_f32 : FVec Ideal S512x1024 .bf16) Vt (constant (F := Ideal) S512x128 .f32 0x00000000#32) (ix2 R d)
      = ∑ j : Fin 1024, P (ix2 R j) * Vt (ix2 j d) := by
  refine (Ideal.matmul_constant_zero_apply _ none _ Vt (ix2 R d)).trans ?_
  rw [← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  exact congrArg₂ (fun a b => P a * Vt b)
    (funext fun a => match a with
      | ⟨0, _⟩ => Fin.ext rfl
      | ⟨1, _⟩ => Fin.ext ((DotDims.lhsIdx_val_of_single _ rfl _ _).trans hk))
    (funext fun a => match a with
      | ⟨0, _⟩ => Fin.ext ((DotDims.rhsIdx_val_of_single _ rfl _ _).trans hk)
      | ⟨1, _⟩ => Fin.ext rfl)

theorem bot_f32 : Ideal.ofBits .f32 0xFF800000#32 = ⊥ := by simp [Ideal.ofBits, Ideal.ieee]

theorem lift_line (R : Fin 512) (k : Fin 1024) : reduces_S512x1024_S512.lift (ix1 R) k = ix2 R k :=
  funext fun a => match a with
    | ⟨0, _⟩ => Fin.ext rfl
    | ⟨1, _⟩ => Fin.ext rfl

theorem rowmax_apply (X : FVec Ideal S512x1024 .f32) (R : Fin 512) :
    multiReduction (F := Ideal) .maximumf [1] S512 X 0xFF800000#32 reduces_S512x1024_S512 (.inl rfl) rfl (ix1 R)
      = Finset.univ.sup fun j : Fin 1024 => X (ix2 R j) :=
  (Ideal.multiReduction_maximumf_single X _ reduces_S512x1024_S512 (.inl rfl) rfl (ix1 R)).trans
    (congrArg₂ (fun (b : EReal) (f : Fin 1024 → EReal) => Finset.fold max b f Finset.univ) bot_f32
      (funext fun k => congrArg X (lift_line R k)))

theorem rowsum_apply (X : FVec Ideal S512x1024 .f32) (R : Fin 512) :
    multiReduction (F := Ideal) .add [1] S512 X 0x00000000#32 reduces_S512x1024_S512 (.inl rfl) rfl (ix1 R)
      = ∑ j : Fin 1024, X (ix2 R j) :=
  (Ideal.multiReduction_add_single X _ reduces_S512x1024_S512 (.inl rfl) rfl (ix1 R)).trans
    (Finset.sum_congr rfl fun k _ => congrArg X (lift_line R k))

theorem spread_apply (t : FVec Ideal S512 .f32) (R : Fin 512) (j : Fin 1024) :
    broadcastTo S512x1024 (shapeCast S512x1 t shapeCasts_S512_S512x1) broadcasts_S512x1_S512x1024 (ix2 R j) = t (ix1 R) :=
  (broadcastTo_apply _ _ (ix2 R j) (ix2 R (0 : Fin 1)) (fun a => match a with
    | ⟨0, _⟩ => rfl
    | ⟨1, _⟩ => rfl)).trans
  (shapeCast_apply _ _ _ (ix1 R)
    (by rw [Shape.rowMajor_val_one, Shape.rowMajor_val_two]
        show R.val = R.val * 1 + 0
        omega))

def lineOf (blk : Fin 4) (r : Fin 128) : Fin 512 := ⟨blk.val * 128 + r.val, by omega⟩

theorem rowpiece_apply (t : FVec Ideal S512 .f32) (blk : Fin 4) (r : Fin 128) :
    shapeCast S4x1x1x128 (shapeCast S4x128 t shapeCasts_S512_S4x128) shapeCasts_S4x128_S4x1x1x128
        (ix4 blk 0 0 r)
      = t (ix1 (lineOf blk r)) :=
  (shapeCast_apply _ _ _ (ix2 blk r)
    (by rw [Shape.rowMajor_val_two, Shape.rowMajor_val_four]
        show blk.val * 128 + r.val = ((blk.val * 1 + 0) * 1 + 0) * 128 + r.val
        omega)).trans
  (shapeCast_apply _ _ _ (ix1 (lineOf blk r)) (by rw [Shape.rowMajor_val_one, Shape.rowMajor_val_two]; rfl))

def qOf (Qblk : Vec Ideal S1x128x8x128 .bf16) : Fin 128 → Fin 8 → Fin 128 → EReal :=
  fun i h d => Qblk (ix4 0 i h d)

def slabOf (s : Vec Ideal S1x1024x1x128 .f32) : Fin 1024 → Fin 128 → EReal :=
  fun j d => s (ix4 0 j 0 d)

theorem slices4 (g : Fin 2) : S128x8x128.Slices ![0, 4 * g.val, 0] S128x4x128 :=
  match g with
  | ⟨0, _⟩ => slices_S128x8x128_o0_0_0_S128x4x128
  | ⟨1, _⟩ => slices_S128x8x128_o0_4_0_S128x4x128

variable (g : Fin 2)
  (v : Vec Ideal S1x128x8x128 .bf16) (ks vs : Vec Ideal S1x1024x1x128 .f32) (blk : Fin 4) (r d : Fin 128) (j : Fin 1024)

/-- Line `blk * 128 + r` of the four heads cut at head `4 g` is row `blk * 32 + r / 4`, head `4 g + r % 4`. -/
theorem qlines_apply :
    shapeCast S512x128 (extractStridedSlice S128x4x128 ![0, 4 * g.val, 0]
        (shapeCast S128x8x128 v shapeCasts_S1x128x8x128_S128x8x128) (slices4 g)) shapeCasts_S128x4x128_S512x128 (ix2 (lineOf blk r) d)
      = qOf v (rowOf blk r) (headOf g r) d :=
  (shapeCast_apply _ _ _ (ix3 (rowOf blk r) (⟨r.val % 4, by omega⟩ : Fin 4) d)
    (by rw [Shape.rowMajor_val_three, Shape.rowMajor_val_two]
        show ((blk.val * 32 + r.val / 4) * 4 + r.val % 4) * 128 + d.val = (blk.val * 128 + r.val) * 128 + d.val
        omega)).trans
  ((slice3_axis1_apply _ _ (slices4 g) _ _ _ (headOf g r) rfl).trans (shapeCast_1abc_abc_apply _ _ _ _ _))

def scoresOf : FVec Ideal S512x1024 .f32 :=
  matmul dot_S512x128_S1024x128_S512x1024_1_1_0_0_n_n none
    (shapeCast S512x128 (extractStridedSlice S128x4x128 ![0, 4 * g.val, 0]
      (shapeCast S128x8x128 v shapeCasts_S1x128x8x128_S128x8x128) (slices4 g)) shapeCasts_S128x4x128_S512x128 : FVec Ideal S512x128 .bf16)
    (truncf .bf16 (shapeCast S1024x128 ks shapeCasts_S1x1024x1x128_S1024x128) bitsLt_bf16_f32)
    (constant (F := Ideal) S512x1024 .f32 0x00000000#32)

def topOf : FVec Ideal S512 .f32 :=
  multiReduction (F := Ideal) .maximumf [1] S512 (scoresOf g v ks) 0xFF800000#32 reduces_S512x1024_S512 (.inl rfl) rfl

def wgtOf : FVec Ideal S512x1024 .f32 :=
  exp (subf (scoresOf g v ks)
    (broadcastTo S512x1024 (shapeCast S512x1 (topOf g v ks) shapeCasts_S512_S512x1) broadcasts_S512x1_S512x1024))

theorem scoresOf_apply :
    scoresOf g v ks (ix2 (lineOf blk r) j) = score (qOf v) (slabOf ks) (rowOf blk r) (headOf g r) j :=
  (scores_apply _ _ _ j).trans
    (Finset.sum_congr rfl fun d _ => congrArg₂ (· * ·) (qlines_apply g v blk r d) (slab_apply ks j d))

theorem topOf_apply :
    topOf g v ks (ix1 (lineOf blk r)) = top (qOf v) (slabOf ks) (rowOf blk r) (headOf g r) :=
  (rowmax_apply _ _).trans (congrArg (Finset.sup Finset.univ) (funext fun j => scoresOf_apply g v ks blk r j))

theorem wgtOf_apply :
    wgtOf g v ks (ix2 (lineOf blk r) j) = wgt (qOf v) (slabOf ks) (rowOf blk r) (headOf g r) j :=
  congrArg Ideal.exp (congrArg₂ (· - ·) (scoresOf_apply g v ks blk r j)
    ((spread_apply _ _ j).trans (topOf_apply g v ks blk r)))

/-- Line `r` of block `blk` of the row maxima is the top of its row and head. -/
theorem top_apply :
    shapeCast S4x1x1x128 (shapeCast S4x128 (topOf g v ks) shapeCasts_S512_S4x128) shapeCasts_S4x128_S4x1x1x128
        (ix4 blk 0 0 r)
      = top (qOf v) (slabOf ks) (rowOf blk r) (headOf g r) :=
  (rowpiece_apply _ blk r).trans (topOf_apply g v ks blk r)

/-- Likewise for the sums of weights. -/
theorem den_apply :
    shapeCast S4x1x1x128 (shapeCast S4x128 (multiReduction (F := Ideal) .add [1] S512 (wgtOf g v ks) 0x00000000#32
        reduces_S512x1024_S512 (.inl rfl) rfl) shapeCasts_S512_S4x128) shapeCasts_S4x128_S4x1x1x128
        (ix4 blk 0 0 r)
      = den (qOf v) (slabOf ks) (rowOf blk r) (headOf g r) :=
  (rowpiece_apply _ blk r).trans ((rowsum_apply _ _).trans
    (Finset.sum_congr rfl fun j _ => wgtOf_apply g v ks blk r j))

/-- Likewise for the weighted sums of the value rows. -/
theorem num_apply :
    shapeCast S4x1x1x128x128 (shapeCast S4x128x128 (truncf .bf16 (matmul dot_S512x1024_S1024x128_S512x128_1_0_0_1_n_n none
        (truncf .bf16 (wgtOf g v ks) bitsLt_bf16_f32 : FVec Ideal S512x1024 .bf16)
        (truncf .bf16 (shapeCast S1024x128 vs shapeCasts_S1x1024x1x128_S1024x128) bitsLt_bf16_f32)
        (constant (F := Ideal) S512x128 .f32 0x00000000#32)) bitsLt_bf16_f32 : FVec Ideal S512x128 .bf16)
      shapeCasts_S512x128_S4x128x128) shapeCasts_S4x128x128_S4x1x1x128x128 (ix5 blk 0 0 r d)
      = num (qOf v) (slabOf ks) (slabOf vs) (rowOf blk r) (headOf g r) d :=
  (shapeCast_apply _ _ _ (ix3 blk r d)
    (by rw [Shape.rowMajor_val_three, Shape.rowMajor_val_five]
        show (blk.val * 128 + r.val) * 128 + d.val = (((blk.val * 1 + 0) * 1 + 0) * 128 + r.val) * 128 + d.val
        omega)).trans
  ((shapeCast_apply _ _ _ (ix2 (lineOf blk r) d) (by rw [Shape.rowMajor_val_two, Shape.rowMajor_val_three]; rfl)).trans
  ((outprod_apply _ _ _ d).trans
    (Finset.sum_congr rfl fun j _ => congrArg₂ (· * ·) (wgtOf_apply g v ks blk r j) (slab_apply vs j d))))

/-- info: 'Cert.KernelIdeal.Hand.Ops.num_apply' depends on axioms: [propext, Classical.choice, Quot.sound] -/
#guard_msgs in #print axioms num_apply
/-- info: 'Cert.KernelIdeal.Hand.Ops.top_apply' depends on axioms: [propext, Classical.choice, Quot.sound] -/
#guard_msgs in #print axioms top_apply
/-- info: 'Cert.KernelIdeal.Hand.Ops.den_apply' depends on axioms: [propext, Classical.choice, Quot.sound] -/
#guard_msgs in #print axioms den_apply

end Cert.KernelIdeal.Hand.Ops

end
-- ==== Proof.MergeValsA.lean ====
import proofs.«900755_g7700000000000756_dist_attn_cross_gqa_kvseq_b4_sq256_skv1024_d1024_hq8_dh128_v7x_i8_bf16_1_alg».proof.Proof.Gen.KernelIdeal.Skeleton
import proofs.«900755_g7700000000000756_dist_attn_cross_gqa_kvseq_b4_sq256_skv1024_d1024_hq8_dh128_v7x_i8_bf16_1_alg».proof.Proof.BlockMath
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand.MergeA

open Idealize.ShloMosaic Idealize.ShloMosaic.ValueIdx Cert.KernelIdeal Cert.KernelIdeal.Gen Cert.Hand

-- A rows-by-columns product into a zero accumulator, at an index: the sum over the one contracted coordinate.
theorem dot2_apply {M K N : ℕ} (D : DotDims ⟨2, ![M, K]⟩ ⟨2, ![K, N]⟩ ⟨2, ![M, N]⟩) (hr : D.contr.rank = 1)
    (hs : D.contr.size ⟨0, by omega⟩ = K)
    (hl : ∀ j q, D.lhsIdx j q = ix2 (j 0) ((q ⟨0, by omega⟩).cast hs))
    (hR : ∀ j q, D.rhsIdx j q = ix2 ((q ⟨0, by omega⟩).cast hs) (j 1))
    (A : FVec Ideal ⟨2, ![M, K]⟩ .bf16) (B : FVec Ideal ⟨2, ![K, N]⟩ .bf16) (R : Fin M) (C : Fin N) :
    matmul D none A B (constant (F := Ideal) ⟨2, ![M, N]⟩ .f32 0x00000000#32) (ix2 R C)
      = ∑ k : Fin K, A (ix2 R k) * B (ix2 k C) := by
  simp only [matmul]
  rw [Ideal.matmul_constant_zero_apply]
  exact (Finset.sum_congr rfl fun q _ => by rw [hl, hR]; rfl).trans
    (Equiv.sum_comp (contrEquiv1 D K hr hs) fun k => A (ix2 R k) * B (ix2 k C))

def flatRow (b : Fin 4) (i : Fin 256) : Fin 1024 := ⟨b.val * 256 + i.val, by have := b.isLt; have := i.isLt; omega⟩

def flatCol (h : Fin 8) (d : Fin 128) : Fin 1024 := ⟨h.val * 128 + d.val, by have := h.isLt; have := d.isLt; omega⟩

-- The [4,256,1024] input as 1024 rows reads (b, i, k) at (b * 256 + i, k).
theorem flat_apply (x : (⟨3, ![4, 256, 1024]⟩ : Shape).Idx → EReal)
    (h : (⟨3, ![4, 256, 1024]⟩ : Shape).ShapeCasts ⟨2, ![1024, 1024]⟩) (b : Fin 4) (i : Fin 256) (k : Fin 1024) :
    shapeCast ⟨2, ![1024, 1024]⟩ x h (ix2 (flatRow b i) k) = x (ix3 b i k) :=
  shapeCast_apply _ _ _ _ (by rw [Shape.rowMajor_val_three, Shape.rowMajor_val_two]; rfl)

-- The 1024 x 1024 product viewed [4,256,8,128] reads (b * 256 + i, h * 128 + d) at (b, i, h, d).
theorem unflat_apply (y : (⟨2, ![1024, 1024]⟩ : Shape).Idx → EReal)
    (hc : (⟨2, ![1024, 1024]⟩ : Shape).ShapeCasts ⟨4, ![4, 256, 8, 128]⟩) (b : Fin 4) (i : Fin 256) (h : Fin 8) (d : Fin 128) :
    shapeCast ⟨4, ![4, 256, 8, 128]⟩ y hc (ix4 b i h d) = y (ix2 (flatRow b i) (flatCol h d)) :=
  shapeCast_apply _ _ _ _ (by
    rw [Shape.rowMajor_val_two, Shape.rowMajor_val_four]
    show (b.val * 256 + i.val) * 1024 + (h.val * 128 + d.val) = ((b.val * 256 + i.val) * 8 + h.val) * 128 + d.val
    omega)

theorem qproj_apply (x : Vec Ideal S4x256x1024 .f32) (wq : Vec Ideal S1024x1024 .f32)
    (b : Fin 4) (i : Fin 256) (h : Fin 8) (d : Fin 128) :
    k0_pay1 (F := Ideal) x wq (ix4 b i h d)
      = (∑ k : Fin 1024, x (ix3 b i k) * wq (ix2 k (flatCol h d))) * Ideal.ofBits .f32 0x3DB504F3#32 := by
  unfold k0_pay1
  simp only [shapeCast_self]
  rw [unflat_apply]
  simp only [truncf_apply, mulf_apply, broadcast_apply]
  rw [dot2_apply _ rfl rfl (fun _ _ => funext fun a => Fin.ext (match a with | ⟨0, _⟩ | ⟨1, _⟩ => rfl))
    (fun _ _ => funext fun a => Fin.ext (match a with | ⟨0, _⟩ | ⟨1, _⟩ => rfl))]
  simp only [truncf_apply, flat_apply]
  rfl

def kvOf (b : Fin 4) (g : Fin 2) : Fin 8 := ⟨2 * b.val + g.val, by have := b.isLt; have := g.isLt; omega⟩

theorem exp_apply {s : Shape} {φ : FTy} (a : FVec Ideal s φ) (i : s.Idx) : exp a i = Ideal.exp (a i) := rfl

-- A [n,1,8,128] array viewed [n,8,128] reads (blk, 0, c, r) at (blk, c, r), and back.
theorem squeeze_apply {n : Nat} (v : (⟨4, ![n, 1, 8, 128]⟩ : Shape).Idx → EReal)
    (h : (⟨4, ![n, 1, 8, 128]⟩ : Shape).ShapeCasts ⟨3, ![n, 8, 128]⟩) (blk : Fin n) (c : Fin 8) (r : Fin 128) :
    shapeCast ⟨3, ![n, 8, 128]⟩ v h (ix3 blk c r) = v (ix4 blk (0 : Fin 1) c r) :=
  shapeCast_apply _ _ _ _ (by
    rw [Shape.rowMajor_val_four, Shape.rowMajor_val_three]
    show ((blk.val * 1 + 0) * 8 + c.val) * 128 + r.val = (blk.val * 8 + c.val) * 128 + r.val
    omega)

theorem unsqueeze_apply {n : Nat} (v : (⟨3, ![n, 8, 128]⟩ : Shape).Idx → EReal)
    (h : (⟨3, ![n, 8, 128]⟩ : Shape).ShapeCasts ⟨4, ![n, 1, 8, 128]⟩) (blk : Fin n) (c : Fin 8) (r : Fin 128) :
    shapeCast ⟨4, ![n, 1, 8, 128]⟩ v h (ix4 blk (0 : Fin 1) c r) = v (ix3 blk c r) :=
  shapeCast_apply _ _ _ _ (by
    rw [Shape.rowMajor_val_four, Shape.rowMajor_val_three]
    show (blk.val * 8 + c.val) * 128 + r.val = ((blk.val * 1 + 0) * 8 + c.val) * 128 + r.val
    omega)

-- Per-line factors [n,8,128], viewed [n,4,2,128,1] and repeated along the last axis: (blk, b, g, r, d) reads line (blk, 2b+g, r).
theorem spread_apply {n : Nat} (X : (⟨3, ![n, 8, 128]⟩ : Shape).Idx → EReal)
    (h₁ : (⟨3, ![n, 8, 128]⟩ : Shape).ShapeCasts ⟨5, ![n, 4, 2, 128, 1]⟩)
    (h₂ : (⟨5, ![n, 4, 2, 128, 1]⟩ : Shape).Broadcasts ⟨5, ![n, 4, 2, 128, 128]⟩)
    (blk : Fin n) (b : Fin 4) (g : Fin 2) (r d : Fin 128) :
    broadcastTo ⟨5, ![n, 4, 2, 128, 128]⟩ (shapeCast ⟨5, ![n, 4, 2, 128, 1]⟩ X h₁) h₂ (ix5 blk b g r d)
      = X (ix3 blk (kvOf b g) r) := by
  refine (broadcastTo_apply _ h₂ (ix5 blk b g r d) (ix5 blk b g r (0 : Fin 1)) (fun a => ?_)).trans
    (shapeCast_apply _ _ _ _ ?_)
  · match a with
    | ⟨0, _⟩ =>
        show blk.val = if n = 1 then 0 else blk.val
        have := blk.isLt
        split <;> omega
    | ⟨1, _⟩ | ⟨2, _⟩ | ⟨3, _⟩ | ⟨4, _⟩ => rfl
  · rw [Shape.rowMajor_val_three, Shape.rowMajor_val_five]
    show (blk.val * 8 + (2 * b.val + g.val)) * 128 + r.val = (((blk.val * 4 + b.val) * 2 + g.val) * 128 + r.val) * 1 + 0
    omega

theorem step0_o_apply (vo vro : Vec Ideal S4x4x2x128x128 .bf16) (vm vrm : Vec Ideal S4x1x8x128 .f32)
    (blk b : Fin 4) (g : Fin 2) (r d : Fin 128) :
    k0_pay136 (F := Ideal) (k0_pay128 vo) (k0_pay129 vm) (k0_pay131 vro) vrm (ix5 blk b g r d)
      = Block.mergeNum (vm (ix4 blk (0 : Fin 1) (kvOf b g) r)) (vo (ix5 blk b g r d))
          (vrm (ix4 blk (0 : Fin 1) (kvOf b g) r)) (vro (ix5 blk b g r d)) := by
  unfold k0_pay136 k0_pay134 k0_pay135 k0_pay133 k0_pay132 k0_pay128 k0_pay129 k0_pay131
  simp only [shapeCast_self, truncf_apply, extf_apply, addf_apply, mulf_apply, spread_apply, exp_apply, subf_apply,
    maximumf_apply, squeeze_apply, Block.mergeNum]

-- Two [n,1,8,128] arrays joined along axis 1 read the first at (blk, 0, c, r) and the second at (blk, 1, c, r).
theorem cat_fst_apply {n : Nat} (x₁ x₂ : (⟨4, ![n, 1, 8, 128]⟩ : Shape).Idx → EReal)
    (h : Shape.Concatenates [(⟨4, ![n, 1, 8, 128]⟩ : Shape), ⟨4, ![n, 1, 8, 128]⟩] ⟨4, ![n, 2, 8, 128]⟩ 1)
    (blk : Fin n) (c : Fin 8) (r : Fin 128) :
    concatenate ⟨4, ![n, 2, 8, 128]⟩ 1 [⟨⟨4, ![n, 1, 8, 128]⟩, x₁⟩, ⟨⟨4, ![n, 1, 8, 128]⟩, x₂⟩] h (ix4 blk (0 : Fin 2) c r)
      = x₁ (ix4 blk (0 : Fin 1) c r) :=
  concatenate_pair_apply_left 1 x₁ x₂ h _ rfl _ (fun a => match a with
    | ⟨0, _⟩ | ⟨1, _⟩ | ⟨2, _⟩ | ⟨3, _⟩ => rfl)

theorem cat_snd_apply {n : Nat} (x₁ x₂ : (⟨4, ![n, 1, 8, 128]⟩ : Shape).Idx → EReal)
    (h : Shape.Concatenates [(⟨4, ![n, 1, 8, 128]⟩ : Shape), ⟨4, ![n, 1, 8, 128]⟩] ⟨4, ![n, 2, 8, 128]⟩ 1)
    (blk : Fin n) (c : Fin 8) (r : Fin 128) :
    concatenate ⟨4, ![n, 2, 8, 128]⟩ 1 [⟨⟨4, ![n, 1, 8, 128]⟩, x₁⟩, ⟨⟨4, ![n, 1, 8, 128]⟩, x₂⟩] h (ix4 blk (1 : Fin 2) c r)
      = x₂ (ix4 blk (0 : Fin 1) c r) :=
  concatenate_pair_apply_right 1 x₁ x₂ h _ rfl rfl _ (fun a => match a with
    | ⟨1, _⟩ => fun ha => absurd rfl ha
    | ⟨0, _⟩ | ⟨2, _⟩ | ⟨3, _⟩ => fun _ => rfl) rfl

theorem step0_top_apply (vm vl vrm vrl : Vec Ideal S4x1x8x128 .f32) (blk : Fin 4) (c : Fin 8) (r : Fin 128) :
    k0_pay137 (F := Ideal) (k0_pay129 vm) (k0_pay130 vl) vrm vrl (ix4 blk (0 : Fin 2) c r)
      = Block.mergeTop (vm (ix4 blk (0 : Fin 1) c r)) (vrm (ix4 blk (0 : Fin 1) c r)) := by
  unfold k0_pay137 k0_pay134 k0_pay135 k0_pay133 k0_pay132 k0_pay129 k0_pay130
  simp only [shapeCast_self, cat_fst_apply, unsqueeze_apply, maximumf_apply, squeeze_apply, Block.mergeTop]

theorem step0_den_apply (vm vl vrm vrl : Vec Ideal S4x1x8x128 .f32) (blk : Fin 4) (c : Fin 8) (r : Fin 128) :
    k0_pay137 (F := Ideal) (k0_pay129 vm) (k0_pay130 vl) vrm vrl (ix4 blk (1 : Fin 2) c r)
      = Block.mergeDen (vm (ix4 blk (0 : Fin 1) c r)) (vl (ix4 blk (0 : Fin 1) c r))
          (vrm (ix4 blk (0 : Fin 1) c r)) (vrl (ix4 blk (0 : Fin 1) c r)) := by
  unfold k0_pay137 k0_pay134 k0_pay135 k0_pay133 k0_pay132 k0_pay129 k0_pay130
  simp only [shapeCast_self, cat_snd_apply, unsqueeze_apply, addf_apply, mulf_apply, exp_apply, subf_apply,
    maximumf_apply, squeeze_apply, Block.mergeDen]

theorem step1_o_apply (v636 : Vec Ideal S2x2x8x128 .f32) (v638 v644 : Vec Ideal S2x4x2x128x128 .bf16)
    (v646 : Vec Ideal S2x1x8x128 .f32) (blk : Fin 2) (b : Fin 4) (g : Fin 2) (r d : Fin 128) :
    k0_pay145 (F := Ideal) (k0_pay144 v636 v638 v644 v646) (ix5 blk b g r d)
      = Block.mergeNum (v636 (ix4 blk (0 : Fin 2) (kvOf b g) r)) (v638 (ix5 blk b g r d))
          (v646 (ix4 blk (0 : Fin 1) (kvOf b g) r)) (v644 (ix5 blk b g r d)) := by
  unfold k0_pay145 k0_pay144 k0_pay141 k0_pay142 k0_pay140 k0_pay138 k0_pay139
  simp only [shapeCast_self, truncf_apply, extf_apply, addf_apply, mulf_apply, spread_apply, exp_apply, subf_apply,
    maximumf_apply, squeeze_apply, slice4_axis1_eq, Block.mergeNum]
  rfl

theorem step1_top_apply (v636 : Vec Ideal S2x2x8x128 .f32) (v646 v648 : Vec Ideal S2x1x8x128 .f32)
    (blk : Fin 2) (c : Fin 8) (r : Fin 128) :
    k0_pay146 (F := Ideal) (k0_pay140 v636 v646) (k0_pay143 v636 v646 v648) (ix4 blk (0 : Fin 2) c r)
      = Block.mergeTop (v636 (ix4 blk (0 : Fin 2) c r)) (v646 (ix4 blk (0 : Fin 1) c r)) := by
  unfold k0_pay146 k0_pay143 k0_pay141 k0_pay142 k0_pay140 k0_pay138 k0_pay139
  simp only [shapeCast_self, cat_fst_apply, unsqueeze_apply, maximumf_apply, squeeze_apply, slice4_axis1_eq, Block.mergeTop]
  rfl

theorem step1_den_apply (v636 : Vec Ideal S2x2x8x128 .f32) (v646 v648 : Vec Ideal S2x1x8x128 .f32)
    (blk : Fin 2) (c : Fin 8) (r : Fin 128) :
    k0_pay146 (F := Ideal) (k0_pay140 v636 v646) (k0_pay143 v636 v646 v648) (ix4 blk (1 : Fin 2) c r)
      = Block.mergeDen (v636 (ix4 blk (0 : Fin 2) c r)) (v636 (ix4 blk (1 : Fin 2) c r))
          (v646 (ix4 blk (0 : Fin 1) c r)) (v648 (ix4 blk (0 : Fin 1) c r)) := by
  unfold k0_pay146 k0_pay143 k0_pay141 k0_pay142 k0_pay140 k0_pay138 k0_pay139
  simp only [shapeCast_self, cat_snd_apply, unsqueeze_apply, addf_apply, mulf_apply, exp_apply, subf_apply,
    maximumf_apply, squeeze_apply, slice4_axis1_eq, Block.mergeDen]
  rfl

/-- info: 'Cert.KernelIdeal.Hand.MergeA.qproj_apply' depends on axioms: [propext, Classical.choice, Quot.sound] -/
#guard_msgs in #print axioms qproj_apply

/-- info: 'Cert.KernelIdeal.Hand.MergeA.step0_o_apply' depends on axioms: [propext, Classical.choice, Quot.sound] -/
#guard_msgs in #print axioms step0_o_apply

/-- info: 'Cert.KernelIdeal.Hand.MergeA.step0_top_apply' depends on axioms: [propext, Classical.choice, Quot.sound] -/
#guard_msgs in #print axioms step0_top_apply

/-- info: 'Cert.KernelIdeal.Hand.MergeA.step0_den_apply' depends on axioms: [propext, Classical.choice, Quot.sound] -/
#guard_msgs in #print axioms step0_den_apply

/-- info: 'Cert.KernelIdeal.Hand.MergeA.step1_o_apply' depends on axioms: [propext, Classical.choice, Quot.sound] -/
#guard_msgs in #print axioms step1_o_apply

/-- info: 'Cert.KernelIdeal.Hand.MergeA.step1_top_apply' depends on axioms: [propext, Classical.choice, Quot.sound] -/
#guard_msgs in #print axioms step1_top_apply

/-- info: 'Cert.KernelIdeal.Hand.MergeA.step1_den_apply' depends on axioms: [propext, Classical.choice, Quot.sound] -/
#guard_msgs in #print axioms step1_den_apply

end Cert.KernelIdeal.Hand.MergeA

end
-- ==== Proof.KernelValueA.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.BodyOffs
import proofs.«900755_g7700000000000756_dist_attn_cross_gqa_kvseq_b4_sq256_skv1024_d1024_hq8_dh128_v7x_i8_bf16_1_alg».proof.Proof.RowFacts
import proofs.«900755_g7700000000000756_dist_attn_cross_gqa_kvseq_b4_sq256_skv1024_d1024_hq8_dh128_v7x_i8_bf16_1_alg».proof.Proof.OpLemmas
import proofs.«900755_g7700000000000756_dist_attn_cross_gqa_kvseq_b4_sq256_skv1024_d1024_hq8_dh128_v7x_i8_bf16_1_alg».proof.Proof.MergeValsA

noncomputable section

namespace Cert.KernelIdeal.Hand.KV

open Idealize.ShloMosaic Idealize.ShloMosaic.ValueIdx
open Cert.KernelIdeal Cert.KernelIdeal.Gen Cert.KernelIdeal.Hand Cert.Hand
open Cert.Hand.KernelSpec (XT WT KT)
open scoped BigOperators

local notation "κ" => (Ideal.ofBits FTy.f32 0x3DB504F3#32 : EReal)

namespace KVA

theorem grp_headOf (g : Fin 2) (r : Fin 128) : Spec.grp (Block.headOf g r) = g := by
  apply Fin.ext
  have := g.isLt
  simp only [Spec.grp, Block.headOf]
  omega

def rowAt (base : Nat) (hbase : base + 128 ≤ 256) (i : Fin 128) : Fin 256 := ⟨base + i.val, by have := i.isLt; omega⟩

-- A block over the scaled projected rows from row base on and the device's keys and values of (b, g) computes the device's local statistics of those rows.
theorem math_eq (X : XT) (WQ : WT) (KK VV : KT) (c : Fin 8) (b : Fin 4) (g : Fin 2) (base : Nat) (hbase : base + 128 ≤ 256)
    (Q : Fin 128 → Fin 8 → Fin 128 → EReal) (Kb Vb : Fin 1024 → Fin 128 → EReal)
    (hQ : ∀ i h d, Q i h d = KernelSpec.qs κ X WQ b (rowAt base hbase i) (Spec.col h d))
    (hK : ∀ j d, Kb j d = KK b (KernelSpec.blk c j) g d)
    (hV : ∀ j d, Vb j d = VV b (KernelSpec.blk c j) g d)
    (i : Fin 128) (h : Fin 8) (hg : Spec.grp h = g) :
    (∀ d, Block.num Q Kb Vb i h d = KernelSpec.o0 κ X WQ KK VV c b (rowAt base hbase i) h d)
      ∧ Block.top Q Kb i h = KernelSpec.m0 κ X WQ KK c b (rowAt base hbase i) h
      ∧ Block.den Q Kb i h = KernelSpec.l0 κ X WQ KK c b (rowAt base hbase i) h := by
  have hs : ∀ j, Block.score Q Kb i h j = KernelSpec.sc κ X WQ KK c b (rowAt base hbase i) h j := fun j => by
    unfold Block.score KernelSpec.sc
    refine Finset.sum_congr rfl fun d _ => ?_
    rw [hQ, hK, hg]
  have ht : Block.top Q Kb i h = KernelSpec.m0 κ X WQ KK c b (rowAt base hbase i) h := by
    unfold Block.top KernelSpec.m0
    exact congrArg (Finset.sup Finset.univ) (funext hs)
  have hw : ∀ j, Block.wgt Q Kb i h j = KernelSpec.p κ X WQ KK c b (rowAt base hbase i) h j := fun j => by
    unfold Block.wgt KernelSpec.p
    rw [hs, ht]
  refine ⟨fun d => ?_, ht, ?_⟩
  · unfold Block.num KernelSpec.o0
    refine Finset.sum_congr rfl fun j _ => ?_
    rw [hw, hV, hg]
  · unfold Block.den KernelSpec.l0
    exact Finset.sum_congr rfl fun j _ => hw j

-- A unit-stride rectangle sends a local index to the offsets plus that index.
theorem unit_idx {S : Shape} (off size : Fin S.rank → Nat) (inb : ∀ a, off a + size a ≤ S.size a)
    (j : (Rect.unit (s := S) off size inb).shape.Idx) (k : S.Idx) (hk : ∀ a, (k a).val = off a + (j a).val) :
    (Rect.unit off size inb).idx j = k := by
  refine funext fun a => Fin.ext ?_
  rw [hk a]
  show off a + 1 * (j a).val = off a + (j a).val
  omega

theorem qrow_apply (I : Dev nD → Ins Ideal) (X : XT) (WQ : WT)
    (hx : ∀ (c : Dev nD) (b : Fin 4) (i : Fin 256) (k : Fin 1024), (I c).x (ix3 b i k) = X b i k)
    (hwq : ∀ (c : Dev nD) (k n : Fin 1024), (I c).wq (ix2 k n) = WQ k n)
    (c : Dev nD) (off : Fin 4 → Nat) (inb : ∀ a, off a + S1x128x8x128.size a ≤ S4x256x8x128.size a)
    (b : Fin 4) (base : Nat) (hbase : base + 128 ≤ 256) (hoff : off = ![b.val, base, 0, 0])
    (i : Fin 128) (h : Fin 8) (d : Fin 128) :
    Ops.qOf (View.ld (qv I c) (Rect.unit (s := S4x256x8x128) off S1x128x8x128.size inb)) i h d
      = KernelSpec.qs κ X WQ b (rowAt base hbase i) (Spec.col h d) := by
  subst hoff
  show qv I c ((Rect.unit (s := S4x256x8x128) ![b.val, base, 0, 0] S1x128x8x128.size inb).idx (ix4 (0 : Fin 1) i h d)) = _
  rw [unit_idx (S := S4x256x8x128) _ _ inb (ix4 (0 : Fin 1) i h d) (ix4 b (rowAt base hbase i) h d) fun a => match a with
    | ⟨0, _⟩ => rfl
    | ⟨1, _⟩ => rfl
    | ⟨2, _⟩ => (Nat.zero_add _).symm
    | ⟨3, _⟩ => (Nat.zero_add _).symm]
  unfold qv
  rw [MergeA.qproj_apply]
  unfold KernelSpec.qs
  congr 1
  refine Finset.sum_congr rfl fun k _ => ?_
  rw [hx, hwq]
  rfl

theorem slab_apply (Y : Vec Ideal S4x1024x2x128 .f32) (off : Fin 4 → Nat)
    (inb : ∀ a, off a + S1x1024x1x128.size a ≤ S4x1024x2x128.size a) (b : Fin 4) (g : Fin 2)
    (hoff : off = ![b.val, 0, g.val, 0]) (j : Fin 1024) (d : Fin 128) :
    Ops.slabOf (View.ld Y (Rect.unit (s := S4x1024x2x128) off S1x1024x1x128.size inb)) j d = Y (ix4 b j g d) := by
  subst hoff
  exact congrArg Y (unit_idx (S := S4x1024x2x128) _ _ inb (ix4 (0 : Fin 1) j (0 : Fin 1) d) (ix4 b j g d) fun a => match a with
    | ⟨0, _⟩ => rfl
    | ⟨1, _⟩ => (Nat.zero_add _).symm
    | ⟨2, _⟩ => rfl
    | ⟨3, _⟩ => (Nat.zero_add _).symm)

theorem canonO_hit {off : Fin 5 → Nat} {inb : ∀ a, off a + S4x1x1x128x128.size a ≤ S4x4x2x128x128.size a}
    (w : S4x1x1x128x128.Idx → Elt Ideal .bf16) (L : List (View.Piece (Elt Ideal) S4x4x2x128x128 .bf16))
    (blk b : Fin 4) (g : Fin 2) (r d : Fin 128) (ho : off = ![0, b.val, g.val, 0, 0]) :
    View.canon (⟨Rect.unit (s := S4x4x2x128x128) off S4x1x1x128x128.size inb, w⟩ :: L) (ix5 blk b g r d)
      = w (ix5 blk (0 : Fin 1) (0 : Fin 1) r d) := by
  subst ho
  rw [← unit_idx (S := S4x4x2x128x128) _ _ inb (ix5 blk (0 : Fin 1) (0 : Fin 1) r d) (ix5 blk b g r d) fun a => match a with
    | ⟨0, _⟩ => (Nat.zero_add _).symm
    | ⟨1, _⟩ => rfl
    | ⟨2, _⟩ => rfl
    | ⟨3, _⟩ => (Nat.zero_add _).symm
    | ⟨4, _⟩ => (Nat.zero_add _).symm]
  exact View.canon_cons_emb (Rect.unit (s := S4x4x2x128x128) _ S4x1x1x128x128.size inb) w L _

theorem canonM_hit {off : Fin 4 → Nat} {inb : ∀ a, off a + S4x1x1x128.size a ≤ S4x2x8x128.size a}
    (w : S4x1x1x128.Idx → Elt Ideal .f32) (L : List (View.Piece (Elt Ideal) S4x2x8x128 .f32))
    (blk : Fin 4) (s : Fin 2) (kv : Fin 8) (r : Fin 128) (ho : off = ![0, s.val, kv.val, 0]) :
    View.canon (⟨Rect.unit (s := S4x2x8x128) off S4x1x1x128.size inb, w⟩ :: L) (ix4 blk s kv r)
      = w (ix4 blk (0 : Fin 1) (0 : Fin 1) r) := by
  subst ho
  rw [← unit_idx (S := S4x2x8x128) _ _ inb (ix4 blk (0 : Fin 1) (0 : Fin 1) r) (ix4 blk s kv r) fun a => match a with
    | ⟨0, _⟩ => (Nat.zero_add _).symm
    | ⟨1, _⟩ => rfl
    | ⟨2, _⟩ => rfl
    | ⟨3, _⟩ => (Nat.zero_add _).symm]
  exact View.canon_cons_emb (Rect.unit (s := S4x2x8x128) _ S4x1x1x128.size inb) w L _

-- An index outside the first piece's rectangle, on an axis where that rectangle has extent one, reads the rest of the list.
theorem canon_miss {S : Shape} {e : EltTy} {off size : Fin S.rank → Nat} {inb : ∀ a, off a + size a ≤ S.size a}
    (w : (Rect.unit (s := S) off size inb).shape.Idx → Elt Ideal e) (L : List (View.Piece (Elt Ideal) S e))
    (k : S.Idx) (a : Fin S.rank) (hs : size a = 1) (ha : (k a).val ≠ off a) :
    View.canon (⟨Rect.unit off size inb, w⟩ :: L) k = View.canon L k := by
  refine View.canon_cons_of_not_mem _ L fun hm => ?_
  have hm0 : k ∈ (Rect.unit off size inb).set := hm
  have := (Rect.mem_set_unit (inb := inb)).mp hm0 a
  omega

theorem statrow_apply (Y : Vec Ideal S4x2x8x128 .f32) {off : Fin 4 → Nat}
    {inb : ∀ a, off a + S4x1x8x128.size a ≤ S4x2x8x128.size a} (s : Fin 2) (blk : Fin 4) (kv : Fin 8) (r : Fin 128)
    (ho : off = ![0, s.val, 0, 0]) :
    View.ld Y (Rect.unit (s := S4x2x8x128) off S4x1x8x128.size inb) (ix4 blk (0 : Fin 1) kv r) = Y (ix4 blk s kv r) := by
  subst ho
  exact congrArg Y (unit_idx (S := S4x2x8x128) _ _ inb (ix4 blk (0 : Fin 1) kv r) (ix4 blk s kv r) fun a => match a with
    | ⟨0, _⟩ => (Nat.zero_add _).symm
    | ⟨1, _⟩ => rfl
    | ⟨2, _⟩ => (Nat.zero_add _).symm
    | ⟨3, _⟩ => (Nat.zero_add _).symm)

theorem rowS0_eq (c : Fin 8) (blk : Fin 4) (r : Fin 128) :
    rowS0 c blk r = rowAt (128 - 128 * (c.val / 4)) (by omega) (Block.rowOf blk r) := by
  apply Fin.ext
  simp only [rowS0, rowAt, Block.rowOf]
  omega

section
variable (I : Dev nD → Ins Ideal) (X : XT) (WQ : WT) (KK VV : KT)
    (hx : ∀ (c : Dev nD) (b : Fin 4) (i : Fin 256) (k : Fin 1024), (I c).x (ix3 b i k) = X b i k)
    (hwq : ∀ (c : Dev nD) (k n : Fin 1024), (I c).wq (ix2 k n) = WQ k n)
    (hkb : ∀ (c : Dev nD) (b : Fin 4) (j : Fin 1024) (g : Fin 2) (d : Fin 128), (I c).kb (ix4 b j g d) = KK b (KernelSpec.blk c j) g d)
    (hvb : ∀ (c : Dev nD) (b : Fin 4) (j : Fin 1024) (g : Fin 2) (d : Fin 128), (I c).vb (ix4 b j g d) = VV b (KernelSpec.blk c j) g d)
include hx hwq hkb hvb

-- The block of queries from row base on of batch entry b, against the key and value slabs of (b, g), holds the device's local statistics of those rows.
theorem block_eq (c : Dev nD) (b : Fin 4) (g : Fin 2) (base : Nat) (hbase : base + 128 ≤ 256)
    (offq : Fin 4 → Nat) (inbq : ∀ a, offq a + S1x128x8x128.size a ≤ S4x256x8x128.size a)
    (hoffq : offq = ![b.val, base, 0, 0])
    (offk : Fin 4 → Nat) (inbk : ∀ a, offk a + S1x1024x1x128.size a ≤ S4x1024x2x128.size a)
    (hoffk : offk = ![b.val, 0, g.val, 0]) (blk : Fin 4) (r : Fin 128) :
    let Q := Ops.qOf (View.ld (qv I c) (Rect.unit (s := S4x256x8x128) offq S1x128x8x128.size inbq))
    let Kb := Ops.slabOf (View.ld (I c).kb (Rect.unit (s := S4x1024x2x128) offk S1x1024x1x128.size inbk))
    let Vb := Ops.slabOf (View.ld (I c).vb (Rect.unit (s := S4x1024x2x128) offk S1x1024x1x128.size inbk))
    (∀ d, Block.num Q Kb Vb (Block.rowOf blk r) (Block.headOf g r) d
        = KernelSpec.o0 κ X WQ KK VV c b (rowAt base hbase (Block.rowOf blk r)) (Block.headOf g r) d)
      ∧ Block.top Q Kb (Block.rowOf blk r) (Block.headOf g r)
        = KernelSpec.m0 κ X WQ KK c b (rowAt base hbase (Block.rowOf blk r)) (Block.headOf g r)
      ∧ Block.den Q Kb (Block.rowOf blk r) (Block.headOf g r)
        = KernelSpec.l0 κ X WQ KK c b (rowAt base hbase (Block.rowOf blk r)) (Block.headOf g r) :=
  math_eq X WQ KK VV c b g base hbase _ _ _ (qrow_apply I X WQ hx hwq c offq inbq b base hbase hoffq)
    (fun j d => (slab_apply _ offk inbk b g hoffk j d).trans (hkb c b j g d))
    (fun j d => (slab_apply _ offk inbk b g hoffk j d).trans (hvb c b j g d)) _ _ (grp_headOf g r)

end

end KVA

set_option hygiene false in
macro "lvl0 " ap:ident offeq:ident bb:term:max gg:term:max q:ident k:ident : tactic => `(tactic| (
  repeat (first
    | rw [KVA.canonO_hit (ho := by rfl)]
    | rw [KVA.canonM_hit (ho := by rfl)]
    | rw [KVA.canon_miss (a := ⟨1, by decide⟩) (hs := by rfl) (ha := by exact Nat.ne_of_beq_eq_false rfl)]
    | rw [KVA.canon_miss (a := ⟨2, by decide⟩) (hs := by rfl) (ha := by exact Nat.ne_of_beq_eq_false rfl)])
  have be := fun iq ok ik ho => KVA.block_eq I X WQ KK VV hx hwq hkb hvb c $bb $gg _
    (by have hc : c.val < 8 := c.isLt; omega) _ iq ($offeq:ident c) ok ik ho blk r
  have hp := $ap:ident $gg ($q:ident I c) ($k:ident I c)
  first
    | exact (hp _ blk r d).trans ((be _ _ _ rfl).1 d)
    | exact (hp blk r).trans (be _ _ _ rfl).2.1
    | exact (hp blk r).trans (be _ _ _ rfl).2.2))

section
variable (I : Dev nD → Ins Ideal) (X : XT) (WQ : WT) (KK VV : KT)
    (hx : ∀ (c : Dev nD) (b : Fin 4) (i : Fin 256) (k : Fin 1024), (I c).x (ix3 b i k) = X b i k)
    (hwq : ∀ (c : Dev nD) (k n : Fin 1024), (I c).wq (ix2 k n) = WQ k n)
    (hkb : ∀ (c : Dev nD) (b : Fin 4) (j : Fin 1024) (g : Fin 2) (d : Fin 128), (I c).kb (ix4 b j g d) = KK b (KernelSpec.blk c j) g d)
    (hvb : ∀ (c : Dev nD) (b : Fin 4) (j : Fin 1024) (g : Fin 2) (d : Fin 128), (I c).vb (ix4 b j g d) = VV b (KernelSpec.blk c j) g d)
include hx hwq hkb hvb

theorem o0_apply (c : Dev nD) (blk b : Fin 4) (g : Fin 2) (r d : Fin 128) :
    o0 I c (ix5 blk b g r d) = KernelSpec.o0 κ X WQ KK VV c b (rowS0 c blk r) (Block.headOf g r) d := by
  rw [KVA.rowS0_eq]
  unfold o0 sdOL
  fin_cases b <;> fin_cases g
  · lvl0 Ops.num_apply k0_off1_eq 0 0 qr1 kS00
  · lvl0 Ops.num_apply k0_off1_eq 0 1 qr1 kS01
  · lvl0 Ops.num_apply k0_off2_eq 1 0 qr2 kS10
  · lvl0 Ops.num_apply k0_off2_eq 1 1 qr2 kS11
  · lvl0 Ops.num_apply k0_off3_eq 2 0 qr3 kS20
  · lvl0 Ops.num_apply k0_off3_eq 2 1 qr3 kS21
  · lvl0 Ops.num_apply k0_off4_eq 3 0 qr4 kS30
  · lvl0 Ops.num_apply k0_off4_eq 3 1 qr4 kS31

theorem ml0_top_apply (c : Dev nD) (blk b : Fin 4) (g : Fin 2) (r : Fin 128) :
    ml0 I c (ix4 blk (0 : Fin 2) (MergeA.kvOf b g) r)
      = KernelSpec.m0 κ X WQ KK c b (rowS0 c blk r) (Block.headOf g r) := by
  rw [KVA.rowS0_eq]
  unfold ml0 sdMLL
  fin_cases b <;> fin_cases g
  · lvl0 Ops.top_apply k0_off1_eq 0 0 qr1 kS00
  · lvl0 Ops.top_apply k0_off1_eq 0 1 qr1 kS01
  · lvl0 Ops.top_apply k0_off2_eq 1 0 qr2 kS10
  · lvl0 Ops.top_apply k0_off2_eq 1 1 qr2 kS11
  · lvl0 Ops.top_apply k0_off3_eq 2 0 qr3 kS20
  · lvl0 Ops.top_apply k0_off3_eq 2 1 qr3 kS21
  · lvl0 Ops.top_apply k0_off4_eq 3 0 qr4 kS30
  · lvl0 Ops.top_apply k0_off4_eq 3 1 qr4 kS31

theorem ml0_den_apply (c : Dev nD) (blk b : Fin 4) (g : Fin 2) (r : Fin 128) :
    ml0 I c (ix4 blk (1 : Fin 2) (MergeA.kvOf b g) r)
      = KernelSpec.l0 κ X WQ KK c b (rowS0 c blk r) (Block.headOf g r) := by
  rw [KVA.rowS0_eq]
  unfold ml0 sdMLL
  fin_cases b <;> fin_cases g
  · lvl0 Ops.den_apply k0_off1_eq 0 0 qr1 kS00
  · lvl0 Ops.den_apply k0_off1_eq 0 1 qr1 kS01
  · lvl0 Ops.den_apply k0_off2_eq 1 0 qr2 kS10
  · lvl0 Ops.den_apply k0_off2_eq 1 1 qr2 kS11
  · lvl0 Ops.den_apply k0_off3_eq 2 0 qr3 kS20
  · lvl0 Ops.den_apply k0_off3_eq 2 1 qr3 kS21
  · lvl0 Ops.den_apply k0_off4_eq 3 0 qr4 kS30
  · lvl0 Ops.den_apply k0_off4_eq 3 1 qr4 kS31

end

section
variable (I : Dev nD → Ins Ideal) (X : XT) (WQ : WT) (KK VV : KT)
    (hk_o : ∀ (c : Dev nD) (blk b : Fin 4) (g : Fin 2) (r d : Fin 128),
      kpO I c (ix5 blk b g r d) = KernelSpec.o0 κ X WQ KK VV c b (rowK0 c blk r) (Block.headOf g r) d)
    (hk_m : ∀ (c : Dev nD) (blk b : Fin 4) (g : Fin 2) (r : Fin 128),
      kpML I c (ix4 blk (0 : Fin 2) (MergeA.kvOf b g) r) = KernelSpec.m0 κ X WQ KK c b (rowK0 c blk r) (Block.headOf g r))
    (hk_l : ∀ (c : Dev nD) (blk b : Fin 4) (g : Fin 2) (r : Fin 128),
      kpML I c (ix4 blk (1 : Fin 2) (MergeA.kvOf b g) r) = KernelSpec.l0 κ X WQ KK c b (rowK0 c blk r) (Block.headOf g r))
    (hs_o : ∀ (c : Dev nD) (blk b : Fin 4) (g : Fin 2) (r d : Fin 128),
      o0 I c (ix5 blk b g r d) = KernelSpec.o0 κ X WQ KK VV c b (rowS0 c blk r) (Block.headOf g r) d)
    (hs_m : ∀ (c : Dev nD) (blk b : Fin 4) (g : Fin 2) (r : Fin 128),
      ml0 I c (ix4 blk (0 : Fin 2) (MergeA.kvOf b g) r) = KernelSpec.m0 κ X WQ KK c b (rowS0 c blk r) (Block.headOf g r))
    (hs_l : ∀ (c : Dev nD) (blk b : Fin 4) (g : Fin 2) (r : Fin 128),
      ml0 I c (ix4 blk (1 : Fin 2) (MergeA.kvOf b g) r) = KernelSpec.l0 κ X WQ KK c b (rowS0 c blk r) (Block.headOf g r))
    (c : Dev nD) (blk b : Fin 4) (g : Fin 2) (r : Fin 128)

-- The partner across the top bit sent its statistics of exactly the rows this device keeps, so the join is level 1 there.
include hk_o hk_m hs_o hs_m in
theorem c0oV_apply (d : Fin 128) :
    c0oV I c (ix5 blk b g r d) = KernelSpec.o1 κ X WQ KK VV c b (rowK0 c blk r) (Block.headOf g r) d := by
  unfold c0oV m0a r0a
  rw [MergeA.step0_o_apply, KVA.statrow_apply (s := 0) (ho := by rfl), KVA.statrow_apply (s := 0) (ho := by rfl),
    hk_o, hk_m, hs_o, hs_m, ← px4_eq_p4, rowS0_px4]
  rfl

include hk_m hs_m in
theorem c0mlV_top_apply :
    c0mlV I c (ix4 blk (0 : Fin 2) (MergeA.kvOf b g) r) = KernelSpec.m1 κ X WQ KK c b (rowK0 c blk r) (Block.headOf g r) := by
  unfold c0mlV m0a m0b r0a r0b
  rw [MergeA.step0_top_apply, KVA.statrow_apply (s := 0) (ho := by rfl), KVA.statrow_apply (s := 0) (ho := by rfl),
    hk_m, hs_m, ← px4_eq_p4, rowS0_px4]
  rfl

include hk_m hk_l hs_m hs_l in
theorem c0mlV_den_apply :
    c0mlV I c (ix4 blk (1 : Fin 2) (MergeA.kvOf b g) r) = KernelSpec.l1 κ X WQ KK c b (rowK0 c blk r) (Block.headOf g r) := by
  unfold c0mlV m0a m0b r0a r0b
  rw [MergeA.step0_den_apply, KVA.statrow_apply (s := 0) (ho := by rfl), KVA.statrow_apply (s := 1) (ho := by rfl),
    KVA.statrow_apply (s := 0) (ho := by rfl), KVA.statrow_apply (s := 1) (ho := by rfl),
    hk_m, hk_l, hs_m, hs_l, ← px4_eq_p4, rowS0_px4]
  rfl

end

end Cert.KernelIdeal.Hand.KV

/-- info: 'Cert.KernelIdeal.Hand.KV.o0_apply' depends on axioms: [propext, Classical.choice, Quot.sound] -/
#guard_msgs in #print axioms Cert.KernelIdeal.Hand.KV.o0_apply

/-- info: 'Cert.KernelIdeal.Hand.KV.ml0_top_apply' depends on axioms: [propext, Classical.choice, Quot.sound] -/
#guard_msgs in #print axioms Cert.KernelIdeal.Hand.KV.ml0_top_apply

/-- info: 'Cert.KernelIdeal.Hand.KV.ml0_den_apply' depends on axioms: [propext, Classical.choice, Quot.sound] -/
#guard_msgs in #print axioms Cert.KernelIdeal.Hand.KV.ml0_den_apply

/-- info: 'Cert.KernelIdeal.Hand.KV.c0oV_apply' depends on axioms: [propext, Classical.choice, Quot.sound] -/
#guard_msgs in #print axioms Cert.KernelIdeal.Hand.KV.c0oV_apply

/-- info: 'Cert.KernelIdeal.Hand.KV.c0mlV_top_apply' depends on axioms: [propext, Classical.choice, Quot.sound] -/
#guard_msgs in #print axioms Cert.KernelIdeal.Hand.KV.c0mlV_top_apply

/-- info: 'Cert.KernelIdeal.Hand.KV.c0mlV_den_apply' depends on axioms: [propext, Classical.choice, Quot.sound] -/
#guard_msgs in #print axioms Cert.KernelIdeal.Hand.KV.c0mlV_den_apply
-- ==== Proof.KernelValueK2.lean ====
import proofs.«900755_g7700000000000756_dist_attn_cross_gqa_kvseq_b4_sq256_skv1024_d1024_hq8_dh128_v7x_i8_bf16_1_alg».proof.Proof.KernelValueA

noncomputable section

namespace Cert.KernelIdeal.Hand.KV.Alt

open Idealize.ShloMosaic Idealize.ShloMosaic.ValueIdx
open Cert.KernelIdeal Cert.KernelIdeal.Gen Cert.KernelIdeal.Hand Cert.Hand
open Cert.Hand.KernelSpec (XT WT KT)
open Cert.KernelIdeal.Hand.KV
open scoped BigOperators

local notation "κ" => (Ideal.ofBits FTy.f32 0x3DB504F3#32 : EReal)

theorem rowK0_eq (c : Fin 8) (blk : Fin 4) (r : Fin 128) :
    rowK0 c blk r = KVA.rowAt (128 * (c.val / 4)) (by have hc : c.val < 8 := c.isLt; omega) (Block.rowOf blk r) := by
  apply Fin.ext
  simp only [rowK0, KVA.rowAt, Block.rowOf]
  omega

variable (I : Dev nD → Ins Ideal) (X : XT) (WQ : WT) (KK VV : KT)
    (hx : ∀ (c : Dev nD) (b : Fin 4) (i : Fin 256) (k : Fin 1024), (I c).x (ix3 b i k) = X b i k)
    (hwq : ∀ (c : Dev nD) (k n : Fin 1024), (I c).wq (ix2 k n) = WQ k n)
    (hkb : ∀ (c : Dev nD) (b : Fin 4) (j : Fin 1024) (g : Fin 2) (d : Fin 128), (I c).kb (ix4 b j g d) = KK b (KernelSpec.blk c j) g d)
    (hvb : ∀ (c : Dev nD) (b : Fin 4) (j : Fin 1024) (g : Fin 2) (d : Fin 128), (I c).vb (ix4 b j g d) = VV b (KernelSpec.blk c j) g d)
include hx hwq hkb hvb

theorem kpO_apply (c : Dev nD) (blk b : Fin 4) (g : Fin 2) (r d : Fin 128) :
    kpO I c (ix5 blk b g r d) = KernelSpec.o0 κ X WQ KK VV c b (rowK0 c blk r) (Block.headOf g r) d := by
  rw [rowK0_eq]
  unfold kpO kpOL
  fin_cases b <;> fin_cases g
  · lvl0 Ops.num_apply k0_off5_eq 0 0 qr5 kS00
  · lvl0 Ops.num_apply k0_off5_eq 0 1 qr5 kS01
  · lvl0 Ops.num_apply k0_off6_eq 1 0 qr6 kS10
  · lvl0 Ops.num_apply k0_off6_eq 1 1 qr6 kS11
  · lvl0 Ops.num_apply k0_off7_eq 2 0 qr7 kS20
  · lvl0 Ops.num_apply k0_off7_eq 2 1 qr7 kS21
  · lvl0 Ops.num_apply k0_off8_eq 3 0 qr8 kS30
  · lvl0 Ops.num_apply k0_off8_eq 3 1 qr8 kS31

theorem kpML_top_apply (c : Dev nD) (blk b : Fin 4) (g : Fin 2) (r : Fin 128) :
    kpML I c (ix4 blk (0 : Fin 2) (MergeA.kvOf b g) r)
      = KernelSpec.m0 κ X WQ KK c b (rowK0 c blk r) (Block.headOf g r) := by
  rw [rowK0_eq]
  unfold kpML kpMLL
  fin_cases b <;> fin_cases g
  · lvl0 Ops.top_apply k0_off5_eq 0 0 qr5 kS00
  · lvl0 Ops.top_apply k0_off5_eq 0 1 qr5 kS01
  · lvl0 Ops.top_apply k0_off6_eq 1 0 qr6 kS10
  · lvl0 Ops.top_apply k0_off6_eq 1 1 qr6 kS11
  · lvl0 Ops.top_apply k0_off7_eq 2 0 qr7 kS20
  · lvl0 Ops.top_apply k0_off7_eq 2 1 qr7 kS21
  · lvl0 Ops.top_apply k0_off8_eq 3 0 qr8 kS30
  · lvl0 Ops.top_apply k0_off8_eq 3 1 qr8 kS31

theorem kpML_den_apply (c : Dev nD) (blk b : Fin 4) (g : Fin 2) (r : Fin 128) :
    kpML I c (ix4 blk (1 : Fin 2) (MergeA.kvOf b g) r)
      = KernelSpec.l0 κ X WQ KK c b (rowK0 c blk r) (Block.headOf g r) := by
  rw [rowK0_eq]
  unfold kpML kpMLL
  fin_cases b <;> fin_cases g
  · lvl0 Ops.den_apply k0_off5_eq 0 0 qr5 kS00
  · lvl0 Ops.den_apply k0_off5_eq 0 1 qr5 kS01
  · lvl0 Ops.den_apply k0_off6_eq 1 0 qr6 kS10
  · lvl0 Ops.den_apply k0_off6_eq 1 1 qr6 kS11
  · lvl0 Ops.den_apply k0_off7_eq 2 0 qr7 kS20
  · lvl0 Ops.den_apply k0_off7_eq 2 1 qr7 kS21
  · lvl0 Ops.den_apply k0_off8_eq 3 0 qr8 kS30
  · lvl0 Ops.den_apply k0_off8_eq 3 1 qr8 kS31

end Cert.KernelIdeal.Hand.KV.Alt

/-- info: 'Cert.KernelIdeal.Hand.KV.Alt.kpO_apply' depends on axioms: [propext, Classical.choice, Quot.sound] -/
#guard_msgs in #print axioms Cert.KernelIdeal.Hand.KV.Alt.kpO_apply

/-- info: 'Cert.KernelIdeal.Hand.KV.Alt.kpML_top_apply' depends on axioms: [propext, Classical.choice, Quot.sound] -/
#guard_msgs in #print axioms Cert.KernelIdeal.Hand.KV.Alt.kpML_top_apply

/-- info: 'Cert.KernelIdeal.Hand.KV.Alt.kpML_den_apply' depends on axioms: [propext, Classical.choice, Quot.sound] -/
#guard_msgs in #print axioms Cert.KernelIdeal.Hand.KV.Alt.kpML_den_apply
-- ==== Proof.KernelValueB.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.BodyOffs
import proofs.«900755_g7700000000000756_dist_attn_cross_gqa_kvseq_b4_sq256_skv1024_d1024_hq8_dh128_v7x_i8_bf16_1_alg».proof.Proof.MergeValsA
import proofs.«900755_g7700000000000756_dist_attn_cross_gqa_kvseq_b4_sq256_skv1024_d1024_hq8_dh128_v7x_i8_bf16_1_alg».proof.Proof.Rows

noncomputable section

namespace Cert.KernelIdeal.Hand.KV

open Cert.KernelIdeal Cert.KernelIdeal.Gen Cert.KernelIdeal.Hand
open Idealize.ShloMosaic Idealize.ShloMosaic.ValueIdx
open Cert.Hand
open Cert.Hand.KernelSpec (XT WT KT)

namespace KVB

-- A block loaded through a unit-stride rectangle reads the array at the offsets plus the local index.
theorem ld_rect_apply {Val : EltTy → Type} {S : Shape} {e : EltTy} (X : S.Idx → Val e) (off size : Fin S.rank → Nat)
    (inb : ∀ a, off a + size a ≤ S.size a) (j : (Rect.unit (s := S) off size inb).shape.Idx) (k : S.Idx)
    (off' : Fin S.rank → Nat) (ho : off = off') (hk : ∀ a, (k a).val = off' a + (j a).val) :
    View.ld X (Rect.unit off size inb) j = X k := by
  subst ho
  refine congrArg X (funext fun a => Fin.ext ?_)
  rw [hk a]
  show off a + 1 * (j a).val = off a + (j a).val
  omega

def keep1 (c : Dev nD) (blk : Fin 2) : Fin 4 := ⟨2 * (c.val / 2 % 2) + blk.val, by have := blk.isLt; omega⟩

theorem p2_send : ∀ c : Dev nD, 2 - 2 * ((p2 c).val / 2 % 2) = 2 * (c.val / 2 % 2) := by decide
theorem p2_div4 : ∀ c : Dev nD, (p2 c).val / 4 = c.val / 4 := by decide
theorem p2_eq_px (c : Dev nD) : p2 c = KernelSpec.px 2 c := rfl

theorem rowK0_keep1 (c : Dev nD) (blk : Fin 2) (r : Fin 128) : rowK0 c (keep1 c blk) r = rowK1 c blk r := rfl

theorem rowK0_keep1_p2 (c : Dev nD) (blk : Fin 2) (r : Fin 128) : rowK0 (p2 c) (keep1 c blk) r = rowK1 c blk r :=
  Fin.ext (by
    show 128 * ((p2 c).val / 4) + (2 * (c.val / 2 % 2) + blk.val) * 32 + r.val / 4
      = 128 * (c.val / 4) + (2 * (c.val / 2 % 2) + blk.val) * 32 + r.val / 4
    rw [p2_div4 c])

theorem k1ml_apply (I : Dev nD → Ins Ideal) (c : Dev nD) (blk q : Fin 2) (ch : Fin 8) (r : Fin 128) :
    k1ml I c (ix4 blk q ch r) = c0mlV I c (ix4 (keep1 c blk) q ch r) := by
  unfold k1ml
  refine ld_rect_apply _ _ _ _ _ _ _ (k0_off11_eq c) (fun a => ?_)
  match a with
  | ⟨0, _⟩ => rfl
  | ⟨1, _⟩ => exact (Nat.zero_add _).symm
  | ⟨2, _⟩ => exact (Nat.zero_add _).symm
  | ⟨3, _⟩ => exact (Nat.zero_add _).symm

theorem k1o_apply (I : Dev nD → Ins Ideal) (c : Dev nD) (blk : Fin 2) (b : Fin 4) (g : Fin 2) (r d : Fin 128) :
    k1o I c (ix5 blk b g r d) = c0oV I c (ix5 (keep1 c blk) b g r d) := by
  unfold k1o
  refine ld_rect_apply _ _ _ _ _ _ _ (k0_off12_eq c) (fun a => ?_)
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

theorem o1_p2_apply (I : Dev nD → Ins Ideal) (c : Dev nD) (blk : Fin 2) (b : Fin 4) (g : Fin 2) (r d : Fin 128) :
    o1 I (p2 c) (ix5 blk b g r d) = c0oV I (p2 c) (ix5 (keep1 c blk) b g r d) := by
  unfold o1
  refine ld_rect_apply _ _ _ _ _ _ _ (k0_off9_eq (p2 c)) (fun a => ?_)
  match a with
  | ⟨0, _⟩ => exact congrArg (· + blk.val) (p2_send c).symm
  | ⟨1, _⟩ => exact (Nat.zero_add _).symm
  | ⟨2, _⟩ => exact (Nat.zero_add _).symm
  | ⟨3, _⟩ => exact (Nat.zero_add _).symm
  | ⟨4, _⟩ => exact (Nat.zero_add _).symm

theorem ml1_p2_apply (I : Dev nD → Ins Ideal) (c : Dev nD) (blk q : Fin 2) (ch : Fin 8) (r : Fin 128) :
    ml1 I (p2 c) (ix4 blk q ch r) = c0mlV I (p2 c) (ix4 (keep1 c blk) q ch r) := by
  unfold ml1
  refine ld_rect_apply _ _ _ _ _ _ _ (k0_off10_eq (p2 c)) (fun a => ?_)
  match a with
  | ⟨0, _⟩ => exact congrArg (· + blk.val) (p2_send c).symm
  | ⟨1, _⟩ => exact (Nat.zero_add _).symm
  | ⟨2, _⟩ => exact (Nat.zero_add _).symm
  | ⟨3, _⟩ => exact (Nat.zero_add _).symm

theorem r1a_apply (I : Dev nD → Ins Ideal) (c : Dev nD) (blk : Fin 2) (ch : Fin 8) (r : Fin 128) :
    r1a I c (ix4 blk (0 : Fin 1) ch r) = c0mlV I (p2 c) (ix4 (keep1 c blk) (0 : Fin 2) ch r) := by
  rw [← ml1_p2_apply]
  unfold r1a
  refine ld_rect_apply _ _ _ _ _ _ _ rfl (fun a => ?_)
  match a with
  | ⟨0, _⟩ => exact (Nat.zero_add _).symm
  | ⟨1, _⟩ => rfl
  | ⟨2, _⟩ => exact (Nat.zero_add _).symm
  | ⟨3, _⟩ => exact (Nat.zero_add _).symm

theorem r1b_apply (I : Dev nD → Ins Ideal) (c : Dev nD) (blk : Fin 2) (ch : Fin 8) (r : Fin 128) :
    r1b I c (ix4 blk (0 : Fin 1) ch r) = c0mlV I (p2 c) (ix4 (keep1 c blk) (1 : Fin 2) ch r) := by
  rw [← ml1_p2_apply]
  unfold r1b
  refine ld_rect_apply _ _ _ _ _ _ _ rfl (fun a => ?_)
  match a with
  | ⟨0, _⟩ => exact (Nat.zero_add _).symm
  | ⟨1, _⟩ => rfl
  | ⟨2, _⟩ => exact (Nat.zero_add _).symm
  | ⟨3, _⟩ => exact (Nat.zero_add _).symm

end KVB

open KVB

variable (κ : EReal) (X : XT) (WQ : WT) (KK VV : KT) (I : Dev nD → Ins Ideal)
    (hO : ∀ (c : Dev nD) (blk b : Fin 4) (g : Fin 2) (r d : Fin 128),
      c0oV I c (ix5 blk b g r d) = KernelSpec.o1 κ X WQ KK VV c b (rowK0 c blk r) (Block.headOf g r) d)
    (hM : ∀ (c : Dev nD) (blk b : Fin 4) (g : Fin 2) (r : Fin 128),
      c0mlV I c (ix4 blk (0 : Fin 2) (MergeA.kvOf b g) r) = KernelSpec.m1 κ X WQ KK c b (rowK0 c blk r) (Block.headOf g r))
    (hL : ∀ (c : Dev nD) (blk b : Fin 4) (g : Fin 2) (r : Fin 128),
      c0mlV I c (ix4 blk (1 : Fin 2) (MergeA.kvOf b g) r) = KernelSpec.l1 κ X WQ KK c b (rowK0 c blk r) (Block.headOf g r))
    (c : Dev nD) (blk : Fin 2) (b : Fin 4) (g : Fin 2) (r : Fin 128)

-- The partner across the middle bit shares the top bit, so what it sent stands for the rows of the kept quarter: the join is level 2 there.
include hO hM in
theorem c1oV_apply (d : Fin 128) :
    c1oV I c (ix5 blk b g r d) = KernelSpec.o2 κ X WQ KK VV c b (rowK1 c blk r) (Block.headOf g r) d := by
  unfold c1oV
  rw [MergeA.step1_o_apply, k1ml_apply, k1o_apply, r1a_apply, o1_p2_apply, hM, hO, hM, hO,
    rowK0_keep1, rowK0_keep1_p2, p2_eq_px]
  rfl

include hM in
theorem c1mlV_top_apply :
    c1mlV I c (ix4 blk (0 : Fin 2) (MergeA.kvOf b g) r) = KernelSpec.m2 κ X WQ KK c b (rowK1 c blk r) (Block.headOf g r) := by
  unfold c1mlV
  rw [MergeA.step1_top_apply, k1ml_apply, r1a_apply, hM, hM, rowK0_keep1, rowK0_keep1_p2, p2_eq_px]
  rfl

include hM hL in
theorem c1mlV_den_apply :
    c1mlV I c (ix4 blk (1 : Fin 2) (MergeA.kvOf b g) r) = KernelSpec.l2 κ X WQ KK c b (rowK1 c blk r) (Block.headOf g r) := by
  unfold c1mlV
  rw [MergeA.step1_den_apply, k1ml_apply, k1ml_apply, r1a_apply, r1b_apply, hM, hL, hM, hL,
    rowK0_keep1, rowK0_keep1_p2, p2_eq_px]
  rfl

/-- info: 'Cert.KernelIdeal.Hand.KV.c1oV_apply' depends on axioms: [propext, Classical.choice, Quot.sound] -/
#guard_msgs in #print axioms c1oV_apply

/-- info: 'Cert.KernelIdeal.Hand.KV.c1mlV_top_apply' depends on axioms: [propext, Classical.choice, Quot.sound] -/
#guard_msgs in #print axioms c1mlV_top_apply

/-- info: 'Cert.KernelIdeal.Hand.KV.c1mlV_den_apply' depends on axioms: [propext, Classical.choice, Quot.sound] -/
#guard_msgs in #print axioms c1mlV_den_apply

end Cert.KernelIdeal.Hand.KV

end
-- ==== Proof.MergeValsB.lean ====
import proofs.«900755_g7700000000000756_dist_attn_cross_gqa_kvseq_b4_sq256_skv1024_d1024_hq8_dh128_v7x_i8_bf16_1_alg».proof.Proof.MergeValsA

noncomputable section

namespace Cert.KernelIdeal.Hand.MergeB

open Cert.KernelIdeal Cert.KernelIdeal.Gen
open Idealize.ShloMosaic Idealize.ShloMosaic.ValueIdx
open Cert.Hand

def rowIx (b : Fin 4) (i : Fin 32) : Fin 128 := ⟨b.val * 32 + i.val, by have := b.isLt; have := i.isLt; omega⟩

-- 128 rows viewed as 4 groups of 32, and back: entry (b, i, n) is row b * 32 + i, column n.
theorem rows_as_groups_apply {α : Type} (x : S128x1024.Idx → α) (h : S128x1024.ShapeCasts S4x32x1024)
    (b : Fin 4) (i : Fin 32) (n : Fin 1024) :
    shapeCast S4x32x1024 x h (ix3 b i n) = x (ix2 (rowIx b i) n) :=
  shapeCast_apply x h _ _ (by rw [Shape.rowMajor_val_two, Shape.rowMajor_val_three]; rfl)

theorem groups_as_rows_apply {α : Type} (x : S4x32x1024.Idx → α) (h : S4x32x1024.ShapeCasts S128x1024)
    (b : Fin 4) (i : Fin 32) (k : Fin 1024) :
    shapeCast S128x1024 x h (ix2 (rowIx b i) k) = x (ix3 b i k) :=
  shapeCast_apply x h _ _ (by rw [Shape.rowMajor_val_two, Shape.rowMajor_val_three]; rfl)

theorem slot_as_groups_apply {α : Type} (v : S1x128x1024.Idx → α) (h1 : S1x128x1024.ShapeCasts S128x1024)
    (h2 : S128x1024.ShapeCasts S4x32x1024) (b : Fin 4) (i : Fin 32) (n : Fin 1024) :
    shapeCast S4x32x1024 (shapeCast S128x1024 v h1) h2 (ix3 b i n) = v (ix3 (0 : Fin 1) (rowIx b i) n) :=
  (rows_as_groups_apply _ h2 b i n).trans (shapeCast_1ab_ab_apply v h1 _ n)

def chan (b : Fin 4) (g : Fin 2) : Fin 8 := ⟨2 * b.val + g.val, by have := b.isLt; have := g.isLt; omega⟩

-- The two partial results of (b, g, line r, coordinate d), joined at their common top and normalised.
def joinedAt (kept : S1x2x8x128.Idx → EReal) (keptO : S1x4x2x128x128.Idx → EReal) (inM inL : S1x1x8x128.Idx → EReal)
    (inO : S1x4x2x128x128.Idx → EReal) (b : Fin 4) (g : Fin 2) (r d : Fin 128) : EReal :=
  Ideal.div
    (Block.mergeNum (kept (ix4 (0 : Fin 1) (0 : Fin 2) (chan b g) r)) (keptO (ix5 (0 : Fin 1) b g r d))
      (inM (ix4 (0 : Fin 1) (0 : Fin 1) (chan b g) r)) (inO (ix5 (0 : Fin 1) b g r d)))
    (Block.mergeDen (kept (ix4 (0 : Fin 1) (0 : Fin 2) (chan b g) r)) (kept (ix4 (0 : Fin 1) (1 : Fin 2) (chan b g) r))
      (inM (ix4 (0 : Fin 1) (0 : Fin 1) (chan b g) r)) (inL (ix4 (0 : Fin 1) (0 : Fin 1) (chan b g) r)))

theorem joined_apply (v708 : Vec Ideal S1x2x8x128 .f32) (v710 v716 : Vec Ideal S1x4x2x128x128 .bf16)
    (v718 v720 : Vec Ideal S1x1x8x128 .f32) (b : Fin 4) (g : Fin 2) (r d : Fin 128) :
    k0_pay151 (k0_pay147 v710) (k0_pay148 v708) (k0_pay149 v708) v716 v718 v720 (ix4 b g r d)
      = joinedAt v708 v710 v718 v720 v716 b g r d := by
  unfold k0_pay151 k0_pay148 k0_pay149
  refine (shapeCast_apply _ _ _ (ix5 (0 : Fin 1) b g r d) ?_).trans ?_
  · rw [Shape.rowMajor_val_five, Shape.rowMajor_val_four]
    show ((((0 * 4 + b.val) * 2 + g.val) * 128 + r.val) * 128 + d.val) = ((b.val * 2 + g.val) * 128 + r.val) * 128 + d.val
    omega
  rw [truncf_apply, divf_apply, addf_apply, mulf_apply, mulf_apply, extf_apply,
    MergeA.spread_apply, MergeA.spread_apply, MergeA.spread_apply]
  simp only [MergeA.exp_apply, subf_apply, maximumf_apply, addf_apply, mulf_apply, shapeCast_1abc_abc_apply, slice4_axis1_eq]
  rfl

def colG (k : Fin 1024) : Fin 2 := ⟨k.val / 512, by have := k.isLt; omega⟩
def colLine (i : Fin 32) (k : Fin 1024) : Fin 128 := ⟨i.val * 4 + k.val / 128 % 4, by have := i.isLt; omega⟩
def colD (k : Fin 1024) : Fin 128 := ⟨k.val % 128, by omega⟩

def matAt (kept : S1x2x8x128.Idx → EReal) (keptO : S1x4x2x128x128.Idx → EReal) (inM inL : S1x1x8x128.Idx → EReal)
    (inO : S1x4x2x128x128.Idx → EReal) (b : Fin 4) (i : Fin 32) (k : Fin 1024) : EReal :=
  joinedAt kept keptO inM inL inO b (colG k) (colLine i k) (colD k)

-- One (b, g) block as 32 rows of 512: row i, column k is line i * 4 + k / 128, coordinate k % 128.
theorem head_rows_apply {α : Type} (X : S4x2x128x128.Idx → α) (b : Fin 4) (g : Fin 2)
    (h0 : S4x2x128x128.Slices ![b.val, g.val, 0, 0] S1x1x128x128) (h1 : S1x1x128x128.ShapeCasts S128x128)
    (h2 : S128x128.ShapeCasts S32x512) (i : Fin 32) (k : Fin 512) (r d : Fin 128)
    (hr : r.val = i.val * 4 + k.val / 128) (hd : d.val = k.val % 128) :
    shapeCast S32x512 (shapeCast S128x128 (extractStridedSlice S1x1x128x128 ![b.val, g.val, 0, 0] X h0) h1) h2 (ix2 i k)
      = X (ix4 b g r d) := by
  refine (shapeCast_apply _ h2 _ (ix2 r d) ?_).trans ?_
  · rw [Shape.rowMajor_val_two, Shape.rowMajor_val_two]
    show r.val * 128 + d.val = i.val * 512 + k.val
    omega
  refine (shapeCast_apply _ h1 _ (ix4 (0 : Fin 1) (0 : Fin 1) r d) ?_).trans ?_
  · rw [Shape.rowMajor_val_four, Shape.rowMajor_val_two]
    show ((0 * 1 + 0) * 128 + r.val) * 128 + d.val = r.val * 128 + d.val
    omega
  exact extractStridedSlice_apply _ X h0 _ _ (fun a => match a with
    | ⟨0, _⟩ | ⟨1, _⟩ => (Nat.add_zero _).symm
    | ⟨2, _⟩ | ⟨3, _⟩ => (Nat.zero_add _).symm)

-- Batch entry b's two heads side by side: row i, column k is (b, k / 512, line i * 4 + k / 128 % 4, k % 128).
theorem entry_rows_apply {α : Type} (X : S4x2x128x128.Idx → α) (b : Fin 4)
    (h0 : S4x2x128x128.Slices ![b.val, 0, 0, 0] S1x1x128x128) (h0' : S4x2x128x128.Slices ![b.val, 1, 0, 0] S1x1x128x128)
    (h1 h1' : S1x1x128x128.ShapeCasts S128x128) (h2 h2' : S128x128.ShapeCasts S32x512)
    (hc : Shape.Concatenates [S32x512, S32x512] S32x1024 1) (i : Fin 32) (k : Fin 1024) :
    concatenate S32x1024 1
        [⟨S32x512, shapeCast S32x512 (shapeCast S128x128 (extractStridedSlice S1x1x128x128 ![b.val, 0, 0, 0] X h0) h1) h2⟩,
         ⟨S32x512, shapeCast S32x512 (shapeCast S128x128 (extractStridedSlice S1x1x128x128 ![b.val, 1, 0, 0] X h0') h1') h2'⟩]
        hc (ix2 i k)
      = X (ix4 b (colG k) (colLine i k) (colD k)) := by
  have := k.isLt
  by_cases hk : k.val < 512
  · rw [show colG k = 0 from Fin.ext (by show k.val / 512 = 0; omega)]
    exact (concatenate_pair_apply_left 1 _ _ hc _ rfl (ix2 i ⟨k.val, hk⟩) (fun a => match a with
      | ⟨0, _⟩ | ⟨1, _⟩ => rfl)).trans (head_rows_apply X b 0 h0 h1 h2 i ⟨k.val, hk⟩ _ _
        (by show i.val * 4 + k.val / 128 % 4 = i.val * 4 + k.val / 128; omega) rfl)
  · rw [show colG k = 1 from Fin.ext (by show k.val / 512 = 1; omega)]
    exact (concatenate_pair_apply_right 1 _ _ hc _ rfl rfl (ix2 i ⟨k.val - 512, by omega⟩) (fun a => match a with
      | ⟨0, _⟩ => fun _ => rfl
      | ⟨1, _⟩ => fun hne => absurd rfl hne) (by show k.val - 512 + 512 = k.val; omega)).trans
      (head_rows_apply X b 1 h0' h1' h2' i ⟨k.val - 512, by omega⟩ _ _
        (by show i.val * 4 + k.val / 128 % 4 = i.val * 4 + (k.val - 512) / 128; omega)
        (by show k.val % 128 = (k.val - 512) % 128; omega))

-- Row b * 32 + i, column n of the projection: the joined and normalised row times the matrix.
theorem proj_apply (v737 : Vec Ideal S1024x1024 .f32) (v708 : Vec Ideal S1x2x8x128 .f32)
    (v710 v716 : Vec Ideal S1x4x2x128x128 .bf16) (v718 v720 : Vec Ideal S1x1x8x128 .f32)
    (b : Fin 4) (i : Fin 32) (n : Fin 1024) :
    k0_pay156 (k0_pay150 v737) (k0_pay151 (k0_pay147 v710) (k0_pay148 v708) (k0_pay149 v708) v716 v718 v720) (k0_pay152 (k0_pay147 v710) (k0_pay148 v708) (k0_pay149 v708) v716 v718 v720) (k0_pay153 (k0_pay147 v710) (k0_pay148 v708) (k0_pay149 v708) v716 v718 v720) (k0_pay154 (k0_pay147 v710) (k0_pay148 v708) (k0_pay149 v708) v716 v718 v720)
        (k0_pay155 (k0_pay147 v710) (k0_pay148 v708) (k0_pay149 v708) v716 v718 v720) (ix2 (rowIx b i) n)
      = ∑ k : Fin 1024, matAt v708 v710 v718 v720 v716 b i k * v737 (ix2 k n) := by
  unfold k0_pay156
  refine (MergeA.dot2_apply _ rfl rfl (fun _ _ => funext fun a => Fin.ext (match a with | ⟨0, _⟩ | ⟨1, _⟩ => rfl))
    (fun _ _ => funext fun a => Fin.ext (match a with | ⟨0, _⟩ | ⟨1, _⟩ => rfl)) _ _ _ _).trans
    (Finset.sum_congr rfl fun k _ => ?_)
  rw [show k0_pay150 v737 = v737 from shapeCast_self v737 _, groups_as_rows_apply]
  refine congrArg (· * v737 (ix2 k n)) ?_
  match b with
  | ⟨0, hb⟩ | ⟨1, hb⟩ | ⟨2, hb⟩ | ⟨3, hb⟩ =>
    refine (concatenate_apply_piece (t := S4x32x1024) 0 _ _ _ _ hb S1x32x1024 _ (by rfl) rfl _ (by rfl) (ix3 (0 : Fin 1) i k)
      (fun a => match a with
        | ⟨0, _⟩ => fun hne => absurd rfl hne
        | ⟨1, _⟩ | ⟨2, _⟩ => fun _ => rfl) (by rfl)).trans ?_
    exact (shapeCast_ab_1ab_apply _ _ _ i k).trans
      ((entry_rows_apply _ ⟨_, hb⟩ _ _ _ _ _ _ concatenates_S32x512_S32x512_S32x1024_d1 i k).trans
        (joined_apply v708 v710 v716 v718 v720 _ _ _ _))

/-- info: 'Cert.KernelIdeal.Hand.MergeB.proj_apply' depends on axioms: [propext, Classical.choice, Quot.sound] -/
#guard_msgs in #print axioms proj_apply

end Cert.KernelIdeal.Hand.MergeB

end
-- ==== Proof.KernelValueC.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.BodyOffs
import proofs.«900755_g7700000000000756_dist_attn_cross_gqa_kvseq_b4_sq256_skv1024_d1024_hq8_dh128_v7x_i8_bf16_1_alg».proof.Proof.Rows
import proofs.«900755_g7700000000000756_dist_attn_cross_gqa_kvseq_b4_sq256_skv1024_d1024_hq8_dh128_v7x_i8_bf16_1_alg».proof.Proof.MergeValsB

noncomputable section

namespace Cert.KernelIdeal.Hand.KV

open Cert.KernelIdeal Cert.KernelIdeal.Gen Cert.KernelIdeal.Hand
open Idealize.ShloMosaic Idealize.ShloMosaic.ValueIdx
open Cert.Hand Cert.Hand.KernelSpec

namespace KVC

-- A load through a unit-stride rectangle reads the array at the offset plus the local index.
theorem ld_unit_apply {S : Shape} {e : EltTy} (A : S.Idx → Elt Ideal e) (off off' size : Fin S.rank → Nat)
    (inb : ∀ a, off a + size a ≤ S.size a) (hoff : off = off') (x : (⟨S.rank, size⟩ : Shape).Idx) (k : S.Idx)
    (hk : ∀ a, off' a + (x a).val = (k a).val) :
    View.ld A (Rect.unit (s := S) off size inb) x = A k := by
  subst hoff
  exact congrArg A (funext fun a => Fin.ext (by
    show off a + 1 * (x a).val = (k a).val
    rw [Nat.one_mul, hk a]))

def lo (c : Dev nD) : Fin 2 := ⟨c.val % 2, Nat.mod_lt _ (by decide)⟩
def hi (c : Dev nD) : Fin 2 := ⟨1 - c.val % 2, by omega⟩

theorem rowK1_lo : ∀ c : Dev nD, 128 * (c.val / 4) + (2 * (c.val / 2 % 2) + c.val % 2) * 32 = c.val * 32 := by decide
theorem rowK1_hi_p1 : ∀ c : Dev nD,
    128 * ((p1 c).val / 4) + (2 * ((p1 c).val / 2 % 2) + (1 - (p1 c).val % 2)) * 32 = c.val * 32 := by decide

-- The block a device keeps at the last step holds its own 32 rows, and so does the block its partner sends.
theorem rowK1_lo_eq (c : Dev nD) (r : Fin 128) : rowK1 c (lo c) r = rowK2 c r :=
  Fin.ext (congrArg (· + r.val / 4) (rowK1_lo c))
theorem rowK1_hi_p1_eq (c : Dev nD) (r : Fin 128) : rowK1 (p1 c) (hi (p1 c)) r = rowK2 c r :=
  Fin.ext (congrArg (· + r.val / 4) (rowK1_hi_p1 c))

variable (I : Dev nD → Ins Ideal) (c : Dev nD)

theorem k2ml_apply (q : Fin 2) (ch : Fin 8) (r : Fin 128) :
    k2ml I c (ix4 (0 : Fin 1) q ch r) = c1mlV I c (ix4 (lo c) q ch r) :=
  ld_unit_apply _ _ _ _ _ (k0_off15_eq c) _ _ fun a => match a with
    | ⟨0, _⟩ => rfl
    | ⟨1, _⟩ | ⟨2, _⟩ | ⟨3, _⟩ => Nat.zero_add _

theorem k2o_apply (b : Fin 4) (g : Fin 2) (r d : Fin 128) :
    k2o I c (ix5 (0 : Fin 1) b g r d) = c1oV I c (ix5 (lo c) b g r d) :=
  ld_unit_apply _ _ _ _ _ (k0_off16_eq c) _ _ fun a => match a with
    | ⟨0, _⟩ => rfl
    | ⟨1, _⟩ | ⟨2, _⟩ | ⟨3, _⟩ | ⟨4, _⟩ => Nat.zero_add _

theorem o2_apply (b : Fin 4) (g : Fin 2) (r d : Fin 128) :
    o2 I c (ix5 (0 : Fin 1) b g r d) = c1oV I c (ix5 (hi c) b g r d) :=
  ld_unit_apply _ _ _ _ _ (k0_off13_eq c) _ _ fun a => match a with
    | ⟨0, _⟩ => rfl
    | ⟨1, _⟩ | ⟨2, _⟩ | ⟨3, _⟩ | ⟨4, _⟩ => Nat.zero_add _

theorem ml2_apply (q : Fin 2) (ch : Fin 8) (r : Fin 128) :
    ml2 I c (ix4 (0 : Fin 1) q ch r) = c1mlV I c (ix4 (hi c) q ch r) :=
  ld_unit_apply _ _ _ _ _ (k0_off14_eq c) _ _ fun a => match a with
    | ⟨0, _⟩ => rfl
    | ⟨1, _⟩ | ⟨2, _⟩ | ⟨3, _⟩ => Nat.zero_add _

theorem r2a_apply (ch : Fin 8) (r : Fin 128) :
    r2a I c (ix4 (0 : Fin 1) (0 : Fin 1) ch r) = c1mlV I (p1 c) (ix4 (hi (p1 c)) (0 : Fin 2) ch r) := by
  unfold r2a
  refine (ld_unit_apply _ _ _ _ _ rfl _ (ix4 (0 : Fin 1) (0 : Fin 2) ch r) fun a => ?_).trans (ml2_apply I (p1 c) 0 ch r)
  match a with
  | ⟨0, _⟩ | ⟨1, _⟩ => rfl
  | ⟨2, _⟩ | ⟨3, _⟩ => exact Nat.zero_add _

theorem r2b_apply (ch : Fin 8) (r : Fin 128) :
    r2b I c (ix4 (0 : Fin 1) (0 : Fin 1) ch r) = c1mlV I (p1 c) (ix4 (hi (p1 c)) (1 : Fin 2) ch r) := by
  unfold r2b
  refine (ld_unit_apply _ _ _ _ _ rfl _ (ix4 (0 : Fin 1) (1 : Fin 2) ch r) fun a => ?_).trans (ml2_apply I (p1 c) 1 ch r)
  match a with
  | ⟨0, _⟩ | ⟨1, _⟩ => rfl
  | ⟨2, _⟩ | ⟨3, _⟩ => exact Nat.zero_add _

end KVC

open KVC

-- The kept and the received block, joined, are the statistics over all key blocks at the device's own rows.
theorem yf_eq (κ : EReal) (X : KernelSpec.XT) (WQ WO : KernelSpec.WT) (KK VV : KernelSpec.KT) (I : Dev nD → Ins Ideal)
    (hwo : ∀ (c : Dev nD) (k n : Fin 1024), (I c).wo (ix2 k n) = WO k n)
    (h2o : ∀ (c : Dev nD) (blk : Fin 2) (b : Fin 4) (g : Fin 2) (r d : Fin 128),
      c1oV I c (ix5 blk b g r d) = KernelSpec.o2 κ X WQ KK VV c b (rowK1 c blk r) (Block.headOf g r) d)
    (h2m : ∀ (c : Dev nD) (blk : Fin 2) (b : Fin 4) (g : Fin 2) (r : Fin 128),
      c1mlV I c (ix4 blk (0 : Fin 2) (MergeB.chan b g) r) = KernelSpec.m2 κ X WQ KK c b (rowK1 c blk r) (Block.headOf g r))
    (h2l : ∀ (c : Dev nD) (blk : Fin 2) (b : Fin 4) (g : Fin 2) (r : Fin 128),
      c1mlV I c (ix4 blk (1 : Fin 2) (MergeB.chan b g) r) = KernelSpec.l2 κ X WQ KK c b (rowK1 c blk r) (Block.headOf g r))
    (c : Dev nD) (b : Fin 4) (i' : Fin 32) (n : Fin 1024) :
    yf I c (ix2 (MergeB.rowIx b i') n) = KernelSpec.yK κ X WQ WO KK VV c b (rowOwn c i') n := by
  unfold yf
  rw [MergeB.proj_apply]
  unfold KernelSpec.yK
  refine Finset.sum_congr rfl fun k _ => ?_
  have hrow : rowK2 c (MergeB.colLine i' k) = rowOwn c i' := Fin.ext (by
    show c.val * 32 + (i'.val * 4 + k.val / 128 % 4) / 4 = c.val * 32 + i'.val
    omega)
  have hhead : Block.headOf (MergeB.colG k) (MergeB.colLine i' k) = Spec.headOf k := Fin.ext (by
    show 4 * (k.val / 512) + (i'.val * 4 + k.val / 128 % 4) % 4 = k.val / 128
    omega)
  unfold MergeB.matAt MergeB.joinedAt
  rw [hwo c k n, k2ml_apply, k2ml_apply, k2o_apply, r2a_apply, r2b_apply, o2_apply,
    h2m, h2l, h2o, h2m, h2l, h2o, rowK1_lo_eq, rowK1_hi_p1_eq, hrow, hhead]
  rfl

/-- info: 'Cert.KernelIdeal.Hand.KV.yf_eq' depends on axioms: [propext, Classical.choice, Quot.sound] -/
#guard_msgs in #print axioms yf_eq

end Cert.KernelIdeal.Hand.KV

end
-- ==== Proof.KernelValueOut.lean ====
import proofs.«900755_g7700000000000756_dist_attn_cross_gqa_kvseq_b4_sq256_skv1024_d1024_hq8_dh128_v7x_i8_bf16_1_alg».proof.Proof.Contents
import proofs.«900755_g7700000000000756_dist_attn_cross_gqa_kvseq_b4_sq256_skv1024_d1024_hq8_dh128_v7x_i8_bf16_1_alg».proof.Proof.BodyOffs
import proofs.«900755_g7700000000000756_dist_attn_cross_gqa_kvseq_b4_sq256_skv1024_d1024_hq8_dh128_v7x_i8_bf16_1_alg».proof.Proof.MergeValsB
import proofs.«900755_g7700000000000756_dist_attn_cross_gqa_kvseq_b4_sq256_skv1024_d1024_hq8_dh128_v7x_i8_bf16_1_alg».proof.Proof.RowFacts

noncomputable section

namespace Cert.KernelIdeal.Hand.KV

open Cert.KernelIdeal Cert.KernelIdeal.Gen Cert.KernelIdeal.Hand
open Idealize.ShloMosaic Idealize.ShloMosaic.ValueIdx
open Cert.Hand
open Cert.Hand.KernelSpec (XT WT KT)

namespace KVO

-- The rows a device sends, back under their unit axis, are its projection's rows.
theorem unsq_yV_apply (I : Dev nD → Ins Ideal) (c : Dev nD) (r : Fin 128) (n : Fin 1024) :
    unsq (yV I c) (ix3 (0 : Fin 1) r n) = yf I c (ix2 r n) := by
  unfold yV
  rw [unsq_sq]
  unfold y1 yf k0_pay157
  exact shapeCast_ab_1ab_apply _ _ _ r n

-- The block at offset s holds the rows of the device c xor s.
theorem off18_1 (c : Dev nD) : k0_off18 c 1#32 = ![0, 32 * (xorDev 1 c).val, 0] := (k0_off18_1_eq c).trans (by revert c; decide)
theorem off18_2 (c : Dev nD) : k0_off18 c 2#32 = ![0, 32 * (xorDev 2 c).val, 0] := (k0_off18_2_eq c).trans (by revert c; decide)
theorem off18_3 (c : Dev nD) : k0_off18 c 3#32 = ![0, 32 * (xorDev 3 c).val, 0] := (k0_off18_3_eq c).trans (by revert c; decide)
theorem off18_4 (c : Dev nD) : k0_off18 c 4#32 = ![0, 32 * (xorDev 4 c).val, 0] := (k0_off18_4_eq c).trans (by revert c; decide)
theorem off18_5 (c : Dev nD) : k0_off18 c 5#32 = ![0, 32 * (xorDev 5 c).val, 0] := (k0_off18_5_eq c).trans (by revert c; decide)
theorem off18_6 (c : Dev nD) : k0_off18 c 6#32 = ![0, 32 * (xorDev 6 c).val, 0] := (k0_off18_6_eq c).trans (by revert c; decide)
theorem off18_7 (c : Dev nD) : k0_off18 c 7#32 = ![0, 32 * (xorDev 7 c).val, 0] := (k0_off18_7_eq c).trans (by revert c; decide)

theorem owner_cases : ∀ c e : Dev nD, e = xorDev 7 c ∨ e = xorDev 5 c ∨ e = xorDev 6 c ∨ e = xorDev 3 c ∨ e = xorDev 4 c
    ∨ e = xorDev 2 c ∨ e = xorDev 1 c ∨ e = c := by decide

def outG (κ : EReal) (X : XT) (WQ WO : WT) (KK VV : KT) : Vec Ideal S4x256x1024 .bf16 :=
  fun y => KernelSpec.yK κ X WQ WO KK VV (ownerOf (y 1)) (y 0) (y 1) (y 2)

variable (off : Fin S4x256x1024.rank → Nat) (inb : ∀ a, off a + S4x32x1024.size a ≤ S4x256x1024.size a)
  (dev : Dev nD) (ho : off = ![0, 32 * dev.val, 0])
include ho

-- A row lies in its owner's block.
theorem mem_rows (b : Fin 4) (i : Fin 256) (n : Fin 1024) (hi : ownerOf i = dev) :
    ix3 b i n ∈ (Rect.unit (s := S4x256x1024) off S4x32x1024.size inb).set := by
  subst ho
  have hd : i.val / 32 = dev.val := congrArg Fin.val hi
  rw [Rect.mem_set_unit]
  intro a
  match a with
  | ⟨0, _⟩ => show 0 ≤ b.val ∧ b.val < 0 + 4; omega
  | ⟨1, _⟩ => show 32 * dev.val ≤ i.val ∧ i.val < 32 * dev.val + 32; omega
  | ⟨2, _⟩ => show 0 ≤ n.val ∧ n.val < 0 + 1024; omega

-- A block stored at the rows of device `dev` and holding its projected rows agrees there with the result.
theorem piece_rows (κ : EReal) (X : XT) (WQ WO : WT) (KK VV : KT) (w : Vec Ideal S4x32x1024 .bf16)
    (hw : ∀ (b : Fin 4) (i : Fin 32) (n : Fin 1024), w (ix3 b i n) = KernelSpec.yK κ X WQ WO KK VV dev b (rowOwn dev i) n)
    (x : (Rect.unit (s := S4x256x1024) off S4x32x1024.size inb).shape.Idx) :
    w x = outG κ X WQ WO KK VV ((Rect.unit (s := S4x256x1024) off S4x32x1024.size inb).emb x) := by
  subst ho
  obtain ⟨b, i, n, rfl⟩ : ∃ (b : Fin 4) (i : Fin 32) (n : Fin 1024), x = ix3 b i n := ⟨x 0, x 1, x 2, eq_ix3 x⟩
  have he : (Rect.unit (s := S4x256x1024) ![0, 32 * dev.val, 0] S4x32x1024.size inb).emb (ix3 b i n) = ix3 b (rowOwn dev i) n :=
    funext fun a => Fin.ext (by
      rw [Rect.emb_apply]
      match a with
      | ⟨0, _⟩ => show 0 + 1 * b.val = b.val; omega
      | ⟨1, _⟩ => show 32 * dev.val + 1 * i.val = dev.val * 32 + i.val; omega
      | ⟨2, _⟩ => show 0 + 1 * n.val = n.val; omega)
  rw [he, hw b i n]
  show _ = KernelSpec.yK κ X WQ WO KK VV (ownerOf (rowOwn dev i)) b (rowOwn dev i) n
  rw [ownerOf_rowOwn]

end KVO

open KVO

-- The eight stored blocks cover the 256 rows and each holds its owner's projected rows, which are the plain result's.
theorem out_eq (κ : EReal) (X : XT) (WQ WO : WT) (KK VV : KT) (hκ : ∃ r : ℝ, κ = (r : EReal))
    (hX : ∀ b i k, ∃ r : ℝ, X b i k = (r : EReal)) (hWQ : ∀ k n, ∃ r : ℝ, WQ k n = (r : EReal))
    (hKK : ∀ b j g d, ∃ r : ℝ, KK b j g d = (r : EReal)) (hVV : ∀ b j g d, ∃ r : ℝ, VV b j g d = (r : EReal))
    (I : Dev nD → Ins Ideal)
    (hYf : ∀ (c : Dev nD) (b : Fin 4) (i' : Fin 32) (n : Fin 1024),
      yf I c (ix2 (MergeB.rowIx b i') n) = KernelSpec.yK κ X WQ WO KK VV c b (rowOwn c i') n)
    (c : Dev nD) (b : Fin 4) (i : Fin 256) (n : Fin 1024) :
    (contsOf I).out c (ix3 b i n) = Cert.Hand.Spec.out κ X WQ WO KK VV b i n := by
  have hslot : ∀ (c' : Dev nD) h1 h2 (b : Fin 4) (i' : Fin 32) (n : Fin 1024),
      shapeCast S4x32x1024 (shapeCast S128x1024 (unsq (yV I c')) h1) h2 (ix3 b i' n)
        = KernelSpec.yK κ X WQ WO KK VV c' b (rowOwn c' i') n :=
    fun c' h1 h2 b i' n => (MergeB.slot_as_groups_apply _ h1 h2 b i' n).trans ((unsq_yV_apply I c' _ n).trans (hYf c' b i' n))
  have h : (contsOf I).out c = outV I c := by simp only [contsOf]
  rw [h]
  unfold outV
  refine (View.canon_apply_of_pieces (outG κ X WQ WO KK VV) (outL I c) ?_ (ix3 b i n) ?_).trans
    (KernelSpec.yK_eq κ X WQ WO KK VV hκ hX hWQ hKK hVV (ownerOf i) b i n)
  · intro p hp
    unfold outL at hp
    simp only [List.mem_cons, List.not_mem_nil, or_false] at hp
    rcases hp with rfl | rfl | rfl | rfl | rfl | rfl | rfl | rfl
    · exact piece_rows _ (k0_off18_inb c 6) _ (off18_7 c) κ X WQ WO KK VV _ (hslot _ _ _)
    · exact piece_rows _ (k0_off18_inb c 4) _ (off18_5 c) κ X WQ WO KK VV _ (hslot _ _ _)
    · exact piece_rows _ (k0_off18_inb c 5) _ (off18_6 c) κ X WQ WO KK VV _ (hslot _ _ _)
    · exact piece_rows _ (k0_off18_inb c 2) _ (off18_3 c) κ X WQ WO KK VV _ (hslot _ _ _)
    · exact piece_rows _ (k0_off18_inb c 3) _ (off18_4 c) κ X WQ WO KK VV _ (hslot _ _ _)
    · exact piece_rows _ (k0_off18_inb c 1) _ (off18_2 c) κ X WQ WO KK VV _ (hslot _ _ _)
    · exact piece_rows _ (k0_off18_inb c 0) _ (off18_1 c) κ X WQ WO KK VV _ (hslot _ _ _)
    · exact piece_rows _ (k0_off17_inb c) _ (k0_off17_eq c) κ X WQ WO KK VV _ fun b i' n =>
        (MergeB.rows_as_groups_apply _ _ b i' n).trans (hYf c b i' n)
  · unfold outL
    simp only [List.exists_mem_cons_iff, List.not_mem_nil, false_and, exists_false, or_false]
    exact (owner_cases c (ownerOf i)).imp (mem_rows _ (k0_off18_inb c 6) _ (off18_7 c) b i n) <| .imp (mem_rows _ (k0_off18_inb c 4) _ (off18_5 c) b i n) <|
      .imp (mem_rows _ (k0_off18_inb c 5) _ (off18_6 c) b i n) <| .imp (mem_rows _ (k0_off18_inb c 2) _ (off18_3 c) b i n) <|
      .imp (mem_rows _ (k0_off18_inb c 3) _ (off18_4 c) b i n) <| .imp (mem_rows _ (k0_off18_inb c 1) _ (off18_2 c) b i n) <|
      .imp (mem_rows _ (k0_off18_inb c 0) _ (off18_1 c) b i n) (mem_rows _ (k0_off17_inb c) _ (k0_off17_eq c) b i n)

/-- info: 'Cert.KernelIdeal.Hand.KV.out_eq' depends on axioms: [propext, Classical.choice, Quot.sound] -/
#guard_msgs in #print axioms out_eq

end Cert.KernelIdeal.Hand.KV

end
-- ==== Proof.KernelValue.lean ====
import proofs.«900755_g7700000000000756_dist_attn_cross_gqa_kvseq_b4_sq256_skv1024_d1024_hq8_dh128_v7x_i8_bf16_1_alg».proof.Proof.Inputs
import proofs.«900755_g7700000000000756_dist_attn_cross_gqa_kvseq_b4_sq256_skv1024_d1024_hq8_dh128_v7x_i8_bf16_1_alg».proof.Proof.RefValue
import proofs.«900755_g7700000000000756_dist_attn_cross_gqa_kvseq_b4_sq256_skv1024_d1024_hq8_dh128_v7x_i8_bf16_1_alg».proof.Proof.KernelValueK2
import proofs.«900755_g7700000000000756_dist_attn_cross_gqa_kvseq_b4_sq256_skv1024_d1024_hq8_dh128_v7x_i8_bf16_1_alg».proof.Proof.KernelValueB
import proofs.«900755_g7700000000000756_dist_attn_cross_gqa_kvseq_b4_sq256_skv1024_d1024_hq8_dh128_v7x_i8_bf16_1_alg».proof.Proof.KernelValueC
import proofs.«900755_g7700000000000756_dist_attn_cross_gqa_kvseq_b4_sq256_skv1024_d1024_hq8_dh128_v7x_i8_bf16_1_alg».proof.Proof.KernelValueOut

noncomputable section

namespace Cert.KernelIdeal.Hand.KV

open Cert.KernelIdeal Cert.KernelIdeal.Gen Cert.KernelIdeal.Hand
open Idealize.ShloMosaic Idealize.ShloMosaic.ValueIdx Idealize.ShloMosaic.TcCoe Idealize.SL.Sem
open Cert.Hand
open Cert.Hand.KernelSpec (XT WT KT)

variable (m : (ℓ : Loc nD τ sig) → Buf (Elt Ideal) ℓ)

theorem ins_x (c : Dev nD) : (ins m c).x = m ((c : Thread nD τ).loc main_arg0) :=
  funext fun y => congrArg (m _) (funext fun a => Fin.ext (Pipeline.Window.rect_emb_val_of_index_zero (cfg0.win 0) t0_0 a rfl y))
theorem ins_wq (c : Dev nD) : (ins m c).wq = m ((c : Thread nD τ).loc main_arg1) :=
  funext fun y => congrArg (m _) (funext fun a => Fin.ext (Pipeline.Window.rect_emb_val_of_index_zero (cfg0.win 1) t0_0 a rfl y))
theorem ins_wo (c : Dev nD) : (ins m c).wo = m ((c : Thread nD τ).loc main_arg2) :=
  funext fun y => congrArg (m _) (funext fun a => Fin.ext (Pipeline.Window.rect_emb_val_of_index_zero (cfg0.win 2) t0_0 a rfl y))
theorem ins_kb (c : Dev nD) : (ins m c).kb = m ((c : Thread nD τ).loc main_arg3) :=
  funext fun y => congrArg (m _) (funext fun a => Fin.ext (Pipeline.Window.rect_emb_val_of_index_zero (cfg0.win 3) t0_0 a rfl y))
theorem ins_vb (c : Dev nD) : (ins m c).vb = m ((c : Thread nD τ).loc main_arg4) :=
  funext fun y => congrArg (m _) (funext fun a => Fin.ext (Pipeline.Window.rect_emb_val_of_index_zero (cfg0.win 4) t0_0 a rfl y))

-- Local attention on both halves of the rows, three joins across the bits of the device's position, normalisation and projection.
theorem contsOf_out_eq (I : Dev nD → Ins Ideal) (X : XT) (WQ WO : WT) (KK VV : KT)
    (hx : ∀ (c : Dev nD) (b : Fin 4) (i : Fin 256) (k : Fin 1024), (I c).x (ix3 b i k) = X b i k)
    (hwq : ∀ (c : Dev nD) (k n : Fin 1024), (I c).wq (ix2 k n) = WQ k n)
    (hwo : ∀ (c : Dev nD) (k n : Fin 1024), (I c).wo (ix2 k n) = WO k n)
    (hkb : ∀ (c : Dev nD) (b : Fin 4) (j : Fin 1024) (g : Fin 2) (d : Fin 128), (I c).kb (ix4 b j g d) = KK b (KernelSpec.blk c j) g d)
    (hvb : ∀ (c : Dev nD) (b : Fin 4) (j : Fin 1024) (g : Fin 2) (d : Fin 128), (I c).vb (ix4 b j g d) = VV b (KernelSpec.blk c j) g d)
    (hXr : ∀ b i k, ∃ r : ℝ, X b i k = (r : EReal)) (hWQr : ∀ k n, ∃ r : ℝ, WQ k n = (r : EReal))
    (hKKr : ∀ b j g d, ∃ r : ℝ, KK b j g d = (r : EReal)) (hVVr : ∀ b j g d, ∃ r : ℝ, VV b j g d = (r : EReal))
    (c : Dev nD) (b : Fin 4) (i : Fin 256) (n : Fin 1024) :
    (contsOf I).out c (ix3 b i n) = Spec.out (Ideal.ofBits .f32 0x3DB504F3#32) X WQ WO KK VV b i n := by
  have hk_m := Alt.kpML_top_apply I X WQ KK VV hx hwq hkb hvb
  have hk_l := Alt.kpML_den_apply I X WQ KK VV hx hwq hkb hvb
  have hs_m := ml0_top_apply I X WQ KK VV hx hwq hkb hvb
  have h1m := c0mlV_top_apply I X WQ KK hk_m hs_m
  exact out_eq _ X WQ WO KK VV RefValue.kappa_real hXr hWQr hKKr hVVr I
    (yf_eq _ X WQ WO KK VV I hwo
      (c1oV_apply _ X WQ KK VV I
        (c0oV_apply I X WQ KK VV (Alt.kpO_apply I X WQ KK VV hx hwq hkb hvb) hk_m (o0_apply I X WQ KK VV hx hwq hkb hvb) hs_m) h1m)
      (c1mlV_top_apply _ X WQ KK I h1m)
      (c1mlV_den_apply _ X WQ KK I h1m
        (c0mlV_den_apply I X WQ KK hk_m hk_l hs_m (ml0_den_apply I X WQ KK VV hx hwq hkb hvb)))) c b i n

variable (m' : (ℓ : Loc Cert.ReferenceIdeal.nD Cert.ReferenceIdeal.τ Cert.ReferenceIdeal.sig) → Buf (Elt Ideal) ℓ)

abbrev ra (k) := m' (((0 : Dev Cert.ReferenceIdeal.nD).tc : Thread Cert.ReferenceIdeal.nD Cert.ReferenceIdeal.τ).loc k)

-- The kernel's result on every device is the reference's result term of the reference's whole arguments, read by coordinates.
theorem kernel_out_eq [Cert.Pre_finite_inputs_Kernel.Facts] (hpre : Cert.Pre_KernelIdeal m)
    (hagree : ∀ c : Dev Cert.KernelIdeal.nD,
      m ((c.tc : Thread nD τ).loc main_arg0) = ra m' Cert.ReferenceIdeal.main_arg0
      ∧ m ((c.tc : Thread nD τ).loc main_arg1) = ra m' Cert.ReferenceIdeal.main_arg1
      ∧ m ((c.tc : Thread nD τ).loc main_arg2) = ra m' Cert.ReferenceIdeal.main_arg2
      ∧ m ((c.tc : Thread nD τ).loc main_arg3) = Layout.block ⟨4, ![4, 1024, 2, 128]⟩ ⟨4, ![4, 8192, 2, 128]⟩ 1 8 c (ra m' Cert.ReferenceIdeal.main_arg3)
      ∧ m ((c.tc : Thread nD τ).loc main_arg4) = Layout.block ⟨4, ![4, 1024, 2, 128]⟩ ⟨4, ![4, 8192, 2, 128]⟩ 1 8 c (ra m' Cert.ReferenceIdeal.main_arg4))
    (c : Dev Cert.KernelIdeal.nD) :
    (conts (F := Ideal) m).out c
      = RefValue.refTerm (ra m' Cert.ReferenceIdeal.main_arg0) (ra m' Cert.ReferenceIdeal.main_arg1) (ra m' Cert.ReferenceIdeal.main_arg2)
          (ra m' Cert.ReferenceIdeal.main_arg3) (ra m' Cert.ReferenceIdeal.main_arg4) := by
  funext idx
  obtain ⟨b, i, n, rfl⟩ : ∃ (b : Fin 4) (i : Fin 256) (n : Fin 1024), idx = ix3 b i n := ⟨idx 0, idx 1, idx 2, eq_ix3 idx⟩
  have hr := Inputs.ref_args_real m m' hpre hagree
  refine Eq.trans ?_ (RefValue.refTerm_apply _ _ _ _ _ hr.1 hr.2.1 hr.2.2.2.1 hr.2.2.2.2 b i n).symm
  exact contsOf_out_eq (ins m) _ _ _ _ _
    (fun c b i k => congrFun ((ins_x m c).trans (hagree c).1) (ix3 b i k))
    (fun c k n => congrFun ((ins_wq m c).trans (hagree c).2.1) (ix2 k n))
    (fun c k n => congrFun ((ins_wo m c).trans (hagree c).2.2.1) (ix2 k n))
    (fun c b j g d => (congrFun ((ins_kb m c).trans (hagree c).2.2.2.1) (ix4 b j g d)).trans (Inputs.block_ix4 ..))
    (fun c b j g d => (congrFun ((ins_vb m c).trans (hagree c).2.2.2.2) (ix4 b j g d)).trans (Inputs.block_ix4 ..))
    (fun b i k => hr.1 (ix3 b i k)) (fun k n => hr.2.1 (ix2 k n))
    (fun b j g d => hr.2.2.2.1 (ix4 b j g d)) (fun b j g d => hr.2.2.2.2 (ix4 b j g d)) c b i n

/-- info: 'Cert.KernelIdeal.Hand.KV.contsOf_out_eq' depends on axioms: [propext, Classical.choice, Quot.sound] -/
#guard_msgs in #print axioms contsOf_out_eq

/-- info: 'Cert.KernelIdeal.Hand.KV.kernel_out_eq' depends on axioms: [propext, Classical.choice, Quot.sound] -/
#guard_msgs in #print axioms kernel_out_eq

end Cert.KernelIdeal.Hand.KV

end
-- ==== Proof.Bits.Base.lean ====
import proofs.«900755_g7700000000000756_dist_attn_cross_gqa_kvseq_b4_sq256_skv1024_d1024_hq8_dh128_v7x_i8_bf16_1_alg».proof.Proof.Gen.Kernel
import proofs.«900755_g7700000000000756_dist_attn_cross_gqa_kvseq_b4_sq256_skv1024_d1024_hq8_dh128_v7x_i8_bf16_1_alg».proof.Proof.Gen.Kernel.Skeleton
import proofs.«900755_g7700000000000756_dist_attn_cross_gqa_kvseq_b4_sq256_skv1024_d1024_hq8_dh128_v7x_i8_bf16_1_alg».proof.Proof.Gen.Kernel.Launch
import proofs.«900755_g7700000000000756_dist_attn_cross_gqa_kvseq_b4_sq256_skv1024_d1024_hq8_dh128_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel.Gen
open Idealize.ShloMosaic
open Idealize.SL Idealize.SL.RA Idealize.SL.BI
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def px (k : Nat) (hk : k < 8) (c : Dev nD) : Dev nD := ⟨c.val ^^^ k, by
  have h := c.isLt
  exact Nat.xor_lt_two_pow (n := 3) h hk⟩

def p4 (c : Dev nD) : Dev nD := px 4 (by decide) c
def p2 (c : Dev nD) : Dev nD := px 2 (by decide) c
def p1 (c : Dev nD) : Dev nD := px 1 (by decide) c

theorem p4_p4 : ∀ c : Dev nD, p4 (p4 c) = c := by decide
theorem p2_p2 : ∀ c : Dev nD, p2 (p2 c) = c := by decide
theorem p1_p1 : ∀ c : Dev nD, p1 (p1 c) = c := by decide

theorem dev1_eq : ∀ c : Dev nD, (⟨k0_dev1 c, k0_dev1_lt c⟩ : Dev nD) = p4 c := by decide +kernel
theorem dev2_eq : ∀ c : Dev nD, (⟨k0_dev2 c, k0_dev2_lt c⟩ : Dev nD) = p2 c := by decide +kernel
theorem dev3_eq : ∀ c : Dev nD, (⟨k0_dev3 c, k0_dev3_lt c⟩ : Dev nD) = p1 c := by decide +kernel
theorem dev4_eq : ∀ c : Dev nD, (⟨k0_dev4 c, k0_dev4_lt c⟩ : Dev nD) = p4 c := by decide +kernel
theorem dev5_eq : ∀ c : Dev nD, (⟨k0_dev5 c, k0_dev5_lt c⟩ : Dev nD) = p4 c := by decide +kernel
theorem dev6_eq : ∀ c : Dev nD, (⟨k0_dev6 c, k0_dev6_lt c⟩ : Dev nD) = p2 c := by decide +kernel
theorem dev7_eq : ∀ c : Dev nD, (⟨k0_dev7 c, k0_dev7_lt c⟩ : Dev nD) = p2 c := by decide +kernel
theorem dev8_eq : ∀ c : Dev nD, (⟨k0_dev8 c, k0_dev8_lt c⟩ : Dev nD) = p1 c := by decide +kernel
theorem dev9_eq : ∀ c : Dev nD, (⟨k0_dev9 c, k0_dev9_lt c⟩ : Dev nD) = p1 c := by decide +kernel
theorem dev10_eq : ∀ c : Dev nD, (⟨k0_dev10 c, k0_dev10_lt c⟩ : Dev nD) = p1 c := by decide +kernel
theorem dev11_eq : ∀ c : Dev nD, (⟨k0_dev11 c, k0_dev11_lt c⟩ : Dev nD) = p2 c := by decide +kernel
theorem dev12_eq : ∀ c : Dev nD, (⟨k0_dev12 c, k0_dev12_lt c⟩ : Dev nD) = p4 c := by decide +kernel
theorem dev13_eq : ∀ c : Dev nD, (⟨k0_dev13 c, k0_dev13_lt c⟩ : Dev nD) = p1 c := by decide +kernel
theorem dev14_eq : ∀ c : Dev nD, (⟨k0_dev14 c, k0_dev14_lt c⟩ : Dev nD) = p2 c := by decide +kernel
theorem dev15_eq : ∀ c : Dev nD, (⟨k0_dev15 c, k0_dev15_lt c⟩ : Dev nD) = p4 c := by decide +kernel
theorem dev16_eq : ∀ c : Dev nD, (⟨k0_dev16 c, k0_dev16_lt c⟩ : Dev nD) = p1 c := by decide +kernel
theorem dev17_eq : ∀ c : Dev nD, (⟨k0_dev17 c, k0_dev17_lt c⟩ : Dev nD) = p4 c := by decide +kernel
theorem dev18_eq : ∀ c : Dev nD, (⟨k0_dev18 c, k0_dev18_lt c⟩ : Dev nD) = p2 c := by decide +kernel
theorem dev19_eq : ∀ c : Dev nD, (⟨k0_dev19 c, k0_dev19_lt c⟩ : Dev nD) = p1 c := by decide +kernel

end Cert.Kernel.Hand

end
-- ==== Proof.Bits.Proto.lean ====
import proofs.«900755_g7700000000000756_dist_attn_cross_gqa_kvseq_b4_sq256_skv1024_d1024_hq8_dh128_v7x_i8_bf16_1_alg».proof.Proof.Bits.Base

noncomputable section

namespace Cert.Kernel.Hand

open Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev barS : Sem sig := (SemArray.scalar (sig.barrier 0 rfl) : Sems sig S_).sem
abbrev endS : Sem sig := (cc0_scoped0 : Sems sig S_).sem

def sendNo : Fin 13 → DmaSem sig := ![6, 12, 7, 13, 8, 14, 18, 19, 20, 21, 22, 23, 24]
def recvNo : Fin 13 → DmaSem sig := ![9, 15, 10, 16, 11, 17, 25, 26, 27, 28, 29, 30, 31]
def partner : Fin 13 → Dev nD → Dev nD := ![p4, p4, p2, p2, p1, p1, p1, p2, p4, p1, p2, p4, p1]
def barPartner : Fin 3 → Dev nD → Dev nD := ![p4, p2, p1]

theorem partner_partner : ∀ (k : Fin 13) (c : Dev nD), partner k (partner k c) = c := by decide
theorem barPartner_barPartner : ∀ (d : Fin 3) (c : Dev nD), barPartner d (barPartner d c) = c := by decide

abbrev barCell (c : Dev nD) : GSem nD τ sig := ((c : Thread nD τ), .reg barS)
abbrev endCell (c : Dev nD) : GSem nD τ sig := ((c : Thread nD τ), .reg endS)
abbrev sendCell (k : Fin 13) (c : Dev nD) : GSem nD τ sig := ((c : Thread nD τ), .dma (sendNo k))
abbrev recvCell (k : Fin 13) (c : Dev nD) : GSem nD τ sig := ((c : Thread nD τ), .dma (recvNo k))

abbrev sdO : Memref sig .tc .vmem S4x4x2x128x128 .bf16 := Memref.whole cc0_scratch1
abbrev sdML : Memref sig .tc .vmem S4x2x8x128 .f32 := Memref.whole cc0_scratch2
abbrev ro0 : Memref sig .tc .vmem S4x4x2x128x128 .bf16 := Memref.whole cc0_scratch5
abbrev ro1 : Memref sig .tc .vmem S2x4x2x128x128 .bf16 := Memref.whole cc0_scratch6
abbrev ro2 : Memref sig .tc .vmem S1x4x2x128x128 .bf16 := Memref.whole cc0_scratch7
abbrev rml0 : Memref sig .tc .vmem S4x2x8x128 .f32 := Memref.whole cc0_scratch8
abbrev rml1 : Memref sig .tc .vmem S2x2x8x128 .f32 := Memref.whole cc0_scratch9
abbrev rml2 : Memref sig .tc .vmem S1x2x8x128 .f32 := Memref.whole cc0_scratch10
abbrev c0o : Memref sig .tc .vmem S4x4x2x128x128 .bf16 := Memref.whole cc0_scratch11
abbrev c0ml : Memref sig .tc .vmem S4x2x8x128 .f32 := Memref.whole cc0_scratch12
abbrev c1o : Memref sig .tc .vmem S2x4x2x128x128 .bf16 := Memref.whole cc0_scratch13
abbrev c1ml : Memref sig .tc .vmem S2x2x8x128 .f32 := Memref.whole cc0_scratch14
abbrev yx : Memref sig .tc .vmem S8x128x1024 .bf16 := Memref.whole cc0_scratch15

abbrev c0oS (c : Dev nD) : Memref sig .tc .vmem S2x4x2x128x128 .bf16 :=
  c0o.slice (Rect.unit (s := S4x4x2x128x128) (k0_off9 c) S2x4x2x128x128.size (k0_off9_inb c)) (fun _ => rfl)
abbrev c0mlS (c : Dev nD) : Memref sig .tc .vmem S2x2x8x128 .f32 :=
  c0ml.slice (Rect.unit (s := S4x2x8x128) (k0_off10 c) S2x2x8x128.size (k0_off10_inb c)) (fun _ => rfl)
abbrev c1oS (c : Dev nD) : Memref sig .tc .vmem S1x4x2x128x128 .bf16 :=
  c1o.slice (Rect.unit (s := S2x4x2x128x128) (k0_off13 c) S1x4x2x128x128.size (k0_off13_inb c)) (fun _ => rfl)
abbrev c1mlS (c : Dev nD) : Memref sig .tc .vmem S1x2x8x128 .f32 :=
  c1ml.slice (Rect.unit (s := S2x2x8x128) (k0_off14 c) S1x2x8x128.size (k0_off14_inb c)) (fun _ => rfl)

theorem inbY : ∀ (s : Fin 8) (a : Fin 3), (![s.val, 0, 0] : Fin 3 → Nat) a + S1x128x1024.size a ≤ S8x128x1024.size a := by decide

abbrev ySlot (s : Fin 8) : Memref sig .tc .vmem S128x1024 .bf16 :=
  (yx.slice (Rect.unit (s := S8x128x1024) ![s.val, 0, 0] S1x128x1024.size (inbY s)) (fun _ => rfl)).squeeze S128x1024 squeezes_S1x128x1024_S128x1024

def ySrc : Fin 7 → Fin 8 := ![0, 0, 0, 2, 4, 1, 6]
def yDst : Fin 7 → Fin 8 := ![1, 2, 4, 3, 6, 5, 7]

structure Conts (F : FTy → Type) where
  o0 : Dev nD → Vec F S4x4x2x128x128 .bf16
  ml0 : Dev nD → Vec F S4x2x8x128 .f32
  o1 : Dev nD → Vec F S2x4x2x128x128 .bf16
  ml1 : Dev nD → Vec F S2x2x8x128 .f32
  o2 : Dev nD → Vec F S1x4x2x128x128 .bf16
  ml2 : Dev nD → Vec F S1x2x8x128 .f32
  y : Dev nD → Vec F S128x1024 .bf16
  out : Dev nD → Vec F S4x256x1024 .bf16

variable (𝒞 : Conts F)

def held {sp : Space} {s : Shape} {e : EltTy} (v : Memref sig .tc sp s e) (c : Dev nD) : sProp 𝕄 :=
  iprop(∃ f : Buf (Elt F) (v.view.loc (c : Thread nD τ)), (v.view.loc (c : Thread nD τ)) ↦[v.view.set]{fullShare} f)

def holds {sp : Space} {s : Shape} {e : EltTy} (v : Memref sig .tc sp s e) (c : Dev nD) (q : PosShare TreeShare) (x : Vec F s e) : sProp 𝕄 :=
  iprop(∃ f : Buf (Elt F) (v.view.loc (c : Thread nD τ)), ⌜v.view.read (Elt F) f = x⌝ ∗ ((v.view.loc (c : Thread nD τ)) ↦[v.view.set]{q} f))

end Cert.Kernel.Hand

end
-- ==== Proof.Bits.Sched.lean ====
import proofs.«900755_g7700000000000756_dist_attn_cross_gqa_kvseq_b4_sq256_skv1024_d1024_hq8_dh128_v7x_i8_bf16_1_alg».proof.Proof.Bits.Proto

noncomputable section

namespace Cert.Kernel.Hand

open Cert.Kernel.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (𝒞 : Conts F)

def xorDev (s : Fin 8) (c : Dev nD) : Dev nD := px s.val s.isLt c

def yShare : Fin 7 → PosShare TreeShare :=
  ![fullShare.left.left, fullShare.left.right, fullShare.right, fullShare.left, fullShare.left, fullShare.left, fullShare.left]

def barPay (c : Dev nD) (d : Fin 3) : sProp 𝕄 :=
  match d with
  | ⟨0, _⟩ => iprop(held (F := F) ro0 (p4 c) ∗ held (F := F) rml0 (p4 c) ∗ held (F := F) (ySlot 4) (p4 c) ∗ held (F := F) (ySlot 5) (p4 c)
      ∗ reached ER (recvCell 0 (p4 c)) 0 ∗ reached ER (recvCell 1 (p4 c)) 0 ∗ reached ER (recvCell 8 (p4 c)) 0 ∗ reached ER (recvCell 11 (p4 c)) 0)
  | ⟨1, _⟩ => iprop(held (F := F) ro1 (p2 c) ∗ held (F := F) rml1 (p2 c) ∗ held (F := F) (ySlot 2) (p2 c) ∗ held (F := F) (ySlot 6) (p2 c)
      ∗ reached ER (recvCell 2 (p2 c)) 0 ∗ reached ER (recvCell 3 (p2 c)) 0 ∗ reached ER (recvCell 7 (p2 c)) 0 ∗ reached ER (recvCell 10 (p2 c)) 0)
  | ⟨_ + 2, _⟩ => iprop(held (F := F) ro2 (p1 c) ∗ held (F := F) rml2 (p1 c) ∗ held (F := F) (ySlot 1) (p1 c) ∗ held (F := F) (ySlot 3) (p1 c) ∗ held (F := F) (ySlot 7) (p1 c)
      ∗ reached ER (recvCell 4 (p1 c)) 0 ∗ reached ER (recvCell 5 (p1 c)) 0 ∗ reached ER (recvCell 6 (p1 c)) 0 ∗ reached ER (recvCell 9 (p1 c)) 0 ∗ reached ER (recvCell 12 (p1 c)) 0)

def recvPay (k : Fin 13) (c : Dev nD) : sProp 𝕄 :=
  match k with
  | ⟨0, _⟩ => holds ro0 c fullShare (𝒞.o0 (p4 c))
  | ⟨1, _⟩ => holds rml0 c fullShare (𝒞.ml0 (p4 c))
  | ⟨2, _⟩ => holds ro1 c fullShare (𝒞.o1 (p2 c))
  | ⟨3, _⟩ => holds rml1 c fullShare (𝒞.ml1 (p2 c))
  | ⟨4, _⟩ => holds ro2 c fullShare (𝒞.o2 (p1 c))
  | ⟨5, _⟩ => holds rml2 c fullShare (𝒞.ml2 (p1 c))
  | ⟨j + 6, h⟩ => holds (ySlot (yDst ⟨j, by omega⟩)) c fullShare (𝒞.y (xorDev (yDst ⟨j, by omega⟩) c))

def sendPay (k : Fin 13) (c : Dev nD) : sProp 𝕄 :=
  match k with
  | ⟨0, _⟩ => holds sdO c fullShare (𝒞.o0 c)
  | ⟨1, _⟩ => holds sdML c fullShare (𝒞.ml0 c)
  | ⟨2, _⟩ => holds (c0oS c) c fullShare (𝒞.o1 c)
  | ⟨3, _⟩ => holds (c0mlS c) c fullShare (𝒞.ml1 c)
  | ⟨4, _⟩ => holds (c1oS c) c fullShare (𝒞.o2 c)
  | ⟨5, _⟩ => holds (c1mlS c) c fullShare (𝒞.ml2 c)
  | ⟨j + 6, h⟩ => holds (ySlot (ySrc ⟨j, by omega⟩)) c (yShare ⟨j, by omega⟩) (𝒞.y (xorDev (ySrc ⟨j, by omega⟩) c))

def xferAmt : Fin 13 → ℕ :=
  ![ro0.view.dmaCredit, rml0.view.dmaCredit, ro1.view.dmaCredit, rml1.view.dmaCredit, ro2.view.dmaCredit, rml2.view.dmaCredit,
    (ySlot 1).view.dmaCredit, (ySlot 2).view.dmaCredit, (ySlot 4).view.dmaCredit, (ySlot 3).view.dmaCredit, (ySlot 6).view.dmaCredit,
    (ySlot 5).view.dmaCredit, (ySlot 7).view.dmaCredit]

end Cert.Kernel.Hand

end
-- ==== Proof.Bits.Rd.lean ====
import proofs.«900755_g7700000000000756_dist_attn_cross_gqa_kvseq_b4_sq256_skv1024_d1024_hq8_dh128_v7x_i8_bf16_1_alg».proof.Proof.Bits.Sched

noncomputable section

namespace Cert.Kernel.Hand

open Cert.Kernel.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

inductive Role where
  | bar | fin | send (k : Fin 13) | recv (k : Fin 13) | idle
  deriving DecidableEq

def dmaRole (q : DmaSem sig) : Role :=
  match q.val with
  | 6 => .send 0 | 12 => .send 1 | 7 => .send 2 | 13 => .send 3 | 8 => .send 4 | 14 => .send 5
  | 18 => .send 6 | 19 => .send 7 | 20 => .send 8 | 21 => .send 9 | 22 => .send 10 | 23 => .send 11 | 24 => .send 12
  | 9 => .recv 0 | 15 => .recv 1 | 10 => .recv 2 | 16 => .recv 3 | 11 => .recv 4 | 17 => .recv 5
  | 25 => .recv 6 | 26 => .recv 7 | 27 => .recv 8 | 28 => .recv 9 | 29 => .recv 10 | 30 => .recv 11 | 31 => .recv 12
  | _ => .idle

def semRole : SemLoc sig → Role
  | .reg s => if s = barS then .bar else if s = endS then .fin else .idle
  | .dma q => dmaRole q

theorem endS_ne_barS : endS ≠ barS := by decide
theorem semRole_bar : semRole (.reg barS) = .bar := by unfold semRole; exact if_pos rfl
theorem semRole_end : semRole (.reg endS) = .fin := by unfold semRole; exact (if_neg endS_ne_barS).trans (if_pos rfl)
theorem semRole_send : ∀ k : Fin 13, semRole (.dma (sendNo k)) = .send k := by decide
theorem semRole_recv : ∀ k : Fin 13, semRole (.dma (recvNo k)) = .recv k := by decide

theorem xferAmt_pos : ∀ k : Fin 13, 0 < xferAmt k := by
  intro k
  fin_cases k <;> exact View.dmaCredit_pos _ (by decide)

def dutiesOf : Role → Finset (Fin 3)
  | .bar => Finset.univ | .fin => Finset.univ | .send _ => {0} | .recv _ => {0} | .idle => ∅
def amtOf : Role → ℕ
  | .send k => xferAmt k | .recv k => xferAmt k | _ => 1
def payOf (𝒞 : Conts F) (c : Dev nD) (d : Fin 3) : Role → sProp 𝕄
  | .bar => barPay (F := F) c d | .fin => iprop(emp) | .send k => sendPay 𝒞 k c | .recv k => recvPay 𝒞 k c | .idle => iprop(emp)

theorem amtOf_pos (ro : Role) : 0 < amtOf ro := by
  cases ro <;> first | exact Nat.one_pos | exact xferAmt_pos _

def Rd (𝒞 : Conts F) : Rounds.Schedule (GSem nD τ sig) (Fin 3) 𝕄 where
  duties g r := if r = 0 ∧ g.1.2 = .tc then dutiesOf (semRole g.2) else ∅
  unitless _ := False
  amount g _ _ := amtOf (semRole g.2)
  payload g _ d := payOf 𝒞 g.1.1 d (semRole g.2)
  amount_pos g _ _ _ := amtOf_pos _

section Tables

theorem duties_bar (𝒞 : Conts F) (c : Dev nD) : (Rd 𝒞).duties (barCell c) 0 = Finset.univ := by
  dsimp only [Rd]; rw [if_pos ⟨rfl, rfl⟩, semRole_bar]; rfl
theorem duties_end (𝒞 : Conts F) (c : Dev nD) : (Rd 𝒞).duties (endCell c) 0 = Finset.univ := by
  dsimp only [Rd]; rw [if_pos ⟨rfl, rfl⟩, semRole_end]; rfl
theorem duties_send (𝒞 : Conts F) (c : Dev nD) (k : Fin 13) : (Rd 𝒞).duties (sendCell k c) 0 = {0} := by
  dsimp only [Rd]; rw [if_pos ⟨rfl, rfl⟩, semRole_send]; rfl
theorem duties_recv (𝒞 : Conts F) (c : Dev nD) (k : Fin 13) : (Rd 𝒞).duties (recvCell k c) 0 = {0} := by
  dsimp only [Rd]; rw [if_pos ⟨rfl, rfl⟩, semRole_recv]; rfl
theorem duties_later (𝒞 : Conts F) (g : GSem nD τ sig) : ∀ r, 1 ≤ r → (Rd 𝒞).duties g r = ∅ :=
  fun r hr => by dsimp only [Rd]; rw [if_neg fun h => by omega]

theorem amount_bar (𝒞 : Conts F) (c : Dev nD) (d : Fin 3) : (Rd 𝒞).amount (barCell c) 0 d = 1 := by dsimp only [Rd]; rw [semRole_bar]; rfl
theorem amount_end (𝒞 : Conts F) (c : Dev nD) (d : Fin 3) : (Rd 𝒞).amount (endCell c) 0 d = 1 := by dsimp only [Rd]; rw [semRole_end]; rfl
theorem amount_send (𝒞 : Conts F) (c : Dev nD) (k : Fin 13) (d : Fin 3) : (Rd 𝒞).amount (sendCell k c) 0 d = xferAmt k := by dsimp only [Rd]; rw [semRole_send]; rfl
theorem amount_recv (𝒞 : Conts F) (c : Dev nD) (k : Fin 13) (d : Fin 3) : (Rd 𝒞).amount (recvCell k c) 0 d = xferAmt k := by dsimp only [Rd]; rw [semRole_recv]; rfl

theorem expect_bar (𝒞 : Conts F) (c : Dev nD) : (Rd 𝒞).expect (barCell c) 0 = 3 := by
  unfold Schedule.expect Schedule.amountOf
  rw [duties_bar, Finset.sum_congr rfl fun d _ => amount_bar 𝒞 c d, Finset.sum_const, Finset.card_univ, Fintype.card_fin, smul_eq_mul]
theorem expect_send (𝒞 : Conts F) (c : Dev nD) (k : Fin 13) : (Rd 𝒞).expect (sendCell k c) 0 = xferAmt k := by
  unfold Schedule.expect Schedule.amountOf; rw [duties_send, Finset.sum_singleton, amount_send]
theorem expect_recv (𝒞 : Conts F) (c : Dev nD) (k : Fin 13) : (Rd 𝒞).expect (recvCell k c) 0 = xferAmt k := by
  unfold Schedule.expect Schedule.amountOf; rw [duties_recv, Finset.sum_singleton, amount_recv]

theorem payload_bar (𝒞 : Conts F) (c : Dev nD) (d : Fin 3) : (Rd 𝒞).payload (barCell c) 0 d = barPay (F := F) c d := by dsimp only [Rd]; rw [semRole_bar]; rfl
theorem payload_end (𝒞 : Conts F) (c : Dev nD) (d : Fin 3) : (Rd 𝒞).payload (endCell c) 0 d = iprop(emp) := by dsimp only [Rd]; rw [semRole_end]; rfl
theorem payload_send (𝒞 : Conts F) (c : Dev nD) (k : Fin 13) (d : Fin 3) : (Rd 𝒞).payload (sendCell k c) 0 d = sendPay 𝒞 k c := by dsimp only [Rd]; rw [semRole_send]; rfl
theorem payload_recv (𝒞 : Conts F) (c : Dev nD) (k : Fin 13) (d : Fin 3) : (Rd 𝒞).payload (recvCell k c) 0 d = recvPay 𝒞 k c := by dsimp only [Rd]; rw [semRole_recv]; rfl

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar (𝒞 : Conts F) (c : Dev nD) : bigSep ((Rd 𝒞).duties (barCell c) 0 \ ∅) (fun d => (Rd 𝒞).payload (barCell c) 0 d)
    = iprop(barPay (F := F) c 0 ∗ barPay (F := F) c 1 ∗ barPay (F := F) c 2) := by
  rw [Finset.sdiff_empty, duties_bar, bigSep_fin3, payload_bar, payload_bar, payload_bar]
theorem rest_send (𝒞 : Conts F) (c : Dev nD) (k : Fin 13) : bigSep ((Rd 𝒞).duties (sendCell k c) 0 \ ∅) (fun d => (Rd 𝒞).payload (sendCell k c) 0 d) = sendPay 𝒞 k c := by
  rw [Finset.sdiff_empty, duties_send, bigSep_singleton, payload_send]
theorem rest_recv (𝒞 : Conts F) (c : Dev nD) (k : Fin 13) : bigSep ((Rd 𝒞).duties (recvCell k c) 0 \ ∅) (fun d => (Rd 𝒞).payload (recvCell k c) 0 d) = recvPay 𝒞 k c := by
  rw [Finset.sdiff_empty, duties_recv, bigSep_singleton, payload_recv]

end Tables

instance held_storable {sp : Space} {s : Shape} {e : EltTy} (v : Memref sig .tc sp s e) (c : Dev nD) :
    BI.Storable (upEmb : UEmb _ 𝕄) (held (F := F) v c) := by unfold held; infer_instance
instance holds_storable {sp : Space} {s : Shape} {e : EltTy} (v : Memref sig .tc sp s e) (c : Dev nD) (q : PosShare TreeShare) (x : Vec F s e) :
    BI.Storable (upEmb : UEmb _ 𝕄) (holds (F := F) v c q x) := by unfold holds; infer_instance

instance barPay_storable (c : Dev nD) (d : Fin 3) : BI.Storable (upEmb : UEmb _ 𝕄) (barPay (F := F) c d) := by
  unfold barPay; split <;> infer_instance
instance recvPay_storable (𝒞 : Conts F) (k : Fin 13) (c : Dev nD) : BI.Storable (upEmb : UEmb _ 𝕄) (recvPay 𝒞 k c) := by
  unfold recvPay; split <;> infer_instance
instance sendPay_storable (𝒞 : Conts F) (k : Fin 13) (c : Dev nD) : BI.Storable (upEmb : UEmb _ 𝕄) (sendPay 𝒞 k c) := by
  unfold sendPay; split <;> infer_instance

instance Rd_payload_storable (𝒞 : Conts F) (g : GSem nD τ sig) (r : ℕ) (d : Fin 3) :
    BI.Storable (upEmb : UEmb _ 𝕄) ((Rd 𝒞).payload g r d) := by
  show BI.Storable upEmb (payOf 𝒞 g.1.1 d (semRole g.2))
  cases semRole g.2 <;> (unfold payOf; infer_instance)

end Cert.Kernel.Hand

end
-- ==== Proof.Bits.Dats.lean ====
import proofs.«900755_g7700000000000756_dist_attn_cross_gqa_kvseq_b4_sq256_skv1024_d1024_hq8_dh128_v7x_i8_bf16_1_alg».proof.Proof.Bits.Rd

noncomputable section

namespace Cert.Kernel.Hand

open Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

variable (𝒞 : Conts F) (m : (ℓ : Loc nD τ sig) → Buf (Elt F) ℓ) (ρ : Dev nD → PrngReg)

def s₀ : MemSt nD τ sig (Elt F) := ⟨m, fun _ => 0, ρ⟩

def rSem : Fin 19 → SemLoc sig :=
  ![.reg endS, .reg endS, .reg endS,
    .dma (recvNo 12), .dma (recvNo 11), .dma (recvNo 10), .dma (recvNo 9), .dma (recvNo 8), .dma (recvNo 7), .dma (recvNo 6),
    .dma (recvNo 5), .dma (recvNo 4), .dma (recvNo 3), .dma (recvNo 2), .dma (recvNo 1), .dma (recvNo 0),
    .reg barS, .reg barS, .reg barS]
def rTo : Fin 19 → Dev nD → Dev nD :=
  ![p1, p2, p4, partner 12, partner 11, partner 10, partner 9, partner 8, partner 7, partner 6,
    partner 5, partner 4, partner 3, partner 2, partner 1, partner 0, p1, p2, p4]
def rAmt : Fin 19 → ℕ :=
  ![1, 1, 1, xferAmt 12, xferAmt 11, xferAmt 10, xferAmt 9, xferAmt 8, xferAmt 7, xferAmt 6,
    xferAmt 5, xferAmt 4, xferAmt 3, xferAmt 2, xferAmt 1, xferAmt 0, 1, 1, 1]

def rdue (c : Dev nD) (j : Fin 19) : CellTallies nD τ sig Unit := tallyAt (((rTo j c : Dev nD) : Thread nD τ), rSem j) () (rAmt j)

def owedLast (c : Dev nD) : ℕ → CellTallies nD τ sig Unit
  | 0 => 0
  | n + 1 => owedLast c n + (if h : n < 19 then rdue c ⟨n, h⟩ else 0)

abbrev owedFrom (c : Dev nD) (n : ℕ) : CellTallies nD τ sig Unit := owedLast c (19 - n)

def O₀ (c : Dev nD) : CellTallies nD τ sig Unit := owedLast c 19

theorem owed_bar (c : Dev nD) (d : Fin 3) :
    owedFrom c d.val = owedFrom c (d.val + 1) + tallyAt (barCell (barPartner d c)) () 1 := by
  fin_cases d <;> rfl
theorem owed_xfer (c : Dev nD) (k : Fin 13) :
    owedFrom c (3 + k.val) = owedFrom c (4 + k.val) + tallyAt (recvCell k (partner k c)) () (xferAmt k) := by
  fin_cases k <;> rfl
theorem owed_end (c : Dev nD) (d : Fin 3) :
    owedFrom c (16 + d.val) = owedFrom c (17 + d.val) + tallyAt (endCell (barPartner d c)) () 1 := by
  fin_cases d <;> rfl

def L (g : GSem nD τ sig) : Finset Unit := if g.1.2 = .tc then {()} else ∅

def rlev : Fin 13 → ℕ := ![2, 2, 3, 3, 4, 4, 5, 5, 5, 6, 6, 6, 7]
def lvS (s : SemLoc sig) : ℕ :=
  match semRole s with
  | .bar => 1 | .recv k => rlev k | .fin => 8 | .send _ => 0 | .idle => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def csem : Fin 28 → SemLoc sig :=
  ![.reg barS, .reg endS,
    .dma (sendNo 0), .dma (sendNo 1), .dma (sendNo 2), .dma (sendNo 3), .dma (sendNo 4), .dma (sendNo 5), .dma (sendNo 6),
    .dma (sendNo 7), .dma (sendNo 8), .dma (sendNo 9), .dma (sendNo 10), .dma (sendNo 11), .dma (sendNo 12),
    .dma (recvNo 0), .dma (recvNo 1), .dma (recvNo 2), .dma (recvNo 3), .dma (recvNo 4), .dma (recvNo 5), .dma (recvNo 6),
    .dma (recvNo 7), .dma (recvNo 8), .dma (recvNo 9), .dma (recvNo 10), .dma (recvNo 11), .dma (recvNo 12)]
abbrev kcell (ck : Dev nD × Fin 28) : GSem nD τ sig := ((ck.1 : Thread nD τ), csem ck.2)
def sIx (k : Fin 13) : Fin 28 := ⟨2 + k.val, by omega⟩
def rIx (k : Fin 13) : Fin 28 := ⟨15 + k.val, by omega⟩
theorem csem_sIx : ∀ k : Fin 13, csem (sIx k) = .dma (sendNo k) := by decide
theorem csem_rIx : ∀ k : Fin 13, csem (rIx k) = .dma (recvNo k) := by decide
abbrev osem : Fin 27 → SemLoc sig := fun i => csem i.succ

def invs (K : Dev nD × Fin 28 → ℕ) (c : Dev nD) : sProp 𝕄 :=
  iprop(cellInv ER (Rd 𝒞) (K (c, 0)) (barCell c) ∗ cellInv ER (Rd 𝒞) (K (c, 1)) (endCell c)
    ∗ (bigSep Finset.univ fun k : Fin 13 => cellInv ER (Rd 𝒞) (K (c, sIx k)) (sendCell k c))
    ∗ (bigSep Finset.univ fun k : Fin 13 => cellInv ER (Rd 𝒞) (K (c, rIx k)) (recvCell k c))
    ∗ (bigSep Finset.univ fun d : Fin 3 => cellInv ER (Rd 𝒞) (K (barPartner d c, 0)) (barCell (barPartner d c)))
    ∗ (bigSep Finset.univ fun d : Fin 3 => cellInv ER (Rd 𝒞) (K (barPartner d c, 1)) (endCell (barPartner d c)))
    ∗ (bigSep Finset.univ fun k : Fin 13 => cellInv ER (Rd 𝒞) (K (partner k c, rIx k)) (recvCell k (partner k c))))

instance invs_persistent (K : Dev nD × Fin 28 → ℕ) (c : Dev nD) : BI.Persistent (invs 𝒞 K c) := by
  unfold invs; infer_instance

def marks (c : Dev nD) : sProp 𝕄 :=
  iprop(reached ER (barCell c) 0 ∗ reached ER (endCell c) 0
    ∗ (bigSep Finset.univ fun k : Fin 13 => reached ER (sendCell k c) 0)
    ∗ (bigSep Finset.univ fun k : Fin 13 => reached ER (recvCell k c) 0)
    ∗ (bigSep Finset.univ fun d : Fin 3 => reached ER (barCell (barPartner d c)) 0)
    ∗ (bigSep Finset.univ fun d : Fin 3 => reached ER (endCell (barPartner d c)) 0)
    ∗ (bigSep Finset.univ fun k : Fin 13 => reached ER (recvCell k (partner k c)) 0))

instance marks_persistent (c : Dev nD) : BI.Persistent (marks (F := F) c) := by unfold marks; infer_instance

def positions (c : Dev nD) : sProp 𝕄 :=
  iprop(atPos ER (barCell c) 0 ∅ 0 ∗ atPos ER (endCell c) 0 ∅ 0
    ∗ (bigSep Finset.univ fun k : Fin 13 => atPos ER (sendCell k c) 0 ∅ 0)
    ∗ (bigSep Finset.univ fun k : Fin 13 => atPos ER (recvCell k c) 0 ∅ 0))

def payToks (c : Dev nD) : sProp 𝕄 :=
  iprop((bigSep Finset.univ fun d : Fin 3 => dutyTok ER (barCell (barPartner d c)) 0 d)
    ∗ (bigSep Finset.univ fun d : Fin 3 => dutyTok ER (endCell (barPartner d c)) 0 d)
    ∗ (bigSep Finset.univ fun k : Fin 13 => dutyTok ER (recvCell k (partner k c)) 0 (0 : Fin 3))
    ∗ (bigSep Finset.univ fun k : Fin 13 => dutyTok ER (sendCell k c) 0 (0 : Fin 3)))

def ghost (K : Dev nD × Fin 28 → ℕ) (c : Dev nD) : sProp 𝕄 :=
  iprop(invs 𝒞 K c ∗ marks c ∗ positions c ∗ payToks c)

def creds (c : Dev nD) : sProp 𝕄 :=
  iprop(cred (tallyAt (barCell c) () 3) ∗ cred (tallyAt (endCell c) () 3)
    ∗ (bigSep Finset.univ fun k : Fin 13 => cred (tallyAt (recvCell k c) () (xferAmt k))))

def start (c : Dev nD) : sProp 𝕄 :=
  iprop((∃ K, ghost 𝒞 K c) ∗ creds c ∗ levAts L lv)

def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f)
    ∗ (∃ f : Buf (Elt F) ((c : Thread nD τ).loc cc0_scratch12), ((c : Thread nD τ).loc cc0_scratch12) ↦{fullShare} f)
    ∗ (∃ f : Buf (Elt F) ((c : Thread nD τ).loc cc0_scratch13), ((c : Thread nD τ).loc cc0_scratch13) ↦{fullShare} f)
    ∗ (∃ f : Buf (Elt F) ((c : Thread nD τ).loc cc0_scratch14), ((c : Thread nD τ).loc cc0_scratch14) ↦{fullShare} f)
    ∗ (∃ f : Buf (Elt F) ((c : Thread nD τ).loc cc0_scratch15), ((c : Thread nD τ).loc cc0_scratch15) ↦{fullShare} f))

def Φ₀ (c : Dev nD) : sProp 𝕄 := iprop(start 𝒞 c ∗ scratchAny c)
def Φ₁ (c : Dev nD) : sProp 𝕄 :=
  iprop(scratchAny c ∗ semVal (endCell c) 0
    ∗ (bigSep Finset.univ fun k : Fin 13 => semVal (sendCell k c) 0)
    ∗ (bigSep Finset.univ fun k : Fin 13 => semVal (recvCell k c) 0))

def xin0 (c : Dev nD) : (cc0_stg0_0 : Ref sig .tc).ty.Contents (Elt F) :=
  (win0_0.blk (0 : Fin 1)).view.read (Elt F) ((s₀ m ρ).mem ((c : Thread nD τ).loc main_arg0))
def xin1 (c : Dev nD) : (cc0_stg1_0 : Ref sig .tc).ty.Contents (Elt F) :=
  (win0_1.blk (0 : Fin 1)).view.read (Elt F) ((s₀ m ρ).mem ((c : Thread nD τ).loc main_arg1))
def xin2 (c : Dev nD) : (cc0_stg2_0 : Ref sig .tc).ty.Contents (Elt F) :=
  (win0_2.blk (0 : Fin 1)).view.read (Elt F) ((s₀ m ρ).mem ((c : Thread nD τ).loc main_arg2))
def xin3 (c : Dev nD) : (cc0_stg3_0 : Ref sig .tc).ty.Contents (Elt F) :=
  (win0_3.blk (0 : Fin 1)).view.read (Elt F) ((s₀ m ρ).mem ((c : Thread nD τ).loc main_arg3))
def xin4 (c : Dev nD) : (cc0_stg4_0 : Ref sig .tc).ty.Contents (Elt F) :=
  (win0_4.blk (0 : Fin 1)).view.read (Elt F) ((s₀ m ρ).mem ((c : Thread nD τ).loc main_arg4))

def dats (_ : Fin 1) (c : Dev nD) :
    Dat τ (Elt F) Unit ℕ UU ℕ cfg0 c where
  A w := (s₀ m ρ).mem ((cfg0.win w).arr.view.loc (c : Thread nD τ))
  after w _ := match w with
    | ⟨0, _⟩ => xin0 m ρ c
    | ⟨1, _⟩ => xin1 m ρ c
    | ⟨2, _⟩ => xin2 m ρ c
    | ⟨3, _⟩ => xin3 m ρ c
    | ⟨4, _⟩ => xin4 m ρ c
    | ⟨5, _⟩ => 𝒞.out c
  Φ t := match t with
    | ⟨0, _⟩ => Φ₀ 𝒞 c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 28 → ℕ) (c : Dev nD) : sProp 𝕄 :=
  iprop((ghost 𝒞 K c ∗ creds c ∗ levAts L lv ∗ scratchAny c)
    ∗ (dats 𝒞 m ρ 0 c).owesAt () t0_0.castSucc
    ∗ (∃ d, stg c cc0_stg0_0 ((dats 𝒞 m ρ 0 c).before (0 : Fin 6) t0_0 d))
    ∗ (∃ d, stg c cc0_stg1_0 ((dats 𝒞 m ρ 0 c).before (1 : Fin 6) t0_0 d))
    ∗ (∃ d, stg c cc0_stg2_0 ((dats 𝒞 m ρ 0 c).before (2 : Fin 6) t0_0 d))
    ∗ (∃ d, stg c cc0_stg3_0 ((dats 𝒞 m ρ 0 c).before (3 : Fin 6) t0_0 d))
    ∗ (∃ d, stg c cc0_stg4_0 ((dats 𝒞 m ρ 0 c).before (4 : Fin 6) t0_0 d))
    ∗ (∃ d, stg c cc0_stg5_0 ((dats 𝒞 m ρ 0 c).before (5 : Fin 6) t0_0 d)))

def bodyPost (c : Dev nD) : sProp 𝕄 :=
  iprop(Φ₁ c ∗ (dats 𝒞 m ρ 0 c).owesAt () t0_0.succ
    ∗ stg c cc0_stg0_0 (xin0 m ρ c) ∗ stg c cc0_stg1_0 (xin1 m ρ c) ∗ stg c cc0_stg2_0 (xin2 m ρ c)
    ∗ stg c cc0_stg3_0 (xin3 m ρ c) ∗ stg c cc0_stg4_0 (xin4 m ρ c) ∗ stg c cc0_stg5_0 (𝒞.out c))

end Cert.Kernel.Hand

end
-- ==== Proof.Bits.Fund.lean ====
import proofs.«900755_g7700000000000756_dist_attn_cross_gqa_kvseq_b4_sq256_skv1024_d1024_hq8_dh128_v7x_i8_bf16_1_alg».proof.Proof.Bits.Dats

noncomputable section

namespace Cert.Kernel.Hand

open Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin28 (Φ : Fin 28 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

theorem split28 (Φ : Fin 28 → sProp 𝕄) :
    bigSep Finset.univ Φ ⊢ iprop(Φ 0 ∗ Φ 1 ∗ (bigSep Finset.univ fun k : Fin 13 => Φ (sIx k)) ∗ (bigSep Finset.univ fun k : Fin 13 => Φ (rIx k))) := by
  rw [bigSep_fin28, bigSep_fin13, bigSep_fin13]
  change _ ⊢ iprop(Φ 0 ∗ Φ 1 ∗ (Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ∗ (Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27))
  iintro ⟨H0, H1, H2, H3, H4, H5, H6, H7, H8, H9, H10, H11, H12, H13, H14, H15, H16, H17, H18, H19, H20, H21, H22, H23, H24, H25, H26, H27⟩
  iframe

theorem deal {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_congr (s := Finset.univ) (fun i _ => bigSep_univ_equiv (e i) (Φ i)), bigSep_univ_comm]

def barEquiv (d : Fin 3) : Dev nD ≃ Dev nD := ⟨barPartner d, barPartner d, barPartner_barPartner d, barPartner_barPartner d⟩
def partnerEquiv (k : Fin 13) : Dev nD ≃ Dev nD := ⟨partner k, partner k, partner_partner k, partner_partner k⟩

theorem csem_injective : Function.Injective (csem : Fin 28 → SemLoc sig) := by decide

theorem kcell_injective : Function.Injective (kcell : Dev nD × Fin 28 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def protoCells : Finset (GSem nD τ sig) := Finset.univ.map ⟨kcell, kcell_injective⟩

theorem kcell_send (c : Dev nD) (k : Fin 13) : kcell (c, sIx k) = sendCell k c := by
  show (((c : Dev nD) : Thread nD τ), csem (sIx k)) = _; rw [csem_sIx]
theorem kcell_recv (c : Dev nD) (k : Fin 13) : kcell (c, rIx k) = recvCell k c := by
  show (((c : Dev nD) : Thread nD τ), csem (rIx k)) = _; rw [csem_rIx]

abbrev TI : Type := (Fin 3 ⊕ Fin 3) ⊕ (Fin 13 ⊕ Fin 13)
def tokD : TI → SemLoc sig × Fin 3
  | .inl (.inl d) => (.reg barS, d)
  | .inl (.inr d) => (.reg endS, d)
  | .inr (.inl k) => (.dma (sendNo k), 0)
  | .inr (.inr k) => (.dma (recvNo k), 0)
theorem tokD_injective : Function.Injective tokD := by decide
abbrev tokOf (cj : Dev nD × TI) : GSem nD τ sig × ℕ × Fin 3 := (((cj.1 : Thread nD τ), (tokD cj.2).1), 0, (tokD cj.2).2)
theorem tokOf_injective : Function.Injective (tokOf : Dev nD × TI → GSem nD τ sig × ℕ × Fin 3) := by
  rintro ⟨c, j⟩ ⟨c', j'⟩ h
  have h1 : c = c' := congrArg (fun x : GSem nD τ sig × ℕ × Fin 3 => x.1.1.1) h
  subst h1
  have h2 : tokD j = tokD j' :=
    Prod.ext (congrArg (fun x : GSem nD τ sig × ℕ × Fin 3 => x.1.2) h) (congrArg (fun x : GSem nD τ sig × ℕ × Fin 3 => x.2.2) h)
  rw [tokD_injective h2]
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop(((bigSep Finset.univ fun d : Fin 3 => dutyTok ER (barCell c) 0 d) ∗ (bigSep Finset.univ fun d : Fin 3 => dutyTok ER (endCell c) 0 d))
    ∗ ((bigSep Finset.univ fun k : Fin 13 => dutyTok ER (sendCell k c) 0 (0 : Fin 3))
      ∗ (bigSep Finset.univ fun k : Fin 13 => dutyTok ER (recvCell k c) 0 (0 : Fin 3))))

def G (𝒞 : Conts F) (c : Dev nD) : sProp 𝕄 :=
  iprop((bigSep Finset.univ fun k : Fin 28 => roundState ER (Rd 𝒞) (kcell (c, k)) 0)
    ∗ (bigSep Finset.univ fun k : Fin 28 => iprop(atPos ER (kcell (c, k)) 0 ∅ 0 ∗ reached ER (kcell (c, k)) 0)) ∗ toks c)

def G' (𝒞 : Conts F) (c : Dev nD) : sProp 𝕄 := iprop(∃ K, ghost 𝒞 K c)

theorem fund_proto (𝒞 : Conts F) : BI.own (ER (initOf protoCells protoToks)) ⊢ (|==> bigSep Finset.univ (G 𝒞) : sProp 𝕄) := by
  have hX (Φ : GSem nD τ sig → sProp 𝕄) : bigSep protoCells Φ = bigSep Finset.univ fun c : Dev nD => bigSep Finset.univ fun k : Fin 28 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum, bigSep_univ_sum]; rfl
  iintro HX
  imod (Rounds.fund ER (Rd 𝒞) protoCells protoToks) $$ HX with ⟨Hst, Hr, Hat, Htok⟩
  imodintro
  ihave Hst' := (Entails.of_eq (hX fun g => roundState ER (Rd 𝒞) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

end Cert.Kernel.Hand

end
-- ==== Proof.Bits.Alloc.lean ====
import proofs.«900755_g7700000000000756_dist_attn_cross_gqa_kvseq_b4_sq256_skv1024_d1024_hq8_dh128_v7x_i8_bf16_1_alg».proof.Proof.Bits.Fund

noncomputable section

namespace Cert.Kernel.Hand

open Cert.Kernel.Gen
open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

theorem ownSemFacts : Pipeline.OwnSemFacts cfg0.spec osem := by decide

theorem ownSems0_eq (c : Dev nD) : (Pipeline.ownSems0 osem c : sProp 𝕄)
    = iprop(semVal (endCell c) 0 ∗ semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0 ∗ semVal (sendCell 8 c) 0 ∗ semVal (sendCell 9 c) 0 ∗ semVal (sendCell 10 c) 0 ∗ semVal (sendCell 11 c) 0 ∗ semVal (sendCell 12 c) 0
        ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0 ∗ semVal (recvCell 8 c) 0 ∗ semVal (recvCell 9 c) 0 ∗ semVal (recvCell 10 c) 0 ∗ semVal (recvCell 11 c) 0 ∗ semVal (recvCell 12 c) 0) := by
  rw [Pipeline.ownSems0_eq_of_list c osem [0, 1, 2, 3, 4, 5, 6, 7, 8, 9, 10, 11, 12, 13, 14, 15, 16, 17, 18, 19, 20, 21, 22, 23, 24, 25, 26] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : Fin 28 => semVal (kcell (c, k)) 0 : sProp 𝕄) := by
  rw [ownSems0_eq, unscopedSems0_eq, bigSep_fin28]
  iintro ⟨H, HB⟩
  isplitl [HB]; · iexact HB
  iexact H

theorem core_alloc (𝒞 : Conts F) (c : Dev nD) :
    iprop(Pipeline.ownSems0 osem c ∗ unscopedSems0 c ∗ G 𝒞 c)
      ⊢ |={Set.univ}=> iprop((bigSep Finset.univ fun k => iprop(∃ κ : ℕ, cellInv ER (Rd 𝒞) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe
  imod (show iprop((bigSep Finset.univ fun k : Fin 28 => semVal (kcell (c, k)) 0) ∗ bigSep Finset.univ fun k : Fin 28 => roundState ER (Rd 𝒞) (kcell (c, k)) 0)
      ⊢ (|={Set.univ}=> bigSep Finset.univ fun k => iprop(∃ κ : ℕ, cellInv ER (Rd 𝒞) κ (kcell (c, k))) : sProp 𝕄) from by
        rw [← bigSep_sep']
        exact (bigSep_mono fun k _ => (Rounds.body_intro ER (Rd 𝒞) (kcell (c, k))).trans inv_alloc).trans (bigSep_fupd _ _)) $$ [Hv Hst] with Hinv
  · iframe
  imodintro
  iframe

def records (𝒞 : Conts F) (K : Dev nD × Fin 28 → ℕ) : sProp 𝕄 :=
  iprop((bigSep Finset.univ fun ck : Dev nD × Fin 28 => cellInv ER (Rd 𝒞) (K ck) (kcell ck))
    ∗ bigSep Finset.univ fun ck : Dev nD × Fin 28 => reached ER (kcell ck) 0)

instance records_persistent (𝒞 : Conts F) (K : Dev nD × Fin 28 → ℕ) : BI.Persistent (records 𝒞 K) := by unfold records; infer_instance

theorem rec_inv (𝒞 : Conts F) (K : Dev nD × Fin 28 → ℕ) (ck : Dev nD × Fin 28) :
    records 𝒞 K ⊢ cellInv ER (Rd 𝒞) (K ck) (kcell ck) := by
  have h : (bigSep Finset.univ fun ck : Dev nD × Fin 28 => (cellInv ER (Rd 𝒞) (K ck) (kcell ck) : sProp 𝕄)) ⊢ cellInv ER (Rd 𝒞) (K ck) (kcell ck) :=
    bigSep_elim (Finset.mem_univ ck)
  unfold records; iintro ⟨H, -⟩; iapply h; iexact H
theorem rec_reached (𝒞 : Conts F) (K : Dev nD × Fin 28 → ℕ) (ck : Dev nD × Fin 28) :
    records 𝒞 K ⊢ reached ER (kcell ck) 0 := by
  have h : (bigSep Finset.univ fun ck : Dev nD × Fin 28 => (reached ER (kcell ck) 0 : sProp 𝕄)) ⊢ reached ER (kcell ck) 0 :=
    bigSep_elim (Finset.mem_univ ck)
  unfold records; iintro ⟨-, H⟩; iapply h; iexact H

theorem around (𝒞 : Conts F) (K : Dev nD × Fin 28 → ℕ) (c : Dev nD) (Ψ : ℕ → GSem nD τ sig → sProp 𝕄)
    (h : ∀ ck, records 𝒞 K ⊢ Ψ (K ck) (kcell ck)) :
    records 𝒞 K ⊢ iprop(Ψ (K (c, 0)) (barCell c) ∗ Ψ (K (c, 1)) (endCell c)
      ∗ (bigSep Finset.univ fun k : Fin 13 => Ψ (K (c, sIx k)) (sendCell k c))
      ∗ (bigSep Finset.univ fun k : Fin 13 => Ψ (K (c, rIx k)) (recvCell k c))
      ∗ (bigSep Finset.univ fun d : Fin 3 => Ψ (K (barPartner d c, 0)) (barCell (barPartner d c)))
      ∗ (bigSep Finset.univ fun d : Fin 3 => Ψ (K (barPartner d c, 1)) (endCell (barPartner d c)))
      ∗ (bigSep Finset.univ fun k : Fin 13 => Ψ (K (partner k c, rIx k)) (recvCell k (partner k c)))) := by
  have hb (c : Dev nD) : records 𝒞 K ⊢ Ψ (K (c, 0)) (barCell c) := h (c, 0)
  have he (c : Dev nD) : records 𝒞 K ⊢ Ψ (K (c, 1)) (endCell c) := h (c, 1)
  have hs (c : Dev nD) (k : Fin 13) : records 𝒞 K ⊢ Ψ (K (c, sIx k)) (sendCell k c) := kcell_send c k ▸ h (c, sIx k)
  have hr (c : Dev nD) (k : Fin 13) : records 𝒞 K ⊢ Ψ (K (c, rIx k)) (recvCell k c) := kcell_recv c k ▸ h (c, rIx k)
  iintro #HR
  isplitr; · iapply (hb c); iexact HR
  isplitr; · iapply (he c); iexact HR
  isplitr; · iapply (bigSep_intro_persistent (R := records 𝒞 K) fun k _ => hs c k); iexact HR
  isplitr; · iapply (bigSep_intro_persistent (R := records 𝒞 K) fun k _ => hr c k); iexact HR
  isplitr; · iapply (bigSep_intro_persistent (R := records 𝒞 K) fun d _ => hb (barPartner d c)); iexact HR
  isplitr; · iapply (bigSep_intro_persistent (R := records 𝒞 K) fun d _ => he (barPartner d c)); iexact HR
  iapply (bigSep_intro_persistent (R := records 𝒞 K) fun k _ => hr (partner k c) k); iexact HR

theorem invs_of_records (𝒞 : Conts F) (K : Dev nD × Fin 28 → ℕ) (c : Dev nD) : records 𝒞 K ⊢ invs 𝒞 K c :=
  around 𝒞 K c (fun κ g => cellInv ER (Rd 𝒞) κ g) (rec_inv 𝒞 K)
theorem marks_of_records (𝒞 : Conts F) (K : Dev nD × Fin 28 → ℕ) (c : Dev nD) : records 𝒞 K ⊢ marks c :=
  around 𝒞 K c (fun _ g => reached ER g 0) (rec_reached 𝒞 K)

theorem split_cells (c : Dev nD) (Ψ : GSem nD τ sig → sProp 𝕄) :
    (bigSep Finset.univ fun k : Fin 28 => Ψ (kcell (c, k)))
      ⊢ iprop(Ψ (barCell c) ∗ Ψ (endCell c) ∗ (bigSep Finset.univ fun k : Fin 13 => Ψ (sendCell k c)) ∗ (bigSep Finset.univ fun k : Fin 13 => Ψ (recvCell k c))) := by
  refine (split28 fun k => Ψ (kcell (c, k))).trans ?_
  simp only [kcell_send, kcell_recv]; exact .rfl

def linear (c : Dev nD) : sProp 𝕄 :=
  iprop((bigSep Finset.univ fun k : Fin 28 => atPos ER (kcell (c, k)) 0 ∅ 0) ∗ payToks c)

theorem ghost_intro (𝒞 : Conts F) (K : Dev nD × Fin 28 → ℕ) (c : Dev nD) : iprop(records 𝒞 K ∗ linear c) ⊢ G' 𝒞 c := by
  unfold linear G' ghost positions
  iintro ⟨#HR, Hat, Htok⟩
  iexists K
  isplitr; · iapply (invs_of_records 𝒞 K c); iexact HR
  isplitr; · iapply (marks_of_records 𝒞 K c); iexact HR
  isplitl [Hat]; · iapply (split_cells c fun g => atPos ER g 0 ∅ 0); iexact Hat
  iexact Htok

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal barEquiv (fun d c => (dutyTok ER (barCell c) 0 d : sProp 𝕄)),
    deal barEquiv (fun d c => (dutyTok ER (endCell c) 0 d : sProp 𝕄)),
    deal partnerEquiv (fun k c => (dutyTok ER (recvCell k c) 0 (0 : Fin 3) : sProp 𝕄))]
  iintro ⟨⟨HA, HB⟩, HS, HR⟩
  isplitl [HA]; · iexact HA
  isplitl [HB]; · iexact HB
  isplitl [HR]; · iexact HR
  iexact HS

theorem regroup (𝒞 : Conts F) :
    (bigSep Finset.univ fun c : Dev nD => iprop((bigSep Finset.univ fun k => iprop(∃ κ : ℕ, cellInv ER (Rd 𝒞) κ (kcell (c, k))))
          ∗ (bigSep Finset.univ fun k => iprop(atPos ER (kcell (c, k)) 0 ∅ 0 ∗ reached ER (kcell (c, k)) 0)) ∗ toks c) : sProp 𝕄)
      ⊢ bigSep Finset.univ (G' 𝒞) := by
  rw [bigSep_sep', bigSep_sep', ← bigSep_univ_prod (fun ck : Dev nD × Fin 28 => iprop(∃ κ : ℕ, cellInv ER (Rd 𝒞) κ (kcell ck))),
    bigSep_congr (s := Finset.univ) (fun (c : Dev nD) _ => bigSep_sep' Finset.univ (fun k : Fin 28 => (atPos ER (kcell (c, k)) 0 ∅ 0 : sProp 𝕄)) (fun k => reached ER (kcell (c, k)) 0)),
    bigSep_sep', ← bigSep_univ_prod (fun ck : Dev nD × Fin 28 => (reached ER (kcell ck) 0 : sProp 𝕄))]
  iintro ⟨HI, ⟨Hat, #HR⟩, Htok⟩
  ihave HK := (BI.bigSep_exists_pi Finset.univ (fun (ck : Dev nD × Fin 28) (κ : ℕ) => (cellInv ER (Rd 𝒞) κ (kcell ck) : sProp 𝕄))) $$ HI
  icases HK with ⟨%K, #HI⟩
  ihave Htk := (toks_around (F := F)) $$ Htok
  iapply (bigSep_with_persistent (R := records 𝒞 K) fun c _ => ghost_intro 𝒞 K c)
  isplitr
  · unfold records; isplitl; · iexact HI
    iexact HR
  · iapply ((Entails.of_eq (bigSep_sep' Finset.univ (fun c : Dev nD => bigSep Finset.univ fun k : Fin 28 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob (𝒞 : Conts F) : (bigSep Finset.univ fun c => iprop(Pipeline.ownSems0 osem c ∗ unscopedSems0 c ∗ G 𝒞 c) : sProp 𝕄)
    ⊢ |={Set.univ}=> bigSep Finset.univ (G' 𝒞) :=
  ((bigSep_mono fun c _ => core_alloc 𝒞 c).trans (bigSep_fupd _ _)).trans (BI.fupd_mono (regroup 𝒞))

/-- info: 'Cert.Kernel.Hand.glob' depends on axioms: [propext, Classical.choice, Quot.sound] -/
#guard_msgs in #print axioms glob

end Cert.Kernel.Hand

end
-- ==== Proof.Bits.Levels.lean ====
import proofs.«900755_g7700000000000756_dist_attn_cross_gqa_kvseq_b4_sq256_skv1024_d1024_hq8_dh128_v7x_i8_bf16_1_alg».proof.Proof.Bits.Dats

noncomputable section

namespace Cert.Kernel.Hand

open Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type}

local notation "𝕄" => MT nD τ sig Unit (Elt F) ℕ UU ℕ

theorem owedLast_succ (c : Dev nD) (n : ℕ) (h : n < 19) : owedLast c (n + 1) = owedLast c n + rdue c ⟨n, h⟩ := by
  rw [owedLast, dif_pos h]

theorem owedLast_pos {c : Dev nD} : ∀ {n : ℕ} {g : GSem nD τ sig} {u : Unit}, 0 < owedLast c n g u →
    ∃ j : Fin 19, j.val < n ∧ g = (((rTo j c : Dev nD) : Thread nD τ), rSem j)
  | 0, g, u, h => absurd h (Nat.lt_irrefl 0)
  | n + 1, g, u, h => by
    rw [owedLast] at h
    rcases Pipeline.add_pos_cases h with h1 | h2
    · obtain ⟨j, hj, hg⟩ := owedLast_pos h1
      exact ⟨j, Nat.lt_succ_of_lt hj, hg⟩
    · by_cases hn : n < 19
      · rw [dif_pos hn] at h2
        exact ⟨⟨n, hn⟩, Nat.lt_succ_self n, (Pipeline.tallyAt_pos h2).1⟩
      · rw [dif_neg hn] at h2
        exact absurd h2 (Nat.lt_irrefl 0)

theorem mayWait_at (c : Dev nD) (s : SemLoc sig) (n : ℕ) (h : ∀ j : Fin 19, j.val < n → lvS s < lvS (rSem j)) :
    (levAts L lv : sProp 𝕄) ⊢ MayWait (c : Thread nD τ) s () (owedLast c n) :=
  Pipeline.mayWait_of_levAts (by rw [L_tc]; exact Finset.mem_singleton_self _) fun g i hg => by
    obtain ⟨j, hj, rfl⟩ := owedLast_pos hg
    exact ⟨by rw [L_tc]; exact Finset.mem_singleton.mpr rfl, h j hj⟩

theorem due_levels_pos : ∀ j : Fin 19, 0 < lvS (rSem j) := by decide

theorem mayWait_low (c : Dev nD) (s : SemLoc sig) (hs : lvS s = 0) (n : ℕ) :
    (levAts L lv : sProp 𝕄) ⊢ MayWait (c : Thread nD τ) s () (owedLast c n) :=
  mayWait_at c s n fun j _ => by rw [hs]; exact due_levels_pos j

theorem lvS_send : ∀ k : Fin 13, lvS (.dma (sendNo k)) = 0 := by decide

def waitAt : Fin 13 → ℕ := ![5, 5, 7, 7, 9, 9, 12, 12, 12, 15, 15, 15, 16]

theorem recv_below : ∀ (k : Fin 13) (j : Fin 19), j.val < 19 - waitAt k → lvS (.dma (recvNo k)) < lvS (rSem j) := by decide
theorem bar_below : ∀ j : Fin 19, j.val < 19 - 3 → lvS (.reg barS) < lvS (rSem j) := by decide

theorem mayWait_bar (c : Dev nD) : (levAts L lv : sProp 𝕄) ⊢ MayWait (c : Thread nD τ) (.reg barS) () (owedFrom c 3) :=
  mayWait_at c _ _ bar_below
theorem mayWait_send (c : Dev nD) (k : Fin 13) (n : ℕ) :
    (levAts L lv : sProp 𝕄) ⊢ MayWait (c : Thread nD τ) (.dma (sendNo k)) () (owedFrom c n) :=
  mayWait_low c _ (lvS_send k) _
theorem mayWait_recv (c : Dev nD) (k : Fin 13) :
    (levAts L lv : sProp 𝕄) ⊢ MayWait (c : Thread nD τ) (.dma (recvNo k)) () (owedFrom c (waitAt k)) :=
  mayWait_at c _ _ (recv_below k)

theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact mayWait_low c _ hq 19
  · rw [MayWait_zero]; iintro -; iempintro

/-- info: 'Cert.Kernel.Hand.mayWait_recv' depends on axioms: [propext, Classical.choice, Quot.sound] -/
#guard_msgs in #print axioms mayWait_recv

end Cert.Kernel.Hand

end
-- ==== Proof.Bits.Launch.lean ====
import proofs.«900755_g7700000000000756_dist_attn_cross_gqa_kvseq_b4_sq256_skv1024_d1024_hq8_dh128_v7x_i8_bf16_1_alg».proof.Proof.Bits.Alloc
import proofs.«900755_g7700000000000756_dist_attn_cross_gqa_kvseq_b4_sq256_skv1024_d1024_hq8_dh128_v7x_i8_bf16_1_alg».proof.Proof.Bits.Levels

noncomputable section

namespace Cert.Kernel.Hand

open Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

theorem rTo_invol : ∀ (j : Fin 19) (c : Dev nD), rTo j (rTo j c) = c := by decide

omit [FloatOps F] in
theorem launch_due (j : Fin 19) (c : Dev nD) :
    (Pipeline.launchCred (fun d => rdue d j) c : sProp 𝕄) ⊢ cred (tallyAt ((c : Thread nD τ), rSem j) () (rAmt j)) :=
  Pipeline.launchCred_tallyAt (rSem j) (rTo j) (rTo j) (rTo_invol j) (rTo_invol j) () (rAmt j) c

omit [FloatOps F] in
theorem launch_step (c : Dev nD) (n : ℕ) (h : n < 19) :
    (Pipeline.launchCred (fun d => owedLast d (n + 1)) c : sProp 𝕄)
      = iprop(Pipeline.launchCred (fun d => owedLast d n) c ∗ Pipeline.launchCred (fun d => rdue d ⟨n, h⟩) c) := by
  rw [← Pipeline.launchCred_add]
  exact congrArg (fun O => (Pipeline.launchCred O c : sProp 𝕄)) (funext fun d => owedLast_succ d n h)

omit [FloatOps F] in
theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by rw [tallyAt_add, tallyAt_add]]
  exact (sep_mono .rfl (cred_add _ _).2).trans (cred_add _ _).2

omit [FloatOps F] in
theorem creds_of_launch (c : Dev nD) : (Pipeline.launchCred O₀ c : sProp 𝕄) ⊢ creds c := by
  show (Pipeline.launchCred (fun d => owedLast d 19) c : sProp 𝕄) ⊢ creds c
  simp (disch := decide) only [launch_step c]
  rw [show (fun d : Dev nD => owedLast d 0) = fun _ => (0 : CellTallies nD τ sig Unit) from rfl, Pipeline.launchCred_zero]
  iintro ⟨⟨⟨⟨⟨⟨⟨⟨⟨⟨⟨⟨⟨⟨⟨⟨⟨⟨⟨-, H0⟩, H1⟩, H2⟩, H3⟩, H4⟩, H5⟩, H6⟩, H7⟩, H8⟩, H9⟩, H10⟩, H11⟩, H12⟩, H13⟩, H14⟩, H15⟩, H16⟩, H17⟩, H18⟩
  unfold creds
  rw [bigSep_fin13]
  isplitl [H16 H17 H18]
  · iapply (cred3 (barCell c)); isplitl [H16]; · iapply (launch_due 16 c); iexact H16
    isplitl [H17]; · iapply (launch_due 17 c); iexact H17
    iapply (launch_due 18 c); iexact H18
  isplitl [H0 H1 H2]
  · iapply (cred3 (endCell c)); isplitl [H0]; · iapply (launch_due 0 c); iexact H0
    isplitl [H1]; · iapply (launch_due 1 c); iexact H1
    iapply (launch_due 2 c); iexact H2
  isplitl [H15]; · iapply (launch_due 15 c); iexact H15
  isplitl [H14]; · iapply (launch_due 14 c); iexact H14
  isplitl [H13]; · iapply (launch_due 13 c); iexact H13
  isplitl [H12]; · iapply (launch_due 12 c); iexact H12
  isplitl [H11]; · iapply (launch_due 11 c); iexact H11
  isplitl [H10]; · iapply (launch_due 10 c); iexact H10
  isplitl [H9]; · iapply (launch_due 9 c); iexact H9
  isplitl [H8]; · iapply (launch_due 8 c); iexact H8
  isplitl [H7]; · iapply (launch_due 7 c); iexact H7
  isplitl [H6]; · iapply (launch_due 6 c); iexact H6
  isplitl [H5]; · iapply (launch_due 5 c); iexact H5
  isplitl [H4]; · iapply (launch_due 4 c); iexact H4
  iapply (launch_due 3 c); iexact H3

variable (𝒞 : Conts F) (m : (ℓ : Loc nD τ sig) → Buf (Elt F) ℓ) (ρ : Dev nD → PrngReg)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' 𝒞 c)
      ⊢ |={Set.univ}=> iprop(start 𝒞 c ∗ emp) := by
  iintro ⟨-, Hlev, Hcr, -, HG⟩
  ihave Hc := (creds_of_launch (F := F) c) $$ Hcr
  imodintro
  unfold start G'
  iframe

theorem phi0_intro (c : Dev nD) :
    iprop(start 𝒞 c ∗ Pipeline.prefHeld Pipeline.Prefetch.none c (fun _ => fullShare.right) (fun k => k.elim0) ∗ Pipeline.scopedRest cfg0.spec c)
      ⊢ (dats 𝒞 m ρ 0 c).Φ 0 := by
  rw [show (dats 𝒞 m ρ 0 c).Φ 0 = Φ₀ 𝒞 c from rfl, scopedRest0_eq]
  unfold Φ₀ scratchAny
  iintro ⟨Hs, -, Hr⟩
  iframe

theorem phi1_exit (c : Dev nD) :
    (dats 𝒞 m ρ 0 c).Φ (Fin.last cfg0.N) ⊢ iprop(emp ∗ Pipeline.ownSems0 osem c ∗ Pipeline.scopedRest cfg0.spec c) := by
  rw [show (dats 𝒞 m ρ 0 c).Φ (Fin.last cfg0.N) = Φ₁ c from rfl, scopedRest0_eq, ownSems0_eq]
  unfold Φ₁ scratchAny
  rw [bigSep_fin13, bigSep_fin13]
  iintro ⟨Hr, He, ⟨S0, S1, S2, S3, S4, S5, S6, S7, S8, S9, S10, S11, S12⟩, ⟨V0, V1, V2, V3, V4, V5, V6, V7, V8, V9, V10, V11, V12⟩⟩
  iframe

theorem stage_levels : ∀ (w : Fin cfg0.W) (s : Fin (cfg0.win w).nbuf), lvS (.dma ((cfg0.win w).sem s)) = 0 := by decide

theorem waits (c : Dev nD) : (levAts L lv : sProp 𝕄) ⊢ Pipeline.cellsWaits cfgs (dats 𝒞 m ρ) () 0 c :=
  Pipeline.cellsWaits_intro cfgs (dats 𝒞 m ρ) () 0 c fun w s t =>
    mayWait_stage c _ (stage_levels w s) _ (by
      rcases t with ⟨_ | _, ht⟩
      · exact Or.inl rfl
      · exact Or.inr rfl)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev theBody : Prog (TpuEff nD τ sig (Elt F) Λ₀ .tc) PUnit := defs₀ (F := F) Proc.tc 0 (t0_0, cfg0.slots t0_0)

theorem body_obligation (c : Dev nD)
    (hsound : ∀ (K : Dev nD × Fin 28 → ℕ) (Kt : PUnit → sProp 𝕄),
      iprop(bodyPre 𝒞 m ρ K c ∗ (bodyPost 𝒞 m ρ c -∗ Kt ⟨⟩))
        ⊢ wp frame (wpE (defs₀ (F := F)) 𝒱₀ c none) Set.univ (theBody (F := F)) Kt) :
    BodyObligation (dats (F := F) 𝒞 m ρ 0 c) (defs₀ (F := F)) 𝒱₀ () Set.univ := fun t => by
  rw [fin_N0 t]
  rw [bigSep_W0, bigSep_W0]
  simp only [owns_whole_eq]
  rw [show (dats 𝒞 m ρ 0 c).Φ t0_0.castSucc = Φ₀ 𝒞 c from rfl, show (dats 𝒞 m ρ 0 c).Φ t0_0.succ = Φ₁ c from rfl]
  unfold Φ₀ start
  iintro ⟨⟨⟨⟨%K, Hg⟩, Hcr, Hlev⟩, Hscr⟩, Ho, H0, H1, H2, H3, H4, H5⟩
  iapply (hsound K _)
  unfold bodyPre bodyPost
  isplitr []
  · iframe
  · iintro H; iexact H

def finalA (c : Dev nD) (w : Fin cfg0.W) : Buf (Elt F) ((cfg0.win w).arr.view.loc (c : Thread nD τ)) :=
  (dats 𝒞 m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA 𝒞 m ρ c w

set_option maxRecDepth 8000 in
theorem run_main
    (hbody : ∀ c, BodyObligation (dats 𝒞 m ρ 0 c) (defs₀ (F := F)) 𝒱₀ () Set.univ) :
    θ_run defs (onTc (τ := τ) (main (F := F))) (s₀ m ρ) (QC 𝒞 m ρ) :=
  Pipeline.θ_run_region_owing_glob_pf (fun p => (cfgs p).toPCfg) (fun p => (cfgs p).toPCfg_adm) (dats 𝒞 m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := fun c => (dats 𝒞 m ρ 0 c).share_full fun _ => rfl)
    (hdistinct := winFacts0.arr_inj)
    (O₀ := O₀) (howed₀ := fun _ => rfl) (howedN := fun _ => rfl)
    (L := L) (lv := lv) (hL := L_of_ne) (hwaits := waits 𝒞 m ρ)
    (G := G 𝒞) (G' := G' 𝒞) (u₀ := u₀)
    (hu₀ := by
      unfold u₀
      iintro Hu
      ihave H := (ownU_pair _ _) $$ Hu
      icases H with ⟨HP, HX⟩
      imod (fund_proto 𝒞) $$ HX with HG
      imodintro
      isplitl [HP] <;> iassumption)
    (hglob := glob 𝒞)
    (hA := fun _ _ => rfl) (hpf := fun _ k => k.elim0)
    (X := start 𝒞) (Y := fun _ => iprop(emp)) (Z := fun _ => iprop(emp))
    (hX := start_intro 𝒞 m ρ) (hin := phi0_intro 𝒞 m ρ) (hout := phi1_exit 𝒞 m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

theorem finalA_in (c : Dev nD) (w : Fin cfg0.W)
    (hw : (cfg0.win w).isOut = false) : finalA 𝒞 m ρ c w = (s₀ m ρ).mem ((cfg0.win w).arr.view.loc (c : Thread nD τ)) :=
  (dats (F := F) 𝒞 m ρ 0 c).arrAt_in w hw _

end Cert.Kernel.Hand

end
-- ==== Proof.Bits.Final.lean ====
import proofs.«900755_g7700000000000756_dist_attn_cross_gqa_kvseq_b4_sq256_skv1024_d1024_hq8_dh128_v7x_i8_bf16_1_alg».proof.Proof.Bits.Launch

namespace Cert.Kernel.Hand

/-- info: 'Cert.Kernel.Hand.rest_bar' depends on axioms: [propext, Classical.choice, Quot.sound] -/
#guard_msgs in #print axioms rest_bar
/-- info: 'Cert.Kernel.Hand.rest_send' depends on axioms: [propext, Classical.choice, Quot.sound] -/
#guard_msgs in #print axioms rest_send
/-- info: 'Cert.Kernel.Hand.rest_recv' depends on axioms: [propext, Classical.choice, Quot.sound] -/
#guard_msgs in #print axioms rest_recv
/-- info: 'Cert.Kernel.Hand.expect_recv' depends on axioms: [propext, Classical.choice, Quot.sound] -/
#guard_msgs in #print axioms expect_recv
/-- info: 'Cert.Kernel.Hand.Rd_payload_storable' depends on axioms: [propext, Classical.choice, Quot.sound] -/
#guard_msgs in #print axioms Rd_payload_storable
/-- info: 'Cert.Kernel.Hand.owed_xfer' depends on axioms: [propext, Classical.choice, Quot.sound] -/
#guard_msgs in #print axioms owed_xfer
/-- info: 'Cert.Kernel.Hand.fund_proto' depends on axioms: [propext, Classical.choice, Quot.sound] -/
#guard_msgs in #print axioms fund_proto
/-- info: 'Cert.Kernel.Hand.body_obligation' depends on axioms: [propext, Classical.choice, Quot.sound] -/
#guard_msgs in #print axioms body_obligation

end Cert.Kernel.Hand
-- ==== Proof.Bits.Frames.lean ====
import proofs.«900755_g7700000000000756_dist_attn_cross_gqa_kvseq_b4_sq256_skv1024_d1024_hq8_dh128_v7x_i8_bf16_1_alg».proof.Proof.Bits.Final

noncomputable section

namespace Cert.Kernel.Hand

open Cert.Kernel.Gen
open Idealize.ShloMosaic
open Idealize.ShloMosaic.Pipeline (Dat Cfg Window BodyObligation cellOf)

variable {F : FTy → Type} [FloatOps F]

local notation "𝕄" => MT nD τ sig Unit (Elt F) ℕ UU ℕ

variable (𝒞 : Conts F) (m : (ℓ : Loc nD τ sig) → Buf (Elt F) ℓ) (ρ : Dev nD → PrngReg)

theorem finalA_out_whole (c : Dev nD) :
    finalA 𝒞 m ρ c (5 : Fin 6) = 𝒞.out c := by
  unfold finalA
  have h := (dats (F := F) 𝒞 m ρ 0 c).arrAt_succ (5 : Fin 6) t0_0
  rw [if_pos (flush0_5 t0_0)] at h
  rw [show cfg0.N = t0_0.val + 1 from rfl, h]
  show ((cfg0.win (5 : Fin 6)).blk t0_0).view.write (Elt F) _ ((cfg0.win (5 : Fin 6)).cut (cfg0.grid.coords t0_0) (𝒞.out c)) Finset.univ = _
  dsimp only [Pipeline.Window.blk, Pipeline.Window.rect]
  exact Memref.write_access_unit_zero_univ (Elt F) main_v1 (funext fun a => Nat.zero_mul _) _ _ _

theorem run_value
    (hbody : ∀ c, BodyObligation (dats 𝒞 m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = 𝒞.out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (5 : Fin 6)).trans (finalA_out_whole 𝒞 m ρ c),
      (h c (0 : Fin 6)).trans (finalA_in 𝒞 m ρ c _ rfl), (h c (1 : Fin 6)).trans (finalA_in 𝒞 m ρ c _ rfl), (h c (2 : Fin 6)).trans (finalA_in 𝒞 m ρ c _ rfl),
      (h c (3 : Fin 6)).trans (finalA_in 𝒞 m ρ c _ rfl), (h c (4 : Fin 6)).trans (finalA_in 𝒞 m ρ c _ rfl)⟩)
    (run_main 𝒞 m ρ hbody)

theorem run_frame
    (hbody : ∀ c, BodyObligation (dats 𝒞 m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value 𝒞 m ρ hbody)

/-- info: 'Cert.Kernel.Hand.run_value' depends on axioms: [propext, Classical.choice, Quot.sound] -/
#guard_msgs in #print axioms run_value
/-- info: 'Cert.Kernel.Hand.run_frame' depends on axioms: [propext, Classical.choice, Quot.sound] -/
#guard_msgs in #print axioms run_frame

end Cert.Kernel.Hand

end
-- ==== Proof.Bits.Contents.lean ====
import proofs.«900755_g7700000000000756_dist_attn_cross_gqa_kvseq_b4_sq256_skv1024_d1024_hq8_dh128_v7x_i8_bf16_1_alg».proof.Proof.Bits.Sched
import proofs.«900755_g7700000000000756_dist_attn_cross_gqa_kvseq_b4_sq256_skv1024_d1024_hq8_dh128_v7x_i8_bf16_1_alg».proof.Proof.Gen.Kernel.Frame
import Idealize.ShloMosaic.Lib.Pipeline.FrameBody

noncomputable section

namespace Cert.Kernel.Hand

open Cert.Kernel.Gen
open Idealize.ShloMosaic

variable {F : FTy → Type} [FloatOps F]

structure Ins (F : FTy → Type) where
  x : Vec F S4x256x1024 .f32
  wq : Vec F S1024x1024 .f32
  wo : Vec F S1024x1024 .f32
  kb : Vec F S4x1024x2x128 .f32
  vb : Vec F S4x1024x2x128 .f32

def sq (v : Vec F S1x128x1024 .bf16) : Vec F S128x1024 .bf16 :=
  fun j => v (Shape.reshapeEquiv squeezes_S1x128x1024_S128x1024.numel_eq j)
def unsq (v : Vec F S128x1024 .bf16) : Vec F S1x128x1024 .bf16 :=
  fun i => v ((Shape.reshapeEquiv squeezes_S1x128x1024_S128x1024.numel_eq).symm i)

theorem unsq_sq (v : Vec F S1x128x1024 .bf16) : unsq (sq v) = v := funext fun i => congrArg v (Equiv.apply_symm_apply _ i)

variable (I : Dev nD → Ins F) (c : Dev nD)

def qv : Vec F S4x256x8x128 .bf16 :=
  k0_pay1 (I c).x (I c).wq
def qr1 : Vec F S1x128x8x128 .bf16 :=
  View.ld (qv I c) (Rect.unit (k0_off1 c) S1x128x8x128.size (k0_off1_inb c))
def qr2 : Vec F S1x128x8x128 .bf16 :=
  View.ld (qv I c) (Rect.unit (k0_off2 c) S1x128x8x128.size (k0_off2_inb c))
def qr3 : Vec F S1x128x8x128 .bf16 :=
  View.ld (qv I c) (Rect.unit (k0_off3 c) S1x128x8x128.size (k0_off3_inb c))
def qr4 : Vec F S1x128x8x128 .bf16 :=
  View.ld (qv I c) (Rect.unit (k0_off4 c) S1x128x8x128.size (k0_off4_inb c))
def qr5 : Vec F S1x128x8x128 .bf16 :=
  View.ld (qv I c) (Rect.unit (k0_off5 c) S1x128x8x128.size (k0_off5_inb c))
def qr6 : Vec F S1x128x8x128 .bf16 :=
  View.ld (qv I c) (Rect.unit (k0_off6 c) S1x128x8x128.size (k0_off6_inb c))
def qr7 : Vec F S1x128x8x128 .bf16 :=
  View.ld (qv I c) (Rect.unit (k0_off7 c) S1x128x8x128.size (k0_off7_inb c))
def qr8 : Vec F S1x128x8x128 .bf16 :=
  View.ld (qv I c) (Rect.unit (k0_off8 c) S1x128x8x128.size (k0_off8_inb c))
def kS00 : Vec F S1x1024x1x128 .f32 :=
  View.ld (I c).kb (Rect.unit ![0, 0, 0, 0] S1x1024x1x128.size inb_S4x1024x2x128_S1x1024x1x128_0_0_0_0)
def vS00 : Vec F S1x1024x1x128 .f32 :=
  View.ld (I c).vb (Rect.unit ![0, 0, 0, 0] S1x1024x1x128.size inb_S4x1024x2x128_S1x1024x1x128_0_0_0_0)
def kS01 : Vec F S1x1024x1x128 .f32 :=
  View.ld (I c).kb (Rect.unit ![0, 0, 1, 0] S1x1024x1x128.size inb_S4x1024x2x128_S1x1024x1x128_0_0_1_0)
def vS01 : Vec F S1x1024x1x128 .f32 :=
  View.ld (I c).vb (Rect.unit ![0, 0, 1, 0] S1x1024x1x128.size inb_S4x1024x2x128_S1x1024x1x128_0_0_1_0)
def kS10 : Vec F S1x1024x1x128 .f32 :=
  View.ld (I c).kb (Rect.unit ![1, 0, 0, 0] S1x1024x1x128.size inb_S4x1024x2x128_S1x1024x1x128_1_0_0_0)
def vS10 : Vec F S1x1024x1x128 .f32 :=
  View.ld (I c).vb (Rect.unit ![1, 0, 0, 0] S1x1024x1x128.size inb_S4x1024x2x128_S1x1024x1x128_1_0_0_0)
def kS11 : Vec F S1x1024x1x128 .f32 :=
  View.ld (I c).kb (Rect.unit ![1, 0, 1, 0] S1x1024x1x128.size inb_S4x1024x2x128_S1x1024x1x128_1_0_1_0)
def vS11 : Vec F S1x1024x1x128 .f32 :=
  View.ld (I c).vb (Rect.unit ![1, 0, 1, 0] S1x1024x1x128.size inb_S4x1024x2x128_S1x1024x1x128_1_0_1_0)
def kS20 : Vec F S1x1024x1x128 .f32 :=
  View.ld (I c).kb (Rect.unit ![2, 0, 0, 0] S1x1024x1x128.size inb_S4x1024x2x128_S1x1024x1x128_2_0_0_0)
def vS20 : Vec F S1x1024x1x128 .f32 :=
  View.ld (I c).vb (Rect.unit ![2, 0, 0, 0] S1x1024x1x128.size inb_S4x1024x2x128_S1x1024x1x128_2_0_0_0)
def kS21 : Vec F S1x1024x1x128 .f32 :=
  View.ld (I c).kb (Rect.unit ![2, 0, 1, 0] S1x1024x1x128.size inb_S4x1024x2x128_S1x1024x1x128_2_0_1_0)
def vS21 : Vec F S1x1024x1x128 .f32 :=
  View.ld (I c).vb (Rect.unit ![2, 0, 1, 0] S1x1024x1x128.size inb_S4x1024x2x128_S1x1024x1x128_2_0_1_0)
def kS30 : Vec F S1x1024x1x128 .f32 :=
  View.ld (I c).kb (Rect.unit ![3, 0, 0, 0] S1x1024x1x128.size inb_S4x1024x2x128_S1x1024x1x128_3_0_0_0)
def vS30 : Vec F S1x1024x1x128 .f32 :=
  View.ld (I c).vb (Rect.unit ![3, 0, 0, 0] S1x1024x1x128.size inb_S4x1024x2x128_S1x1024x1x128_3_0_0_0)
def kS31 : Vec F S1x1024x1x128 .f32 :=
  View.ld (I c).kb (Rect.unit ![3, 0, 1, 0] S1x1024x1x128.size inb_S4x1024x2x128_S1x1024x1x128_3_0_1_0)
def vS31 : Vec F S1x1024x1x128 .f32 :=
  View.ld (I c).vb (Rect.unit ![3, 0, 1, 0] S1x1024x1x128.size inb_S4x1024x2x128_S1x1024x1x128_3_0_1_0)

def sdOL : List (View.Piece (Elt F) S4x4x2x128x128 .bf16) :=
  [⟨Rect.unit ![0, 3, 1, 0, 0] S4x1x1x128x128.size inb_S4x4x2x128x128_S4x1x1x128x128_0_3_1_0_0, k0_pay65 (k0_pay64 (k0_pay51 (qr4 I c)) (kS31 I c) (vS31 I c))⟩,
    ⟨Rect.unit ![0, 3, 0, 0, 0] S4x1x1x128x128.size inb_S4x4x2x128x128_S4x1x1x128x128_0_3_0_0_0, k0_pay57 (k0_pay56 (qr4 I c) (kS30 I c) (vS30 I c))⟩,
    ⟨Rect.unit ![0, 2, 1, 0, 0] S4x1x1x128x128.size inb_S4x4x2x128x128_S4x1x1x128x128_0_2_1_0_0, k0_pay47 (k0_pay35 (qr3 I c)) (kS21 I c) (vS21 I c)⟩,
    ⟨Rect.unit ![0, 2, 0, 0, 0] S4x1x1x128x128.size inb_S4x4x2x128x128_S4x1x1x128x128_0_2_0_0_0, k0_pay40 (qr3 I c) (kS20 I c) (vS20 I c)⟩,
    ⟨Rect.unit ![0, 1, 1, 0, 0] S4x1x1x128x128.size inb_S4x4x2x128x128_S4x1x1x128x128_0_1_1_0_0, k0_pay31 (k0_pay18 (qr2 I c)) (kS11 I c) (vS11 I c)⟩,
    ⟨Rect.unit ![0, 1, 0, 0, 0] S4x1x1x128x128.size inb_S4x4x2x128x128_S4x1x1x128x128_0_1_0_0_0, k0_pay23 (qr2 I c) (kS10 I c) (vS10 I c)⟩,
    ⟨Rect.unit ![0, 0, 1, 0, 0] S4x1x1x128x128.size inb_S4x4x2x128x128_S4x1x1x128x128_0_0_1_0_0, k0_pay15 (k0_pay2 (qr1 I c)) (kS01 I c) (vS01 I c)⟩,
    ⟨Rect.unit ![0, 0, 0, 0, 0] S4x1x1x128x128.size inb_S4x4x2x128x128_S4x1x1x128x128_0_0_0_0_0, k0_pay7 (qr1 I c) (kS00 I c) (vS00 I c)⟩]
def sdMLL : List (View.Piece (Elt F) S4x2x8x128 .f32) :=
  [⟨Rect.unit ![0, 1, 7, 0] S4x1x1x128.size inb_S4x2x8x128_S4x1x1x128_0_1_7_0, k0_pay67 (k0_pay63 (k0_pay51 (qr4 I c)) (kS31 I c))⟩,
    ⟨Rect.unit ![0, 0, 7, 0] S4x1x1x128.size inb_S4x2x8x128_S4x1x1x128_0_0_7_0, k0_pay66 (k0_pay61 (k0_pay51 (qr4 I c)) (kS31 I c))⟩,
    ⟨Rect.unit ![0, 1, 6, 0] S4x1x1x128.size inb_S4x2x8x128_S4x1x1x128_0_1_6_0, k0_pay59 (k0_pay55 (qr4 I c) (kS30 I c))⟩,
    ⟨Rect.unit ![0, 0, 6, 0] S4x1x1x128.size inb_S4x2x8x128_S4x1x1x128_0_0_6_0, k0_pay58 (k0_pay53 (qr4 I c) (kS30 I c))⟩,
    ⟨Rect.unit ![0, 1, 5, 0] S4x1x1x128.size inb_S4x2x8x128_S4x1x1x128_0_1_5_0, k0_pay50 (k0_pay46 (k0_pay35 (qr3 I c)) (kS21 I c))⟩,
    ⟨Rect.unit ![0, 0, 5, 0] S4x1x1x128.size inb_S4x2x8x128_S4x1x1x128_0_0_5_0, k0_pay49 (k0_pay48 (k0_pay35 (qr3 I c)) (kS21 I c))⟩,
    ⟨Rect.unit ![0, 1, 4, 0] S4x1x1x128.size inb_S4x2x8x128_S4x1x1x128_0_1_4_0, k0_pay42 (k0_pay39 (qr3 I c) (kS20 I c))⟩,
    ⟨Rect.unit ![0, 0, 4, 0] S4x1x1x128.size inb_S4x2x8x128_S4x1x1x128_0_0_4_0, k0_pay41 (k0_pay37 (qr3 I c) (kS20 I c))⟩,
    ⟨Rect.unit ![0, 1, 3, 0] S4x1x1x128.size inb_S4x2x8x128_S4x1x1x128_0_1_3_0, k0_pay34 (k0_pay30 (k0_pay18 (qr2 I c)) (kS11 I c))⟩,
    ⟨Rect.unit ![0, 0, 3, 0] S4x1x1x128.size inb_S4x2x8x128_S4x1x1x128_0_0_3_0, k0_pay33 (k0_pay32 (k0_pay18 (qr2 I c)) (kS11 I c))⟩,
    ⟨Rect.unit ![0, 1, 2, 0] S4x1x1x128.size inb_S4x2x8x128_S4x1x1x128_0_1_2_0, k0_pay26 (k0_pay22 (qr2 I c) (kS10 I c))⟩,
    ⟨Rect.unit ![0, 0, 2, 0] S4x1x1x128.size inb_S4x2x8x128_S4x1x1x128_0_0_2_0, k0_pay25 (k0_pay24 (qr2 I c) (kS10 I c))⟩,
    ⟨Rect.unit ![0, 1, 1, 0] S4x1x1x128.size inb_S4x2x8x128_S4x1x1x128_0_1_1_0, k0_pay17 (k0_pay14 (k0_pay2 (qr1 I c)) (kS01 I c))⟩,
    ⟨Rect.unit ![0, 0, 1, 0] S4x1x1x128.size inb_S4x2x8x128_S4x1x1x128_0_0_1_0, k0_pay16 (k0_pay2 (qr1 I c)) (kS01 I c)⟩,
    ⟨Rect.unit ![0, 1, 0, 0] S4x1x1x128.size inb_S4x2x8x128_S4x1x1x128_0_1_0_0, k0_pay10 (k0_pay6 (qr1 I c) (kS00 I c))⟩,
    ⟨Rect.unit ![0, 0, 0, 0] S4x1x1x128.size inb_S4x2x8x128_S4x1x1x128_0_0_0_0, k0_pay9 (k0_pay8 (qr1 I c) (kS00 I c))⟩]
def kpOL : List (View.Piece (Elt F) S4x4x2x128x128 .bf16) :=
  [⟨Rect.unit ![0, 3, 1, 0, 0] S4x1x1x128x128.size inb_S4x4x2x128x128_S4x1x1x128x128_0_3_1_0_0, k0_pay125 (k0_pay115 (qr8 I c)) (kS31 I c) (vS31 I c)⟩,
    ⟨Rect.unit ![0, 3, 0, 0, 0] S4x1x1x128x128.size inb_S4x4x2x128x128_S4x1x1x128x128_0_3_0_0_0, k0_pay119 (qr8 I c) (kS30 I c) (vS30 I c)⟩,
    ⟨Rect.unit ![0, 2, 1, 0, 0] S4x1x1x128x128.size inb_S4x4x2x128x128_S4x1x1x128x128_0_2_1_0_0, k0_pay112 (k0_pay108 (k0_pay100 (qr7 I c))) (kS21 I c) (vS21 I c)⟩,
    ⟨Rect.unit ![0, 2, 0, 0, 0] S4x1x1x128x128.size inb_S4x4x2x128x128_S4x1x1x128x128_0_2_0_0_0, k0_pay105 (k0_pay101 (qr7 I c)) (kS20 I c) (vS20 I c)⟩,
    ⟨Rect.unit ![0, 1, 1, 0, 0] S4x1x1x128x128.size inb_S4x4x2x128x128_S4x1x1x128x128_0_1_1_0_0, k0_pay97 (k0_pay93 (k0_pay85 (qr6 I c))) (kS11 I c) (vS11 I c)⟩,
    ⟨Rect.unit ![0, 1, 0, 0, 0] S4x1x1x128x128.size inb_S4x4x2x128x128_S4x1x1x128x128_0_1_0_0_0, k0_pay90 (k0_pay86 (qr6 I c)) (kS10 I c) (vS10 I c)⟩,
    ⟨Rect.unit ![0, 0, 1, 0, 0] S4x1x1x128x128.size inb_S4x4x2x128x128_S4x1x1x128x128_0_0_1_0_0, k0_pay82 (k0_pay77 (k0_pay68 (qr5 I c))) (k0_pay78 (kS01 I c)) (vS01 I c)⟩,
    ⟨Rect.unit ![0, 0, 0, 0, 0] S4x1x1x128x128.size inb_S4x4x2x128x128_S4x1x1x128x128_0_0_0_0_0, k0_pay74 (k0_pay69 (qr5 I c)) (k0_pay70 (kS00 I c)) (vS00 I c)⟩]
def kpMLL : List (View.Piece (Elt F) S4x2x8x128 .f32) :=
  [⟨Rect.unit ![0, 1, 7, 0] S4x1x1x128.size inb_S4x2x8x128_S4x1x1x128_0_1_7_0, k0_pay127 (k0_pay115 (qr8 I c)) (kS31 I c)⟩,
    ⟨Rect.unit ![0, 0, 7, 0] S4x1x1x128.size inb_S4x2x8x128_S4x1x1x128_0_0_7_0, k0_pay126 (k0_pay115 (qr8 I c)) (kS31 I c)⟩,
    ⟨Rect.unit ![0, 1, 6, 0] S4x1x1x128.size inb_S4x2x8x128_S4x1x1x128_0_1_6_0, k0_pay121 (qr8 I c) (kS30 I c)⟩,
    ⟨Rect.unit ![0, 0, 6, 0] S4x1x1x128.size inb_S4x2x8x128_S4x1x1x128_0_0_6_0, k0_pay120 (qr8 I c) (kS30 I c)⟩,
    ⟨Rect.unit ![0, 1, 5, 0] S4x1x1x128.size inb_S4x2x8x128_S4x1x1x128_0_1_5_0, k0_pay114 (k0_pay108 (k0_pay100 (qr7 I c))) (kS21 I c)⟩,
    ⟨Rect.unit ![0, 0, 5, 0] S4x1x1x128.size inb_S4x2x8x128_S4x1x1x128_0_0_5_0, k0_pay113 (k0_pay108 (k0_pay100 (qr7 I c))) (kS21 I c)⟩,
    ⟨Rect.unit ![0, 1, 4, 0] S4x1x1x128.size inb_S4x2x8x128_S4x1x1x128_0_1_4_0, k0_pay107 (k0_pay101 (qr7 I c)) (kS20 I c)⟩,
    ⟨Rect.unit ![0, 0, 4, 0] S4x1x1x128.size inb_S4x2x8x128_S4x1x1x128_0_0_4_0, k0_pay106 (k0_pay101 (qr7 I c)) (kS20 I c)⟩,
    ⟨Rect.unit ![0, 1, 3, 0] S4x1x1x128.size inb_S4x2x8x128_S4x1x1x128_0_1_3_0, k0_pay99 (k0_pay93 (k0_pay85 (qr6 I c))) (kS11 I c)⟩,
    ⟨Rect.unit ![0, 0, 3, 0] S4x1x1x128.size inb_S4x2x8x128_S4x1x1x128_0_0_3_0, k0_pay98 (k0_pay93 (k0_pay85 (qr6 I c))) (kS11 I c)⟩,
    ⟨Rect.unit ![0, 1, 2, 0] S4x1x1x128.size inb_S4x2x8x128_S4x1x1x128_0_1_2_0, k0_pay92 (k0_pay86 (qr6 I c)) (kS10 I c)⟩,
    ⟨Rect.unit ![0, 0, 2, 0] S4x1x1x128.size inb_S4x2x8x128_S4x1x1x128_0_0_2_0, k0_pay91 (k0_pay86 (qr6 I c)) (kS10 I c)⟩,
    ⟨Rect.unit ![0, 1, 1, 0] S4x1x1x128.size inb_S4x2x8x128_S4x1x1x128_0_1_1_0, k0_pay84 (k0_pay77 (k0_pay68 (qr5 I c))) (k0_pay78 (kS01 I c))⟩,
    ⟨Rect.unit ![0, 0, 1, 0] S4x1x1x128.size inb_S4x2x8x128_S4x1x1x128_0_0_1_0, k0_pay83 (k0_pay77 (k0_pay68 (qr5 I c))) (k0_pay78 (kS01 I c))⟩,
    ⟨Rect.unit ![0, 1, 0, 0] S4x1x1x128.size inb_S4x2x8x128_S4x1x1x128_0_1_0_0, k0_pay76 (k0_pay69 (qr5 I c)) (k0_pay70 (kS00 I c))⟩,
    ⟨Rect.unit ![0, 0, 0, 0] S4x1x1x128.size inb_S4x2x8x128_S4x1x1x128_0_0_0_0, k0_pay75 (k0_pay69 (qr5 I c)) (k0_pay70 (kS00 I c))⟩]
def o0 : Vec F S4x4x2x128x128 .bf16 :=
  View.canon (sdOL I c)
def ml0 : Vec F S4x2x8x128 .f32 :=
  View.canon (sdMLL I c)
def kpO : Vec F S4x4x2x128x128 .bf16 :=
  View.canon (kpOL I c)
def kpML : Vec F S4x2x8x128 .f32 :=
  View.canon (kpMLL I c)

def m0a : Vec F S4x8x128 .f32 :=
  k0_pay129 (View.ld (kpML I c) (Rect.unit ![0, 0, 0, 0] S4x1x8x128.size inb_S4x2x8x128_S4x1x8x128_0_0_0_0))
def m0b : Vec F S4x8x128 .f32 :=
  k0_pay130 (View.ld (kpML I c) (Rect.unit ![0, 1, 0, 0] S4x1x8x128.size inb_S4x2x8x128_S4x1x8x128_0_1_0_0))
def r0a : Vec F S4x1x8x128 .f32 :=
  View.ld (ml0 I (p4 c)) (Rect.unit ![0, 0, 0, 0] S4x1x8x128.size inb_S4x2x8x128_S4x1x8x128_0_0_0_0)
def r0b : Vec F S4x1x8x128 .f32 :=
  View.ld (ml0 I (p4 c)) (Rect.unit ![0, 1, 0, 0] S4x1x8x128.size inb_S4x2x8x128_S4x1x8x128_0_1_0_0)
def c0oV : Vec F S4x4x2x128x128 .bf16 :=
  k0_pay136 (k0_pay128 (kpO I c)) (m0a I c) (k0_pay131 (o0 I (p4 c))) (r0a I c)
def c0mlV : Vec F S4x2x8x128 .f32 :=
  k0_pay137 (m0a I c) (m0b I c) (r0a I c) (r0b I c)
def o1 : Vec F S2x4x2x128x128 .bf16 :=
  View.ld (c0oV I c) (Rect.unit (k0_off9 c) S2x4x2x128x128.size (k0_off9_inb c))
def ml1 : Vec F S2x2x8x128 .f32 :=
  View.ld (c0mlV I c) (Rect.unit (k0_off10 c) S2x2x8x128.size (k0_off10_inb c))
def k1ml : Vec F S2x2x8x128 .f32 :=
  View.ld (c0mlV I c) (Rect.unit (k0_off11 c) S2x2x8x128.size (k0_off11_inb c))
def k1o : Vec F S2x4x2x128x128 .bf16 :=
  View.ld (c0oV I c) (Rect.unit (k0_off12 c) S2x4x2x128x128.size (k0_off12_inb c))
def r1a : Vec F S2x1x8x128 .f32 :=
  View.ld (ml1 I (p2 c)) (Rect.unit ![0, 0, 0, 0] S2x1x8x128.size inb_S2x2x8x128_S2x1x8x128_0_0_0_0)
def r1b : Vec F S2x1x8x128 .f32 :=
  View.ld (ml1 I (p2 c)) (Rect.unit ![0, 1, 0, 0] S2x1x8x128.size inb_S2x2x8x128_S2x1x8x128_0_1_0_0)
def c1oV : Vec F S2x4x2x128x128 .bf16 :=
  k0_pay145 (k0_pay144 (k1ml I c) (k1o I c) (o1 I (p2 c)) (r1a I c))
def c1mlV : Vec F S2x2x8x128 .f32 :=
  k0_pay146 (k0_pay140 (k1ml I c) (r1a I c)) (k0_pay143 (k1ml I c) (r1a I c) (r1b I c))
def o2 : Vec F S1x4x2x128x128 .bf16 :=
  View.ld (c1oV I c) (Rect.unit (k0_off13 c) S1x4x2x128x128.size (k0_off13_inb c))
def ml2 : Vec F S1x2x8x128 .f32 :=
  View.ld (c1mlV I c) (Rect.unit (k0_off14 c) S1x2x8x128.size (k0_off14_inb c))
def k2ml : Vec F S1x2x8x128 .f32 :=
  View.ld (c1mlV I c) (Rect.unit (k0_off15 c) S1x2x8x128.size (k0_off15_inb c))
def k2o : Vec F S1x4x2x128x128 .bf16 :=
  View.ld (c1oV I c) (Rect.unit (k0_off16 c) S1x4x2x128x128.size (k0_off16_inb c))
def r2a : Vec F S1x1x8x128 .f32 :=
  View.ld (ml2 I (p1 c)) (Rect.unit ![0, 0, 0, 0] S1x1x8x128.size inb_S1x2x8x128_S1x1x8x128_0_0_0_0)
def r2b : Vec F S1x1x8x128 .f32 :=
  View.ld (ml2 I (p1 c)) (Rect.unit ![0, 1, 0, 0] S1x1x8x128.size inb_S1x2x8x128_S1x1x8x128_0_1_0_0)

def y1 : Vec F S1x128x1024 .bf16 :=
  k0_pay157 (k0_pay150 (I c).wo) (k0_pay151 (k0_pay147 (k2o I c)) (k0_pay148 (k2ml I c)) (k0_pay149 (k2ml I c)) (o2 I (p1 c)) (r2a I c) (r2b I c)) (k0_pay152 (k0_pay147 (k2o I c)) (k0_pay148 (k2ml I c)) (k0_pay149 (k2ml I c)) (o2 I (p1 c)) (r2a I c) (r2b I c)) (k0_pay153 (k0_pay147 (k2o I c)) (k0_pay148 (k2ml I c)) (k0_pay149 (k2ml I c)) (o2 I (p1 c)) (r2a I c) (r2b I c)) (k0_pay154 (k0_pay147 (k2o I c)) (k0_pay148 (k2ml I c)) (k0_pay149 (k2ml I c)) (o2 I (p1 c)) (r2a I c) (r2b I c)) (k0_pay155 (k0_pay147 (k2o I c)) (k0_pay148 (k2ml I c)) (k0_pay149 (k2ml I c)) (o2 I (p1 c)) (r2a I c) (r2b I c))
def yf : FVec F S128x1024 .f32 :=
  k0_pay156 (k0_pay150 (I c).wo) (k0_pay151 (k0_pay147 (k2o I c)) (k0_pay148 (k2ml I c)) (k0_pay149 (k2ml I c)) (o2 I (p1 c)) (r2a I c) (r2b I c)) (k0_pay152 (k0_pay147 (k2o I c)) (k0_pay148 (k2ml I c)) (k0_pay149 (k2ml I c)) (o2 I (p1 c)) (r2a I c) (r2b I c)) (k0_pay153 (k0_pay147 (k2o I c)) (k0_pay148 (k2ml I c)) (k0_pay149 (k2ml I c)) (o2 I (p1 c)) (r2a I c) (r2b I c)) (k0_pay154 (k0_pay147 (k2o I c)) (k0_pay148 (k2ml I c)) (k0_pay149 (k2ml I c)) (o2 I (p1 c)) (r2a I c) (r2b I c)) (k0_pay155 (k0_pay147 (k2o I c)) (k0_pay148 (k2ml I c)) (k0_pay149 (k2ml I c)) (o2 I (p1 c)) (r2a I c) (r2b I c))
def yV : Vec F S128x1024 .bf16 :=
  sq (y1 I c)
def outL : List (View.Piece (Elt F) S4x256x1024 .bf16) :=
  [⟨Rect.unit (k0_off18 c 7#32) S4x32x1024.size (k0_off18_inb c 6), k0_pay165 (unsq (yV I (xorDev 7 c)))⟩,
    ⟨Rect.unit (k0_off18 c 5#32) S4x32x1024.size (k0_off18_inb c 4), k0_pay164 (unsq (yV I (xorDev 5 c)))⟩,
    ⟨Rect.unit (k0_off18 c 6#32) S4x32x1024.size (k0_off18_inb c 5), k0_pay163 (unsq (yV I (xorDev 6 c)))⟩,
    ⟨Rect.unit (k0_off18 c 3#32) S4x32x1024.size (k0_off18_inb c 2), k0_pay162 (unsq (yV I (xorDev 3 c)))⟩,
    ⟨Rect.unit (k0_off18 c 4#32) S4x32x1024.size (k0_off18_inb c 3), k0_pay161 (unsq (yV I (xorDev 4 c)))⟩,
    ⟨Rect.unit (k0_off18 c 2#32) S4x32x1024.size (k0_off18_inb c 1), k0_pay160 (unsq (yV I (xorDev 2 c)))⟩,
    ⟨Rect.unit (k0_off18 c 1#32) S4x32x1024.size (k0_off18_inb c 0), k0_pay159 (unsq (yV I (xorDev 1 c)))⟩,
    ⟨Rect.unit (k0_off17 c) S4x32x1024.size (k0_off17_inb c), k0_pay158 (yf I c)⟩]
def outV : Vec F S4x256x1024 .bf16 :=
  View.canon (outL I c)

def contsOf : Conts F where
  o0 := o0 I
  ml0 := ml0 I
  o1 := o1 I
  ml1 := ml1 I
  o2 := o2 I
  ml2 := ml2 I
  y := yV I
  out := outV I

variable (m : (ℓ : Loc nD τ sig) → Buf (Elt F) ℓ)

def ins (c : Dev nD) : Ins F where
  x := Gen.iblk m c 0 t0_0
  wq := Gen.iblk m c 1 t0_0
  wo := Gen.iblk m c 2 t0_0
  kb := Gen.iblk m c 3 t0_0
  vb := Gen.iblk m c 4 t0_0

def conts : Conts F := contsOf (ins m)

end Cert.Kernel.Hand

end
-- ==== Proof.Bits.BodyOffs.lean ====
import proofs.«900755_g7700000000000756_dist_attn_cross_gqa_kvseq_b4_sq256_skv1024_d1024_hq8_dh128_v7x_i8_bf16_1_alg».proof.Proof.Bits.Sched
import Idealize.ShloMosaic.Lib.Exec

namespace Cert.Kernel.Hand

open Cert.Kernel.Gen Idealize.ShloMosaic

theorem k0_off1_eq : ∀ d0 : Dev nD, k0_off1 d0 = ![0, 128 - 128 * (d0.val / 4), 0, 0] := by decide +kernel
instance closedOff_k0_off1 (d0 : Dev nD) : ClosedOff (k0_off1 d0) := ⟨![0, 128 - 128 * (d0.val / 4), 0, 0], k0_off1_eq d0⟩
theorem k0_off2_eq : ∀ d0 : Dev nD, k0_off2 d0 = ![1, 128 - 128 * (d0.val / 4), 0, 0] := by decide +kernel
instance closedOff_k0_off2 (d0 : Dev nD) : ClosedOff (k0_off2 d0) := ⟨![1, 128 - 128 * (d0.val / 4), 0, 0], k0_off2_eq d0⟩
theorem k0_off3_eq : ∀ d0 : Dev nD, k0_off3 d0 = ![2, 128 - 128 * (d0.val / 4), 0, 0] := by decide +kernel
instance closedOff_k0_off3 (d0 : Dev nD) : ClosedOff (k0_off3 d0) := ⟨![2, 128 - 128 * (d0.val / 4), 0, 0], k0_off3_eq d0⟩
theorem k0_off4_eq : ∀ d0 : Dev nD, k0_off4 d0 = ![3, 128 - 128 * (d0.val / 4), 0, 0] := by decide +kernel
instance closedOff_k0_off4 (d0 : Dev nD) : ClosedOff (k0_off4 d0) := ⟨![3, 128 - 128 * (d0.val / 4), 0, 0], k0_off4_eq d0⟩
theorem k0_off5_eq : ∀ d0 : Dev nD, k0_off5 d0 = ![0, 128 * (d0.val / 4), 0, 0] := by decide +kernel
instance closedOff_k0_off5 (d0 : Dev nD) : ClosedOff (k0_off5 d0) := ⟨![0, 128 * (d0.val / 4), 0, 0], k0_off5_eq d0⟩
theorem k0_off6_eq : ∀ d0 : Dev nD, k0_off6 d0 = ![1, 128 * (d0.val / 4), 0, 0] := by decide +kernel
instance closedOff_k0_off6 (d0 : Dev nD) : ClosedOff (k0_off6 d0) := ⟨![1, 128 * (d0.val / 4), 0, 0], k0_off6_eq d0⟩
theorem k0_off7_eq : ∀ d0 : Dev nD, k0_off7 d0 = ![2, 128 * (d0.val / 4), 0, 0] := by decide +kernel
instance closedOff_k0_off7 (d0 : Dev nD) : ClosedOff (k0_off7 d0) := ⟨![2, 128 * (d0.val / 4), 0, 0], k0_off7_eq d0⟩
theorem k0_off8_eq : ∀ d0 : Dev nD, k0_off8 d0 = ![3, 128 * (d0.val / 4), 0, 0] := by decide +kernel
instance closedOff_k0_off8 (d0 : Dev nD) : ClosedOff (k0_off8 d0) := ⟨![3, 128 * (d0.val / 4), 0, 0], k0_off8_eq d0⟩
theorem k0_off9_eq : ∀ d0 : Dev nD, k0_off9 d0 = ![2 - 2 * (d0.val / 2 % 2), 0, 0, 0, 0] := by decide +kernel
instance closedOff_k0_off9 (d0 : Dev nD) : ClosedOff (k0_off9 d0) := ⟨![2 - 2 * (d0.val / 2 % 2), 0, 0, 0, 0], k0_off9_eq d0⟩
theorem k0_off10_eq : ∀ d0 : Dev nD, k0_off10 d0 = ![2 - 2 * (d0.val / 2 % 2), 0, 0, 0] := by decide +kernel
instance closedOff_k0_off10 (d0 : Dev nD) : ClosedOff (k0_off10 d0) := ⟨![2 - 2 * (d0.val / 2 % 2), 0, 0, 0], k0_off10_eq d0⟩
theorem k0_off11_eq : ∀ d0 : Dev nD, k0_off11 d0 = ![2 * (d0.val / 2 % 2), 0, 0, 0] := by decide +kernel
instance closedOff_k0_off11 (d0 : Dev nD) : ClosedOff (k0_off11 d0) := ⟨![2 * (d0.val / 2 % 2), 0, 0, 0], k0_off11_eq d0⟩
theorem k0_off12_eq : ∀ d0 : Dev nD, k0_off12 d0 = ![2 * (d0.val / 2 % 2), 0, 0, 0, 0] := by decide +kernel
instance closedOff_k0_off12 (d0 : Dev nD) : ClosedOff (k0_off12 d0) := ⟨![2 * (d0.val / 2 % 2), 0, 0, 0, 0], k0_off12_eq d0⟩
theorem k0_off13_eq : ∀ d0 : Dev nD, k0_off13 d0 = ![1 - d0.val % 2, 0, 0, 0, 0] := by decide +kernel
instance closedOff_k0_off13 (d0 : Dev nD) : ClosedOff (k0_off13 d0) := ⟨![1 - d0.val % 2, 0, 0, 0, 0], k0_off13_eq d0⟩
theorem k0_off14_eq : ∀ d0 : Dev nD, k0_off14 d0 = ![1 - d0.val % 2, 0, 0, 0] := by decide +kernel
instance closedOff_k0_off14 (d0 : Dev nD) : ClosedOff (k0_off14 d0) := ⟨![1 - d0.val % 2, 0, 0, 0], k0_off14_eq d0⟩
theorem k0_off15_eq : ∀ d0 : Dev nD, k0_off15 d0 = ![d0.val % 2, 0, 0, 0] := by decide +kernel
instance closedOff_k0_off15 (d0 : Dev nD) : ClosedOff (k0_off15 d0) := ⟨![d0.val % 2, 0, 0, 0], k0_off15_eq d0⟩
theorem k0_off16_eq : ∀ d0 : Dev nD, k0_off16 d0 = ![d0.val % 2, 0, 0, 0, 0] := by decide +kernel
instance closedOff_k0_off16 (d0 : Dev nD) : ClosedOff (k0_off16 d0) := ⟨![d0.val % 2, 0, 0, 0, 0], k0_off16_eq d0⟩
theorem k0_off18_1_eq : ∀ d0 : Dev nD, k0_off18 d0 1#32 = ![0, 32 * (d0.val + 1 - 2 * (d0.val % 2)), 0] := by decide +kernel
instance closedOff_k0_off18_1 (d0 : Dev nD) : ClosedOff (k0_off18 d0 1#32) := ⟨![0, 32 * (d0.val + 1 - 2 * (d0.val % 2)), 0], k0_off18_1_eq d0⟩
theorem k0_off18_2_eq : ∀ d0 : Dev nD, k0_off18 d0 2#32 = ![0, 32 * (d0.val + 2 - 2 * (2 * (d0.val / 2 % 2))), 0] := by decide +kernel
instance closedOff_k0_off18_2 (d0 : Dev nD) : ClosedOff (k0_off18 d0 2#32) := ⟨![0, 32 * (d0.val + 2 - 2 * (2 * (d0.val / 2 % 2))), 0], k0_off18_2_eq d0⟩
theorem k0_off18_3_eq : ∀ d0 : Dev nD, k0_off18 d0 3#32 = ![0, 32 * (d0.val + 3 - 2 * (d0.val % 2 + 2 * (d0.val / 2 % 2))), 0] := by decide +kernel
instance closedOff_k0_off18_3 (d0 : Dev nD) : ClosedOff (k0_off18 d0 3#32) := ⟨![0, 32 * (d0.val + 3 - 2 * (d0.val % 2 + 2 * (d0.val / 2 % 2))), 0], k0_off18_3_eq d0⟩
theorem k0_off18_4_eq : ∀ d0 : Dev nD, k0_off18 d0 4#32 = ![0, 32 * (d0.val + 4 - 2 * (4 * (d0.val / 4))), 0] := by decide +kernel
instance closedOff_k0_off18_4 (d0 : Dev nD) : ClosedOff (k0_off18 d0 4#32) := ⟨![0, 32 * (d0.val + 4 - 2 * (4 * (d0.val / 4))), 0], k0_off18_4_eq d0⟩
theorem k0_off18_5_eq : ∀ d0 : Dev nD, k0_off18 d0 5#32 = ![0, 32 * (d0.val + 5 - 2 * (d0.val % 2 + 4 * (d0.val / 4))), 0] := by decide +kernel
instance closedOff_k0_off18_5 (d0 : Dev nD) : ClosedOff (k0_off18 d0 5#32) := ⟨![0, 32 * (d0.val + 5 - 2 * (d0.val % 2 + 4 * (d0.val / 4))), 0], k0_off18_5_eq d0⟩
theorem k0_off18_6_eq : ∀ d0 : Dev nD, k0_off18 d0 6#32 = ![0, 32 * (d0.val + 6 - 2 * (2 * (d0.val / 2 % 2) + 4 * (d0.val / 4))), 0] := by decide +kernel
instance closedOff_k0_off18_6 (d0 : Dev nD) : ClosedOff (k0_off18 d0 6#32) := ⟨![0, 32 * (d0.val + 6 - 2 * (2 * (d0.val / 2 % 2) + 4 * (d0.val / 4))), 0], k0_off18_6_eq d0⟩
theorem k0_off18_7_eq : ∀ d0 : Dev nD, k0_off18 d0 7#32 = ![0, 32 * (d0.val + 7 - 2 * (d0.val % 2 + 2 * (d0.val / 2 % 2) + 4 * (d0.val / 4))), 0] := by decide +kernel
instance closedOff_k0_off18_7 (d0 : Dev nD) : ClosedOff (k0_off18 d0 7#32) := ⟨![0, 32 * (d0.val + 7 - 2 * (d0.val % 2 + 2 * (d0.val / 2 % 2) + 4 * (d0.val / 4))), 0], k0_off18_7_eq d0⟩

end Cert.Kernel.Hand
-- ==== Proof.Bits.BodySlots.lean ====
import proofs.«900755_g7700000000000756_dist_attn_cross_gqa_kvseq_b4_sq256_skv1024_d1024_hq8_dh128_v7x_i8_bf16_1_alg».proof.Proof.Bits.Contents
import proofs.«900755_g7700000000000756_dist_attn_cross_gqa_kvseq_b4_sq256_skv1024_d1024_hq8_dh128_v7x_i8_bf16_1_alg».proof.Proof.Bits.Dats
import Idealize.ShloMosaic.Lib.Tactic

noncomputable section

namespace Cert.Kernel.Hand

open Cert.Kernel.Gen Idealize.ShloMosaic Idealize.ShloMosaic.TcCoe Idealize.SL Idealize.SL.RA Idealize.SL.BI Idealize.SL.BI.BIBase Idealize.SL.ProofMode Idealize.SL.Sem

variable {F : FTy → Type} [FloatOps F]

local notation "𝕄" => MT nD τ sig Unit (Elt F) ℕ UU ℕ

abbrev yRect (s : Fin 8) : Rect S8x128x1024 := Rect.unit (s := S8x128x1024) ![s.val, 0, 0] S1x128x1024.size (inbY s)

omit [FloatOps F] in
theorem ySlot_set (s : Fin 8) : (ySlot s).view.set = (yx.access (yRect s) : View sig .tc _ _ _).set := by
  simp only [Memref.view_squeeze, View.set_reshape]

theorem ySlot_read (c : Dev nD) (s : Fin 8) (f : Buf (Elt F) ((ySlot s).view.loc (c : Thread nD τ))) :
    (ySlot s).view.read (Elt F) f = sq ((yx.access (yRect s) : View sig .tc _ _ _).read (Elt F) f) := by
  funext j
  rfl

theorem slot_load (c : Dev nD) (s : Fin 8) (q : PosShare TreeShare) (f : Buf (Elt F) ((ySlot s).view.loc (c : Thread nD τ)))
    {hl : yx.view.LoadsAt (yRect s).toLoadRect} {α : Type} {Q : α → sProp 𝕄} {E : Set ℕ}
    {k : ((yRect s).toLoadRect.shape.Idx → Elt F .bf16) → Prog (TpuEff nD τ sig (Elt F) Λ₀ .tc) α} :
    ((ySlot s).view.loc (c : Thread nD τ) ↦[(ySlot s).view.set]{q} f)
      ⊢ iprop((((ySlot s).view.loc (c : Thread nD τ) ↦[(ySlot s).view.set]{q} f)
            -∗ wp frame (wpE (defs₀ (F := F)) 𝒱₀ c none) E (k (unsq ((ySlot s).view.read (Elt F) f))) Q)
          -∗ wp frame (wpE (defs₀ (F := F)) 𝒱₀ c none) E (.op (.load yx (yRect s).toLoadRect hl) k) Q) := by
  rw [ySlot_read c s f, unsq_sq]
  refine wp_load 𝒱₀ (c : Thread nD τ) none E (m := yx) (r := (yRect s).toLoadRect) ?_
  rw [ySlot_set]
  exact (View.set_slice (v := yx.view) (yRect s)).ge

theorem slot_store (c : Dev nD) (s : Fin 8) (f : Buf (Elt F) ((ySlot s).view.loc (c : Thread nD τ)))
    (w : (yRect s).shape.Idx → Elt F .bf16)
    {hx : (yx.access (yRect s) : View sig .tc _ _ _).Stores Finset.univ} {hm : (Finset.univ : Finset (yRect s).shape.Idx) = Finset.univ ∨ ∀ a, (yRect s).stride a = 1}
    {α : Type} {Q : α → sProp 𝕄} {E : Set ℕ} {k : PUnit → Prog (TpuEff nD τ sig (Elt F) Λ₀ .tc) α} :
    ((ySlot s).view.loc (c : Thread nD τ) ↦[(ySlot s).view.set]{fullShare} f)
      ⊢ iprop(((∃ f' : Buf (Elt F) ((ySlot s).view.loc (c : Thread nD τ)), ⌜(ySlot s).view.read (Elt F) f' = sq w⌝
              ∗ ((ySlot s).view.loc (c : Thread nD τ) ↦[(ySlot s).view.set]{fullShare} f'))
            -∗ wp frame (wpE (defs₀ (F := F)) 𝒱₀ c none) E (k ⟨⟩) Q)
          -∗ wp frame (wpE (defs₀ (F := F)) 𝒱₀ c none) E (.op (.store yx (yRect s) w Finset.univ hx hm) k) Q) := by
  iintro H Hk
  iapply (wp_store 𝒱₀ (c : Thread nD τ) none E (m := yx) (r := yRect s) (Mk := Finset.univ) (S := (ySlot s).view.set)
    (by rw [ySlot_set]; exact subset_rfl)) $$ H
  iintro H
  iapply Hk
  iexists ((yx.access (yRect s) : View sig .tc _ _ _).write (Elt F) f w Finset.univ)
  isplitr
  · ipureintro
    exact (ySlot_read c s _).trans (congrArg sq (View.read_write_univ (v := (yx.access (yRect s) : View sig .tc _ _ _)) f w))
  · iexact H

end Cert.Kernel.Hand

end
-- ==== Proof.Bits.BodyVals.lean ====
import proofs.«900755_g7700000000000756_dist_attn_cross_gqa_kvseq_b4_sq256_skv1024_d1024_hq8_dh128_v7x_i8_bf16_1_alg».proof.Proof.Bits.Contents
import proofs.«900755_g7700000000000756_dist_attn_cross_gqa_kvseq_b4_sq256_skv1024_d1024_hq8_dh128_v7x_i8_bf16_1_alg».proof.Proof.Bits.Dats
import proofs.«900755_g7700000000000756_dist_attn_cross_gqa_kvseq_b4_sq256_skv1024_d1024_hq8_dh128_v7x_i8_bf16_1_alg».proof.Proof.Bits.BodyOffs

noncomputable section

namespace Cert.Kernel.Hand

open Cert.Kernel.Gen Idealize.ShloMosaic Idealize.ShloMosaic.Tactic

variable {F : FTy → Type} [FloatOps F] (𝒞 : Conts F) (m : (ℓ : Loc nD τ sig) → Buf (Elt F) ℓ) (ρ : Dev nD → PrngReg)
  (I : Dev nD → Ins F) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

theorem readAt_full_stg0_0 (inb) (g : (cc0_stg0_0 : Ref sig .tc).ty.Contents (Elt F)) :
    (Memref.whole cc0_stg0_0).view.readAt (Elt F) (Rect.unit (s := S4x256x1024) ![0, 0, 0] S4x256x1024.size inb).toLoadRect g = g :=
  Memref.readAt_unit_zero _ cc0_stg0_0 zeros3 inb g
theorem readAt_full_stg1_0 (inb) (g : (cc0_stg1_0 : Ref sig .tc).ty.Contents (Elt F)) :
    (Memref.whole cc0_stg1_0).view.readAt (Elt F) (Rect.unit (s := S1024x1024) ![0, 0] S1024x1024.size inb).toLoadRect g = g :=
  Memref.readAt_unit_zero _ cc0_stg1_0 zeros2 inb g
theorem readAt_full_stg2_0 (inb) (g : (cc0_stg2_0 : Ref sig .tc).ty.Contents (Elt F)) :
    (Memref.whole cc0_stg2_0).view.readAt (Elt F) (Rect.unit (s := S1024x1024) ![0, 0] S1024x1024.size inb).toLoadRect g = g :=
  Memref.readAt_unit_zero _ cc0_stg2_0 zeros2 inb g
theorem readAt_full_scratch3 (inb) (g : (cc0_scratch3 : Ref sig .tc).ty.Contents (Elt F)) :
    (Memref.whole cc0_scratch3).view.readAt (Elt F) (Rect.unit (s := S4x4x2x128x128) ![0, 0, 0, 0, 0] S4x4x2x128x128.size inb).toLoadRect g = g :=
  Memref.readAt_unit_zero _ cc0_scratch3 zeros5 inb g
theorem readAt_full_scratch5 (inb) (g : (cc0_scratch5 : Ref sig .tc).ty.Contents (Elt F)) :
    (Memref.whole cc0_scratch5).view.readAt (Elt F) (Rect.unit (s := S4x4x2x128x128) ![0, 0, 0, 0, 0] S4x4x2x128x128.size inb).toLoadRect g = g :=
  Memref.readAt_unit_zero _ cc0_scratch5 zeros5 inb g
theorem readAt_full_scratch6 (inb) (g : (cc0_scratch6 : Ref sig .tc).ty.Contents (Elt F)) :
    (Memref.whole cc0_scratch6).view.readAt (Elt F) (Rect.unit (s := S2x4x2x128x128) ![0, 0, 0, 0, 0] S2x4x2x128x128.size inb).toLoadRect g = g :=
  Memref.readAt_unit_zero _ cc0_scratch6 zeros5 inb g
theorem readAt_full_scratch7 (inb) (g : (cc0_scratch7 : Ref sig .tc).ty.Contents (Elt F)) :
    (Memref.whole cc0_scratch7).view.readAt (Elt F) (Rect.unit (s := S1x4x2x128x128) ![0, 0, 0, 0, 0] S1x4x2x128x128.size inb).toLoadRect g = g :=
  Memref.readAt_unit_zero _ cc0_scratch7 zeros5 inb g
theorem writes_full (b : Ref sig .tc) {off : Fin b.ty.shape.rank → Nat} (h : off = fun _ => 0) (inb) (g0 w : b.ty.Contents (Elt F)) :
    (Memref.whole b).view.writes (Elt F) g0 [⟨Rect.unit off b.ty.shape.size inb, w⟩] = w :=
  Memref.write_access_unit_zero_univ _ b h inb g0 w
theorem writes_full_scratch11 (inb) (g0 w : (cc0_scratch11 : Ref sig .tc).ty.Contents (Elt F)) :
    (Memref.whole cc0_scratch11).view.writes (Elt F) g0 [⟨Rect.unit (s := S4x4x2x128x128) ![0, 0, 0, 0, 0] S4x4x2x128x128.size inb, w⟩] = w :=
  writes_full cc0_scratch11 zeros5 inb g0 w
theorem writes_full_scratch12 (inb) (g0 w : (cc0_scratch12 : Ref sig .tc).ty.Contents (Elt F)) :
    (Memref.whole cc0_scratch12).view.writes (Elt F) g0 [⟨Rect.unit (s := S4x2x8x128) ![0, 0, 0, 0] S4x2x8x128.size inb, w⟩] = w :=
  writes_full cc0_scratch12 zeros4 inb g0 w
theorem writes_full_scratch13 (inb) (g0 w : (cc0_scratch13 : Ref sig .tc).ty.Contents (Elt F)) :
    (Memref.whole cc0_scratch13).view.writes (Elt F) g0 [⟨Rect.unit (s := S2x4x2x128x128) ![0, 0, 0, 0, 0] S2x4x2x128x128.size inb, w⟩] = w :=
  writes_full cc0_scratch13 zeros5 inb g0 w
theorem writes_full_scratch14 (inb) (g0 w : (cc0_scratch14 : Ref sig .tc).ty.Contents (Elt F)) :
    (Memref.whole cc0_scratch14).view.writes (Elt F) g0 [⟨Rect.unit (s := S2x2x8x128) ![0, 0, 0, 0] S2x2x8x128.size inb, w⟩] = w :=
  writes_full cc0_scratch14 zeros4 inb g0 w

theorem writes_tiled (b : Ref sig .tc) (g0 : b.ty.Contents (Elt F)) (L : List (View.Piece (Elt F) b.ty.shape b.ty.elt))
    (size : Fin b.ty.shape.rank → ℕ) (h : View.Piece.tiledL L size = true) : (Memref.whole b).view.writes (Elt F) g0 L = View.canon L :=
  View.read_writes_eq_canon (Memref.whole b).view g0 L (View.cover_of_tiledL L size h)

theorem writes_sdOL (g0 : (cc0_scratch1 : Ref sig .tc).ty.Contents (Elt F)) :
    (Memref.whole cc0_scratch1).view.writes (Elt F) g0 (sdOL I c) = o0 I c :=
  writes_tiled cc0_scratch1 g0 _ S4x1x1x128x128.size (by sl_kernel_rfl)
theorem writes_sdMLL (g0 : (cc0_scratch2 : Ref sig .tc).ty.Contents (Elt F)) :
    (Memref.whole cc0_scratch2).view.writes (Elt F) g0 (sdMLL I c) = ml0 I c :=
  writes_tiled cc0_scratch2 g0 _ S4x1x1x128.size (by sl_kernel_rfl)
theorem writes_kpOL (g0 : (cc0_scratch3 : Ref sig .tc).ty.Contents (Elt F)) :
    (Memref.whole cc0_scratch3).view.writes (Elt F) g0 (kpOL I c) = kpO I c :=
  writes_tiled cc0_scratch3 g0 _ S4x1x1x128x128.size (by sl_kernel_rfl)
theorem writes_kpMLL (g0 : (cc0_scratch4 : Ref sig .tc).ty.Contents (Elt F)) :
    (Memref.whole cc0_scratch4).view.writes (Elt F) g0 (kpMLL I c) = kpML I c :=
  writes_tiled cc0_scratch4 g0 _ S4x1x1x128.size (by sl_kernel_rfl)
theorem writes_outL (g0 : (cc0_stg5_0 : Ref sig .tc).ty.Contents (Elt F)) :
    (Memref.whole cc0_stg5_0).view.writes (Elt F) g0 (outL I c) = outV I c :=
  writes_tiled cc0_stg5_0 g0 _ S4x32x1024.size (by fin_cases c <;> sl_kernel_rfl)

theorem ins_x : (ins m c).x = xin0 m ρ c := rfl
theorem ins_wq : (ins m c).wq = xin1 m ρ c := rfl
theorem ins_wo : (ins m c).wo = xin2 m ρ c := rfl
theorem ins_kb : (ins m c).kb = xin3 m ρ c := rfl
theorem ins_vb : (ins m c).vb = xin4 m ρ c := rfl

theorem before_0 (d : (cfg0.win (0 : Fin 6)).block.Idx → Elt F (cfg0.win (0 : Fin 6)).elt) :
    (dats 𝒞 m ρ 0 c).before (0 : Fin 6) t0_0 d = xin0 m ρ c :=
  (if_pos (Gen.fetch0_0 t0_0)).trans rfl
theorem before_1 (d : (cfg0.win (1 : Fin 6)).block.Idx → Elt F (cfg0.win (1 : Fin 6)).elt) :
    (dats 𝒞 m ρ 0 c).before (1 : Fin 6) t0_0 d = xin1 m ρ c :=
  (if_pos (Gen.fetch0_1 t0_0)).trans rfl
theorem before_2 (d : (cfg0.win (2 : Fin 6)).block.Idx → Elt F (cfg0.win (2 : Fin 6)).elt) :
    (dats 𝒞 m ρ 0 c).before (2 : Fin 6) t0_0 d = xin2 m ρ c :=
  (if_pos (Gen.fetch0_2 t0_0)).trans rfl
theorem before_3 (d : (cfg0.win (3 : Fin 6)).block.Idx → Elt F (cfg0.win (3 : Fin 6)).elt) :
    (dats 𝒞 m ρ 0 c).before (3 : Fin 6) t0_0 d = xin3 m ρ c :=
  (if_pos (Gen.fetch0_3 t0_0)).trans rfl
theorem before_4 (d : (cfg0.win (4 : Fin 6)).block.Idx → Elt F (cfg0.win (4 : Fin 6)).elt) :
    (dats 𝒞 m ρ 0 c).before (4 : Fin 6) t0_0 d = xin4 m ρ c :=
  (if_pos (Gen.fetch0_4 t0_0)).trans rfl

theorem ldZ_stg3_0 (R : Rect S4x1024x2x128) (g : (cc0_stg3_0 : Ref sig .tc).ty.Contents (Elt F)) :
    (Memref.whole cc0_stg3_0).view.readAt (Elt F) R.toLoadRect g = @View.ld (Elt F) S4x1024x2x128 .f32 g R := rfl
theorem ldZ_stg4_0 (R : Rect S4x1024x2x128) (g : (cc0_stg4_0 : Ref sig .tc).ty.Contents (Elt F)) :
    (Memref.whole cc0_stg4_0).view.readAt (Elt F) R.toLoadRect g = @View.ld (Elt F) S4x1024x2x128 .f32 g R := rfl
theorem rjZ_scratch0 (inb) (w : FVec F S4x256x8x128 .bf16) (R : Rect S4x256x8x128) :
    (Memref.whole cc0_scratch0).view.readAt (Elt F) R.toLoadRect
        ((Memref.whole cc0_scratch0).view.writes (Elt F) (Memref.whole cc0_scratch0).view.junk
          [⟨Rect.unit (s := S4x256x8x128) ![0, 0, 0, 0] S4x256x8x128.size inb, w⟩])
      = @View.ld (Elt F) S4x256x8x128 .bf16 w R :=
  congrArg ((Memref.whole cc0_scratch0).view.readAt (Elt F) R.toLoadRect) (writes_full cc0_scratch0 zeros4 inb _ w)

/-- info: 'Cert.Kernel.Hand.writes_sdOL' depends on axioms: [propext, Classical.choice, Quot.sound] -/
#guard_msgs in #print axioms writes_sdOL
/-- info: 'Cert.Kernel.Hand.writes_kpMLL' depends on axioms: [propext, Classical.choice, Quot.sound] -/
#guard_msgs in #print axioms writes_kpMLL
/-- info: 'Cert.Kernel.Hand.writes_outL' depends on axioms: [propext, Classical.choice, Quot.sound] -/
#guard_msgs in #print axioms writes_outL

end Cert.Kernel.Hand

end
-- ==== Proof.Bits.Steps.lean ====
import proofs.«900755_g7700000000000756_dist_attn_cross_gqa_kvseq_b4_sq256_skv1024_d1024_hq8_dh128_v7x_i8_bf16_1_alg».proof.Proof.Bits.Levels

noncomputable section

namespace Cert.Kernel.Hand

open Idealize.ShloMosaic
open Idealize.ShloMosaic.TcCoe
open Idealize.SL Idealize.SL.RA Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

def ownPay (c : Dev nD) (d : Fin 3) : sProp 𝕄 :=
  match d with
  | ⟨0, _⟩ => iprop(held (F := F) ro0 c ∗ held (F := F) rml0 c ∗ held (F := F) (ySlot 4) c ∗ held (F := F) (ySlot 5) c
      ∗ reached ER (recvCell 0 c) 0 ∗ reached ER (recvCell 1 c) 0 ∗ reached ER (recvCell 8 c) 0 ∗ reached ER (recvCell 11 c) 0)
  | ⟨1, _⟩ => iprop(held (F := F) ro1 c ∗ held (F := F) rml1 c ∗ held (F := F) (ySlot 2) c ∗ held (F := F) (ySlot 6) c
      ∗ reached ER (recvCell 2 c) 0 ∗ reached ER (recvCell 3 c) 0 ∗ reached ER (recvCell 7 c) 0 ∗ reached ER (recvCell 10 c) 0)
  | ⟨_ + 2, _⟩ => iprop(held (F := F) ro2 c ∗ held (F := F) rml2 c ∗ held (F := F) (ySlot 1) c ∗ held (F := F) (ySlot 3) c ∗ held (F := F) (ySlot 7) c
      ∗ reached ER (recvCell 4 c) 0 ∗ reached ER (recvCell 5 c) 0 ∗ reached ER (recvCell 6 c) 0 ∗ reached ER (recvCell 9 c) 0 ∗ reached ER (recvCell 12 c) 0)

omit [FloatOps F] in
theorem barPay_eq_ownPay (c : Dev nD) (d : Fin 3) : barPay (F := F) c d = ownPay (F := F) (barPartner d c) d := by
  fin_cases d <;> rfl

theorem step_signal_bar (𝒞 : Conts F) (c : Dev nD) (d : Fin 3) (κ : ℕ) (O : CellTallies nD τ sig Unit) (W : Waits sig Unit)
    (dst : Dev nD) (hdst : dst = barPartner d c) (n : ℕ) (hn : n = 1)
    {α : Type} {Q : α → sProp 𝕄} {k : PUnit → Prog (TpuEff nD τ sig (Elt F) Λ₀ .tc) α} :
    iprop(cellInv ER (Rd 𝒞) κ (barCell (barPartner d c))
        ∗ owes (c : Thread nD τ) (O + tallyAt (barCell (barPartner d c)) () 1) W
        ∗ dutyTok ER (barCell (barPartner d c)) 0 d ∗ ownPay (F := F) c d
        ∗ reached ER (barCell (barPartner d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, Proc.tc) : Thread nD τ) barS n) k) Q) := by
  subst hdst hn
  have h := Rounds.wp_signal 𝒱₀ ER (Rd 𝒞) (c : Thread nD τ) none (defs := defs₀ (F := F)) (Γ := .empty) (dst := (barPartner d c : Thread nD τ)) (sem := barS)
    (r := 0) (d := d) (k' := 1) (k := k) (κ := κ) (Q := Q)
    (by rw [duties_bar]; exact Finset.mem_univ _) (amount_bar 𝒞 (barPartner d c) d) () O rfl (W := W) (Es := Set.univ)
  rwa [payload_bar, barPay_eq_ownPay, barPartner_barPartner] at h

theorem step_signal_end (𝒞 : Conts F) (c : Dev nD) (d : Fin 3) (κ : ℕ) (O : CellTallies nD τ sig Unit) (W : Waits sig Unit)
    (dst : Dev nD) (hdst : dst = barPartner d c) (n : ℕ) (hn : n = 1)
    {α : Type} {Q : α → sProp 𝕄} {k : PUnit → Prog (TpuEff nD τ sig (Elt F) Λ₀ .tc) α} :
    iprop(cellInv ER (Rd 𝒞) κ (endCell (barPartner d c))
        ∗ owes (c : Thread nD τ) (O + tallyAt (endCell (barPartner d c)) () 1) W
        ∗ dutyTok ER (endCell (barPartner d c)) 0 d ∗ reached ER (endCell (barPartner d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dst, Proc.tc) : Thread nD τ) endS n) k) Q) := by
  subst hdst hn
  have h := Rounds.wp_signal 𝒱₀ ER (Rd 𝒞) (c : Thread nD τ) none (defs := defs₀ (F := F)) (Γ := .empty) (dst := (barPartner d c : Thread nD τ)) (sem := endS)
    (r := 0) (d := d) (k' := 1) (k := k) (κ := κ) (Q := Q)
    (by rw [duties_end]; exact Finset.mem_univ _) (amount_end 𝒞 (barPartner d c) d) () O rfl (W := W) (Es := Set.univ)
  rw [payload_end] at h
  exact (sep_mono_right (sep_mono_right (sep_mono_right emp_sep.2))).trans h

omit [FloatOps F] in
theorem close_cell (𝒞 : Conts F) (g : GSem nD τ sig) (κ : ℕ) :
    iprop(cellInv ER (Rd 𝒞) κ g ∗ atPos ER g 1 ∅ 0) ⊢ iprop(|={Set.univ}=> semVal g 0) :=
  Rounds.cell_close ER (Rd 𝒞) (Set.mem_univ κ) (fun h => h) (R := 1) (duties_later 𝒞 g)

theorem step_wait_bar_at (𝒞 : Conts F) (c : Dev nD) (κ : ℕ) (W : Waits sig Unit) (n : ℕ) (hn : n = 3)
    {α : Type} {Q : α → sProp 𝕄} {k : PUnit → Prog (TpuEff nD τ sig (Elt F) Λ₀ .tc) α} :
    iprop(cellInv ER (Rd 𝒞) κ (barCell c) ∗ cred (tallyAt (barCell c) () 3) ∗ owes (c : Thread nD τ) (owedFrom c 3) W ∗ levAts L lv
        ∗ atPos ER (barCell c) 0 ∅ 0)
      ⊢ iprop(((owes (c : Thread nD τ) (owedFrom c 3) (insert (SemLoc.reg barS, ()) W) ∗ atPos ER (barCell c) 1 ∅ 0 ∗ reached ER (barCell c) 1
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  have h := Rounds.wp_wait_rest_token 𝒱₀ ER (Rd 𝒞) (c : Thread nD τ) none (defs := defs₀ (F := F)) (Γ := .empty) (w := .semWait barS 3) (sm := .reg barS) (k' := 3)
    (Es := Set.univ) (κ := κ) (wpE_semWait_eq 𝒱₀ (c : Thread nD τ) none Set.univ) (Set.mem_univ _) (k := k) () (O := owedFrom c 3) (W := W)
    (R := 0) (m := 0) (T := ∅) (Q := Q) (by rw [expect_bar])
  rw [rest_bar] at h
  exact (sep_mono_right (sep_mono_right (sep_mono_right (sep_mono_left (mayWait_bar c))))).trans h

/-- Waiting out an exchange of one round returns the semaphore, at zero, to its owner. -/
theorem wait_close (𝒞 : Conts F) (c : Dev nD) (g : GSem nD τ sig) (κ : ℕ) {A B C D P Y : sProp 𝕄}
    (hmw : (levAts L lv : sProp 𝕄) ⊢ D) {α : Type} {Q : α → sProp 𝕄} {e : Prog (TpuEff nD τ sig (Elt F) Λ₀ .tc) α}
    (h : iprop(cellInv ER (Rd 𝒞) κ g ∗ A ∗ B ∗ D ∗ atPos ER g 0 ∅ 0)
      ⊢ iprop(((C ∗ atPos ER g 1 ∅ 0 ∗ reached ER g 1 ∗ P) -∗ wp frame (wpE (defs₀ (F := F)) 𝒱₀ (c : Thread nD τ) none) Set.univ e Q) -∗ Y)) :
    iprop(cellInv ER (Rd 𝒞) κ g ∗ A ∗ B ∗ levAts L lv ∗ atPos ER g 0 ∅ 0)
      ⊢ iprop(((C ∗ reached ER g 1 ∗ semVal g 0 ∗ P) -∗ wp frame (wpE (defs₀ (F := F)) 𝒱₀ (c : Thread nD τ) none) Set.univ e Q) -∗ Y) := by
  iintro ⟨#Hg, Hc, HO, #Hlev, Hat⟩ Hk
  iapply h $$ [Hc HO Hat]
  · isplitr; · iexact Hg
    isplitl [Hc]; · iexact Hc
    isplitl [HO]; · iexact HO
    isplitr; · iapply hmw; iexact Hlev
    iexact Hat
  iintro ⟨HO, Hat, #Hr, Hpay⟩
  imod (close_cell 𝒞 g κ) $$ [Hat] with Hz
  · isplitr; · iexact Hg
    iexact Hat
  iapply Hk
  isplitl [HO]; · iexact HO
  isplitr; · iexact Hr
  isplitl [Hz]; · iexact Hz
  iexact Hpay

theorem step_wait_send_at (𝒞 : Conts F) (c : Dev nD) (k : Fin 13) (κ : ℕ) (n : ℕ) (W : Waits sig Unit)
    {sp sp' : Space} {s s' : Shape} {e e' : EltTy} {src : Memref sig .tc sp' s' e'} {κ' : Kind} {dst : Memref sig κ' sp s e}
    {hsrc : src.view.WordExact} {hdst : dst.view.WordExact} (sem : DmaSem sig) (hsem : sem = sendNo k)
    (hamt : dst.view.dmaCredit = xferAmt k)
    {α : Type} {Q : α → sProp 𝕄} {kont : PUnit → Prog (TpuEff nD τ sig (Elt F) Λ₀ .tc) α} :
    iprop(cellInv ER (Rd 𝒞) κ (sendCell k c) ∗ cred (tallyAt (sendCell k c) () (xferAmt k)) ∗ owes (c : Thread nD τ) (owedFrom c n) W ∗ levAts L lv
        ∗ atPos ER (sendCell k c) 0 ∅ 0)
      ⊢ iprop(((owes (c : Thread nD τ) (owedFrom c n) (insert (SemLoc.dma (sendNo k), ()) W) ∗ reached ER (sendCell k c) 1 ∗ semVal (sendCell k c) 0
              ∗ sendPay 𝒞 k c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  have h := Rounds.wp_wait_rest_token 𝒱₀ ER (Rd 𝒞) (c : Thread nD τ) none (defs := defs₀ (F := F)) (Γ := .empty)
    (w := .waitDma2 (sendNo k) src dst hsrc hdst) (sm := .dma (sendNo k)) (k' := dst.view.dmaCredit)
    (Es := Set.univ) (κ := κ) (wpE_waitDma2_eq 𝒱₀ (c : Thread nD τ) none Set.univ) (Set.mem_univ _) (k := kont) () (O := owedFrom c n) (W := W)
    (R := 0) (m := 0) (T := ∅) (Q := Q) (by rw [expect_send, hamt, Nat.zero_add])
  rw [rest_send, hamt] at h
  exact wait_close 𝒞 c (sendCell k c) κ (mayWait_send c k n) h

theorem step_wait_recv_at (𝒞 : Conts F) (c : Dev nD) (k : Fin 13) (κ : ℕ) (W : Waits sig Unit)
    {sp sp' : Space} {s s' : Shape} {e e' : EltTy} {src : Memref sig .tc sp' s' e'} {κ' : Kind} {dst : Memref sig κ' sp s e}
    {hsrc : src.view.WordExact} {hdst : dst.view.WordExact} (sem : DmaSem sig) (hsem : sem = recvNo k)
    (hamt : dst.view.dmaCredit = xferAmt k)
    {α : Type} {Q : α → sProp 𝕄} {kont : PUnit → Prog (TpuEff nD τ sig (Elt F) Λ₀ .tc) α} :
    iprop(cellInv ER (Rd 𝒞) κ (recvCell k c) ∗ cred (tallyAt (recvCell k c) () (xferAmt k)) ∗ owes (c : Thread nD τ) (owedFrom c (waitAt k)) W ∗ levAts L lv
        ∗ atPos ER (recvCell k c) 0 ∅ 0)
      ⊢ iprop(((owes (c : Thread nD τ) (owedFrom c (waitAt k)) (insert (SemLoc.dma (recvNo k), ()) W) ∗ reached ER (recvCell k c) 1 ∗ semVal (recvCell k c) 0
              ∗ recvPay 𝒞 k c)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  have h := Rounds.wp_wait_rest_token 𝒱₀ ER (Rd 𝒞) (c : Thread nD τ) none (defs := defs₀ (F := F)) (Γ := .empty)
    (w := .waitDma2 (recvNo k) src dst hsrc hdst) (sm := .dma (recvNo k)) (k' := dst.view.dmaCredit)
    (Es := Set.univ) (κ := κ) (wpE_waitDma2_eq 𝒱₀ (c : Thread nD τ) none Set.univ) (Set.mem_univ _) (k := kont) () (O := owedFrom c (waitAt k)) (W := W)
    (R := 0) (m := 0) (T := ∅) (Q := Q) (by rw [expect_recv, hamt, Nat.zero_add])
  rw [rest_recv, hamt] at h
  exact wait_close 𝒞 c (recvCell k c) κ (mayWait_recv c k) h

/-- info: 'Cert.Kernel.Hand.step_signal_bar' depends on axioms: [propext, Classical.choice, Quot.sound] -/
#guard_msgs in #print axioms step_signal_bar
/-- info: 'Cert.Kernel.Hand.step_signal_end' depends on axioms: [propext, Classical.choice, Quot.sound] -/
#guard_msgs in #print axioms step_signal_end
/-- info: 'Cert.Kernel.Hand.step_wait_bar_at' depends on axioms: [propext, Classical.choice, Quot.sound] -/
#guard_msgs in #print axioms step_wait_bar_at
/-- info: 'Cert.Kernel.Hand.step_wait_send_at' depends on axioms: [propext, Classical.choice, Quot.sound] -/
#guard_msgs in #print axioms step_wait_send_at
/-- info: 'Cert.Kernel.Hand.step_wait_recv_at' depends on axioms: [propext, Classical.choice, Quot.sound] -/
#guard_msgs in #print axioms step_wait_recv_at

end Cert.Kernel.Hand

end
-- ==== Proof.Bits.StepsB.lean ====
import proofs.«900755_g7700000000000756_dist_attn_cross_gqa_kvseq_b4_sq256_skv1024_d1024_hq8_dh128_v7x_i8_bf16_1_alg».proof.Proof.Bits.Steps

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Transfer `k` lends the source share to its send cell and the landing view to the partner's receive cell; the units owed for it come back as credit. -/
theorem step_send (𝒞 : Conts F) (c : Dev nD) (k : Fin 13) (K : Dev nD × Fin 28 → ℕ) (O O' : CellTallies nD τ sig Unit) (W : Waits sig Unit)
    {sp sp' : Space} {s : Shape} {e : EltTy} {src : Memref sig .tc sp s e} {dst : Memref sig .tc sp' s e} {q : PosShare TreeShare} {x x' : Vec F s e}
    (hO : O' = O + tallyAt (recvCell k (partner k c)) () (xferAmt k))
    (hx : x = x') (hS : sendPay 𝒞 k c = holds (F := F) src c q x)
    (hR : recvPay 𝒞 k (partner k c) = holds (F := F) dst (partner k c) fullShare x') (hamt : dst.view.dmaCredit = xferAmt k)
    (dev : Dev nD) (hdev : dev = partner k c) (sS sR : DmaSem sig) (hsS : sS = sendNo k) (hsR : sR = recvNo k)
    {hsc : (dst : Memref sig (Dev.tc dev : Thread nD τ).2.kind sp' s e).view.ref.isScScratch = false}
    {hsrc : src.view.WordExact} {hdst : dst.view.WordExact}
    {hsem : DmaTarget.Typed sp (.dma sR) (.remote (Dev.tc dev : Thread nD τ) dst (.dma sS) hsc)}
    {α : Type} {Q : α → sProp 𝕄} {kont : PUnit → Prog (TpuEff nD τ sig (Elt F) Λ₀ .tc) α} :
    iprop(cellInv ER (Rd 𝒞) (K (c, sIx k)) (sendCell k c) ∗ cellInv ER (Rd 𝒞) (K (partner k c, rIx k)) (recvCell k (partner k c))
        ∗ owes (c : Thread nD τ) O' W
        ∗ dutyTok ER (sendCell k c) 0 (0 : Fin 3) ∗ reached ER (sendCell k c) 0
        ∗ dutyTok ER (recvCell k (partner k c)) 0 (0 : Fin 3) ∗ reached ER (recvCell k (partner k c)) 0
        ∗ holds (F := F) src c q x ∗ held (F := F) dst (partner k c))
      ⊢ iprop(((cred (tallyAt (sendCell k c) () (xferAmt k)) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc dev : Thread nD τ) dst (.dma sS) hsc) (.dma sR) hsrc hdst hsem) kont) Q) := by
  subst hdev hsS hsR hO hx
  unfold holds held
  iintro ⟨#Hg₁, #Hg₂, HO, Ht₁, #Hr₁, Ht₂, #Hr₂, ⟨%fs, %hfs, Hsrc⟩, ⟨%fd, Hdst⟩⟩ Hk
  have hp₁ : ((src.view.loc (c : Thread nD τ)) ↦[src.view.set]{q} fs : sProp 𝕄) ⊢ (Rd 𝒞).payload (sendCell k c) 0 (0 : Fin 3) := by
    rw [payload_send, hS]
    unfold holds
    iintro H
    iexists fs
    iframe H
    ipureintro; exact hfs
  have hp₂ : ((dst.view.loc (partner k c : Thread nD τ)) ↦[dst.view.set]{fullShare}
        (dst.view.write (Elt F) fd (src.view.read (Elt F) fs) Finset.univ) : sProp 𝕄)
      ⊢ (Rd 𝒞).payload (recvCell k (partner k c)) 0 (0 : Fin 3) := by
    rw [payload_recv, hR]
    unfold holds
    iintro H
    iexists (dst.view.write (Elt F) fd (src.view.read (Elt F) fs) Finset.univ)
    iframe H
    ipureintro; rw [View.read_write_univ, hfs]
  iapply (Rounds.wp_send_pointsTo 𝒱₀ ER (Rd 𝒞) (c : Thread nD τ) none (defs := defs₀ (F := F)) (Γ := .empty)
      (c' := (partner k c : Thread nD τ)) (src := src) (dst := dst) (sS := .dma (sendNo k)) (sem := .dma (recvNo k)) (q := q) (fs := fs) (fd := fd)
      (r₁ := 0) (r₂ := 0) (d₁ := (0 : Fin 3)) (d₂ := (0 : Fin 3)) (κ₁ := K (c, sIx k)) (κ₂ := K (partner k c, rIx k)) (k := kont) (Q := Q)
      (by rw [duties_send]; exact Finset.mem_singleton_self _) (by rw [duties_recv]; exact Finset.mem_singleton_self _)
      () () (xferAmt k) hamt (amount_send 𝒞 c k 0) (amount_recv 𝒞 (partner k c) k 0) O rfl (W := W) (Es := Set.univ)
      hp₁ hp₂) $$ [$Hg₁ $Hg₂ $Hsrc $Hdst $HO $Ht₁ $Hr₁ $Ht₂ $Hr₂]
  iexact Hk

theorem xorDev_zero : ∀ c : Dev nD, xorDev 0 c = c := by decide

theorem xor_route : ∀ (j : Fin 7) (c : Dev nD), xorDev (yDst j) (partner (Fin.natAdd 6 j) c) = xorDev (ySrc j) c := by decide

/-- info: 'Cert.Kernel.Hand.step_send' depends on axioms: [propext, Classical.choice, Quot.sound] -/
#guard_msgs in #print axioms step_send

end Cert.Kernel.Hand

end
-- ==== Proof.Bits.StepsC.lean ====
import proofs.«900755_g7700000000000756_dist_attn_cross_gqa_kvseq_b4_sq256_skv1024_d1024_hq8_dh128_v7x_i8_bf16_1_alg».proof.Proof.Bits.StepsB

namespace Cert.Kernel.Hand

open Cert.Kernel.Gen Idealize.ShloMosaic

theorem amtV0 {sp : Space} (v : View sig .tc sp S4x4x2x128x128 .bf16) : v.dmaCredit = xferAmt 0 := rfl
theorem amtV1 {sp : Space} (v : View sig .tc sp S4x2x8x128 .f32) : v.dmaCredit = xferAmt 1 := rfl
theorem amtV2 {sp : Space} (v : View sig .tc sp S2x4x2x128x128 .bf16) : v.dmaCredit = xferAmt 2 := rfl
theorem amtV3 {sp : Space} (v : View sig .tc sp S2x2x8x128 .f32) : v.dmaCredit = xferAmt 3 := rfl
theorem amtV4 {sp : Space} (v : View sig .tc sp S1x4x2x128x128 .bf16) : v.dmaCredit = xferAmt 4 := rfl
theorem amtV5 {sp : Space} (v : View sig .tc sp S1x2x8x128 .f32) : v.dmaCredit = xferAmt 5 := rfl
theorem amtVy {sp : Space} (v : View sig .tc sp S128x1024 .bf16) (k : Fin 13) (hk : 6 ≤ k.val) : v.dmaCredit = xferAmt k := by
  have h : ∀ k : Fin 13, 6 ≤ k.val → xferAmt k = (ySlot 0).view.dmaCredit := by decide
  rw [h k hk]

/-- info: 'Cert.Kernel.Hand.amtVy' depends on axioms: [propext, Classical.choice, Quot.sound] -/
#guard_msgs in #print axioms amtVy

end Cert.Kernel.Hand
-- ==== Proof.Bits.Regions.lean ====
import proofs.«900755_g7700000000000756_dist_attn_cross_gqa_kvseq_b4_sq256_skv1024_d1024_hq8_dh128_v7x_i8_bf16_1_alg».proof.Proof.Bits.Sched
import Idealize.ShloMosaic.Rules.PointsTo
import Idealize.ShloMosaic.Lib.Pipeline.StackWindow

noncomputable section

namespace Cert.Kernel.Hand

open Cert.Kernel.Gen
open Idealize.ShloMosaic
open Idealize.ShloMosaic.TcCoe
open Idealize.SL.RA Idealize.SL.BI
open Idealize.SL.BI.BIBase Idealize.SL.BI.Laws

variable {F : FTy → Type} [FloatOps F]

local notation "𝕄" => MT nD τ sig Unit (Elt F) ℕ UU ℕ

theorem holds_whole (b : Ref sig .tc) (c : Dev nD) (q : PosShare TreeShare) (x : Vec F b.ty.shape b.ty.elt) :
    (holds (F := F) (Memref.whole b) c q x : sProp 𝕄)
      = iprop(∃ f : Buf (Elt F) ((c : Thread nD τ).loc b), ⌜f = x⌝ ∗ (((c : Thread nD τ).loc b) ↦{q} f)) := by
  unfold holds
  simp only [Memref.view_whole, View.read_whole, View.set_whole]

theorem holds_whole_intro (b : Ref sig .tc) (c : Dev nD) (q : PosShare TreeShare) (f : Buf (Elt F) ((c : Thread nD τ).loc b)) :
    ((((c : Thread nD τ).loc b) ↦{q} f : sProp 𝕄)) ⊢ holds (F := F) (Memref.whole b) c q f := by
  rw [holds_whole]
  iintro H
  iexists f
  isplitr
  · ipureintro; rfl
  · iexact H

theorem holds_whole_elim (b : Ref sig .tc) (c : Dev nD) (q : PosShare TreeShare) (x : Vec F b.ty.shape b.ty.elt) :
    (holds (F := F) (Memref.whole b) c q x : sProp 𝕄) ⊢ (((c : Thread nD τ).loc b) ↦{q} x) := by
  rw [holds_whole]
  iintro ⟨%f, %hf, H⟩
  subst hf
  iexact H

theorem pts_congr {sp : Space} {s : Shape} {e : EltTy} (v : Memref sig .tc sp s e) (c : Dev nD) (q : PosShare TreeShare)
    (f g : Buf (Elt F) (v.view.loc (c : Thread nD τ))) (h : ∀ i ∈ v.view.set, f i = g i) :
    (((v.view.loc (c : Thread nD τ)) ↦[v.view.set]{q} f : sProp 𝕄)) = ((v.view.loc (c : Thread nD τ)) ↦[v.view.set]{q} g) := pointsTo_congr h

theorem holds_intro {sp : Space} {s : Shape} {e : EltTy} (v : Memref sig .tc sp s e) (c : Dev nD) (q : PosShare TreeShare)
    (f : Buf (Elt F) (v.view.loc (c : Thread nD τ))) :
    (((v.view.loc (c : Thread nD τ)) ↦[v.view.set]{q} f : sProp 𝕄)) ⊢ holds (F := F) v c q (v.view.read (Elt F) f) := by
  unfold holds
  iintro H
  iexists f
  isplitr
  · ipureintro; rfl
  · iexact H

theorem held_of_holds {sp : Space} {s : Shape} {e : EltTy} (v : Memref sig .tc sp s e) (c : Dev nD) (x : Vec F s e) :
    (holds (F := F) v c fullShare x : sProp 𝕄) ⊢ held (F := F) v c := by
  unfold holds held
  iintro ⟨%f, -, H⟩
  iexists f
  iexact H

theorem held_whole_intro (b : Ref sig .tc) (c : Dev nD) (f : Buf (Elt F) ((c : Thread nD τ).loc b)) :
    ((((c : Thread nD τ).loc b) ↦{fullShare} f : sProp 𝕄)) ⊢ held (F := F) (Memref.whole b) c :=
  (holds_whole_intro b c fullShare f).trans (held_of_holds (Memref.whole b) c f)

theorem pts_carve {sp : Space} {s : Shape} {e : EltTy} (v : Memref sig .tc sp s e) (c : Dev nD) (q : PosShare TreeShare)
    (f : Buf (Elt F) (v.view.loc (c : Thread nD τ))) :
    (((v.view.loc (c : Thread nD τ)) ↦{q} f : sProp 𝕄))
      ⊣⊢ iprop(((v.view.loc (c : Thread nD τ)) ↦[v.view.set]{q} f) ∗ ((v.view.loc (c : Thread nD τ)) ↦[Finset.univ \ v.view.set]{q} f)) := pointsTo_split_subset (Finset.subset_univ _)

theorem pts_uncarve {sp : Space} {s : Shape} {e : EltTy} (v : Memref sig .tc sp s e) (c : Dev nD) (q : PosShare TreeShare)
    (f g : Buf (Elt F) (v.view.loc (c : Thread nD τ))) :
    iprop(((v.view.loc (c : Thread nD τ)) ↦[v.view.set]{q} g) ∗ ((v.view.loc (c : Thread nD τ)) ↦[Finset.univ \ v.view.set]{q} f))
      ⊢ (((v.view.loc (c : Thread nD τ)) ↦{q} (v.view.set.piecewise g f) : sProp 𝕄)) := pointsTo_join_subset (Finset.subset_univ _)

/-- Holders of two parts of a share agree on the elements they both hold, so the parts join at the contents of the first. -/
theorem pts_join (ℓ : Loc nD τ sig) (I : Finset (Idx ℓ)) {q q₁ q₂ : PosShare TreeShare} (h : q ∈ PCS.op q₁ q₂) (f g : Buf (Elt F) ℓ) :
    (iprop((ℓ ↦[I]{q₁} f) ∗ (ℓ ↦[I]{q₂} g)) : sProp 𝕄) ⊢ (ℓ ↦[I]{q} f) :=
  Laws.pure_elim _ pointsTo_agree fun hfg => by
    rw [pointsTo_congr (q := q₂) (f := g) (g := f) fun i hi => ((hfg i (Finset.mem_inter.mpr ⟨hi, hi⟩)).1).symm]
    exact (pointsTo_share h).2

/-- A view read at a share is the view read at any two parts the share is composed of. -/
theorem holds_op {sp : Space} {s : Shape} {e : EltTy} (v : Memref sig .tc sp s e) (c : Dev nD) {q q₁ q₂ : PosShare TreeShare}
    (h : q ∈ PCS.op q₁ q₂) (x : Vec F s e) :
    (holds (F := F) v c q x : sProp 𝕄) ⊣⊢ iprop(holds (F := F) v c q₁ x ∗ holds (F := F) v c q₂ x) := by
  unfold holds
  constructor
  · iintro ⟨%f, %hf, H⟩
    ihave H2 := (pointsTo_share h).1 $$ H
    icases H2 with ⟨Hl, Hr⟩
    isplitl [Hl] <;> iexists f <;> isplitr <;> first | (ipureintro; exact hf) | iassumption
  · iintro ⟨⟨%f, %hf, Hl⟩, ⟨%g, -, Hr⟩⟩
    iexists f
    isplitr
    · ipureintro; exact hf
    · iapply (pts_join _ _ h f g)
      isplitl [Hl] <;> iassumption

theorem holds_halves {sp : Space} {s : Shape} {e : EltTy} (v : Memref sig .tc sp s e) (c : Dev nD) (q : PosShare TreeShare) (x : Vec F s e) :
    (holds (F := F) v c q x : sProp 𝕄) ⊣⊢ iprop(holds (F := F) v c q.left x ∗ holds (F := F) v c q.right x) :=
  holds_op v c (PosShare.mem_left_op_right q) x

theorem holds_thirds {sp : Space} {s : Shape} {e : EltTy} (v : Memref sig .tc sp s e) (c : Dev nD) (x : Vec F s e) :
    (holds (F := F) v c fullShare x : sProp 𝕄)
      ⊣⊢ iprop(holds (F := F) v c fullShare.left.left x ∗ holds (F := F) v c fullShare.left.right x ∗ holds (F := F) v c fullShare.right x) := by
  have a := holds_op (F := F) v c (PosShare.mem_left_op_right fullShare) x
  have b := holds_op (F := F) v c (PosShare.mem_left_op_right fullShare.left) x
  exact ⟨a.1.trans ((sep_mono_left b.1).trans sep_assoc.1), (sep_assoc.2.trans (sep_mono_left b.2)).trans a.2⟩

theorem mem_ySlot_set (s : Fin 8) (i : S8x128x1024.Idx) : i ∈ (ySlot s).view.set ↔ (i 0).val = s.val := by
  show i ∈ (((View.whole cc0_scratch15 : View sig .tc _ _ _).slice
      (Rect.unit (s := S8x128x1024) ![s.val, 0, 0] S1x128x1024.size (inbY s))).reshape S128x1024
        squeezes_S1x128x1024_S128x1024.numel_eq).set ↔ _
  rw [View.set_reshape, View.set_slice_whole]
  refine StackWindow.IsMemberRect.mem_set_iff (G := 8) (d := ![128, 1024]) (g := s) ?_ i
  exact ⟨rfl, fun b => by fin_cases b <;> rfl, rfl, fun b => by fin_cases b <;> rfl⟩

abbrev slotSet (s : Fin 8) : Finset S8x128x1024.Idx := (ySlot s).view.set

theorem ySlot_cover : (Finset.univ : Finset (Fin 8)).biUnion slotSet = Finset.univ := by
  ext i
  simp only [Finset.mem_biUnion, Finset.mem_univ, true_and, iff_true]
  exact ⟨⟨(i 0).val, (i 0).isLt⟩, (mem_ySlot_set _ i).2 rfl⟩

theorem ySlot_disjoint : ∀ t ∈ (Finset.univ : Finset (Fin 8)), ∀ t' ∈ (Finset.univ : Finset (Fin 8)), t ≠ t' →
    Disjoint (slotSet t) (slotSet t') := by
  intro t _ t' _ hne
  rw [Finset.disjoint_left]
  intro i hi hi'
  have hi := (mem_ySlot_set t i).1 hi
  have hi' := (mem_ySlot_set t' i).1 hi'
  exact hne (Fin.ext (hi.symm.trans hi'))

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

theorem held_intro {sp : Space} {s : Shape} {e : EltTy} (v : Memref sig .tc sp s e) (c : Dev nD) (f : Buf (Elt F) (v.view.loc (c : Thread nD τ))) :
    (((v.view.loc (c : Thread nD τ)) ↦[v.view.set]{fullShare} f : sProp 𝕄)) ⊢ held (F := F) v c := by
  unfold held
  iintro H
  iexists f
  iexact H

/-- The slots are pairwise disjoint and cover the buffer: the whole buffer is its eight slots. -/
theorem yx_split (c : Dev nD) (q : PosShare TreeShare) (f : Buf (Elt F) ((c : Thread nD τ).loc cc0_scratch15)) :
    ((((c : Thread nD τ).loc cc0_scratch15) ↦{q} f : sProp 𝕄)) = bigSep Finset.univ fun s : Fin 8 => pointsTo ((c : Thread nD τ).loc cc0_scratch15) (slotSet s) q f := by
  rw [← pointsTo_biUnion _ _ ySlot_disjoint, ySlot_cover]

theorem yx_join (c : Dev nD) (q : PosShare TreeShare) (fs : Fin 8 → Buf (Elt F) ((c : Thread nD τ).loc cc0_scratch15)) :
    (bigSep Finset.univ fun s : Fin 8 => pointsTo ((c : Thread nD τ).loc cc0_scratch15) (slotSet s) q (fs s))
      ⊢ (iprop(∃ f : Buf (Elt F) ((c : Thread nD τ).loc cc0_scratch15), ((c : Thread nD τ).loc cc0_scratch15) ↦{q} f) : sProp 𝕄) := by
  refine (pointsTo_biUnion_join (ℓ := ((c : Thread nD τ).loc cc0_scratch15)) (q := q) Finset.univ slotSet fs (fs 0) ySlot_disjoint).trans ?_
  rw [ySlot_cover]
  iintro ⟨%g, -, H⟩
  iexists g
  iexact H

theorem yx_held_split (c : Dev nD) :
    (iprop(∃ f : Buf (Elt F) ((c : Thread nD τ).loc cc0_scratch15), ((c : Thread nD τ).loc cc0_scratch15) ↦{fullShare} f) : sProp 𝕄)
      ⊢ iprop(held (F := F) (ySlot 0) c
      ∗ held (F := F) (ySlot 1) c
      ∗ held (F := F) (ySlot 2) c
      ∗ held (F := F) (ySlot 3) c
      ∗ held (F := F) (ySlot 4) c
      ∗ held (F := F) (ySlot 5) c
      ∗ held (F := F) (ySlot 6) c
      ∗ held (F := F) (ySlot 7) c) := by
  rw [← bigSep_fin8 fun s => held (F := F) (ySlot s) c]
  refine exists_elim fun f => ?_
  rw [yx_split]
  exact bigSep_mono fun s _ => held_intro (ySlot s) c f

theorem yx_held_join (c : Dev nD) :
    (iprop(held (F := F) (ySlot 0) c
      ∗ held (F := F) (ySlot 1) c
      ∗ held (F := F) (ySlot 2) c
      ∗ held (F := F) (ySlot 3) c
      ∗ held (F := F) (ySlot 4) c
      ∗ held (F := F) (ySlot 5) c
      ∗ held (F := F) (ySlot 6) c
      ∗ held (F := F) (ySlot 7) c) : sProp 𝕄)
      ⊢ iprop(∃ f : Buf (Elt F) ((c : Thread nD τ).loc cc0_scratch15), ((c : Thread nD τ).loc cc0_scratch15) ↦{fullShare} f) :=
  (Entails.of_eq (bigSep_fin8 fun s => held (F := F) (ySlot s) c).symm).trans <|
    (bigSep_exists_pi Finset.univ fun (s : Fin 8) f => pointsTo ((c : Thread nD τ).loc cc0_scratch15) (slotSet s) fullShare f).trans <|
      exists_elim fun fs => yx_join c fullShare fs

end Cert.Kernel.Hand

end

/-- info: 'Cert.Kernel.Hand.yx_split' depends on axioms: [propext, Classical.choice, Quot.sound] -/
#guard_msgs in #print axioms Cert.Kernel.Hand.yx_split

/-- info: 'Cert.Kernel.Hand.yx_join' depends on axioms: [propext, Classical.choice, Quot.sound] -/
#guard_msgs in #print axioms Cert.Kernel.Hand.yx_join

/-- info: 'Cert.Kernel.Hand.yx_held_split' depends on axioms: [propext, Classical.choice, Quot.sound] -/
#guard_msgs in #print axioms Cert.Kernel.Hand.yx_held_split

/-- info: 'Cert.Kernel.Hand.yx_held_join' depends on axioms: [propext, Classical.choice, Quot.sound] -/
#guard_msgs in #print axioms Cert.Kernel.Hand.yx_held_join

/-- info: 'Cert.Kernel.Hand.holds_halves' depends on axioms: [propext, Classical.choice, Quot.sound] -/
#guard_msgs in #print axioms Cert.Kernel.Hand.holds_halves

/-- info: 'Cert.Kernel.Hand.holds_thirds' depends on axioms: [propext, Classical.choice, Quot.sound] -/
#guard_msgs in #print axioms Cert.Kernel.Hand.holds_thirds

/-- info: 'Cert.Kernel.Hand.holds_whole' depends on axioms: [propext, Classical.choice, Quot.sound] -/
#guard_msgs in #print axioms Cert.Kernel.Hand.holds_whole

/-- info: 'Cert.Kernel.Hand.pts_carve' depends on axioms: [propext, Classical.choice, Quot.sound] -/
#guard_msgs in #print axioms Cert.Kernel.Hand.pts_carve

/-- info: 'Cert.Kernel.Hand.pts_uncarve' depends on axioms: [propext, Classical.choice, Quot.sound] -/
#guard_msgs in #print axioms Cert.Kernel.Hand.pts_uncarve
-- ==== Proof.Bits.BodyAux.lean ====
import proofs.«900755_g7700000000000756_dist_attn_cross_gqa_kvseq_b4_sq256_skv1024_d1024_hq8_dh128_v7x_i8_bf16_1_alg».proof.Proof.Bits.Steps
import proofs.«900755_g7700000000000756_dist_attn_cross_gqa_kvseq_b4_sq256_skv1024_d1024_hq8_dh128_v7x_i8_bf16_1_alg».proof.Proof.Bits.BodySlots

noncomputable section

namespace Cert.Kernel.Hand

open Cert.Kernel.Gen Idealize.ShloMosaic Idealize.ShloMosaic.TcCoe Idealize.SL Idealize.SL.RA Idealize.SL.BI Idealize.SL.BI.BIBase Idealize.SL.ProofMode Idealize.SL.Sem

variable {F : FTy → Type} [FloatOps F]

local notation "𝕄" => MT nD τ sig Unit (Elt F) ℕ UU ℕ

omit [FloatOps F] in
theorem owes_cast' (c : Dev nD) {O O' : CellTallies nD τ sig Unit} (h : O = O') (W : Waits sig Unit) :
    (owes (c : Thread nD τ) O W : sProp 𝕄) ⊢ owes (c : Thread nD τ) O' W := by subst h; exact BI.Entails.refl _

theorem held_open {sp : Space} {s : Shape} {e : EltTy} (v : Memref sig .tc sp s e) (c : Dev nD) :
    (held (F := F) v c : sProp 𝕄)
      ⊢ iprop(∃ f : Buf (Elt F) (v.view.loc (c : Thread nD τ)), (v.view.loc (c : Thread nD τ)) ↦[v.view.set]{fullShare} f) := by
  unfold held; exact BI.Entails.refl _

theorem holds_close {sp : Space} {s : Shape} {e : EltTy} (v : Memref sig .tc sp s e) (c : Dev nD) (q : PosShare TreeShare) (x : Vec F s e)
    (f : Buf (Elt F) (v.view.loc (c : Thread nD τ))) (h : v.view.read (Elt F) f = x) :
    (((v.view.loc (c : Thread nD τ)) ↦[v.view.set]{q} f : sProp 𝕄)) ⊢ holds (F := F) v c q x := by
  unfold holds
  iintro H
  iexists f
  isplitr; · ipureintro; exact h
  iexact H

omit [FloatOps F] in
theorem prog_ret_bind {E : Type → Type} {α β : Type} (a : α) (k : α → Prog E β) : (Prog.ret a).bind k = k a := rfl

theorem slot_load_holds (c : Dev nD) (s : Fin 8) (q : PosShare TreeShare) (x : Vec F S128x1024 .bf16)
    {hl : yx.view.LoadsAt (yRect s).toLoadRect} {α : Type} {Q : α → sProp 𝕄} {E : Set ℕ}
    {k : ((yRect s).toLoadRect.shape.Idx → Elt F .bf16) → Prog (TpuEff nD τ sig (Elt F) Λ₀ .tc) α} :
    (holds (F := F) (ySlot s) c q x : sProp 𝕄)
      ⊢ iprop((holds (F := F) (ySlot s) c q x -∗ wp frame (wpE (defs₀ (F := F)) 𝒱₀ c none) E (k (unsq x)) Q)
          -∗ wp frame (wpE (defs₀ (F := F)) 𝒱₀ c none) E (.op (.load yx (yRect s).toLoadRect hl) k) Q) := by
  unfold holds
  iintro ⟨%f, %hf, H⟩ Hk
  subst hf
  iapply (slot_load c s q f) $$ H
  iintro H
  iapply Hk
  iexists f
  isplitr; · ipureintro; rfl
  iexact H

variable (𝒞 : Conts F) (c : Dev nD)

theorem sendPay_6 : (sendPay 𝒞 6 c : sProp 𝕄) = holds (F := F) (ySlot 0) c fullShare.left.left (𝒞.y (xorDev 0 c)) := rfl
theorem recvPay_6 : (recvPay 𝒞 6 c : sProp 𝕄) = holds (F := F) (ySlot 1) c fullShare (𝒞.y (xorDev 1 c)) := rfl
theorem sendPay_7 : (sendPay 𝒞 7 c : sProp 𝕄) = holds (F := F) (ySlot 0) c fullShare.left.right (𝒞.y (xorDev 0 c)) := rfl
theorem recvPay_7 : (recvPay 𝒞 7 c : sProp 𝕄) = holds (F := F) (ySlot 2) c fullShare (𝒞.y (xorDev 2 c)) := rfl
theorem sendPay_8 : (sendPay 𝒞 8 c : sProp 𝕄) = holds (F := F) (ySlot 0) c fullShare.right (𝒞.y (xorDev 0 c)) := rfl
theorem recvPay_8 : (recvPay 𝒞 8 c : sProp 𝕄) = holds (F := F) (ySlot 4) c fullShare (𝒞.y (xorDev 4 c)) := rfl
theorem sendPay_9 : (sendPay 𝒞 9 c : sProp 𝕄) = holds (F := F) (ySlot 2) c fullShare.left (𝒞.y (xorDev 2 c)) := rfl
theorem recvPay_9 : (recvPay 𝒞 9 c : sProp 𝕄) = holds (F := F) (ySlot 3) c fullShare (𝒞.y (xorDev 3 c)) := rfl
theorem sendPay_10 : (sendPay 𝒞 10 c : sProp 𝕄) = holds (F := F) (ySlot 4) c fullShare.left (𝒞.y (xorDev 4 c)) := rfl
theorem recvPay_10 : (recvPay 𝒞 10 c : sProp 𝕄) = holds (F := F) (ySlot 6) c fullShare (𝒞.y (xorDev 6 c)) := rfl
theorem sendPay_11 : (sendPay 𝒞 11 c : sProp 𝕄) = holds (F := F) (ySlot 1) c fullShare.left (𝒞.y (xorDev 1 c)) := rfl
theorem recvPay_11 : (recvPay 𝒞 11 c : sProp 𝕄) = holds (F := F) (ySlot 5) c fullShare (𝒞.y (xorDev 5 c)) := rfl
theorem sendPay_12 : (sendPay 𝒞 12 c : sProp 𝕄) = holds (F := F) (ySlot 6) c fullShare.left (𝒞.y (xorDev 6 c)) := rfl
theorem recvPay_12 : (recvPay 𝒞 12 c : sProp 𝕄) = holds (F := F) (ySlot 7) c fullShare (𝒞.y (xorDev 7 c)) := rfl

theorem conts_y_eq (m : (ℓ : Loc nD τ sig) → Buf (Elt F) ℓ) (c : Dev nD) : (conts m).y c = yV (ins m) c := by
  unfold conts contsOf
  with_reducible rfl
theorem conts_out_eq (m : (ℓ : Loc nD τ sig) → Buf (Elt F) ℓ) (c : Dev nD) : (conts m).out c = outV (ins m) c := by
  unfold conts contsOf
  with_reducible rfl

/-- info: 'Cert.Kernel.Hand.owes_cast'' depends on axioms: [propext, Classical.choice, Quot.sound] -/
#guard_msgs in #print axioms owes_cast'
/-- info: 'Cert.Kernel.Hand.held_open' depends on axioms: [propext, Classical.choice, Quot.sound] -/
#guard_msgs in #print axioms held_open
/-- info: 'Cert.Kernel.Hand.holds_close' depends on axioms: [propext, Classical.choice, Quot.sound] -/
#guard_msgs in #print axioms holds_close
/-- info: 'Cert.Kernel.Hand.slot_load_holds' depends on axioms: [propext, Classical.choice, Quot.sound] -/
#guard_msgs in #print axioms slot_load_holds
/-- info: 'Cert.Kernel.Hand.prog_ret_bind' does not depend on any axioms -/
#guard_msgs in #print axioms prog_ret_bind
/-- info: 'Cert.Kernel.Hand.sendPay_6' depends on axioms: [propext, Classical.choice, Quot.sound] -/
#guard_msgs in #print axioms sendPay_6
/-- info: 'Cert.Kernel.Hand.sendPay_7' depends on axioms: [propext, Classical.choice, Quot.sound] -/
#guard_msgs in #print axioms sendPay_7
/-- info: 'Cert.Kernel.Hand.sendPay_8' depends on axioms: [propext, Classical.choice, Quot.sound] -/
#guard_msgs in #print axioms sendPay_8
/-- info: 'Cert.Kernel.Hand.sendPay_9' depends on axioms: [propext, Classical.choice, Quot.sound] -/
#guard_msgs in #print axioms sendPay_9
/-- info: 'Cert.Kernel.Hand.sendPay_10' depends on axioms: [propext, Classical.choice, Quot.sound] -/
#guard_msgs in #print axioms sendPay_10
/-- info: 'Cert.Kernel.Hand.sendPay_11' depends on axioms: [propext, Classical.choice, Quot.sound] -/
#guard_msgs in #print axioms sendPay_11
/-- info: 'Cert.Kernel.Hand.sendPay_12' depends on axioms: [propext, Classical.choice, Quot.sound] -/
#guard_msgs in #print axioms sendPay_12
/-- info: 'Cert.Kernel.Hand.recvPay_6' depends on axioms: [propext, Classical.choice, Quot.sound] -/
#guard_msgs in #print axioms recvPay_6
/-- info: 'Cert.Kernel.Hand.recvPay_7' depends on axioms: [propext, Classical.choice, Quot.sound] -/
#guard_msgs in #print axioms recvPay_7
/-- info: 'Cert.Kernel.Hand.recvPay_8' depends on axioms: [propext, Classical.choice, Quot.sound] -/
#guard_msgs in #print axioms recvPay_8
/-- info: 'Cert.Kernel.Hand.recvPay_9' depends on axioms: [propext, Classical.choice, Quot.sound] -/
#guard_msgs in #print axioms recvPay_9
/-- info: 'Cert.Kernel.Hand.recvPay_10' depends on axioms: [propext, Classical.choice, Quot.sound] -/
#guard_msgs in #print axioms recvPay_10
/-- info: 'Cert.Kernel.Hand.recvPay_11' depends on axioms: [propext, Classical.choice, Quot.sound] -/
#guard_msgs in #print axioms recvPay_11
/-- info: 'Cert.Kernel.Hand.recvPay_12' depends on axioms: [propext, Classical.choice, Quot.sound] -/
#guard_msgs in #print axioms recvPay_12
/-- info: 'Cert.Kernel.Hand.conts_y_eq' depends on axioms: [propext, Classical.choice, Quot.sound] -/
#guard_msgs in #print axioms conts_y_eq
/-- info: 'Cert.Kernel.Hand.conts_out_eq' depends on axioms: [propext, Classical.choice, Quot.sound] -/
#guard_msgs in #print axioms conts_out_eq

end Cert.Kernel.Hand

end
-- ==== Proof.Bits.BodyPost.lean ====
import proofs.«900755_g7700000000000756_dist_attn_cross_gqa_kvseq_b4_sq256_skv1024_d1024_hq8_dh128_v7x_i8_bf16_1_alg».proof.Proof.Bits.Fund

noncomputable section

namespace Cert.Kernel.Hand

open Cert.Kernel.Gen Idealize.ShloMosaic Idealize.ShloMosaic.TcCoe Idealize.SL Idealize.SL.RA Idealize.SL.BI Idealize.SL.BI.BIBase Idealize.SL.ProofMode Idealize.SL.Sem

set_option maxRecDepth 16384 in
theorem final_post {F : FTy → Type} [FloatOps F] (𝒞 : Conts F) (m : (ℓ : Loc nD τ sig) → Buf (Elt F) ℓ) (ρ : Dev nD → PrngReg)
    (c : Dev nD) (W : Waits sig Unit)
    (g0 : Buf (Elt F) ((c : Thread nD τ).loc cc0_scratch0))
    (g1 : Buf (Elt F) ((c : Thread nD τ).loc cc0_scratch1))
    (g2 : Buf (Elt F) ((c : Thread nD τ).loc cc0_scratch2))
    (g3 : Buf (Elt F) ((c : Thread nD τ).loc cc0_scratch3))
    (g4 : Buf (Elt F) ((c : Thread nD τ).loc cc0_scratch4))
    (g5 : Buf (Elt F) ((c : Thread nD τ).loc cc0_scratch5))
    (g6 : Buf (Elt F) ((c : Thread nD τ).loc cc0_scratch6))
    (g7 : Buf (Elt F) ((c : Thread nD τ).loc cc0_scratch7))
    (g8 : Buf (Elt F) ((c : Thread nD τ).loc cc0_scratch8))
    (g9 : Buf (Elt F) ((c : Thread nD τ).loc cc0_scratch9))
    (g10 : Buf (Elt F) ((c : Thread nD τ).loc cc0_scratch10))
    (g11 : Buf (Elt F) ((c : Thread nD τ).loc cc0_scratch11))
    (g12 : Buf (Elt F) ((c : Thread nD τ).loc cc0_scratch12))
    (g13 : Buf (Elt F) ((c : Thread nD τ).loc cc0_scratch13))
    (g14 : Buf (Elt F) ((c : Thread nD τ).loc cc0_scratch14))
    (g15 : Buf (Elt F) ((c : Thread nD τ).loc cc0_scratch15)) :
    (iprop((((c : Thread nD τ).loc cc0_scratch0) ↦{fullShare} g0)
        ∗ (((c : Thread nD τ).loc cc0_scratch1) ↦{fullShare} g1)
        ∗ (((c : Thread nD τ).loc cc0_scratch2) ↦{fullShare} g2)
        ∗ (((c : Thread nD τ).loc cc0_scratch3) ↦{fullShare} g3)
        ∗ (((c : Thread nD τ).loc cc0_scratch4) ↦{fullShare} g4)
        ∗ (((c : Thread nD τ).loc cc0_scratch5) ↦{fullShare} g5)
        ∗ (((c : Thread nD τ).loc cc0_scratch6) ↦{fullShare} g6)
        ∗ (((c : Thread nD τ).loc cc0_scratch7) ↦{fullShare} g7)
        ∗ (((c : Thread nD τ).loc cc0_scratch8) ↦{fullShare} g8)
        ∗ (((c : Thread nD τ).loc cc0_scratch9) ↦{fullShare} g9)
        ∗ (((c : Thread nD τ).loc cc0_scratch10) ↦{fullShare} g10)
        ∗ (((c : Thread nD τ).loc cc0_scratch11) ↦{fullShare} g11)
        ∗ (((c : Thread nD τ).loc cc0_scratch12) ↦{fullShare} g12)
        ∗ (((c : Thread nD τ).loc cc0_scratch13) ↦{fullShare} g13)
        ∗ (((c : Thread nD τ).loc cc0_scratch14) ↦{fullShare} g14)
        ∗ (((c : Thread nD τ).loc cc0_scratch15) ↦{fullShare} g15)
        ∗ semVal (endCell c) 0
        ∗ semVal (sendCell 0 c) 0
        ∗ semVal (sendCell 1 c) 0
        ∗ semVal (sendCell 2 c) 0
        ∗ semVal (sendCell 3 c) 0
        ∗ semVal (sendCell 4 c) 0
        ∗ semVal (sendCell 5 c) 0
        ∗ semVal (sendCell 6 c) 0
        ∗ semVal (sendCell 7 c) 0
        ∗ semVal (sendCell 8 c) 0
        ∗ semVal (sendCell 9 c) 0
        ∗ semVal (sendCell 10 c) 0
        ∗ semVal (sendCell 11 c) 0
        ∗ semVal (sendCell 12 c) 0
        ∗ semVal (recvCell 0 c) 0
        ∗ semVal (recvCell 1 c) 0
        ∗ semVal (recvCell 2 c) 0
        ∗ semVal (recvCell 3 c) 0
        ∗ semVal (recvCell 4 c) 0
        ∗ semVal (recvCell 5 c) 0
        ∗ semVal (recvCell 6 c) 0
        ∗ semVal (recvCell 7 c) 0
        ∗ semVal (recvCell 8 c) 0
        ∗ semVal (recvCell 9 c) 0
        ∗ semVal (recvCell 10 c) 0
        ∗ semVal (recvCell 11 c) 0
        ∗ semVal (recvCell 12 c) 0
        ∗ owes (c : Thread nD τ) (owedFrom c 19) W
        ∗ (((c : Thread nD τ).loc cc0_stg0_0) ↦{fullShare} xin0 m ρ c)
        ∗ (((c : Thread nD τ).loc cc0_stg1_0) ↦{fullShare} xin1 m ρ c)
        ∗ (((c : Thread nD τ).loc cc0_stg2_0) ↦{fullShare} xin2 m ρ c)
        ∗ (((c : Thread nD τ).loc cc0_stg3_0) ↦{fullShare} xin3 m ρ c)
        ∗ (((c : Thread nD τ).loc cc0_stg4_0) ↦{fullShare} xin4 m ρ c)
        ∗ (((c : Thread nD τ).loc cc0_stg5_0) ↦{fullShare} 𝒞.out c)) : sProp (MT nD τ sig Unit (Elt F) ℕ UU ℕ))
      ⊢ bodyPost 𝒞 m ρ c := by
  unfold bodyPost Φ₁ scratchAny
  rw [bigSep_fin13, bigSep_fin13]
  iintro ⟨G0, G1, G2, G3, G4, G5, G6, G7, G8, G9, G10, G11, G12, G13, G14, G15, Hend, S0, S1, S2, S3, S4, S5, S6, S7, S8, S9, S10, S11, S12, R0, R1, R2, R3, R4, R5, R6, R7, R8, R9, R10, R11, R12, HO, X0, X1, X2, X3, X4, X5⟩
  isplitr [HO X0 X1 X2 X3 X4 X5]
  · isplitl [G0 G1 G2 G3 G4 G5 G6 G7 G8 G9 G10 G11 G12 G13 G14 G15]
    · isplitl [G0]; · iexists g0; iexact G0
      isplitl [G1]; · iexists g1; iexact G1
      isplitl [G2]; · iexists g2; iexact G2
      isplitl [G3]; · iexists g3; iexact G3
      isplitl [G4]; · iexists g4; iexact G4
      isplitl [G5]; · iexists g5; iexact G5
      isplitl [G6]; · iexists g6; iexact G6
      isplitl [G7]; · iexists g7; iexact G7
      isplitl [G8]; · iexists g8; iexact G8
      isplitl [G9]; · iexists g9; iexact G9
      isplitl [G10]; · iexists g10; iexact G10
      isplitl [G11]; · iexists g11; iexact G11
      isplitl [G12]; · iexists g12; iexact G12
      isplitl [G13]; · iexists g13; iexact G13
      isplitl [G14]; · iexists g14; iexact G14
      iexists g15; iexact G15
    isplitl [Hend]; · iexact Hend
    isplitr [R0 R1 R2 R3 R4 R5 R6 R7 R8 R9 R10 R11 R12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
  isplitl [HO]
  · iexists W
    isplitr; · ipureintro; exact fun _ _ => Or.inl trivial
    iexact HO
  isplitl [X0]
  · iexists _
    isplitr; · ipureintro; rfl
    iexact X0
  isplitl [X1]
  · iexists _
    isplitr; · ipureintro; rfl
    iexact X1
  isplitl [X2]
  · iexists _
    isplitr; · ipureintro; rfl
    iexact X2
  isplitl [X3]
  · iexists _
    isplitr; · ipureintro; rfl
    iexact X3
  isplitl [X4]
  · iexists _
    isplitr; · ipureintro; rfl
    iexact X4
  iexists _
  isplitr; · ipureintro; rfl
  iexact X5

/-- info: 'Cert.Kernel.Hand.final_post' depends on axioms: [propext, Classical.choice, Quot.sound] -/
#guard_msgs in #print axioms final_post

end Cert.Kernel.Hand

end
-- ==== Proof.Bits.BodyAuxM.lean ====
import proofs.«900755_g7700000000000756_dist_attn_cross_gqa_kvseq_b4_sq256_skv1024_d1024_hq8_dh128_v7x_i8_bf16_1_alg».proof.Proof.Bits.Contents
import proofs.«900755_g7700000000000756_dist_attn_cross_gqa_kvseq_b4_sq256_skv1024_d1024_hq8_dh128_v7x_i8_bf16_1_alg».proof.Proof.Bits.Regions
import Idealize.ShloMosaic.Rules.PointsTo
import Idealize.ShloMosaic.Lib.Pipeline.Value

noncomputable section

namespace Cert.Kernel.Hand

open Cert.Kernel.Gen Idealize.ShloMosaic Idealize.ShloMosaic.TcCoe Idealize.SL Idealize.SL.RA Idealize.SL.BI Idealize.SL.BI.BIBase Idealize.SL.BI.Laws Idealize.SL.ProofMode Idealize.SL.Sem

variable {F : FTy → Type} [FloatOps F]

local notation "𝕄" => MT nD τ sig Unit (Elt F) ℕ UU ℕ

theorem eq_on_set_of_read_eq {sp : Space} {s : Shape} {e : EltTy} (v : Memref sig .tc sp s e) (c : Dev nD)
    (f g : Buf (Elt F) (v.view.loc (c : Thread nD τ))) (h : v.view.read (Elt F) f = v.view.read (Elt F) g) :
    ∀ i ∈ v.view.set, f i = g i := by
  intro i hi
  obtain ⟨x, -, rfl⟩ := Finset.mem_map.mp hi
  have hx := congrFun h x
  rw [View.read_apply, View.read_apply] at hx
  exact (cast_bijective _).1 hx

theorem carve_out {sp : Space} {s : Shape} {e : EltTy} (v : Memref sig .tc sp s e) (c : Dev nD)
    (f : Buf (Elt F) (v.view.loc (c : Thread nD τ))) :
    (((v.view.loc (c : Thread nD τ)) ↦{fullShare} f : sProp 𝕄))
      ⊢ iprop(holds (F := F) v c fullShare (v.view.read (Elt F) f) ∗ ((v.view.loc (c : Thread nD τ)) ↦[Finset.univ \ v.view.set]{fullShare} f)) :=
  (pts_carve v c fullShare f).1.trans (sep_mono_left (holds_intro v c fullShare f))

theorem uncarve_back {sp : Space} {s : Shape} {e : EltTy} (v : Memref sig .tc sp s e) (c : Dev nD)
    (f : Buf (Elt F) (v.view.loc (c : Thread nD τ))) (x : Vec F s e) (hx : v.view.read (Elt F) f = x) :
    iprop(holds (F := F) v c fullShare x ∗ ((v.view.loc (c : Thread nD τ)) ↦[Finset.univ \ v.view.set]{fullShare} f))
      ⊢ (((v.view.loc (c : Thread nD τ)) ↦{fullShare} f : sProp 𝕄)) := by
  unfold holds
  iintro ⟨⟨%f', %hf', H⟩, Hrest⟩
  ihave H' := (BIBase.Entails.of_eq (pts_congr v c fullShare f' f (eq_on_set_of_read_eq v c f' f (hf'.trans hx.symm)))) $$ H
  ihave Hw := (pts_uncarve v c fullShare f f) $$ [H' Hrest]
  · isplitl [H']; · iexact H'
    iexact Hrest
  rw [Finset.piecewise_same]
  iexact Hw

theorem holds_whole_view (b : Ref sig .tc) (c : Dev nD) (q : PosShare TreeShare) (x : Vec F b.ty.shape b.ty.elt) :
    (holds (F := F) (Memref.whole b) c q x : sProp 𝕄) ⊢ (((Memref.whole b).view.loc (c : Thread nD τ)) ↦{q} x) :=
  holds_whole_elim b c q x

theorem ldY_scratch4 (R : Rect S4x2x8x128) (g : (cc0_scratch4 : Ref sig .tc).ty.Contents (Elt F)) :
    (Memref.whole cc0_scratch4).view.readAt (Elt F) R.toLoadRect g = @View.ld (Elt F) S4x2x8x128 .f32 g R := rfl
theorem ldY_scratch8 (R : Rect S4x2x8x128) (g : (cc0_scratch8 : Ref sig .tc).ty.Contents (Elt F)) :
    (Memref.whole cc0_scratch8).view.readAt (Elt F) R.toLoadRect g = @View.ld (Elt F) S4x2x8x128 .f32 g R := rfl
theorem ldY_scratch12 (R : Rect S4x2x8x128) (g : (cc0_scratch12 : Ref sig .tc).ty.Contents (Elt F)) :
    (Memref.whole cc0_scratch12).view.readAt (Elt F) R.toLoadRect g = @View.ld (Elt F) S4x2x8x128 .f32 g R := rfl
theorem ldY_scratch11 (R : Rect S4x4x2x128x128) (g : (cc0_scratch11 : Ref sig .tc).ty.Contents (Elt F)) :
    (Memref.whole cc0_scratch11).view.readAt (Elt F) R.toLoadRect g = @View.ld (Elt F) S4x4x2x128x128 .bf16 g R := rfl
theorem ldY_scratch9 (R : Rect S2x2x8x128) (g : (cc0_scratch9 : Ref sig .tc).ty.Contents (Elt F)) :
    (Memref.whole cc0_scratch9).view.readAt (Elt F) R.toLoadRect g = @View.ld (Elt F) S2x2x8x128 .f32 g R := rfl
theorem ldY_scratch14 (R : Rect S2x2x8x128) (g : (cc0_scratch14 : Ref sig .tc).ty.Contents (Elt F)) :
    (Memref.whole cc0_scratch14).view.readAt (Elt F) R.toLoadRect g = @View.ld (Elt F) S2x2x8x128 .f32 g R := rfl
theorem ldY_scratch13 (R : Rect S2x4x2x128x128) (g : (cc0_scratch13 : Ref sig .tc).ty.Contents (Elt F)) :
    (Memref.whole cc0_scratch13).view.readAt (Elt F) R.toLoadRect g = @View.ld (Elt F) S2x4x2x128x128 .bf16 g R := rfl
theorem ldY_scratch10 (R : Rect S1x2x8x128) (g : (cc0_scratch10 : Ref sig .tc).ty.Contents (Elt F)) :
    (Memref.whole cc0_scratch10).view.readAt (Elt F) R.toLoadRect g = @View.ld (Elt F) S1x2x8x128 .f32 g R := rfl

variable (I : Dev nD → Ins F) (c : Dev nD)

theorem c0oV_unfold : c0oV I c
    = k0_pay136 (k0_pay128 (kpO I c)) (k0_pay129 (View.ld (kpML I c) (Rect.unit (s := S4x2x8x128) ![0, 0, 0, 0] S4x1x8x128.size inb_S4x2x8x128_S4x1x8x128_0_0_0_0))) (k0_pay131 (o0 I (p4 c))) (View.ld (ml0 I (p4 c)) (Rect.unit (s := S4x2x8x128) ![0, 0, 0, 0] S4x1x8x128.size inb_S4x2x8x128_S4x1x8x128_0_0_0_0)) := rfl
theorem c0mlV_unfold : c0mlV I c
    = k0_pay137 (k0_pay129 (View.ld (kpML I c) (Rect.unit (s := S4x2x8x128) ![0, 0, 0, 0] S4x1x8x128.size inb_S4x2x8x128_S4x1x8x128_0_0_0_0))) (k0_pay130 (View.ld (kpML I c) (Rect.unit (s := S4x2x8x128) ![0, 1, 0, 0] S4x1x8x128.size inb_S4x2x8x128_S4x1x8x128_0_1_0_0)))
        (View.ld (ml0 I (p4 c)) (Rect.unit (s := S4x2x8x128) ![0, 0, 0, 0] S4x1x8x128.size inb_S4x2x8x128_S4x1x8x128_0_0_0_0)) (View.ld (ml0 I (p4 c)) (Rect.unit (s := S4x2x8x128) ![0, 1, 0, 0] S4x1x8x128.size inb_S4x2x8x128_S4x1x8x128_0_1_0_0)) := rfl
theorem c1oV_unfold : c1oV I c
    = k0_pay145 (k0_pay144 (View.ld (c0mlV I c) (Rect.unit (s := S4x2x8x128) (k0_off11 c) S2x2x8x128.size (k0_off11_inb c))) (View.ld (c0oV I c) (Rect.unit (s := S4x4x2x128x128) (k0_off12 c) S2x4x2x128x128.size (k0_off12_inb c))) (o1 I (p2 c)) (View.ld (ml1 I (p2 c)) (Rect.unit (s := S2x2x8x128) ![0, 0, 0, 0] S2x1x8x128.size inb_S2x2x8x128_S2x1x8x128_0_0_0_0))) := rfl
theorem c1mlV_unfold : c1mlV I c
    = k0_pay146 (k0_pay140 (View.ld (c0mlV I c) (Rect.unit (s := S4x2x8x128) (k0_off11 c) S2x2x8x128.size (k0_off11_inb c))) (View.ld (ml1 I (p2 c)) (Rect.unit (s := S2x2x8x128) ![0, 0, 0, 0] S2x1x8x128.size inb_S2x2x8x128_S2x1x8x128_0_0_0_0)))
        (k0_pay143 (View.ld (c0mlV I c) (Rect.unit (s := S4x2x8x128) (k0_off11 c) S2x2x8x128.size (k0_off11_inb c))) (View.ld (ml1 I (p2 c)) (Rect.unit (s := S2x2x8x128) ![0, 0, 0, 0] S2x1x8x128.size inb_S2x2x8x128_S2x1x8x128_0_0_0_0)) (View.ld (ml1 I (p2 c)) (Rect.unit (s := S2x2x8x128) ![0, 1, 0, 0] S2x1x8x128.size inb_S2x2x8x128_S2x1x8x128_0_1_0_0))) := rfl

/-- info: 'Cert.Kernel.Hand.uncarve_back' depends on axioms: [propext, Classical.choice, Quot.sound] -/
#guard_msgs in #print axioms uncarve_back
/-- info: 'Cert.Kernel.Hand.carve_out' depends on axioms: [propext, Classical.choice, Quot.sound] -/
#guard_msgs in #print axioms carve_out
/-- info: 'Cert.Kernel.Hand.c1mlV_unfold' depends on axioms: [propext, Classical.choice, Quot.sound] -/
#guard_msgs in #print axioms c1mlV_unfold

end Cert.Kernel.Hand

end
-- ==== Proof.Bits.Body.lean ====
import proofs.«900755_g7700000000000756_dist_attn_cross_gqa_kvseq_b4_sq256_skv1024_d1024_hq8_dh128_v7x_i8_bf16_1_alg».proof.Proof.Bits.Contents
import proofs.«900755_g7700000000000756_dist_attn_cross_gqa_kvseq_b4_sq256_skv1024_d1024_hq8_dh128_v7x_i8_bf16_1_alg».proof.Proof.Bits.BodyOffs
import proofs.«900755_g7700000000000756_dist_attn_cross_gqa_kvseq_b4_sq256_skv1024_d1024_hq8_dh128_v7x_i8_bf16_1_alg».proof.Proof.Bits.BodySlots
import proofs.«900755_g7700000000000756_dist_attn_cross_gqa_kvseq_b4_sq256_skv1024_d1024_hq8_dh128_v7x_i8_bf16_1_alg».proof.Proof.Bits.BodyVals
import proofs.«900755_g7700000000000756_dist_attn_cross_gqa_kvseq_b4_sq256_skv1024_d1024_hq8_dh128_v7x_i8_bf16_1_alg».proof.Proof.Bits.Dats
import proofs.«900755_g7700000000000756_dist_attn_cross_gqa_kvseq_b4_sq256_skv1024_d1024_hq8_dh128_v7x_i8_bf16_1_alg».proof.Proof.Bits.Levels
import proofs.«900755_g7700000000000756_dist_attn_cross_gqa_kvseq_b4_sq256_skv1024_d1024_hq8_dh128_v7x_i8_bf16_1_alg».proof.Proof.Bits.StepsB
import proofs.«900755_g7700000000000756_dist_attn_cross_gqa_kvseq_b4_sq256_skv1024_d1024_hq8_dh128_v7x_i8_bf16_1_alg».proof.Proof.Bits.StepsC
import proofs.«900755_g7700000000000756_dist_attn_cross_gqa_kvseq_b4_sq256_skv1024_d1024_hq8_dh128_v7x_i8_bf16_1_alg».proof.Proof.Bits.Regions
import Idealize.ShloMosaic.Lib.Exec
import Idealize.ShloMosaic.Lib.Tactic
import proofs.«900755_g7700000000000756_dist_attn_cross_gqa_kvseq_b4_sq256_skv1024_d1024_hq8_dh128_v7x_i8_bf16_1_alg».proof.Proof.Bits.BodyAux
import proofs.«900755_g7700000000000756_dist_attn_cross_gqa_kvseq_b4_sq256_skv1024_d1024_hq8_dh128_v7x_i8_bf16_1_alg».proof.Proof.Bits.BodyPost
import proofs.«900755_g7700000000000756_dist_attn_cross_gqa_kvseq_b4_sq256_skv1024_d1024_hq8_dh128_v7x_i8_bf16_1_alg».proof.Proof.Bits.BodyAuxM
import proofs.«900755_g7700000000000756_dist_attn_cross_gqa_kvseq_b4_sq256_skv1024_d1024_hq8_dh128_v7x_i8_bf16_1_alg».proof.Proof.Bits.Launch

noncomputable section

namespace Cert.Kernel.Hand

open Cert.Kernel.Gen
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem pv (b : Ref sig .tc) (c : Dev nD) {q : PosShare TreeShare} {f : Buf (Elt F) ((c : Thread nD τ).loc b)} :
    (((c : Thread nD τ).loc b) ↦{q} f : sProp 𝕄) ⊢ (((Memref.whole b).view.loc (c : Thread nD τ)) ↦{q} f) := BI.Entails.refl _
omit [FloatOps F] in
theorem vp (b : Ref sig .tc) (c : Dev nD) {q : PosShare TreeShare} {f : Buf (Elt F) ((c : Thread nD τ).loc b)} :
    (((Memref.whole b).view.loc (c : Thread nD τ)) ↦{q} f : sProp 𝕄) ⊢ (((c : Thread nD τ).loc b) ↦{q} f) := BI.Entails.refl _

theorem conts_o0 (m : (ℓ : Loc nD τ sig) → Buf (Elt F) ℓ) : (conts m).o0 = o0 (ins m) := by simp only [conts, contsOf]
theorem conts_ml0 (m : (ℓ : Loc nD τ sig) → Buf (Elt F) ℓ) : (conts m).ml0 = ml0 (ins m) := by simp only [conts, contsOf]

attribute [local irreducible] qv o0 ml0 kpO kpML k0_pay128 k0_pay129 k0_pay130 k0_pay131 k0_pay136 k0_pay137 k0_pay140 k0_pay143 k0_pay144 k0_pay145 k0_pay146 k0_pay147 k0_pay148 k0_pay149 k0_pay150 k0_pay151 k0_pay152 k0_pay153 k0_pay154 k0_pay155

set_option maxHeartbeats 16000000 in
theorem sound_body (m : (ℓ : Loc nD τ sig) → Buf (Elt F) ℓ) (ρ : Dev nD → PrngReg) (K : Dev nD × Fin 28 → ℕ) (c : Dev nD) (Kt : PUnit → sProp 𝕄) :
    iprop(bodyPre (conts m) m ρ K c ∗ (bodyPost (conts m) m ρ c -∗ Kt ⟨⟩))
      ⊢ wp frame (wpE (defs₀ (F := F)) 𝒱₀ c none) Set.univ (Gen.bodyAt0 (F := F) Gen.t0_0) Kt := by
  show _ ⊢ wp _ _ _ (cc0__fused_body (Memref.whole cc0_stg0_0) _ (Memref.whole cc0_stg1_0) _ (Memref.whole cc0_stg2_0) _ (Memref.whole cc0_stg3_0) _ (Memref.whole cc0_stg4_0) _ (Memref.whole cc0_stg5_0) _ _ _ _ _ _ _ _ _ _ _ _ _ _ _ _ _ _ _ _ _ _ _ _ _ _ _ _ _ _ _ _ _ _ _ _ _ _ _ _) _
  unfold bodyPre ghost invs marks positions payToks creds scratchAny
  simp only [bigSep_fin13, bigSep_fin3]
  iintro ⟨⟨⟨⟨⟨#Ibar, #Iend, ⟨#IS0, #IS1, #IS2, #IS3, #IS4, #IS5, #IS6, #IS7, #IS8, #IS9, #IS10, #IS11, #IS12⟩, ⟨#IR0, #IR1, #IR2, #IR3, #IR4, #IR5, #IR6, #IR7, #IR8, #IR9, #IR10, #IR11, #IR12⟩, ⟨#IbP0, #IbP1, #IbP2⟩, ⟨#IeP0, #IeP1, #IeP2⟩, #IRP0, #IRP1, #IRP2, #IRP3, #IRP4, #IRP5, #IRP6, #IRP7, #IRP8, #IRP9, #IRP10, #IRP11, #IRP12⟩,
      ⟨#Mbar, #Mend, ⟨#MS0, #MS1, #MS2, #MS3, #MS4, #MS5, #MS6, #MS7, #MS8, #MS9, #MS10, #MS11, #MS12⟩, ⟨#MR0, #MR1, #MR2, #MR3, #MR4, #MR5, #MR6, #MR7, #MR8, #MR9, #MR10, #MR11, #MR12⟩, ⟨#MbP0, #MbP1, #MbP2⟩, ⟨#MeP0, #MeP1, #MeP2⟩, #MRP0, #MRP1, #MRP2, #MRP3, #MRP4, #MRP5, #MRP6, #MRP7, #MRP8, #MRP9, #MRP10, #MRP11, #MRP12⟩,
      ⟨Pbar, Pend, ⟨PS0, PS1, PS2, PS3, PS4, PS5, PS6, PS7, PS8, PS9, PS10, PS11, PS12⟩, PR0, PR1, PR2, PR3, PR4, PR5, PR6, PR7, PR8, PR9, PR10, PR11, PR12⟩,
      ⟨TB0, TB1, TB2⟩, ⟨TE0, TE1, TE2⟩, ⟨TR0, TR1, TR2, TR3, TR4, TR5, TR6, TR7, TR8, TR9, TR10, TR11, TR12⟩, TS0, TS1, TS2, TS3, TS4, TS5, TS6, TS7, TS8, TS9, TS10, TS11, TS12⟩,
      ⟨Cbar, Cend, CR0, CR1, CR2, CR3, CR4, CR5, CR6, CR7, CR8, CR9, CR10, CR11, CR12⟩, #Hlev, ⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩, ⟨%g10, Hs10⟩, ⟨%g11, Hs11⟩, ⟨%g12, Hs12⟩, ⟨%g13, Hs13⟩, ⟨%g14, Hs14⟩, ⟨%g15, Hs15⟩⟩,
    Ho, ⟨%d0, %a0, %ha0, Ha0⟩, ⟨%d1, %a1, %ha1, Ha1⟩, ⟨%d2, %a2, %ha2, Ha2⟩, ⟨%d3, %a3, %ha3, Ha3⟩, ⟨%d4, %a4, %ha4, Ha4⟩, ⟨%d5, %a5, %ha5, Ha5⟩⟩, Hk⟩
  rw [before_0, ← ins_x m ρ c] at ha0; rw [before_1, ← ins_wq m ρ c] at ha1; rw [before_2, ← ins_wo m ρ c] at ha2; rw [before_3, ← ins_kb m ρ c] at ha3; rw [before_4, ← ins_vb m ρ c] at ha4
  unfold Dat.owesAt Pipeline.owesWithin
  icases Ho with ⟨%W, %hW, HO⟩
  rw [show (dats (conts m) m ρ 0 c).owed t0_0.castSucc = owedFrom c 0 from rfl]
  ihave HY := (yx_held_split (F := F) c) $$ [Hs15]
  · iexists g15; iexact Hs15
  icases HY with ⟨Y0, Y1, Y2, Y3, Y4, Y5, Y6, Y7⟩
  ihave Hro0 := (held_whole_intro cc0_scratch5 c g5) $$ Hs5
  ihave Hro1 := (held_whole_intro cc0_scratch6 c g6) $$ Hs6
  ihave Hro2 := (held_whole_intro cc0_scratch7 c g7) $$ Hs7
  ihave Hrml0 := (held_whole_intro cc0_scratch8 c g8) $$ Hs8
  ihave Hrml1 := (held_whole_intro cc0_scratch9 c g9) $$ Hs9
  ihave Hrml2 := (held_whole_intro cc0_scratch10 c g10) $$ Hs10
  ihave A0 := (pv cc0_stg0_0 c) $$ Ha0
  ihave A1 := (pv cc0_stg1_0 c) $$ Ha1
  ihave A2 := (pv cc0_stg2_0 c) $$ Ha2
  ihave A3 := (pv cc0_stg3_0 c) $$ Ha3
  ihave A4 := (pv cc0_stg4_0 c) $$ Ha4
  ihave A5 := (pv cc0_stg5_0 c) $$ Ha5
  ihave S0 := (pv cc0_scratch0 c) $$ Hs0
  ihave S1 := (pv cc0_scratch1 c) $$ Hs1
  ihave S2 := (pv cc0_scratch2 c) $$ Hs2
  ihave S3 := (pv cc0_scratch3 c) $$ Hs3
  ihave S4 := (pv cc0_scratch4 c) $$ Hs4
  ihave S11 := (pv cc0_scratch11 c) $$ Hs11
  ihave S12 := (pv cc0_scratch12 c) $$ Hs12
  ihave S13 := (pv cc0_scratch13 c) $$ Hs13
  ihave S14 := (pv cc0_scratch14 c) $$ Hs14
  sl_unfold [cc0__fused_body]
  sl_exec_parts
  iapply (step_signal_bar (conts m) c 0 (K (barPartner 0 c, 0)) (owedFrom c 1) W _ (dev1_eq c) _ rfl) $$ [$IbP0 HO $TB0 Hro0 Hrml0 Y4 Y5 $MbP0]
  · isplitl [HO]; · iapply (owes_cast' c (owed_bar c 0) W); iexact HO
    unfold ownPay
    isplitl [Hro0]; · iexact Hro0
    isplitl [Hrml0]; · iexact Hrml0
    isplitl [Y4]; · iexact Y4
    isplitl [Y5]; · iexact Y5
    iframe MR0 MR1 MR8 MR11
  iintro HO
  sl_exec_parts
  iapply (step_signal_bar (conts m) c 1 (K (barPartner 1 c, 0)) (owedFrom c 2) W _ (dev2_eq c) _ rfl) $$ [$IbP1 HO $TB1 Hro1 Hrml1 Y2 Y6 $MbP1]
  · isplitl [HO]; · iapply (owes_cast' c (owed_bar c 1) W); iexact HO
    unfold ownPay
    isplitl [Hro1]; · iexact Hro1
    isplitl [Hrml1]; · iexact Hrml1
    isplitl [Y2]; · iexact Y2
    isplitl [Y6]; · iexact Y6
    iframe MR2 MR3 MR7 MR10
  iintro HO
  sl_exec_parts
  iapply (step_signal_bar (conts m) c 2 (K (barPartner 2 c, 0)) (owedFrom c 3) W _ (dev3_eq c) _ rfl) $$ [$IbP2 HO $TB2 Hro2 Hrml2 Y1 Y3 Y7 $MbP2]
  · isplitl [HO]; · iapply (owes_cast' c (owed_bar c 2) W); iexact HO
    unfold ownPay
    isplitl [Hro2]; · iexact Hro2
    isplitl [Hrml2]; · iexact Hrml2
    isplitl [Y1]; · iexact Y1
    isplitl [Y3]; · iexact Y3
    isplitl [Y7]; · iexact Y7
    iframe MR4 MR5 MR6 MR9 MR12
  iintro HO
  sl_exec_parts
  iapply (step_wait_bar_at (conts m) c (K (c, 0)) W _ rfl) $$ [$Ibar $Cbar $HO $Hlev $Pbar]
  iintro ⟨HO, Pbar, #Mbar1, B0, B1, B2⟩
  unfold barPay
  icases B0 with ⟨Dro0, Drml0, DY4, DY5, -⟩
  icases B1 with ⟨Dro1, Drml1, DY2, DY6, -⟩
  icases B2 with ⟨Dro2, Drml2, DY1, DY3, DY7, -⟩
  sl_exec_parts
  generalize hw1 : (Memref.whole cc0_scratch1).view.writes (Elt F) g1 _ = w1
  have hv1 : w1 = o0 (ins m) c := by
    rw [← hw1, ← writes_sdOL (ins m) c g1]
    refine congrArg ((Memref.whole cc0_scratch1).view.writes (Elt F) g1) ?_
    unfold sdOL qr1 qr2 qr3 qr4 qv kS00 kS01 kS10 kS11 kS20 kS21 kS30 kS31 vS00 vS01 vS10 vS11 vS20 vS21 vS30 vS31
    rw [← ha0, ← ha1, ← ha3, ← ha4]
    sl_unfold_run_names
    sl_unfold_run_names
    rw [readAt_full_stg0_0, readAt_full_stg1_0]
    repeat rw [rjZ_scratch0]
    repeat rw [ldZ_stg3_0]
    repeat rw [ldZ_stg4_0]
  subst hv1
  generalize hw2 : (Memref.whole cc0_scratch2).view.writes (Elt F) g2 _ = w2
  have hv2 : w2 = ml0 (ins m) c := by
    rw [← hw2, ← writes_sdMLL (ins m) c g2]
    refine congrArg ((Memref.whole cc0_scratch2).view.writes (Elt F) g2) ?_
    unfold sdMLL qr1 qr2 qr3 qr4 qv kS00 kS01 kS10 kS11 kS20 kS21 kS30 kS31
    rw [← ha0, ← ha1, ← ha3]
    sl_unfold_run_names
    sl_unfold_run_names
    rw [readAt_full_stg0_0, readAt_full_stg1_0]
    repeat rw [rjZ_scratch0]
    repeat rw [ldZ_stg3_0]
  subst hv2
  ihave X1 := (vp cc0_scratch1 c) $$ S1
  ihave X1 := (holds_whole_intro (F := F) cc0_scratch1 c fullShare _) $$ X1
  iapply (step_send (conts m) c 0 K (owedFrom c 4) (owedFrom c 3) _ (owed_xfer c 0) (congrArg (conts m).o0 (p4_p4 c).symm) rfl rfl rfl _ (dev4_eq c) _ _ rfl rfl) $$ [$IS0 $IRP0 $HO $TS0 $MS0 $TR0 $MRP0 X1 Dro0]
  · isplitl [X1]; · rw [conts_o0]; iexact X1
    iexact Dro0
  iintro ⟨CS0, HO⟩
  sl_exec_parts
  ihave X2 := (vp cc0_scratch2 c) $$ S2
  ihave X2 := (holds_whole_intro (F := F) cc0_scratch2 c fullShare _) $$ X2
  iapply (step_send (conts m) c 1 K (owedFrom c 5) (owedFrom c 4) _ (owed_xfer c 1) (congrArg (conts m).ml0 (p4_p4 c).symm) rfl rfl rfl _ (dev5_eq c) _ _ rfl rfl) $$ [$IS1 $IRP1 $HO $TS1 $MS1 $TR1 $MRP1 X2 Drml0]
  · isplitl [X2]; · rw [conts_ml0]; iexact X2
    iexact Drml0
  iintro ⟨CS1, HO⟩
  sl_exec_parts
  generalize hw3 : (Memref.whole cc0_scratch3).view.writes (Elt F) g3 _ = w3
  have hv3 : w3 = kpO (ins m) c := by
    rw [← hw3, ← writes_kpOL (ins m) c g3]
    refine congrArg ((Memref.whole cc0_scratch3).view.writes (Elt F) g3) ?_
    unfold kpOL qr5 qr6 qr7 qr8 qv kS00 kS01 kS10 kS11 kS20 kS21 kS30 kS31 vS00 vS01 vS10 vS11 vS20 vS21 vS30 vS31
    rw [← ha0, ← ha1, ← ha3, ← ha4]
    sl_unfold_run_names
    sl_unfold_run_names
    rw [readAt_full_stg0_0, readAt_full_stg1_0]
    repeat rw [rjZ_scratch0]
    repeat rw [ldZ_stg3_0]
    repeat rw [ldZ_stg4_0]
  subst hv3
  generalize hw4 : (Memref.whole cc0_scratch4).view.writes (Elt F) g4 _ = w4
  have hv4 : w4 = kpML (ins m) c := by
    rw [← hw4, ← writes_kpMLL (ins m) c g4]
    refine congrArg ((Memref.whole cc0_scratch4).view.writes (Elt F) g4) ?_
    unfold kpMLL qr5 qr6 qr7 qr8 qv kS00 kS01 kS10 kS11 kS20 kS21 kS30 kS31
    rw [← ha0, ← ha1, ← ha3]
    sl_unfold_run_names
    sl_unfold_run_names
    rw [readAt_full_stg0_0, readAt_full_stg1_0]
    repeat rw [rjZ_scratch0]
    repeat rw [ldZ_stg3_0]
  subst hv4
  iapply (step_wait_send_at (conts m) c 0 (K (c, sIx 0)) 5 _ _ rfl (amtV0 _)) $$ [$IS0 $CS0 $HO $Hlev $PS0]
  iintro ⟨HO, -, ZS0, Y0⟩
  sl_exec_parts
  iapply (step_wait_recv_at (conts m) c 0 (K (c, rIx 0)) _ _ rfl (amtV0 _)) $$ [$IR0 $CR0 HO $Hlev $PR0]
  · iexact HO
  iintro ⟨HO, -, ZR0, X0⟩
  sl_exec_parts
  iapply (step_wait_send_at (conts m) c 1 (K (c, sIx 1)) 5 _ _ rfl (amtV1 _)) $$ [$IS1 $CS1 HO $Hlev $PS1]
  · iexact HO
  iintro ⟨HO, -, ZS1, Y1⟩
  sl_exec_parts
  iapply (step_wait_recv_at (conts m) c 1 (K (c, rIx 1)) _ _ rfl (amtV1 _)) $$ [$IR1 $CR1 HO $Hlev $PR1]
  · iexact HO
  iintro ⟨HO, -, ZR1, X1⟩
  unfold sendPay recvPay
  ihave Hs1 := (holds_whole_view cc0_scratch1 c fullShare ((conts m).o0 c)) $$ Y0
  ihave Hs2 := (holds_whole_view cc0_scratch2 c fullShare ((conts m).ml0 c)) $$ Y1
  ihave Hs5 := (holds_whole_view cc0_scratch5 c fullShare ((conts m).o0 (p4 c))) $$ X0
  ihave Hs8 := (holds_whole_view cc0_scratch8 c fullShare ((conts m).ml0 (p4 c))) $$ X1
  sl_exec_parts
  generalize hw11 : (Memref.whole cc0_scratch11).view.writes (Elt F) g11 _ = w11
  have hv11 : w11 = c0oV (ins m) c := by
    rw [← hw11]
    sl_unfold_run_names
    rw [writes_full_scratch11, readAt_full_scratch3, readAt_full_scratch5, ldY_scratch4, ldY_scratch8, c0oV_unfold]
    rfl
  subst hv11
  generalize hw12 : (Memref.whole cc0_scratch12).view.writes (Elt F) g12 _ = w12
  have hv12 : w12 = c0mlV (ins m) c := by
    rw [← hw12]
    sl_unfold_run_names
    rw [writes_full_scratch12, ldY_scratch4, ldY_scratch4, ldY_scratch8, ldY_scratch8, c0mlV_unfold]
    rfl
  subst hv12
  ihave ⟨Hsl2, Hrest11⟩ := (carve_out (c0oS c) c (c0oV (ins m) c)) $$ S11
  ihave ⟨Hsl3, Hrest12⟩ := (carve_out (c0mlS c) c (c0mlV (ins m) c)) $$ S12
  iapply (step_send (conts m) c 2 K (owedFrom c 6) (owedFrom c 5) _ (owed_xfer c 2) (congrArg (conts m).o1 (p2_p2 c).symm) rfl rfl rfl _ (dev6_eq c) _ _ rfl rfl) $$ [$IS2 $IRP2 HO $TS2 $MS2 $TR2 $MRP2 Hsl2 Dro1]
  · isplitl [HO]; · iexact HO
    isplitl [Hsl2]; · iexact Hsl2
    iexact Dro1
  iintro ⟨CS2, HO⟩
  sl_exec_parts
  iapply (step_send (conts m) c 3 K (owedFrom c 7) (owedFrom c 6) _ (owed_xfer c 3) (congrArg (conts m).ml1 (p2_p2 c).symm) rfl rfl rfl _ (dev7_eq c) _ _ rfl rfl) $$ [$IS3 $IRP3 $HO $TS3 $MS3 $TR3 $MRP3 Hsl3 Drml1]
  · isplitl [Hsl3]; · iexact Hsl3
    iexact Drml1
  iintro ⟨CS3, HO⟩
  sl_exec_parts
  iapply (step_wait_send_at (conts m) c 2 (K (c, sIx 2)) 7 _ _ rfl (amtV2 _)) $$ [$IS2 $CS2 $HO $Hlev $PS2]
  iintro ⟨HO, -, ZS2, Y2⟩
  sl_exec_parts
  iapply (step_wait_recv_at (conts m) c 2 (K (c, rIx 2)) _ _ rfl (amtV2 _)) $$ [$IR2 $CR2 HO $Hlev $PR2]
  · iexact HO
  iintro ⟨HO, -, ZR2, X2⟩
  sl_exec_parts
  iapply (step_wait_send_at (conts m) c 3 (K (c, sIx 3)) 7 _ _ rfl (amtV3 _)) $$ [$IS3 $CS3 HO $Hlev $PS3]
  · iexact HO
  iintro ⟨HO, -, ZS3, Y3⟩
  sl_exec_parts
  iapply (step_wait_recv_at (conts m) c 3 (K (c, rIx 3)) _ _ rfl (amtV3 _)) $$ [$IR3 $CR3 HO $Hlev $PR3]
  · iexact HO
  iintro ⟨HO, -, ZR3, X3⟩
  unfold sendPay recvPay
  ihave Hs11 := (uncarve_back (c0oS c) c (c0oV (ins m) c) ((conts m).o1 c) rfl) $$ [$Y2 $Hrest11]
  ihave Hs12 := (uncarve_back (c0mlS c) c (c0mlV (ins m) c) ((conts m).ml1 c) rfl) $$ [$Y3 $Hrest12]
  ihave Hs11 : (((Memref.whole cc0_scratch11 : Memref sig .tc .vmem _ _).view.loc (c : Thread nD τ)) ↦{fullShare} c0oV (ins m) c) $$ [Hs11]
  · iexact Hs11
  ihave Hs12 : (((Memref.whole cc0_scratch12 : Memref sig .tc .vmem _ _).view.loc (c : Thread nD τ)) ↦{fullShare} c0mlV (ins m) c) $$ [Hs12]
  · iexact Hs12
  ihave Hs6 := (holds_whole_view cc0_scratch6 c fullShare ((conts m).o1 (p2 c))) $$ X2
  ihave Hs9 := (holds_whole_view cc0_scratch9 c fullShare ((conts m).ml1 (p2 c))) $$ X3
  sl_exec_parts
  generalize hw13 : (Memref.whole cc0_scratch13).view.writes (Elt F) g13 _ = w13
  have hv13 : w13 = c1oV (ins m) c := by
    rw [← hw13]
    sl_unfold_run_names
    rw [writes_full_scratch13, readAt_full_scratch6, ldY_scratch12, ldY_scratch11, ldY_scratch9, c1oV_unfold]
    unfold k0_pay145
    rfl
  subst hv13
  generalize hw14 : (Memref.whole cc0_scratch14).view.writes (Elt F) g14 _ = w14
  have hv14 : w14 = c1mlV (ins m) c := by
    rw [← hw14]
    sl_unfold_run_names
    rw [writes_full_scratch14, ldY_scratch12, ldY_scratch9, ldY_scratch9, c1mlV_unfold]
    unfold k0_pay146
    rfl
  subst hv14
  ihave ⟨Hsl4, Hrest13⟩ := (carve_out (c1oS c) c (c1oV (ins m) c)) $$ S13
  ihave ⟨Hsl5, Hrest14⟩ := (carve_out (c1mlS c) c (c1mlV (ins m) c)) $$ S14
  iapply (step_send (conts m) c 4 K (owedFrom c 8) (owedFrom c 7) _ (owed_xfer c 4) (congrArg (conts m).o2 (p1_p1 c).symm) rfl rfl rfl _ (dev8_eq c) _ _ rfl rfl) $$ [$IS4 $IRP4 HO $TS4 $MS4 $TR4 $MRP4 Hsl4 Dro2]
  · isplitl [HO]; · iexact HO
    isplitl [Hsl4]; · iexact Hsl4
    iexact Dro2
  iintro ⟨CS4, HO⟩
  sl_exec_parts
  iapply (step_send (conts m) c 5 K (owedFrom c 9) (owedFrom c 8) _ (owed_xfer c 5) (congrArg (conts m).ml2 (p1_p1 c).symm) rfl rfl rfl _ (dev9_eq c) _ _ rfl rfl) $$ [$IS5 $IRP5 $HO $TS5 $MS5 $TR5 $MRP5 Hsl5 Drml2]
  · isplitl [Hsl5]; · iexact Hsl5
    iexact Drml2
  iintro ⟨CS5, HO⟩
  sl_exec_parts
  iapply (step_wait_send_at (conts m) c 4 (K (c, sIx 4)) 9 _ _ rfl (amtV4 _)) $$ [$IS4 $CS4 $HO $Hlev $PS4]
  iintro ⟨HO, -, ZS4, Y4⟩
  sl_exec_parts
  iapply (step_wait_recv_at (conts m) c 4 (K (c, rIx 4)) _ _ rfl (amtV4 _)) $$ [$IR4 $CR4 HO $Hlev $PR4]
  · iexact HO
  iintro ⟨HO, -, ZR4, X4⟩
  sl_exec_parts
  iapply (step_wait_send_at (conts m) c 5 (K (c, sIx 5)) 9 _ _ rfl (amtV5 _)) $$ [$IS5 $CS5 HO $Hlev $PS5]
  · iexact HO
  iintro ⟨HO, -, ZS5, Y5⟩
  sl_exec_parts
  iapply (step_wait_recv_at (conts m) c 5 (K (c, rIx 5)) _ _ rfl (amtV5 _)) $$ [$IR5 $CR5 HO $Hlev $PR5]
  · iexact HO
  iintro ⟨HO, -, ZR5, X5⟩
  unfold sendPay recvPay
  ihave Hs13 := (uncarve_back (c1oS c) c (c1oV (ins m) c) ((conts m).o2 c) rfl) $$ [$Y4 $Hrest13]
  ihave Hs14 := (uncarve_back (c1mlS c) c (c1mlV (ins m) c) ((conts m).ml2 c) rfl) $$ [$Y5 $Hrest14]
  ihave Hs13 : (((Memref.whole cc0_scratch13 : Memref sig .tc .vmem _ _).view.loc (c : Thread nD τ)) ↦{fullShare} c1oV (ins m) c) $$ [Hs13]
  · iexact Hs13
  ihave Hs14 : (((Memref.whole cc0_scratch14 : Memref sig .tc .vmem _ _).view.loc (c : Thread nD τ)) ↦{fullShare} c1mlV (ins m) c) $$ [Hs14]
  · iexact Hs14
  ihave Hs7 := (holds_whole_view cc0_scratch7 c fullShare ((conts m).o2 (p1 c))) $$ X4
  ihave Hs10 := (holds_whole_view cc0_scratch10 c fullShare ((conts m).ml2 (p1 c))) $$ X5
  sl_exec_parts
  ihave ⟨%f0, Y0⟩ := (held_open (F := F) (ySlot 0) c) $$ Y0
  iapply (slot_load c 0 fullShare f0) $$ Y0
  iintro Y0
  iapply (slot_store c 0 f0 _) $$ Y0
  iintro ⟨%f0', %hf0', Y0⟩
  rw [prog_ret_bind]
  have hy0 : (ySlot 0).view.read (Elt F) f0' = (conts m).y (xorDev 0 c) := by
    rw [hf0', xorDev_zero, conts_y_eq]
    unfold yV y1 k2o k2ml r2a r2b
    rw [← ha2]
    sl_unfold_run_names
    sl_unfold_run_names
    rw [readAt_full_stg2_0, readAt_full_scratch7, ldY_scratch13, ldY_scratch14, ldY_scratch10, ldY_scratch10]
    simp only [conts, contsOf]
  ihave Y0 := (holds_close (ySlot 0) c fullShare ((conts m).y (xorDev 0 c)) f0' hy0) $$ Y0
  ihave ⟨Y0a, Y0b, Y0c⟩ := (holds_thirds (ySlot 0) c _).1 $$ Y0
  sl_exec_parts
  iapply (step_send (conts m) c 6 K (owedFrom c 10) (owedFrom c 9) _ (owed_xfer c 6) (congrArg (conts m).y (xor_route 0 c).symm) rfl rfl rfl _ (dev10_eq c) _ _ rfl rfl) $$ [$IS6 $IRP6 HO $TS6 $MS6 $TR6 $MRP6 Y0a DY1]
  · isplitl [HO]; · iexact HO
    isplitl [Y0a]; · iexact Y0a
    iexact DY1
  iintro ⟨CS6, HO⟩
  sl_exec_parts
  iapply (step_send (conts m) c 7 K (owedFrom c 11) (owedFrom c 10) _ (owed_xfer c 7) (congrArg (conts m).y (xor_route 1 c).symm) rfl rfl rfl _ (dev11_eq c) _ _ rfl rfl) $$ [$IS7 $IRP7 $HO $TS7 $MS7 $TR7 $MRP7 Y0b DY2]
  · isplitl [Y0b]; · iexact Y0b
    iexact DY2
  iintro ⟨CS7, HO⟩
  sl_exec_parts
  iapply (step_send (conts m) c 8 K (owedFrom c 12) (owedFrom c 11) _ (owed_xfer c 8) (congrArg (conts m).y (xor_route 2 c).symm) rfl rfl rfl _ (dev12_eq c) _ _ rfl rfl) $$ [$IS8 $IRP8 $HO $TS8 $MS8 $TR8 $MRP8 Y0c DY4]
  · isplitl [Y0c]; · iexact Y0c
    iexact DY4
  iintro ⟨CS8, HO⟩
  sl_exec_parts
  iapply (step_wait_send_at (conts m) c 6 (K (c, sIx 6)) 12 _ _ rfl (amtVy _ 6 (by decide))) $$ [$IS6 $CS6 $HO $Hlev $PS6]
  iintro ⟨HO, -, ZS6, Y0a⟩
  ihave Y0a := (BIBase.Entails.of_eq (sendPay_6 (conts m) c)) $$ Y0a
  sl_exec_parts
  iapply (step_wait_recv_at (conts m) c 6 (K (c, rIx 6)) _ _ rfl (amtVy _ 6 (by decide))) $$ [$IR6 $CR6 HO $Hlev $PR6]
  · iexact HO
  iintro ⟨HO, -, ZR6, Y1⟩
  ihave Y1 := (BIBase.Entails.of_eq (recvPay_6 (conts m) c)) $$ Y1
  sl_exec_parts
  iapply (step_wait_send_at (conts m) c 7 (K (c, sIx 7)) 12 _ _ rfl (amtVy _ 7 (by decide))) $$ [$IS7 $CS7 HO $Hlev $PS7]
  · iexact HO
  iintro ⟨HO, -, ZS7, Y0b⟩
  ihave Y0b := (BIBase.Entails.of_eq (sendPay_7 (conts m) c)) $$ Y0b
  sl_exec_parts
  iapply (step_wait_recv_at (conts m) c 7 (K (c, rIx 7)) _ _ rfl (amtVy _ 7 (by decide))) $$ [$IR7 $CR7 HO $Hlev $PR7]
  · iexact HO
  iintro ⟨HO, -, ZR7, Y2⟩
  ihave Y2 := (BIBase.Entails.of_eq (recvPay_7 (conts m) c)) $$ Y2
  sl_exec_parts
  iapply (step_wait_send_at (conts m) c 8 (K (c, sIx 8)) 12 _ _ rfl (amtVy _ 8 (by decide))) $$ [$IS8 $CS8 HO $Hlev $PS8]
  · iexact HO
  iintro ⟨HO, -, ZS8, Y0c⟩
  ihave Y0c := (BIBase.Entails.of_eq (sendPay_8 (conts m) c)) $$ Y0c
  sl_exec_parts
  iapply (step_wait_recv_at (conts m) c 8 (K (c, rIx 8)) _ _ rfl (amtVy _ 8 (by decide))) $$ [$IR8 $CR8 HO $Hlev $PR8]
  · iexact HO
  iintro ⟨HO, -, ZR8, Y4⟩
  ihave Y4 := (BIBase.Entails.of_eq (recvPay_8 (conts m) c)) $$ Y4
  sl_exec_parts
  ihave Y0 := (holds_thirds (ySlot 0) c _).2 $$ [$Y0a $Y0b $Y0c]
  ihave ⟨Y2l, Y2r⟩ := (holds_halves (ySlot 2) c fullShare _).1 $$ Y2
  ihave ⟨Y4l, Y4r⟩ := (holds_halves (ySlot 4) c fullShare _).1 $$ Y4
  ihave ⟨Y1l, Y1r⟩ := (holds_halves (ySlot 1) c fullShare _).1 $$ Y1
  iapply (step_send (conts m) c 9 K (owedFrom c 13) (owedFrom c 12) _ (owed_xfer c 9) (congrArg (conts m).y (xor_route 3 c).symm) rfl rfl rfl _ (dev13_eq c) _ _ rfl rfl) $$ [$IS9 $IRP9 HO $TS9 $MS9 $TR9 $MRP9 Y2l DY3]
  · isplitl [HO]; · iexact HO
    isplitl [Y2l]; · iexact Y2l
    iexact DY3
  iintro ⟨CS9, HO⟩
  sl_exec_parts
  iapply (step_send (conts m) c 10 K (owedFrom c 14) (owedFrom c 13) _ (owed_xfer c 10) (congrArg (conts m).y (xor_route 4 c).symm) rfl rfl rfl _ (dev14_eq c) _ _ rfl rfl) $$ [$IS10 $IRP10 $HO $TS10 $MS10 $TR10 $MRP10 Y4l DY6]
  · isplitl [Y4l]; · iexact Y4l
    iexact DY6
  iintro ⟨CS10, HO⟩
  sl_exec_parts
  iapply (step_send (conts m) c 11 K (owedFrom c 15) (owedFrom c 14) _ (owed_xfer c 11) (congrArg (conts m).y (xor_route 5 c).symm) rfl rfl rfl _ (dev15_eq c) _ _ rfl rfl) $$ [$IS11 $IRP11 $HO $TS11 $MS11 $TR11 $MRP11 Y1l DY5]
  · isplitl [Y1l]; · iexact Y1l
    iexact DY5
  iintro ⟨CS11, HO⟩
  sl_exec_parts
  iapply (slot_load_holds c 1 fullShare.right _) $$ Y1r
  iintro Y1r
  sl_exec_parts
  iapply (slot_load_holds c 2 fullShare.right _) $$ Y2r
  iintro Y2r
  sl_exec_parts
  iapply (slot_load_holds c 4 fullShare.right _) $$ Y4r
  iintro Y4r
  sl_exec_parts
  iapply (step_wait_send_at (conts m) c 9 (K (c, sIx 9)) 15 _ _ rfl (amtVy _ 9 (by decide))) $$ [$IS9 $CS9 $HO $Hlev $PS9]
  iintro ⟨HO, -, ZS9, Y2l⟩
  ihave Y2l := (BIBase.Entails.of_eq (sendPay_9 (conts m) c)) $$ Y2l
  sl_exec_parts
  iapply (step_wait_recv_at (conts m) c 9 (K (c, rIx 9)) _ _ rfl (amtVy _ 9 (by decide))) $$ [$IR9 $CR9 HO $Hlev $PR9]
  · iexact HO
  iintro ⟨HO, -, ZR9, Y3⟩
  ihave Y3 := (BIBase.Entails.of_eq (recvPay_9 (conts m) c)) $$ Y3
  sl_exec_parts
  iapply (step_wait_send_at (conts m) c 10 (K (c, sIx 10)) 15 _ _ rfl (amtVy _ 10 (by decide))) $$ [$IS10 $CS10 HO $Hlev $PS10]
  · iexact HO
  iintro ⟨HO, -, ZS10, Y4l⟩
  ihave Y4l := (BIBase.Entails.of_eq (sendPay_10 (conts m) c)) $$ Y4l
  sl_exec_parts
  iapply (step_wait_recv_at (conts m) c 10 (K (c, rIx 10)) _ _ rfl (amtVy _ 10 (by decide))) $$ [$IR10 $CR10 HO $Hlev $PR10]
  · iexact HO
  iintro ⟨HO, -, ZR10, Y6⟩
  ihave Y6 := (BIBase.Entails.of_eq (recvPay_10 (conts m) c)) $$ Y6
  sl_exec_parts
  iapply (step_wait_send_at (conts m) c 11 (K (c, sIx 11)) 15 _ _ rfl (amtVy _ 11 (by decide))) $$ [$IS11 $CS11 HO $Hlev $PS11]
  · iexact HO
  iintro ⟨HO, -, ZS11, Y1l⟩
  ihave Y1l := (BIBase.Entails.of_eq (sendPay_11 (conts m) c)) $$ Y1l
  sl_exec_parts
  iapply (step_wait_recv_at (conts m) c 11 (K (c, rIx 11)) _ _ rfl (amtVy _ 11 (by decide))) $$ [$IR11 $CR11 HO $Hlev $PR11]
  · iexact HO
  iintro ⟨HO, -, ZR11, Y5⟩
  ihave Y5 := (BIBase.Entails.of_eq (recvPay_11 (conts m) c)) $$ Y5
  sl_exec_parts
  ihave ⟨Y6l, Y6r⟩ := (holds_halves (ySlot 6) c fullShare _).1 $$ Y6
  iapply (step_send (conts m) c 12 K (owedFrom c 16) (owedFrom c 15) _ (owed_xfer c 12) (congrArg (conts m).y (xor_route 6 c).symm) rfl rfl rfl _ (dev16_eq c) _ _ rfl rfl) $$ [$IS12 $IRP12 HO $TS12 $MS12 $TR12 $MRP12 Y6l DY7]
  · isplitl [HO]; · iexact HO
    isplitl [Y6l]; · iexact Y6l
    iexact DY7
  iintro ⟨CS12, HO⟩
  sl_exec_parts
  iapply (slot_load_holds c 3 fullShare _) $$ Y3
  iintro Y3
  sl_exec_parts
  iapply (slot_load_holds c 6 fullShare.right _) $$ Y6r
  iintro Y6r
  sl_exec_parts
  iapply (slot_load_holds c 5 fullShare _) $$ Y5
  iintro Y5
  sl_exec_parts
  iapply (step_wait_send_at (conts m) c 12 (K (c, sIx 12)) 16 _ _ rfl (amtVy _ 12 (by decide))) $$ [$IS12 $CS12 $HO $Hlev $PS12]
  iintro ⟨HO, -, ZS12, Y6l⟩
  ihave Y6l := (BIBase.Entails.of_eq (sendPay_12 (conts m) c)) $$ Y6l
  sl_exec_parts
  iapply (step_wait_recv_at (conts m) c 12 (K (c, rIx 12)) _ _ rfl (amtVy _ 12 (by decide))) $$ [$IR12 $CR12 HO $Hlev $PR12]
  · iexact HO
  iintro ⟨HO, -, ZR12, Y7⟩
  ihave Y7 := (BIBase.Entails.of_eq (recvPay_12 (conts m) c)) $$ Y7
  sl_exec_parts
  iapply (slot_load_holds c 7 fullShare _) $$ Y7
  iintro Y7
  sl_exec_parts
  iapply (step_signal_end (conts m) c 0 (K (barPartner 0 c, 1)) (owedFrom c 17) _ _ (dev17_eq c) _ rfl) $$ [$IeP0 HO $TE0 $MeP0]
  · iapply (owes_cast' c (owed_end c 0) _); iexact HO
  iintro HO
  sl_exec_parts
  iapply (step_signal_end (conts m) c 1 (K (barPartner 1 c, 1)) (owedFrom c 18) _ _ (dev18_eq c) _ rfl) $$ [$IeP1 HO $TE1 $MeP1]
  · iapply (owes_cast' c (owed_end c 1) _); iexact HO
  iintro HO
  sl_exec_parts
  iapply (step_signal_end (conts m) c 2 (K (barPartner 2 c, 1)) (owedFrom c 19) _ _ (dev19_eq c) _ rfl) $$ [$IeP2 HO $TE2 $MeP2]
  · iapply (owes_cast' c (owed_end c 2) _); iexact HO
  iintro HO
  sl_exec_parts
  ihave Y1 := (holds_halves (ySlot 1) c fullShare _).2 $$ [$Y1l $Y1r]
  ihave Y2 := (holds_halves (ySlot 2) c fullShare _).2 $$ [$Y2l $Y2r]
  ihave Y4 := (holds_halves (ySlot 4) c fullShare _).2 $$ [$Y4l $Y4r]
  ihave Y6 := (holds_halves (ySlot 6) c fullShare _).2 $$ [$Y6l $Y6r]
  ihave Y0 := (held_of_holds (ySlot 0) c _) $$ Y0
  ihave Y1 := (held_of_holds (ySlot 1) c _) $$ Y1
  ihave Y2 := (held_of_holds (ySlot 2) c _) $$ Y2
  ihave Y3 := (held_of_holds (ySlot 3) c _) $$ Y3
  ihave Y4 := (held_of_holds (ySlot 4) c _) $$ Y4
  ihave Y5 := (held_of_holds (ySlot 5) c _) $$ Y5
  ihave Y6 := (held_of_holds (ySlot 6) c _) $$ Y6
  ihave Y7 := (held_of_holds (ySlot 7) c _) $$ Y7
  imod (close_cell (conts m) (endCell c) (K (c, 1))) $$ [Pend] with Zend
  · isplitr; · iexact Iend
    iexact Pend
  generalize hw5 : (Memref.whole cc0_stg5_0).view.writes (Elt F) a5 _ = w5
  have hv5 : w5 = (conts m).out c := by
    rw [← hw5, conts_out_eq, ← writes_outL (ins m) c a5]
    refine congrArg ((Memref.whole cc0_stg5_0).view.writes (Elt F) a5) ?_
    unfold outL k0_pay159 k0_pay160 k0_pay161 k0_pay162 k0_pay163 k0_pay164 k0_pay165 yf k2o k2ml r2a r2b
    rw [← ha2]
    sl_unfold_run_names
    sl_unfold_run_names
    rw [readAt_full_stg2_0, readAt_full_scratch7, ldY_scratch13, ldY_scratch14, ldY_scratch10, ldY_scratch10]
    simp only [conts, contsOf]
  subst hv5
  ihave ⟨%gy, HY⟩ := (yx_held_join (F := F) c) $$ [$Y0 $Y1 $Y2 $Y3 $Y4 $Y5 $Y6 $Y7]
  ihave Hout : ((((c : Thread nD τ).loc cc0_stg5_0) ↦{fullShare} (conts m).out c)) $$ [A5]
  · iexact A5
  iapply (le_wp_ret _ _ _ PUnit.unit Kt)
  iapply Hk
  iapply (final_post (conts m) m ρ c _ _ _ _ _ _ _ _ _ _ _ _ _ _ _ _ _) $$ [S0 Hs1 Hs2 S3 S4 Hs5 Hs6 Hs7 Hs8 Hs9 Hs10 Hs11 Hs12 Hs13 Hs14 $HY $Zend $ZS0 $ZS1 $ZS2 $ZS3 $ZS4 $ZS5 $ZS6 $ZS7 $ZS8 $ZS9 $ZS10 $ZS11 $ZS12 $ZR0 $ZR1 $ZR2 $ZR3 $ZR4 $ZR5 $ZR6 $ZR7 $ZR8 $ZR9 $ZR10 $ZR11 $ZR12 $HO A0 A1 A2 A3 A4 Hout]
  · isplitl [S0]; · iexact S0
    isplitl [Hs1]; · iexact Hs1
    isplitl [Hs2]; · iexact Hs2
    isplitl [S3]; · iexact S3
    isplitl [S4]; · iexact S4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [A0]; · rw [← ha0.trans (ins_x m ρ c)]; iexact A0
    isplitl [A1]; · rw [← ha1.trans (ins_wq m ρ c)]; iexact A1
    isplitl [A2]; · rw [← ha2.trans (ins_wo m ρ c)]; iexact A2
    isplitl [A3]; · rw [← ha3.trans (ins_kb m ρ c)]; iexact A3
    isplitl [A4]; · rw [← ha4.trans (ins_vb m ρ c)]; iexact A4
    iexact Hout

theorem body_ob (m : (ℓ : Loc nD τ sig) → Buf (Elt F) ℓ) (ρ : Dev nD → PrngReg) (c : Dev nD) :
    Pipeline.BodyObligation (dats (F := F) (conts m) m ρ 0 c) (defs₀ (F := F)) 𝒱₀ () Set.univ :=
  body_obligation (conts m) m ρ c (fun K Kt => sound_body m ρ K c Kt)

/-- info: 'Cert.Kernel.Hand.sound_body' depends on axioms: [propext, Classical.choice, Quot.sound] -/
#guard_msgs in #print axioms sound_body

end Cert.Kernel.Hand

end
-- ==== Proof.Claims.lean ====
import proofs.«900755_g7700000000000756_dist_attn_cross_gqa_kvseq_b4_sq256_skv1024_d1024_hq8_dh128_v7x_i8_bf16_1_alg».proof.Proof.RefFrame
import proofs.«900755_g7700000000000756_dist_attn_cross_gqa_kvseq_b4_sq256_skv1024_d1024_hq8_dh128_v7x_i8_bf16_1_alg».proof.Proof.Frames
import proofs.«900755_g7700000000000756_dist_attn_cross_gqa_kvseq_b4_sq256_skv1024_d1024_hq8_dh128_v7x_i8_bf16_1_alg».proof.Proof.Body
import proofs.«900755_g7700000000000756_dist_attn_cross_gqa_kvseq_b4_sq256_skv1024_d1024_hq8_dh128_v7x_i8_bf16_1_alg».proof.Proof.KernelValue
import proofs.«900755_g7700000000000756_dist_attn_cross_gqa_kvseq_b4_sq256_skv1024_d1024_hq8_dh128_v7x_i8_bf16_1_alg».proof.Proof.Bits.Frames
import proofs.«900755_g7700000000000756_dist_attn_cross_gqa_kvseq_b4_sq256_skv1024_d1024_hq8_dh128_v7x_i8_bf16_1_alg».proof.Proof.Bits.Body

noncomputable section

open Idealize.ShloMosaic Idealize.ShloMosaic.TcCoe Idealize.SL.Sem

namespace Cert.Hand.Claims

theorem frame_p : Cert.frame_Kernel := fun m ρ _ =>
  Cert.Kernel.Hand.run_frame (Cert.Kernel.Hand.conts m) m ρ (Cert.Kernel.Hand.body_ob m ρ)

theorem frame_pi : Cert.frame_KernelIdeal := fun m ρ _ =>
  Cert.KernelIdeal.Hand.run_frame (Cert.KernelIdeal.Hand.conts m) m ρ (Cert.KernelIdeal.Hand.body_ob m ρ)

theorem preserves : Cert.preserves_Kernel_KernelIdeal := trivial

-- Both runs end holding one array: the reference's composed term of its five whole arguments.
theorem algebraic : Cert.algebraic_KernelIdeal_ReferenceIdeal := by
  intro m ρ m' ρ' hpre hagree
  refine ⟨_, ?_, (θ_run (Cert.ReferenceIdeal.defs (F := Ideal)) _ _).mono (fun r h => h 0) (Cert.Hand.RefValue.run_refTerm m' ρ')⟩
  exact (θ_run (Cert.KernelIdeal.defs (F := Ideal)) _ _).mono
    (fun r h c => ⟨(h c).1.trans (Cert.KernelIdeal.Hand.KV.kernel_out_eq m m' hpre hagree c), (h c).2⟩)
    (Cert.KernelIdeal.Hand.run_value (Cert.KernelIdeal.Hand.conts m) m ρ (Cert.KernelIdeal.Hand.body_ob m ρ))

end Cert.Hand.Claims

end
-- ==== Proof.lean ====
import proofs.«900755_g7700000000000756_dist_attn_cross_gqa_kvseq_b4_sq256_skv1024_d1024_hq8_dh128_v7x_i8_bf16_1_alg».proof.Defs
import proofs.«900755_g7700000000000756_dist_attn_cross_gqa_kvseq_b4_sq256_skv1024_d1024_hq8_dh128_v7x_i8_bf16_1_alg».proof.Proof.Gen.Kernel
import proofs.«900755_g7700000000000756_dist_attn_cross_gqa_kvseq_b4_sq256_skv1024_d1024_hq8_dh128_v7x_i8_bf16_1_alg».proof.Proof.Gen.KernelIdeal
import proofs.«900755_g7700000000000756_dist_attn_cross_gqa_kvseq_b4_sq256_skv1024_d1024_hq8_dh128_v7x_i8_bf16_1_alg».proof.Proof.Gen.ReferenceIdeal
import proofs.«900755_g7700000000000756_dist_attn_cross_gqa_kvseq_b4_sq256_skv1024_d1024_hq8_dh128_v7x_i8_bf16_1_alg».proof.Proof.Gen.Pre_finite_inputs_Kernel
import proofs.«900755_g7700000000000756_dist_attn_cross_gqa_kvseq_b4_sq256_skv1024_d1024_hq8_dh128_v7x_i8_bf16_1_alg».proof.Proof.Gen.Pre_finite_inputs_ReferenceIdeal
import proofs.«900755_g7700000000000756_dist_attn_cross_gqa_kvseq_b4_sq256_skv1024_d1024_hq8_dh128_v7x_i8_bf16_1_alg».proof.Proof.Claims

noncomputable section

namespace Cert.Proof

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Hand.Claims.frame_p, Cert.Hand.Claims.frame_pi, Cert.Hand.frame_ri, Cert.Hand.Claims.preserves,
    Cert.Hand.Claims.algebraic⟩

end Cert.Proof

end
